-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3000000 : Shape := ⟨2, ![2, 3000000]⟩
abbrev S3000000x1 : Shape := ⟨2, ![3000000, 1]⟩
abbrev S100000x64 : Shape := ⟨2, ![100000, 64]⟩
abbrev S50000x64 : Shape := ⟨2, ![50000, 64]⟩
abbrev S_ : Shape := ⟨0, ![]⟩
abbrev S1x3000000 : Shape := ⟨2, ![1, 3000000]⟩
abbrev S3000000 : Shape := ⟨1, ![3000000]⟩

class Facts : Prop where
  bcast_S_S3000000x1 : S_.BroadcastsInDim S3000000x1 (![] : Fin 0 → Fin S3000000x1.rank)
  reducesTo_S3000000x1_S_d0_1 : S3000000x1.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  slices_S2x3000000_S1x3000000_0_0 : S2x3000000.Slices ![0, 0] S1x3000000
  shapeCasts_S1x3000000_S3000000 : S1x3000000.ShapeCasts S3000000
  bcast_S_S3000000 : S_.BroadcastsInDim S3000000 (![] : Fin 0 → Fin S3000000.rank)
  reducesTo_S3000000_S_d0 : S3000000.ReducesTo [0] S_

variable [Facts]

def fn_part2 {F : FTy → Type} [FloatOps F] (main_arg2 : IVec S2x3000000 32) (main_v28 : IVec S_ 1) (main_v30 : IVec S3000000 32) (main_v33 : IVec S_ 1) : IVec S_ 1 :=
  let main_c_12 : IVec S_ 32 := constantI S_ 32 150000#32
  let main_v34 : IVec S3000000 32 := broadcastInDim S3000000 ![] bcast_S_S3000000 main_c_12
  let main_v35 : IVec S3000000 1 := cmpi .slt main_v30 main_v34
  let main_c_13 : IVec S_ 1 := constantI S_ 1 1#1
  let main_v36 : IVec S_ 1 := (fun x v => Host.reduce IntOp.andi x v reducesTo_S3000000_S_d0 h_S_) main_v35 main_c_13
  let main_v37 : IVec S_ 1 := andi main_v33 main_v36
  let main_v38 : IVec S_ 1 := andi main_v28 main_v37
  let main_v39 : IVec S1x3000000 32 := (extractStridedSlice S1x3000000 ![0, 0] · slices_S2x3000000_S1x3000000_0_0) main_arg2
  let main_v40 : IVec S3000000 32 := shapeCast S3000000 main_v39 shapeCasts_S1x3000000_S3000000
  let main_c_14 : IVec S_ 32 := constantI S_ 32 0#32
  let main_v41 : IVec S3000000 32 := broadcastInDim S3000000 ![] bcast_S_S3000000 main_c_14
  let main_v42 : IVec S3000000 1 := cmpi .sge main_v40 main_v41
  let main_c_15 : IVec S_ 1 := constantI S_ 1 1#1
  let main_v43 : IVec S_ 1 := (fun x v => Host.reduce IntOp.andi x v reducesTo_S3000000_S_d0 h_S_) main_v42 main_c_15
  let main_c_16 : IVec S_ 32 := constantI S_ 32 150000#32
  let main_v44 : IVec S3000000 32 := broadcastInDim S3000000 ![] bcast_S_S3000000 main_c_16
  let main_v45 : IVec S3000000 1 := cmpi .slt main_v40 main_v44
  let main_c_17 : IVec S_ 1 := constantI S_ 1 1#1
  let main_v46 : IVec S_ 1 := (fun x v => Host.reduce IntOp.andi x v reducesTo_S3000000_S_d0 h_S_) main_v45 main_c_17
  let main_v47 : IVec S_ 1 := andi main_v43 main_v46
  let main_v48 : IVec S_ 1 := andi main_v38 main_v47
  main_v48

def fn_part1 {F : FTy → Type} [FloatOps F] (main_arg0 : IVec S2x3000000 32) (main_arg2 : IVec S2x3000000 32) (main_arg6 : FVec F S50000x64 .f32) (main_arg7 : FVec F S50000x64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S50000x64 .f32 := Host.absf main_arg6
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S50000x64 .f32 := Host.absf main_arg7
  let main_cst_8 : FVec F S_ .f32 := constant S_ .f32 0x7F800000#32
  let main_v25 : FVec F S50000x64 .f32 := broadcastInDim S50000x64 ![] bcast_S_S50000x64 main_cst_8
  let main_v26 : IVec S50000x64 1 := cmpf .olt main_v24 main_v25
  let main_c_9 : IVec S_ 1 := constantI S_ 1 1#1
  let main_v27 : IVec S_ 1 := (fun x v => Host.reduce IntOp.andi x v reducesTo_S50000x64_S_d0_1 h_S_) main_v26 main_c_9
  let main_v28 : IVec S_ 1 := andi main_v23 main_v27
  let main_v29 : IVec S1x3000000 32 := (extractStridedSlice S1x3000000 ![0, 0] · slices_S2x3000000_S1x3000000_0_0) main_arg0
  let main_v30 : IVec S3000000 32 := shapeCast S3000000 main_v29 shapeCasts_S1x3000000_S3000000
  let main_c_10 : IVec S_ 32 := constantI S_ 32 0#32
  let main_v31 : IVec S3000000 32 := broadcastInDim S3000000 ![] bcast_S_S3000000 main_c_10
  let main_v32 : IVec S3000000 1 := cmpi .sge main_v30 main_v31
  let main_c_11 : IVec S_ 1 := constantI S_ 1 1#1
  let main_v33 : IVec S_ 1 := (fun x v => Host.reduce IntOp.andi x v reducesTo_S3000000_S_d0 h_S_) main_v32 main_c_11
  fn_part2 (F := F) main_arg2 main_v28 main_v30 main_v33

def fn {F : FTy → Type} [FloatOps F] (main_arg0 : IVec S2x3000000 32) (main_arg1 : FVec F S3000000x1 .f32) (main_arg2 : IVec S2x3000000 32) (main_arg3 : FVec F S3000000x1 .f32) (main_arg4 : FVec F S100000x64 .f32) (main_arg5 : FVec F S100000x64 .f32) (main_arg6 : FVec F S50000x64 .f32) (main_arg7 : FVec F S50000x64 .f32) : IVec S_ 1 :=
  let main_v0 : FVec F S3000000x1 .f32 := Host.absf main_arg1
  let main_cst : FVec F S_ .f32 := constant S_ .f32 0x7F800000#32
  let main_v1 : FVec F S3000000x1 .f32 := broadcastInDim S3000000x1 ![] bcast_S_S3000000x1 main_cst
  let main_v2 : IVec S3000000x1 1 := cmpf .olt main_v0 main_v1
  let main_c : IVec S_ 1 := constantI S_ 1 1#1
  let main_v3 : IVec S_ 1 := (fun x v => Host.reduce IntOp.andi x v reducesTo_S3000000x1_S_d0_1 h_S_) main_v2 main_c
  let main_v4 : FVec F S3000000x1 .f32 := Host.absf main_arg3
  let main_cst_0 : FVec F S_ .f32 := constant S_ .f32 0x7F800000#32
  let main_v5 : FVec F S3000000x1 .f32 := broadcastInDim S3000000x1 ![] bcast_S_S3000000x1 main_cst_0
  let main_v6 : IVec S3000000x1 1 := cmpf .olt main_v4 main_v5
  let main_c_1 : IVec S_ 1 := constantI S_ 1 1#1
  let main_v7 : IVec S_ 1 := (fun x v => Host.reduce IntOp.andi x v reducesTo_S3000000x1_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x64 .f32 := Host.absf main_arg5
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg0 main_arg2 main_arg6 main_arg7 main_v13 main_v16
-- ==== Kernel.lean ====
abbrev S2x3000000 : Shape := ⟨2, ![2, 3000000]⟩
abbrev S3000000x1 : Shape := ⟨2, ![3000000, 1]⟩
abbrev S100000x64 : Shape := ⟨2, ![100000, 64]⟩
abbrev S50000x64 : Shape := ⟨2, ![50000, 64]⟩
abbrev S150000x64 : Shape := ⟨2, ![150000, 64]⟩
abbrev S_ : Shape := ⟨0, ![]⟩
abbrev S150528x64 : Shape := ⟨2, ![150528, 64]⟩
abbrev S1x3000000 : Shape := ⟨2, ![1, 3000000]⟩
abbrev S3000000 : Shape := ⟨1, ![3000000]⟩
abbrev S3000000x64 : Shape := ⟨2, ![3000000, 64]⟩
abbrev S8000x1 : Shape := ⟨2, ![8000, 1]⟩
abbrev S8000x64 : Shape := ⟨2, ![8000, 64]⟩
abbrev S1x1024 : Shape := ⟨2, ![1, 1024]⟩
abbrev S8000x1024 : Shape := ⟨2, ![8000, 1024]⟩
abbrev S1024x64 : Shape := ⟨2, ![1024, 64]⟩
abbrev S50000x128 : Shape := ⟨2, ![50000, 128]⟩
abbrev S100000x128 : Shape := ⟨2, ![100000, 128]⟩

abbrev nBuf : Space → Nat
  | .hbm => 54
  | .vmem => 102
  | .smem => 0
  | _ => 0

abbrev bufTy : (tb : Table) → Fin (tcTables nBuf tb) → BufTy
  | .hbm, ⟨0, _⟩ => ⟨S2x3000000, .i32⟩
  | .hbm, ⟨1, _⟩ => ⟨S3000000x1, .f32⟩
  | .hbm, ⟨2, _⟩ => ⟨S2x3000000, .i32⟩
  | .hbm, ⟨3, _⟩ => ⟨S3000000x1, .f32⟩
  | .hbm, ⟨4, _⟩ => ⟨S100000x64, .f32⟩
  | .hbm, ⟨5, _⟩ => ⟨S100000x64, .f32⟩
  | .hbm, ⟨6, _⟩ => ⟨S50000x64, .f32⟩
  | .hbm, ⟨7, _⟩ => ⟨S50000x64, .f32⟩
  | .hbm, ⟨8, _⟩ => ⟨S150000x64, .f32⟩
  | .hbm, ⟨9, _⟩ => ⟨S150000x64, .f32⟩
  | .hbm, ⟨10, _⟩ => ⟨S_, .i32⟩
  | .hbm, ⟨11, _⟩ => ⟨S_, .f32⟩
  | .hbm, ⟨12, _⟩ => ⟨S150528x64, .f32⟩
  | .hbm, ⟨13, _⟩ => ⟨S_, .i32⟩
  | .hbm, ⟨14, _⟩ => ⟨S_, .f32⟩
  | .hbm, ⟨15, _⟩ => ⟨S150528x64, .f32⟩
  | .hbm, ⟨16, _⟩ => ⟨S1x3000000, .i32⟩
  | .hbm, ⟨17, _⟩ => ⟨S3000000, .i32⟩
  | .hbm, ⟨18, _⟩ => ⟨S3000000x1, .i32⟩
  | .hbm, ⟨19, _⟩ => ⟨S1x3000000, .i32⟩
  | .hbm, ⟨20, _⟩ => ⟨S3000000, .i32⟩
  | .hbm, ⟨21, _⟩ => ⟨S3000000x1, .i32⟩
  | .hbm, ⟨22, _⟩ => ⟨S1x3000000, .i32⟩
  | .hbm, ⟨23, _⟩ => ⟨S3000000, .i32⟩
  | .hbm, ⟨24, _⟩ => ⟨S3000000x1, .i32⟩
  | .hbm, ⟨25, _⟩ => ⟨S1x3000000, .i32⟩
  | .hbm, ⟨26, _⟩ => ⟨S3000000, .i32⟩
  | .hbm, ⟨27, _⟩ => ⟨S3000000x1, .i32⟩
  | .hbm, ⟨28, _⟩ => ⟨S150528x64, .bf16⟩
  | .hbm, ⟨29, _⟩ => ⟨S3000000x64, .bf16⟩
  | .hbm, ⟨30, _⟩ => ⟨S150528x64, .f32⟩
  | .hbm, ⟨31, _⟩ => ⟨S150528x64, .bf16⟩
  | .hbm, ⟨32, _⟩ => ⟨S3000000x64, .bf16⟩
  | .hbm, ⟨33, _⟩ => ⟨S150528x64, .f32⟩
  | .hbm, ⟨34, _⟩ => ⟨S150528x64, .bf16⟩
  | .hbm, ⟨35, _⟩ => ⟨S3000000x64, .bf16⟩
  | .hbm, ⟨36, _⟩ => ⟨S150528x64, .f32⟩
  | .hbm, ⟨37, _⟩ => ⟨S150528x64, .bf16⟩
  | .hbm, ⟨38, _⟩ => ⟨S3000000x64, .bf16⟩
  | .hbm, ⟨39, _⟩ => ⟨S150528x64, .f32⟩
  | .hbm, ⟨40, _⟩ => ⟨S150528x64, .bf16⟩
  | .hbm, ⟨41, _⟩ => ⟨S3000000x64, .bf16⟩
  | .hbm, ⟨42, _⟩ => ⟨S150528x64, .f32⟩
  | .hbm, ⟨43, _⟩ => ⟨S150528x64, .bf16⟩
  | .hbm, ⟨44, _⟩ => ⟨S3000000x64, .bf16⟩
  | .hbm, ⟨45, _⟩ => ⟨S150528x64, .f32⟩
  | .hbm, ⟨46, _⟩ => ⟨S150000x64, .f32⟩
  | .hbm, ⟨47, _⟩ => ⟨S150000x64, .f32⟩
  | .hbm, ⟨48, _⟩ => ⟨S100000x64, .f32⟩
  | .hbm, ⟨49, _⟩ => ⟨S50000x64, .f32⟩
  | .hbm, ⟨50, _⟩ => ⟨S100000x64, .f32⟩
  | .hbm, ⟨51, _⟩ => ⟨S50000x64, .f32⟩
  | .hbm, ⟨52, _⟩ => ⟨S50000x128, .f32⟩
  | .hbm, ⟨53, _⟩ => ⟨S100000x128, .f32⟩
  | .local _ .vmem, ⟨0, _⟩ => ⟨S8000x1, .i32⟩
  | .local _ .vmem, ⟨1, _⟩ => ⟨S8000x1, .i32⟩
  | .local _ .vmem, ⟨2, _⟩ => ⟨S8000x1, .f32⟩
  | .local _ .vmem, ⟨3, _⟩ => ⟨S8000x1, .f32⟩
  | .local _ .vmem, ⟨4, _⟩ => ⟨S150528x64, .bf16⟩
  | .local _ .vmem, ⟨5, _⟩ => ⟨S8000x64, .bf16⟩
  | .local _ .vmem, ⟨6, _⟩ => ⟨S8000x64, .bf16⟩
  | .local _ .vmem, ⟨7, _⟩ => ⟨S8000x64, .f32⟩
  | .local _ .vmem, ⟨8, _⟩ => ⟨S8000x1, .i32⟩
  | .local _ .vmem, ⟨9, _⟩ => ⟨S8000x1, .i32⟩
  | .local _ .vmem, ⟨10, _⟩ => ⟨S8000x64, .bf16⟩
  | .local _ .vmem, ⟨11, _⟩ => ⟨S8000x64, .bf16⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S8000x1, .i32⟩
  | .local _ .vmem, ⟨18, _⟩ => ⟨S8000x1, .i32⟩
  | .local _ .vmem, ⟨19, _⟩ => ⟨S8000x1, .f32⟩
  | .local _ .vmem, ⟨20, _⟩ => ⟨S8000x1, .f32⟩
  | .local _ .vmem, ⟨21, _⟩ => ⟨S150528x64, .bf16⟩
  | .local _ .vmem, ⟨22, _⟩ => ⟨S8000x64, .bf16⟩
  | .local _ .vmem, ⟨23, _⟩ => ⟨S8000x64, .bf16⟩
  | .local _ .vmem, ⟨24, _⟩ => ⟨S8000x64, .f32⟩
  | .local _ .vmem, ⟨25, _⟩ => ⟨S8000x1, .i32⟩
  | .local _ .vmem, ⟨26, _⟩ => ⟨S8000x1, .i32⟩
  | .local _ .vmem, ⟨27, _⟩ => ⟨S8000x64, .bf16⟩
  | .local _ .vmem, ⟨28, _⟩ => ⟨S8000x64, .bf16⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S8000x1, .i32⟩
  | .local _ .vmem, ⟨35, _⟩ => ⟨S8000x1, .i32⟩
  | .local _ .vmem, ⟨36, _⟩ => ⟨S8000x1, .f32⟩
  | .local _ .vmem, ⟨37, _⟩ => ⟨S8000x1, .f32⟩
  | .local _ .vmem, ⟨38, _⟩ => ⟨S150528x64, .bf16⟩
  | .local _ .vmem, ⟨39, _⟩ => ⟨S8000x64, .bf16⟩
  | .local _ .vmem, ⟨40, _⟩ => ⟨S8000x64, .bf16⟩
  | .local _ .vmem, ⟨41, _⟩ => ⟨S8000x64, .f32⟩
  | .local _ .vmem, ⟨42, _⟩ => ⟨S8000x1, .i32⟩
  | .local _ .vmem, ⟨43, _⟩ => ⟨S8000x1, .i32⟩
  | .local _ .vmem, ⟨44, _⟩ => ⟨S8000x64, .bf16⟩
  | .local _ .vmem, ⟨45, _⟩ => ⟨S8000x64, .bf16⟩
  | .local _ .vmem, ⟨46, _⟩ => ⟨S1024x64, .f32⟩
  | .local _ .vmem, ⟨47, _⟩ => ⟨S1024x64, .f32⟩
  | .local _ .vmem, ⟨48, _⟩ => ⟨S1024x64, .f32⟩
  | .local _ .vmem, ⟨49, _⟩ => ⟨S1024x64, .f32⟩
  | .local _ .vmem, ⟨50, _⟩ => ⟨S1024x64, .f32⟩
  | .local _ .vmem, ⟨51, _⟩ => ⟨S8000x1, .i32⟩
  | .local _ .vmem, ⟨52, _⟩ => ⟨S8000x1, .i32⟩
  | .local _ .vmem, ⟨53, _⟩ => ⟨S8000x1, .f32⟩
  | .local _ .vmem, ⟨54, _⟩ => ⟨S8000x1, .f32⟩
  | .local _ .vmem, ⟨55, _⟩ => ⟨S150528x64, .bf16⟩
  | .local _ .vmem, ⟨56, _⟩ => ⟨S8000x64, .bf16⟩
  | .local _ .vmem, ⟨57, _⟩ => ⟨S8000x64, .bf16⟩
  | .local _ .vmem, ⟨58, _⟩ => ⟨S8000x64, .f32⟩
  | .local _ .vmem, ⟨59, _⟩ => ⟨S8000x1, .i32⟩
  | .local _ .vmem, ⟨60, _⟩ => ⟨S8000x1, .i32⟩
  | .local _ .vmem, ⟨61, _⟩ => ⟨S8000x64, .bf16⟩
  | .local _ .vmem, ⟨62, _⟩ => ⟨S8000x64, .bf16⟩
  | .local _ .vmem, ⟨63, _⟩ => ⟨S1024x64, .f32⟩
  | .local _ .vmem, ⟨64, _⟩ => ⟨S1024x64, .f32⟩
  | .local _ .vmem, ⟨65, _⟩ => ⟨S1024x64, .f32⟩
  | .local _ .vmem, ⟨66, _⟩ => ⟨S1024x64, .f32⟩
  | .local _ .vmem, ⟨67, _⟩ => ⟨S1024x64, .f32⟩
  | .local _ .vmem, ⟨68, _⟩ => ⟨S8000x1, .i32⟩
  | .local _ .vmem, ⟨69, _⟩ => ⟨S8000x1, .i32⟩
  | .local _ .vmem, ⟨70, _⟩ => ⟨S8000x1, .f32⟩
  | .local _ .vmem, ⟨71, _⟩ => ⟨S8000x1, .f32⟩
  | .local _ .vmem, ⟨72, _⟩ => ⟨S150528x64, .bf16⟩
  | .local _ .vmem, ⟨73, _⟩ => ⟨S8000x64, .bf16⟩
  | .local _ .vmem, ⟨74, _⟩ => ⟨S8000x64, .bf16⟩
  | .local _ .vmem, ⟨75, _⟩ => ⟨S8000x64, .f32⟩
  | .local _ .vmem, ⟨76, _⟩ => ⟨S8000x1, .i32⟩
  | .local _ .vmem, ⟨77, _⟩ => ⟨S8000x1, .i32⟩
  | .local _ .vmem, ⟨78, _⟩ => ⟨S8000x64, .bf16⟩
  | .local _ .vmem, ⟨79, _⟩ => ⟨S8000x64, .bf16⟩
  | .local _ .vmem, ⟨80, _⟩ => ⟨S1024x64, .f32⟩
  | .local _ .vmem, ⟨81, _⟩ => ⟨S1024x64, .f32⟩
  | .local _ .vmem, ⟨82, _⟩ => ⟨S1024x64, .f32⟩
  | .local _ .vmem, ⟨83, _⟩ => ⟨S1024x64, .f32⟩
  | .local _ .vmem, ⟨84, _⟩ => ⟨S1024x64, .f32⟩
  | .local _ .vmem, ⟨85, _⟩ => ⟨S8000x1, .i32⟩
  | .local _ .vmem, ⟨86, _⟩ => ⟨S8000x1, .i32⟩
  | .local _ .vmem, ⟨87, _⟩ => ⟨S8000x1, .f32⟩
  | .local _ .vmem, ⟨88, _⟩ => ⟨S8000x1, .f32⟩
  | .local _ .vmem, ⟨89, _⟩ => ⟨S150528x64, .bf16⟩
  | .local _ .vmem, ⟨90, _⟩ => ⟨S8000x64, .bf16⟩
  | .local _ .vmem, ⟨91, _⟩ => ⟨S8000x64, .bf16⟩
  | .local _ .vmem, ⟨92, _⟩ => ⟨S8000x64, .f32⟩
  | .local _ .vmem, ⟨93, _⟩ => ⟨S8000x1, .i32⟩
  | .local _ .vmem, ⟨94, _⟩ => ⟨S8000x1, .i32⟩
  | .local _ .vmem, ⟨95, _⟩ => ⟨S8000x64, .bf16⟩
  | .local _ .vmem, ⟨96, _⟩ => ⟨S8000x64, .bf16⟩
  | .local _ .vmem, ⟨97, _⟩ => ⟨S1024x64, .f32⟩
  | .local _ .vmem, ⟨98, _⟩ => ⟨S1024x64, .f32⟩
  | .local _ .vmem, ⟨99, _⟩ => ⟨S1024x64, .f32⟩
  | .local _ .vmem, ⟨100, _⟩ => ⟨S1024x64, .f32⟩
  | .local _ .vmem, ⟨101, _⟩ => ⟨S1024x64, .f32⟩
  | _, _ => ⟨S2x3000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc4_scratch0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_scratch0 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc6_scratch0 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg3_1 : Ref sig .tc := ⟨.vmem, 66, rfl⟩
abbrev cc7_scratch0 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg3_1 : Ref sig .tc := ⟨.vmem, 74, rfl⟩
abbrev cc8_scratch0 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg2_1 : Ref sig .tc := ⟨.vmem, 81, rfl⟩
abbrev cc9_stg3_0 : Ref sig .tc := ⟨.vmem, 82, rfl⟩
abbrev cc9_stg3_1 : Ref sig .tc := ⟨.vmem, 83, rfl⟩
abbrev cc9_scratch0 : Ref sig .tc := ⟨.vmem, 84, rfl⟩
abbrev cc10_stg0_0 : Ref sig .tc := ⟨.vmem, 85, rfl⟩
abbrev cc10_stg0_1 : Ref sig .tc := ⟨.vmem, 86, rfl⟩
abbrev cc10_stg1_0 : Ref sig .tc := ⟨.vmem, 87, rfl⟩
abbrev cc10_stg1_1 : Ref sig .tc := ⟨.vmem, 88, rfl⟩
abbrev cc10_stg2_0 : Ref sig .tc := ⟨.vmem, 89, rfl⟩
abbrev cc10_stg3_0 : Ref sig .tc := ⟨.vmem, 90, rfl⟩
abbrev cc10_stg3_1 : Ref sig .tc := ⟨.vmem, 91, rfl⟩
abbrev cc10_scratch0 : Ref sig .tc := ⟨.vmem, 92, rfl⟩
abbrev cc11_stg0_0 : Ref sig .tc := ⟨.vmem, 93, rfl⟩
abbrev cc11_stg0_1 : Ref sig .tc := ⟨.vmem, 94, rfl⟩
abbrev cc11_stg1_0 : Ref sig .tc := ⟨.vmem, 95, rfl⟩
abbrev cc11_stg1_1 : Ref sig .tc := ⟨.vmem, 96, rfl⟩
abbrev cc11_stg2_0 : Ref sig .tc := ⟨.vmem, 97, rfl⟩
abbrev cc11_stg2_1 : Ref sig .tc := ⟨.vmem, 98, rfl⟩
abbrev cc11_stg3_0 : Ref sig .tc := ⟨.vmem, 99, rfl⟩
abbrev cc11_stg3_1 : Ref sig .tc := ⟨.vmem, 100, rfl⟩
abbrev cc11_scratch0 : Ref sig .tc := ⟨.vmem, 101, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem3_1 : DmaSem sig := 66
abbrev cc9_sem0_0 : DmaSem sig := 67
abbrev cc9_sem0_1 : DmaSem sig := 68
abbrev cc9_sem1_0 : DmaSem sig := 69
abbrev cc9_sem1_1 : DmaSem sig := 70
abbrev cc9_sem2_0 : DmaSem sig := 71
abbrev cc9_sem2_1 : DmaSem sig := 72
abbrev cc9_sem3_0 : DmaSem sig := 73
abbrev cc9_sem3_1 : DmaSem sig := 74
abbrev cc10_sem0_0 : DmaSem sig := 75
abbrev cc10_sem0_1 : DmaSem sig := 76
abbrev cc10_sem1_0 : DmaSem sig := 77
abbrev cc10_sem1_1 : DmaSem sig := 78
abbrev cc10_sem2_0 : DmaSem sig := 79
abbrev cc10_sem3_0 : DmaSem sig := 80
abbrev cc10_sem3_1 : DmaSem sig := 81
abbrev cc11_sem0_0 : DmaSem sig := 82
abbrev cc11_sem0_1 : DmaSem sig := 83
abbrev cc11_sem1_0 : DmaSem sig := 84
abbrev cc11_sem1_1 : DmaSem sig := 85
abbrev cc11_sem2_0 : DmaSem sig := 86
abbrev cc11_sem2_1 : DmaSem sig := 87
abbrev cc11_sem3_0 : DmaSem sig := 88
abbrev cc11_sem3_1 : DmaSem sig := 89

abbrev nD : Nat := 1
abbrev τ : Topo := Topo.v7x

variable {F : FTy → Type} [FloatOps F]

abbrev grid0 : Pipeline.Grid := ⟨2, ![375, 147], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v16 : Index := Scalar.indexCast v6
  let c0_2 : Index := 0#32
  ![v16.toNat, 0]
def k0_cond2 (i : grid0.Coords) : BitVec 1 :=
  let arg1 : BitVec 32 := BitVec.ofNat 32 (i 1).val
  let c146_i32 : BitVec 32 := 146#32
  let v25 : BitVec 1 := Scalar.cmpi .eq arg1 c146_i32
  let v26 : BitVec 32 := Scalar.extui v25
  let c0_i32_7 : BitVec 32 := 0#32
  let v27 : BitVec 1 := Scalar.cmpi .ne v26 c0_i32_7
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S150528x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![147, 375], ![false, false]⟩

def k1_cond2 (i : grid1.Coords) : BitVec 1 :=
  let arg1 : BitVec 32 := BitVec.ofNat 32 (i 1).val
  let c374_i32 : BitVec 32 := 374#32
  let v23 : BitVec 1 := Scalar.cmpi .eq arg1 c374_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![375, 147], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v16 : Index := Scalar.indexCast v6
  let c0_2 : Index := 0#32
  ![v16.toNat, 0]
def k2_cond2 (i : grid2.Coords) : BitVec 1 :=
  let arg1 : BitVec 32 := BitVec.ofNat 32 (i 1).val
  let c146_i32 : BitVec 32 := 146#32
  let v25 : BitVec 1 := Scalar.cmpi .eq arg1 c146_i32
  let v26 : BitVec 32 := Scalar.extui v25
  let c0_i32_7 : BitVec 32 := 0#32
  let v27 : BitVec 1 := Scalar.cmpi .ne v26 c0_i32_7
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S150528x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S8000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![147, 375], ![false, false]⟩

def k3_cond2 (i : grid3.Coords) : BitVec 1 :=
  let arg1 : BitVec 32 := BitVec.ofNat 32 (i 1).val
  let c374_i32 : BitVec 32 := 374#32
  let v23 : BitVec 1 := Scalar.cmpi .eq arg1 c374_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S8000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![375, 147], ![false, false]⟩

def k4_mult1 (i : grid4.Coords) : BitVec 32 :=
  let arg1 : BitVec 32 := BitVec.ofNat 32 (i 1).val
  let c1024_i32 : BitVec 32 := 1024#32
  let v5 : BitVec 32 := Scalar.muli arg1 c1024_i32
  v5
def k4_off1 (i : grid4.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v16 : Index := Scalar.indexCast v6
  let c0_2 : Index := 0#32
  ![v16.toNat, 0]
def k4_cond2 (i : grid4.Coords) : BitVec 1 :=
  let arg1 : BitVec 32 := BitVec.ofNat 32 (i 1).val
  let c146_i32 : BitVec 32 := 146#32
  let v25 : BitVec 1 := Scalar.cmpi .eq arg1 c146_i32
  let v26 : BitVec 32 := Scalar.extui v25
  let c0_i32_7 : BitVec 32 := 0#32
  let v27 : BitVec 1 := Scalar.cmpi .ne v26 c0_i32_7
  v27

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S150528x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S8000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![147, 375], ![false, false]⟩

def k5_cond2 (i : grid5.Coords) : BitVec 1 :=
  let arg1 : BitVec 32 := BitVec.ofNat 32 (i 1).val
  let c374_i32 : BitVec 32 := 374#32
  let v23 : BitVec 1 := Scalar.cmpi .eq arg1 c374_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![375, 147], ![false, false]⟩

def k6_mult1 (i : grid6.Coords) : BitVec 32 :=
  let arg1 : BitVec 32 := BitVec.ofNat 32 (i 1).val
  let c1024_i32 : BitVec 32 := 1024#32
  let v5 : BitVec 32 := Scalar.muli arg1 c1024_i32
  v5
def k6_off1 (i : grid6.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v16 : Index := Scalar.indexCast v6
  let c0_2 : Index := 0#32
  ![v16.toNat, 0]
def k6_cond2 (i : grid6.Coords) : BitVec 1 :=
  let arg1 : BitVec 32 := BitVec.ofNat 32 (i 1).val
  let c146_i32 : BitVec 32 := 146#32
  let v25 : BitVec 1 := Scalar.cmpi .eq arg1 c146_i32
  let v26 : BitVec 32 := Scalar.extui v25
  let c0_i32_7 : BitVec 32 := 0#32
  let v27 : BitVec 1 := Scalar.cmpi .ne v26 c0_i32_7
  v27

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S8000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S8000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 1 → Memref sig .tc .vmem S150528x64 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S8000x64 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![147, 375], ![false, false]⟩

def k7_cond2 (i : grid7.Coords) : BitVec 1 :=
  let arg1 : BitVec 32 := BitVec.ofNat 32 (i 1).val
  let c374_i32 : BitVec 32 := 374#32
  let v23 : BitVec 1 := Scalar.cmpi .eq arg1 c374_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S8000x1 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S8000x64 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1024x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![375, 147], ![false, false]⟩

def k8_mult1 (i : grid8.Coords) : BitVec 32 :=
  let arg1 : BitVec 32 := BitVec.ofNat 32 (i 1).val
  let c1024_i32 : BitVec 32 := 1024#32
  let v5 : BitVec 32 := Scalar.muli arg1 c1024_i32
  v5
def k8_off1 (i : grid8.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v16 : Index := Scalar.indexCast v6
  let c0_2 : Index := 0#32
  ![v16.toNat, 0]
def k8_cond2 (i : grid8.Coords) : BitVec 1 :=
  let arg1 : BitVec 32 := BitVec.ofNat 32 (i 1).val
  let c146_i32 : BitVec 32 := 146#32
  let v25 : BitVec 1 := Scalar.cmpi .eq arg1 c146_i32
  let v26 : BitVec 32 := Scalar.extui v25
  let c0_i32_7 : BitVec 32 := 0#32
  let v27 : BitVec 1 := Scalar.cmpi .ne v26 c0_i32_7
  v27

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S8000x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S8000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 1 → Memref sig .tc .vmem S150528x64 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S8000x64 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![147, 375], ![false, false]⟩

def k9_cond2 (i : grid9.Coords) : BitVec 1 :=
  let arg1 : BitVec 32 := BitVec.ofNat 32 (i 1).val
  let c374_i32 : BitVec 32 := 374#32
  let v23 : BitVec 1 := Scalar.cmpi .eq arg1 c374_i32
  let v24 : BitVec 32 := Scalar.extui v23
  let c0_i32_8 : BitVec 32 := 0#32
  let v25 : BitVec 1 := Scalar.cmpi .ne v24 c0_i32_8
  v25

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S8000x1 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S8000x64 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev stage9_3 : Fin 2 → Memref sig .tc .vmem S1024x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![375, 147], ![false, false]⟩

def k10_mult1 (i : grid10.Coords) : BitVec 32 :=
  let arg1 : BitVec 32 := BitVec.ofNat 32 (i 1).val
  let c1024_i32 : BitVec 32 := 1024#32
  let v5 : BitVec 32 := Scalar.muli arg1 c1024_i32
  v5
def k10_off1 (i : grid10.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v16 : Index := Scalar.indexCast v6
  let c0_2 : Index := 0#32
  ![v16.toNat, 0]
def k10_cond2 (i : grid10.Coords) : BitVec 1 :=
  let arg1 : BitVec 32 := BitVec.ofNat 32 (i 1).val
  let c146_i32 : BitVec 32 := 146#32
  let v25 : BitVec 1 := Scalar.cmpi .eq arg1 c146_i32
  let v26 : BitVec 32 := Scalar.extui v25
  let c0_i32_7 : BitVec 32 := 0#32
  let v27 : BitVec 1 := Scalar.cmpi .ne v26 c0_i32_7
  v27

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S8000x1 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S8000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev stage10_2 : Fin 1 → Memref sig .tc .vmem S150528x64 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S8000x64 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![147, 375], ![false, false]⟩

def k11_cond2 (i : grid11.Coords) : BitVec 1 :=
  let arg1 : BitVec 32 := BitVec.ofNat 32 (i 1).val
  let c374_i32 : BitVec 32 := 374#32
  let v23 : BitVec 1 := Scalar.cmpi .eq arg1 c374_i32
  let v24 : BitVec 32 := Scalar.extui v23
  let c0_i32_8 : BitVec 32 := 0#32
  let v25 : BitVec 1 := Scalar.cmpi .ne v24 c0_i32_8
  v25

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S8000x1 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 2 → Memref sig .tc .vmem S8000x64 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S1024x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

class Facts₀ : Prop where
  concatenates_S100000x64_S50000x64_S150000x64_d0 : Shape.Concatenates [S100000x64, S50000x64] S150000x64 0
  pads_S150000x64_S150528x64_05280_000 : S150000x64.Pads (![0, 0] : Fin 2 → Nat) ![528, 0] ![0, 0] S150528x64
  h_S_ : 0 < S_.numel
  slices_S2x3000000_S1x3000000_0_0 : S2x3000000.Slices ![0, 0] S1x3000000
  shapeCasts_S1x3000000_S3000000 : S1x3000000.ShapeCasts S3000000
  shapeCasts_S3000000_S3000000x1 : S3000000.ShapeCasts S3000000x1
  slices_S2x3000000_S1x3000000_1_0 : S2x3000000.Slices ![1, 0] S1x3000000
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S1x1024_d1_w32 : S1x1024.Iotas .tc 32 [1]
  broadcasts_S8000x1_S8000x1024 : S8000x1.Broadcasts S8000x1024
  broadcasts_S1x1024_S8000x1024 : S1x1024.Broadcasts S8000x1024
  natLt_1_32 : 1 < 32
  h_S1024x64 : 0 < S1024x64.numel
  shapeCasts_S1024x64_S1024x64 : S1024x64.ShapeCasts S1024x64
  broadcasts_S8000x1_S8000x64 : S8000x1.Broadcasts S8000x64
  packedbf16_S8000x64_S8000x64_0_0 : (Rect.unit (s := S8000x64) ![0, 0] S8000x64.size inb_S8000x64_S8000x64_0_0).PackedRows (EltTy.packing .bf16)
  inb_S1024x64_S1024x64_0_0 : ∀ a, (![0, 0] : Fin 2 → Nat) a + S1024x64.size a ≤ S1024x64.size a
  slices_S150528x64_S150000x64_0_0 : S150528x64.Slices ![0, 0] S150000x64
  slices_S150000x64_S100000x64_0_0 : S150000x64.Slices ![0, 0] S100000x64
  slices_S150000x64_S50000x64_100000_0 : S150000x64.Slices ![100000, 0] S50000x64
  concatenates_S50000x64_S50000x64_S50000x128_d1 : Shape.Concatenates [S50000x64, S50000x64] S50000x128 1
  concatenates_S100000x64_S100000x64_S100000x128_d1 : Shape.Concatenates [S100000x64, S100000x64] S100000x128 1
  dot_S8000x1024_S1024x64_S8000x64_1_0_0_1_n_n_wf : DotDims.WF S8000x1024 S1024x64 S8000x64 [1] [0] [0] [1] [] []
  dot_S8000x1024_S8000x64_S1024x64_0_0_1_1_n_n_wf : DotDims.WF S8000x1024 S8000x64 S1024x64 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S150528x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S3000000x1.size a
  hwx0_0 : ∀ i : grid0.Coords, EltTy.bits .i32 = 32 ∨ (Rect.block (s := S3000000x1) S8000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S3000000x1.size a
  hwx0_1 : ∀ i : grid0.Coords, EltTy.bits .f32 = 32 ∨ (Rect.block (s := S3000000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S150528x64.size a ≤ S150528x64.size a
  hwx0_2 : ∀ i : grid0.Coords, EltTy.bits .bf16 = 32 ∨ (Rect.block (s := S150528x64) S150528x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S3000000x64.size a
  hwx0_3 : ∀ i : grid0.Coords, EltTy.bits .bf16 = 32 ∨ (Rect.block (s := S3000000x64) S8000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S3000000x1.size a
  hwx1_0 : ∀ i : grid1.Coords, EltTy.bits .i32 = 32 ∨ (Rect.block (s := S3000000x1) S8000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S3000000x64.size a
  hwx1_1 : ∀ i : grid1.Coords, EltTy.bits .bf16 = 32 ∨ (Rect.block (s := S3000000x64) S8000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S150528x64.size a
  hwx1_2 : ∀ i : grid1.Coords, EltTy.bits .f32 = 32 ∨ (Rect.block (s := S150528x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S150528x64.size a
  hwx1_3 : ∀ i : grid1.Coords, EltTy.bits .f32 = 32 ∨ (Rect.block (s := S150528x64) S1024x64.size (cc1_transform_3 i) (hinb1_3 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x64.size a ≤ S150528x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S3000000x1.size a
  hwx2_0 : ∀ i : grid2.Coords, EltTy.bits .i32 = 32 ∨ (Rect.block (s := S3000000x1) S8000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S3000000x1.size a
  hwx2_1 : ∀ i : grid2.Coords, EltTy.bits .f32 = 32 ∨ (Rect.block (s := S3000000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S150528x64.size a ≤ S150528x64.size a
  hwx2_2 : ∀ i : grid2.Coords, EltTy.bits .bf16 = 32 ∨ (Rect.block (s := S150528x64) S150528x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S3000000x64.size a
  hwx2_3 : ∀ i : grid2.Coords, EltTy.bits .bf16 = 32 ∨ (Rect.block (s := S3000000x64) S8000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x1.size a ≤ S3000000x1.size a
  hwx3_0 : ∀ i : grid3.Coords, EltTy.bits .i32 = 32 ∨ (Rect.block (s := S3000000x1) S8000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S3000000x64.size a
  hwx3_1 : ∀ i : grid3.Coords, EltTy.bits .bf16 = 32 ∨ (Rect.block (s := S3000000x64) S8000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S150528x64.size a
  hwx3_2 : ∀ i : grid3.Coords, EltTy.bits .f32 = 32 ∨ (Rect.block (s := S150528x64) S1024x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S150528x64.size a
  hwx3_3 : ∀ i : grid3.Coords, EltTy.bits .f32 = 32 ∨ (Rect.block (s := S150528x64) S1024x64.size (cc3_transform_3 i) (hinb3_3 i)).WholeWords (EltTy.packing .f32)
  hrank4 : 0 < grid4.rank
  k4_mult1_dvd : ∀ i : grid4.Coords, 1024 ∣ (k4_mult1 i).toNat
  k4_off1_inb : ∀ i : grid4.Coords, ∀ a, (k4_off1 i) a + S1024x64.size a ≤ S150528x64.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x1.size a ≤ S3000000x1.size a
  hwx4_0 : ∀ i : grid4.Coords, EltTy.bits .i32 = 32 ∨ (Rect.block (s := S3000000x1) S8000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S3000000x1.size a
  hwx4_1 : ∀ i : grid4.Coords, EltTy.bits .f32 = 32 ∨ (Rect.block (s := S3000000x1) S8000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S150528x64.size a ≤ S150528x64.size a
  hwx4_2 : ∀ i : grid4.Coords, EltTy.bits .bf16 = 32 ∨ (Rect.block (s := S150528x64) S150528x64.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x64.size a ≤ S3000000x64.size a
  hwx4_3 : ∀ i : grid4.Coords, EltTy.bits .bf16 = 32 ∨ (Rect.block (s := S3000000x64) S8000x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x1.size a ≤ S3000000x1.size a
  hwx5_0 : ∀ i : grid5.Coords, EltTy.bits .i32 = 32 ∨ (Rect.block (s := S3000000x1) S8000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S3000000x64.size a
  hwx5_1 : ∀ i : grid5.Coords, EltTy.bits .bf16 = 32 ∨ (Rect.block (s := S3000000x64) S8000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S150528x64.size a
  hwx5_2 : ∀ i : grid5.Coords, EltTy.bits .f32 = 32 ∨ (Rect.block (s := S150528x64) S1024x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x64.size a ≤ S150528x64.size a
  hwx5_3 : ∀ i : grid5.Coords, EltTy.bits .f32 = 32 ∨ (Rect.block (s := S150528x64) S1024x64.size (cc5_transform_3 i) (hinb5_3 i)).WholeWords (EltTy.packing .f32)
  hrank6 : 0 < grid6.rank
  k6_mult1_dvd : ∀ i : grid6.Coords, 1024 ∣ (k6_mult1 i).toNat
  k6_off1_inb : ∀ i : grid6.Coords, ∀ a, (k6_off1 i) a + S1024x64.size a ≤ S150528x64.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x1.size a ≤ S3000000x1.size a
  hwx6_0 : ∀ i : grid6.Coords, EltTy.bits .i32 = 32 ∨ (Rect.block (s := S3000000x1) S8000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x1.size a ≤ S3000000x1.size a
  hwx6_1 : ∀ i : grid6.Coords, EltTy.bits .f32 = 32 ∨ (Rect.block (s := S3000000x1) S8000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S150528x64.size a ≤ S150528x64.size a
  hwx6_2 : ∀ i : grid6.Coords, EltTy.bits .bf16 = 32 ∨ (Rect.block (s := S150528x64) S150528x64.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x64.size a ≤ S3000000x64.size a
  hwx6_3 : ∀ i : grid6.Coords, EltTy.bits .bf16 = 32 ∨ (Rect.block (s := S3000000x64) S8000x64.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x1.size a ≤ S3000000x1.size a
  hwx7_0 : ∀ i : grid7.Coords, EltTy.bits .i32 = 32 ∨ (Rect.block (s := S3000000x1) S8000x1.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S3000000x64.size a
  hwx7_1 : ∀ i : grid7.Coords, EltTy.bits .bf16 = 32 ∨ (Rect.block (s := S3000000x64) S8000x64.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x64.size a ≤ S150528x64.size a
  hwx7_2 : ∀ i : grid7.Coords, EltTy.bits .f32 = 32 ∨ (Rect.block (s := S150528x64) S1024x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x64.size a ≤ S150528x64.size a
  hwx7_3 : ∀ i : grid7.Coords, EltTy.bits .f32 = 32 ∨ (Rect.block (s := S150528x64) S1024x64.size (cc7_transform_3 i) (hinb7_3 i)).WholeWords (EltTy.packing .f32)
  hrank8 : 0 < grid8.rank
  k8_mult1_dvd : ∀ i : grid8.Coords, 1024 ∣ (k8_mult1 i).toNat
  k8_off1_inb : ∀ i : grid8.Coords, ∀ a, (k8_off1 i) a + S1024x64.size a ≤ S150528x64.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x1.size a ≤ S3000000x1.size a
  hwx8_0 : ∀ i : grid8.Coords, EltTy.bits .i32 = 32 ∨ (Rect.block (s := S3000000x1) S8000x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x1.size a ≤ S3000000x1.size a
  hwx8_1 : ∀ i : grid8.Coords, EltTy.bits .f32 = 32 ∨ (Rect.block (s := S3000000x1) S8000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S150528x64.size a ≤ S150528x64.size a
  hwx8_2 : ∀ i : grid8.Coords, EltTy.bits .bf16 = 32 ∨ (Rect.block (s := S150528x64) S150528x64.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8000x64.size a ≤ S3000000x64.size a
  hwx8_3 : ∀ i : grid8.Coords, EltTy.bits .bf16 = 32 ∨ (Rect.block (s := S3000000x64) S8000x64.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x1.size a ≤ S3000000x1.size a
  hwx9_0 : ∀ i : grid9.Coords, EltTy.bits .i32 = 32 ∨ (Rect.block (s := S3000000x1) S8000x1.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x64.size a ≤ S3000000x64.size a
  hwx9_1 : ∀ i : grid9.Coords, EltTy.bits .bf16 = 32 ∨ (Rect.block (s := S3000000x64) S8000x64.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x64.size a ≤ S150528x64.size a
  hwx9_2 : ∀ i : grid9.Coords, EltTy.bits .f32 = 32 ∨ (Rect.block (s := S150528x64) S1024x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x64.size a ≤ S150528x64.size a
  hwx9_3 : ∀ i : grid9.Coords, EltTy.bits .f32 = 32 ∨ (Rect.block (s := S150528x64) S1024x64.size (cc9_transform_3 i) (hinb9_3 i)).WholeWords (EltTy.packing .f32)
  hrank10 : 0 < grid10.rank
  k10_mult1_dvd : ∀ i : grid10.Coords, 1024 ∣ (k10_mult1 i).toNat
  k10_off1_inb : ∀ i : grid10.Coords, ∀ a, (k10_off1 i) a + S1024x64.size a ≤ S150528x64.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x1.size a ≤ S3000000x1.size a
  hwx10_0 : ∀ i : grid10.Coords, EltTy.bits .i32 = 32 ∨ (Rect.block (s := S3000000x1) S8000x1.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x1.size a ≤ S3000000x1.size a
  hwx10_1 : ∀ i : grid10.Coords, EltTy.bits .f32 = 32 ∨ (Rect.block (s := S3000000x1) S8000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S150528x64.size a ≤ S150528x64.size a
  hwx10_2 : ∀ i : grid10.Coords, EltTy.bits .bf16 = 32 ∨ (Rect.block (s := S150528x64) S150528x64.size (cc10_transform_2 i) (hinb10_2 i)).WholeWords (EltTy.packing .bf16)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S8000x64.size a ≤ S3000000x64.size a
  hwx10_3 : ∀ i : grid10.Coords, EltTy.bits .bf16 = 32 ∨ (Rect.block (s := S3000000x64) S8000x64.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x1.size a ≤ S3000000x1.size a
  hwx11_0 : ∀ i : grid11.Coords, EltTy.bits .i32 = 32 ∨ (Rect.block (s := S3000000x1) S8000x1.size (cc11_transform_0 i) (hinb11_0 i)).WholeWords (EltTy.packing .i32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8000x64.size a ≤ S3000000x64.size a
  hwx11_1 : ∀ i : grid11.Coords, EltTy.bits .bf16 = 32 ∨ (Rect.block (s := S3000000x64) S8000x64.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x64.size a ≤ S150528x64.size a
  hwx11_2 : ∀ i : grid11.Coords, EltTy.bits .f32 = 32 ∨ (Rect.block (s := S150528x64) S1024x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x64.size a ≤ S150528x64.size a
  hwx11_3 : ∀ i : grid11.Coords, EltTy.bits .f32 = 32 ∨ (Rect.block (s := S150528x64) S1024x64.size (cc11_transform_3 i) (hinb11_3 i)).WholeWords (EltTy.packing .f32)

variable [Facts₀]

def dot_S8000x1024_S1024x64_S8000x64_1_0_0_1_n_n : DotDims S8000x1024 S1024x64 S8000x64 where
  lhsContracting := [1]
  rhsContracting := [0]
  lhsNonContracting := [0]
  rhsNonContracting := [1]
  lhsBatch := []
  rhsBatch := []
  wf := dot_S8000x1024_S1024x64_S8000x64_1_0_0_1_n_n_wf
def dot_S8000x1024_S8000x64_S1024x64_0_0_1_1_n_n : DotDims S8000x1024 S8000x64 S1024x64 where
  lhsContracting := [0]
  rhsContracting := [0]
  lhsNonContracting := [1]
  rhsNonContracting := [1]
  lhsBatch := []
  rhsBatch := []
  wf := dot_S8000x1024_S8000x64_S1024x64_0_0_1_1_n_n_wf

abbrev win0_0 : Pipeline.Window sig grid0 :=
  Pipeline.Window.ofSpec (Memref.whole main_v6) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S150528x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v9) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v6) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S150528x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S8000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v9) S8000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v6) S8000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S150528x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S8000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v9) S8000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21) S1024x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v24) S1024x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v12) S8000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg3) S8000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v25) S150528x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v26) S8000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v15) S8000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v26) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v3) S1024x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v27) S1024x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v12) S8000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg3) S8000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v28) S150528x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v29) S8000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v15) S8000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v29) S8000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v27) S1024x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v30) S1024x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v12) S8000x1.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg3) S8000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v31) S150528x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v32) S8000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v15) S8000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v32) S8000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v30) S1024x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v33) S1024x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

class Facts : Prop extends Facts₀ where

variable [Facts]
-- ==== ReferenceIdeal.lean ====
abbrev S2x3000000 : Shape := ⟨2, ![2, 3000000]⟩
abbrev S3000000x1 : Shape := ⟨2, ![3000000, 1]⟩
abbrev S100000x64 : Shape := ⟨2, ![100000, 64]⟩
abbrev S50000x64 : Shape := ⟨2, ![50000, 64]⟩
abbrev S150000x64 : Shape := ⟨2, ![150000, 64]⟩
abbrev S1x3000000 : Shape := ⟨2, ![1, 3000000]⟩
abbrev S3000000 : Shape := ⟨1, ![3000000]⟩
abbrev S_ : Shape := ⟨0, ![]⟩
abbrev S3000000x64 : Shape := ⟨2, ![3000000, 64]⟩
abbrev S50000x128 : Shape := ⟨2, ![50000, 128]⟩
abbrev S100000x128 : Shape := ⟨2, ![100000, 128]⟩

abbrev nBuf : Space → Nat
  | .hbm => 138
  | .vmem => 0
  | .smem => 0
  | _ => 0

abbrev hbmTy0_0 (i : Nat) : BufTy := match i % 128 with
  | 0 => ⟨S2x3000000, .i32⟩
  | 1 => ⟨S3000000x1, .f32⟩
  | 2 => ⟨S2x3000000, .i32⟩
  | 3 => ⟨S3000000x1, .f32⟩
  | 4 => ⟨S100000x64, .f32⟩
  | 5 => ⟨S100000x64, .f32⟩
  | 6 => ⟨S50000x64, .f32⟩
  | 7 => ⟨S50000x64, .f32⟩
  | 8 => ⟨S150000x64, .f32⟩
  | 9 => ⟨S150000x64, .f32⟩
  | 10 => ⟨S1x3000000, .i32⟩
  | 11 => ⟨S3000000, .i32⟩
  | 12 => ⟨S1x3000000, .i32⟩
  | 13 => ⟨S3000000, .i32⟩
  | 14 => ⟨S1x3000000, .i32⟩
  | 15 => ⟨S3000000, .i32⟩
  | 16 => ⟨S1x3000000, .i32⟩
  | 17 => ⟨S3000000, .i32⟩
  | 18 => ⟨S_, .i32⟩
  | 19 => ⟨S3000000, .i32⟩
  | 20 => ⟨S3000000, .i1⟩
  | 21 => ⟨S_, .i32⟩
  | 22 => ⟨S3000000, .i32⟩
  | 23 => ⟨S3000000, .i32⟩
  | 24 => ⟨S3000000, .i32⟩
  | 25 => ⟨S3000000x1, .i32⟩
  | 26 => ⟨S3000000x64, .f32⟩
  | 27 => ⟨S3000000x64, .f32⟩
  | 28 => ⟨S3000000x64, .f32⟩
  | 29 => ⟨S_, .f32⟩
  | 30 => ⟨S150000x64, .f32⟩
  | 31 => ⟨S3000000x1, .i32⟩
  | 32 => ⟨S150000x64, .f32⟩
  | 33 => ⟨S_, .f32⟩
  | 34 => ⟨S150000x64, .f32⟩
  | 35 => ⟨S150000x64, .f32⟩
  | 36 => ⟨S150000x64, .f32⟩
  | 37 => ⟨S_, .i32⟩
  | 38 => ⟨S3000000, .i32⟩
  | 39 => ⟨S3000000, .i1⟩
  | 40 => ⟨S_, .i32⟩
  | 41 => ⟨S3000000, .i32⟩
  | 42 => ⟨S3000000, .i32⟩
  | 43 => ⟨S3000000, .i32⟩
  | 44 => ⟨S3000000x1, .i32⟩
  | 45 => ⟨S3000000x64, .f32⟩
  | 46 => ⟨S3000000x64, .f32⟩
  | 47 => ⟨S3000000x64, .f32⟩
  | 48 => ⟨S_, .f32⟩
  | 49 => ⟨S150000x64, .f32⟩
  | 50 => ⟨S3000000x1, .i32⟩
  | 51 => ⟨S150000x64, .f32⟩
  | 52 => ⟨S_, .f32⟩
  | 53 => ⟨S150000x64, .f32⟩
  | 54 => ⟨S150000x64, .f32⟩
  | 55 => ⟨S150000x64, .f32⟩
  | 56 => ⟨S_, .i32⟩
  | 57 => ⟨S3000000, .i32⟩
  | 58 => ⟨S3000000, .i1⟩
  | 59 => ⟨S_, .i32⟩
  | 60 => ⟨S3000000, .i32⟩
  | 61 => ⟨S3000000, .i32⟩
  | 62 => ⟨S3000000, .i32⟩
  | 63 => ⟨S3000000x1, .i32⟩
  | 64 => ⟨S3000000x64, .f32⟩
  | 65 => ⟨S3000000x64, .f32⟩
  | 66 => ⟨S3000000x64, .f32⟩
  | 67 => ⟨S_, .f32⟩
  | 68 => ⟨S150000x64, .f32⟩
  | 69 => ⟨S3000000x1, .i32⟩
  | 70 => ⟨S150000x64, .f32⟩
  | 71 => ⟨S_, .f32⟩
  | 72 => ⟨S150000x64, .f32⟩
  | 73 => ⟨S150000x64, .f32⟩
  | 74 => ⟨S150000x64, .f32⟩
  | 75 => ⟨S_, .i32⟩
  | 76 => ⟨S3000000, .i32⟩
  | 77 => ⟨S3000000, .i1⟩
  | 78 => ⟨S_, .i32⟩
  | 79 => ⟨S3000000, .i32⟩
  | 80 => ⟨S3000000, .i32⟩
  | 81 => ⟨S3000000, .i32⟩
  | 82 => ⟨S3000000x1, .i32⟩
  | 83 => ⟨S3000000x64, .f32⟩
  | 84 => ⟨S3000000x64, .f32⟩
  | 85 => ⟨S3000000x64, .f32⟩
  | 86 => ⟨S_, .f32⟩
  | 87 => ⟨S150000x64, .f32⟩
  | 88 => ⟨S3000000x1, .i32⟩
  | 89 => ⟨S150000x64, .f32⟩
  | 90 => ⟨S_, .f32⟩
  | 91 => ⟨S150000x64, .f32⟩
  | 92 => ⟨S150000x64, .f32⟩
  | 93 => ⟨S150000x64, .f32⟩
  | 94 => ⟨S_, .i32⟩
  | 95 => ⟨S3000000, .i32⟩
  | 96 => ⟨S3000000, .i1⟩
  | 97 => ⟨S_, .i32⟩
  | 98 => ⟨S3000000, .i32⟩
  | 99 => ⟨S3000000, .i32⟩
  | 100 => ⟨S3000000, .i32⟩
  | 101 => ⟨S3000000x1, .i32⟩
  | 102 => ⟨S3000000x64, .f32⟩
  | 103 => ⟨S3000000x64, .f32⟩
  | 104 => ⟨S3000000x64, .f32⟩
  | 105 => ⟨S_, .f32⟩
  | 106 => ⟨S150000x64, .f32⟩
  | 107 => ⟨S3000000x1, .i32⟩
  | 108 => ⟨S150000x64, .f32⟩
  | 109 => ⟨S_, .f32⟩
  | 110 => ⟨S150000x64, .f32⟩
  | 111 => ⟨S150000x64, .f32⟩
  | 112 => ⟨S150000x64, .f32⟩
  | 113 => ⟨S_, .i32⟩
  | 114 => ⟨S3000000, .i32⟩
  | 115 => ⟨S3000000, .i1⟩
  | 116 => ⟨S_, .i32⟩
  | 117 => ⟨S3000000, .i32⟩
  | 118 => ⟨S3000000, .i32⟩
  | 119 => ⟨S3000000, .i32⟩
  | 120 => ⟨S3000000x1, .i32⟩
  | 121 => ⟨S3000000x64, .f32⟩
  | 122 => ⟨S3000000x64, .f32⟩
  | 123 => ⟨S3000000x64, .f32⟩
  | 124 => ⟨S_, .f32⟩
  | 125 => ⟨S150000x64, .f32⟩
  | 126 => ⟨S3000000x1, .i32⟩
  | 127 => ⟨S150000x64, .f32⟩
  | _ => ⟨S2x3000000, .i32⟩

abbrev hbmTy0_1 (i : Nat) : BufTy := match i % 128 with
  | 0 => ⟨S_, .f32⟩
  | 1 => ⟨S150000x64, .f32⟩
  | 2 => ⟨S150000x64, .f32⟩
  | 3 => ⟨S150000x64, .f32⟩
  | 4 => ⟨S100000x64, .f32⟩
  | 5 => ⟨S50000x64, .f32⟩
  | 6 => ⟨S100000x64, .f32⟩
  | 7 => ⟨S50000x64, .f32⟩
  | 8 => ⟨S50000x128, .f32⟩
  | 9 => ⟨S100000x128, .f32⟩
  | _ => ⟨S2x3000000, .i32⟩

abbrev hbmTy (i : Nat) : BufTy := match i / 128 with
  | 0 => hbmTy0_0 i
  | 1 => hbmTy0_1 i
  | _ => ⟨S2x3000000, .i32⟩

abbrev bufTy : (tb : Table) → Fin (tcTables nBuf tb) → BufTy
  | .hbm, ⟨i, _⟩ => hbmTy i
  | _, _ => ⟨S2x3000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_c_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_21 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  concatenates_S50000x64_S50000x64_S50000x128_d1 : Shape.Concatenates [S50000x64, S50000x64] S50000x128 1
  concatenates_S100000x64_S100000x64_S100000x128_d1 : Shape.Concatenates [S100000x64, S100000x64] S100000x128 1
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1

variable [Facts₀]

def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

class Facts : Prop extends Facts₀ where

variable [Facts]
-- ==== Proof.KI.G0.Runs.lean ====
import proofs.«406629_j10943576670300_1_alg».proof.Proof.Gen.KernelIdeal.Launch
import proofs.«406629_j10943576670300_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1

theorem cond0_0_iff : ∀ k : Fin 147, (Scalar.cmpi .ne (Scalar.extui (Scalar.cmpi .eq (BitVec.ofNat 32 k.val) 0#32)) 0#32) = 1#1 ↔ k.val = 0 := by decide

abbrev cond0_1 (i : grid0.Coords) : Prop := k0_cond2 i = 1#1

theorem cond0_1_iff : ∀ k : Fin 147, (Scalar.cmpi .ne (Scalar.extui (Scalar.cmpi .eq (BitVec.ofNat 32 k.val) 146#32)) 0#32) = 1#1 ↔ k.val = 146 := by decide

theorem hz0 : (![0, 0] : Fin 2 → Nat) = fun _ => 0 := funext fun a => by fin_cases a <;> rfl

abbrev r0_x (i : grid0.Coords) : Rect S150528x64 := Rect.unit (s := S150528x64) (k0_off1 i) S1024x64.size (k0_off1_inb i)

theorem k0_off1_iff : ∀ k : Fin 147, (Scalar.indexCast (Scalar.muli (BitVec.ofNat 32 k.val) 1024#32)).toNat = k.val * 1024 := by decide
theorem k0_off1_0 (i : grid0.Coords) : k0_off1 i 0 = (i 1).val * 1024 := k0_off1_iff (i 1)

theorem k0_off1_1 (i : grid0.Coords) : k0_off1 i 1 = 0 := rfl

end Cert.KernelIdeal.Hand

end
-- ==== Proof.KI.G0.RunA.lean ====
import proofs.«406629_j10943576670300_1_alg».proof.Proof.KI.G0.Runs

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : cond0_0 i) (hc1 : ¬cond0_1 i)
    (x0 : Vec F S8000x1 .i32) (x1 : Vec F S8000x1 .f32) (x2 : Vec F S150528x64 .bf16) :
    Σ' (L3 : List (View.Piece (Elt F) S8000x64 .bf16)), { LS0 : List (View.Piece (Elt F) S8000x64 .f32) //
      ∀ (xi3 : Vec F S8000x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out0_A_3 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : cond0_0 i) (hc1 : ¬cond0_1 i)
    (x0 : Vec F S8000x1 .i32) (x1 : Vec F S8000x1 .f32) (x2 : Vec F S150528x64 .bf16) : Vec F S8000x64 .bf16 :=
  View.canon (kernelRun0_A c i arg2 harg2 arg3 harg3 arg4 harg4 arg5 harg5 arg6 harg6 hc0 hc1 x0 x1 x2).1

theorem scover0_A_0 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : cond0_0 i) (hc1 : ¬cond0_1 i)
    (x0 : Vec F S8000x1 .i32) (x1 : Vec F S8000x1 .f32) (x2 : Vec F S150528x64 .bf16) (y : S8000x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S8000x64.size (by sl_kernel_rfl) y

def sout0_A_0 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : cond0_0 i) (hc1 : ¬cond0_1 i)
    (x0 : Vec F S8000x1 .i32) (x1 : Vec F S8000x1 .f32) (x2 : Vec F S150528x64 .bf16) : Vec F S8000x64 .f32 :=
  View.canon (kernelRun0_A c i arg2 harg2 arg3 harg3 arg4 harg4 arg5 harg5 arg6 harg6 hc0 hc1 x0 x1 x2).2.1

theorem sout0_A_0_eq (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : cond0_0 i) (hc1 : ¬cond0_1 i)
    (x0 : Vec F S8000x1 .i32) (x1 : Vec F S8000x1 .f32) (x2 : Vec F S150528x64 .bf16) :
    sout0_A_0 c i arg2 harg2 arg3 harg3 arg4 harg4 arg5 harg5 arg6 harg6 hc0 hc1 x0 x1 x2 = k0_pay2 i x0 (View.ld x2 (r0_x i)) (k0_pay1 (F := F)) := by
  unfold sout0_A_0 kernelRun0_A
  dsimp only
  sl_unfold_words
  rw [View.canon_cons_unit_zero (S := S8000x64) hz0, View.readCov_unit_zero (S := S8000x64) _ hz0]
  simp only [View.readAt_eq_ld, harg2.read_unread, harg3.read_unread, harg4.read_unread, harg6.read_unread, View.ld_unit_zero (S := S8000x1) hz0, View.ld_unit_zero (S := S8000x64) hz0]
  try rfl

end Cert.KernelIdeal.Hand

end
-- ==== Proof.KI.G0.RunB.lean ====
import proofs.«406629_j10943576670300_1_alg».proof.Proof.KI.G0.RunA

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : ¬cond0_1 i)
    (x0 : Vec F S8000x1 .i32) (x1 : Vec F S8000x1 .f32) (x2 : Vec F S150528x64 .bf16) (xs0 : Vec F S8000x64 .f32) :
    Σ' (L3 : List (View.Piece (Elt F) S8000x64 .bf16)), { LS0 : List (View.Piece (Elt F) S8000x64 .f32) //
      ∀ (xi3 : Vec F S8000x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out0_B_3 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : ¬cond0_1 i)
    (x0 : Vec F S8000x1 .i32) (x1 : Vec F S8000x1 .f32) (x2 : Vec F S150528x64 .bf16) (xs0 : Vec F S8000x64 .f32) : Vec F S8000x64 .bf16 :=
  View.canon (kernelRun0_B c i arg2 harg2 arg3 harg3 arg4 harg4 arg5 harg5 arg6 harg6 hc0 hc1 x0 x1 x2 xs0).1

theorem scover0_B_0 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : ¬cond0_1 i)
    (x0 : Vec F S8000x1 .i32) (x1 : Vec F S8000x1 .f32) (x2 : Vec F S150528x64 .bf16) (xs0 : Vec F S8000x64 .f32) (y : S8000x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S8000x64.size (by sl_kernel_rfl) y

def sout0_B_0 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : ¬cond0_1 i)
    (x0 : Vec F S8000x1 .i32) (x1 : Vec F S8000x1 .f32) (x2 : Vec F S150528x64 .bf16) (xs0 : Vec F S8000x64 .f32) : Vec F S8000x64 .f32 :=
  View.canon (kernelRun0_B c i arg2 harg2 arg3 harg3 arg4 harg4 arg5 harg5 arg6 harg6 hc0 hc1 x0 x1 x2 xs0).2.1

theorem sout0_B_0_eq (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : ¬cond0_1 i)
    (x0 : Vec F S8000x1 .i32) (x1 : Vec F S8000x1 .f32) (x2 : Vec F S150528x64 .bf16) (xs0 : Vec F S8000x64 .f32) :
    sout0_B_0 c i arg2 harg2 arg3 harg3 arg4 harg4 arg5 harg5 arg6 harg6 hc0 hc1 x0 x1 x2 xs0 = k0_pay2 i x0 (View.ld x2 (r0_x i)) xs0 := by
  unfold sout0_B_0 kernelRun0_B
  dsimp only
  sl_unfold_words
  rw [View.canon_unit_zero (S := S8000x64) hz0]
  simp only [View.readAt_eq_ld, harg2.read_unread, harg3.read_unread, harg4.read_unread, harg6.read_unread, View.ld_unit_zero (S := S8000x1) hz0, View.ld_unit_zero (S := S8000x64) hz0]
  try rfl

end Cert.KernelIdeal.Hand

end
-- ==== Proof.KI.G0.RunC.lean ====
import proofs.«406629_j10943576670300_1_alg».proof.Proof.KI.G0.RunB

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun0_C (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) :
    Σ' (L3 : List (View.Piece (Elt F) S8000x64 .bf16)), { LS0 : List (View.Piece (Elt F) S8000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel i arg2 harg2 arg3 harg3 arg4 harg4 arg5 harg5 arg6 harg6) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover0_C_3 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) (y : S8000x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8000x64.size (by sl_kernel_rfl) y

def out0_C_3 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) : Vec F S8000x64 .bf16 :=
  View.canon (kernelRun0_C c i arg2 harg2 arg3 harg3 arg4 harg4 arg5 harg5 arg6 harg6 hc0 hc1 x0 x1 x2 xs0).1

theorem scover0_C_0 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) (y : S8000x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8000x64.size (by sl_kernel_rfl) y

def sout0_C_0 (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) : Vec F S8000x64 .f32 :=
  View.canon (kernelRun0_C c i arg2 harg2 arg3 harg3 arg4 harg4 arg5 harg5 arg6 harg6 hc0 hc1 x0 x1 x2 xs0).2.1

theorem sout0_C_0_eq (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) :
    sout0_C_0 c i arg2 harg2 arg3 harg3 arg4 harg4 arg5 harg5 arg6 harg6 hc0 hc1 x0 x1 x2 xs0 = k0_pay2 i x0 (View.ld x2 (r0_x i)) xs0 := by
  unfold sout0_C_0 kernelRun0_C
  dsimp only
  sl_unfold_words
  rw [View.canon_unit_zero (S := S8000x64) hz0]
  simp only [View.readAt_eq_ld, harg2.read_unread, harg3.read_unread, harg4.read_unread, harg6.read_unread, View.ld_unit_zero (S := S8000x1) hz0, View.ld_unit_zero (S := S8000x64) hz0]
  try rfl

theorem out0_C_3_eq (c : Dev nD) (i : grid0.Coords) (arg2 : Memref sig .tc .vmem S8000x1 .i32) (harg2 : arg2.IsWhole) (arg3 : Memref sig .tc .vmem S8000x1 .f32) (harg3 : arg3.IsWhole) (arg4 : Memref sig .tc .vmem S150528x64 .bf16) (harg4 : arg4.IsWhole) (arg5 : Memref sig .tc .vmem S8000x64 .bf16) (harg5 : arg5.IsWhole) (arg6 : Memref sig .tc .vmem S8000x64 .f32) (harg6 : arg6.IsWhole) (hc0 : ¬cond0_0 i) (hc1 : cond0_1 i)
    (x0 : Vec F S8000x1 .i32) (x1 : Vec F S8000x1 .f32) (x2 : Vec F S150528x64 .bf16) (xs0 : Vec F S8000x64 .f32) :
    out0_C_3 c i arg2 harg2 arg3 harg3 arg4 harg4 arg5 harg5 arg6 harg6 hc0 hc1 x0 x1 x2 xs0 = k0_pay3 (sout0_C_0 c i arg2 harg2 arg3 harg3 arg4 harg4 arg5 harg5 arg6 harg6 hc0 hc1 x0 x1 x2 xs0) x1 := by
  rw [sout0_C_0_eq]
  unfold out0_C_3 kernelRun0_C
  dsimp only
  sl_unfold_words
  rw [View.canon_unit_zero (S := S8000x64) hz0, View.readCov_unit_zero (S := S8000x64) _ hz0]
  simp only [View.readAt_eq_ld, harg2.read_unread, harg3.read_unread, harg4.read_unread, harg6.read_unread, View.ld_unit_zero (S := S8000x1) hz0, View.ld_unit_zero (S := S8000x64) hz0]
  try rfl

end Cert.KernelIdeal.Hand

end
-- ==== Proof.KI.G0.Frame.lean ====
import proofs.«406629_j10943576670300_1_alg».proof.Proof.KI.G0.RunC
import proofs.«406629_j10943576670300_1_alg».proof.Proof.KI.PointsP

set_option maxRecDepth 16384

noncomputable section
namespace Cert.KernelIdeal.Hand
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem stride0_1 : grid0.stride 1 = 1 := by decide

theorem coords0_1 (t : Fin cfg0.N) : (grid0.coords t 1).val = t.val % 147 := by
  show t.val / grid0.stride 1 % 147 = t.val % 147
  rw [stride0_1, Nat.div_one]

-- a point's column is its number modulo 147, so the body's two conditions are congruences on the point's number
theorem hcond0_0 (t : Fin cfg0.N) : cond0_0 (grid0.coords t) ↔ t.val % 147 = 0 := by
  rw [← coords0_1 t]; exact cond0_0_iff (grid0.coords t 1)

theorem hcond0_1 (t : Fin cfg0.N) : cond0_1 (grid0.coords t) ↔ t.val % 147 = 146 := by
  rw [← coords0_1 t]; exact cond0_1_iff (grid0.coords t 1)

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem iblk0_eq (c : Dev nD) (w : Fin cfg0.W) (t : Fin cfg0.N) :
    iblk0 V c w t = ((cfg0.win w).blk t).view.read (Elt F) (V c (Pipeline.arrRef spec0 w)) := rfl

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

theorem idleAt0_3 (i : grid0.Coords) (h1 : ¬cond0_1 i) : cfg0.idle 3 i = true := by
  show (!(decide (cond0_1 i))) = true
  rw [decide_eq_false h1]; rfl

theorem liveAt0_3 (i : grid0.Coords) (h1 : cond0_1 i) : cfg0.idle 3 i = false := by
  show (!(decide (cond0_1 i))) = false
  rw [decide_eq_true h1]; rfl

abbrev ms0_0 (t : Fin cfg0.N) : Memref sig .tc .vmem S8000x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S150528x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8000x64 .bf16 := win0_3.stage (cfg0.slots t 3)
abbrev hs0_3 (t : Fin cfg0.N) : (ms0_3 t).IsWhole := hstage0_3 ((cfg0.slots t 3).cast nbuf0_3)

abbrev scM0_0 : Memref sig .tc .vmem S8000x64 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop((∃ d, owns (c : Thread nD τ) scM0_0 fullShare d)) ∗ rest0 (F := F) c) ∗ (∃ r, prngReg c r)) := by
  unfold Pipeline.ΦA; rw [scopedRest0_split]; simp only [scM0_0, owns_whole]; try rfl

set_option maxRecDepth 65536 in
theorem bodyAt0_eq (t : Fin cfg0.N) : bodyAt0 (F := F) t = cc0__gather_kernel (grid0.coords t) (ms0_0 t) (hs0_0 t) (ms0_1 t) (hs0_1 t) (ms0_2 t) (hs0_2 t) (ms0_3 t) (hs0_3 t) scM0_0 (Memref.isWhole_whole _) := rfl

-- the output block and the accumulator after point n, by recursion on n: the case n's column selects, over what point n - 1 left
def outsAt0 (c : Dev nD) : (n : ℕ) → n < cfg0.N → Vec F S8000x64 .bf16 × Vec F S8000x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 147 = 0 then
      if h1 : (n + 1) % 147 = 146 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 147 = 146 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 147 = 0) (h1 : ¬t.val % 147 = 146) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 147 = 0) (h1 : ¬t.val % 147 = 146) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 147 = 0) (h1 : t.val % 147 = 146) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem noFlush0_3 (t : Fin cfg0.N) (h1 : ¬t.val % 147 = 146) : (cfg0.win 3).flush t = false :=
  Bool.eq_false_iff.mpr fun h => h1 ((flush0_3 t).mp h)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

-- the body at a point takes the invariant before it to the invariant after it and leaves each input block as it was
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0; rw [bodyAt0_eq]
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 55125 := lt_of_lt_of_eq t.isLt (show cfg0.N = 55125 from N_0)
  by_cases h0 : t.val % 147 = 0
  · by_cases h1 : t.val % 147 = 146
    · exfalso; omega
    · rw [Dat.leavesExact_idle (dat0 V c) 3 t (idleAt0_3 (grid0.coords t) (fun h => h1 ((hcond0_1 t).mp h))) (noFlush0_3 t h1)]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        iframe H0 H1 H2 H3
        isplitl [HS0]; · iexists _; iexact HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3

  · by_cases h1 : t.val % 147 = 146
    · rw [show (dat0 V c).leavesExact 3 t = owns (c : Thread nD τ) (ms0_3 t) fullShare ((dat0 V c).after 3 t) from by
        unfold Dat.leavesExact; rw [liveAt0_3 (grid0.coords t) ((hcond0_1 t).mpr h1)], after0_3]
      rw [outsAt0_C V c t h0 h1]
      unfold out0_C_3 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        iframe Hr Hg Ho H0 H1 H2
        isplitl [HS0]
        · unfold owns; iexists _; isplitr
          swap; · iexact HS0
          ipureintro; exact View.read_writes_eq_canon _ _ _ (scover0_C_0 c _ _ _ _ _ _ _ _ _ _ _ _ _ _ _ _ _)
        unfold owns; iexists _; isplitr
        swap; · iexact H3
        ipureintro; exact View.read_writes_eq_canon _ _ _ (cover0_C_3 c _ _ _ _ _ _ _ _ _ _ _ _ _ _ _ _ _)
    · rw [Dat.leavesExact_idle (dat0 V c) 3 t (idleAt0_3 (grid0.coords t) (fun h => h1 ((hcond0_1 t).mp h))) (noFlush0_3 t h1)]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_B_0 c _ _ _ _ _ _ _ _ _ _ _ _ _ _ _ _ _)
        iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 55125 := N_0; omega)

def xs0 (c : Dev nD) (t : Fin cfg0.N) : Vec F S1024x64 .bf16 := View.ld (iblk0 V c 2 t) (r0_x (grid0.coords t))

-- the rows a point loads are rows 1024 * column + j of the table
theorem xs0_apply (c : Dev nD) (t : Fin cfg0.N) (j : Fin 1024) (d : Fin 64) (n : Fin 150528) (hn : n.val = (grid0.coords t 1).val * 1024 + j.val) :
    (xs0 V c t : Vec F S1024x64 .bf16) (ix2 j d) = (V c (Pipeline.arrRef spec0 2) : S150528x64.Idx → Elt F .bf16) (ix2 n d) := by
  unfold xs0 iblk0
  show ((cfg0.win 2).blk t).view.read (Elt F) (V c (Pipeline.arrRef spec0 2)) ((r0_x (grid0.coords t)).idx (ix2 j d)) = _
  rw [View.read_apply]
  show (V c (Pipeline.arrRef spec0 2) : S150528x64.Idx → Elt F .bf16) _ = (V c (Pipeline.arrRef spec0 2) : S150528x64.Idx → Elt F .bf16) _
  congr 1
  funext a
  apply Fin.ext
  match a with
  | ⟨0, _⟩ =>
    show 0 * 150528 + 1 * (k0_off1 (grid0.coords t) 0 + 1 * j.val) = n.val
    rw [k0_off1_0, hn]; omega
  | ⟨1, _⟩ =>
    show 0 * 64 + 1 * (k0_off1 (grid0.coords t) 1 + 1 * d.val) = d.val
    rw [k0_off1_1]; omega

-- at a row's first column the accumulator restarts with the point's product
theorem acc0_first (c : Dev nD) (t : Fin cfg0.N) (hk : (grid0.coords t 1).val = 0) :
    (outsAt0 V c t.val t.isLt).2 = k0_pay2 (grid0.coords t) (iblk0 V c 0 t) (xs0 V c t) (k0_pay1 (F := F)) := by
  have h0 : t.val % 147 = 0 := by rw [← coords0_1 t]; exact hk
  have h1 : ¬t.val % 147 = 146 := by omega
  rw [outsAt0_A V c t h0 h1]; dsimp only
  exact sout0_A_0_eq c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)

-- at every other column the point's product is added to what the point before left
theorem acc0_next (c : Dev nD) (t : Fin cfg0.N) (hk : (grid0.coords t 1).val ≠ 0) :
    (outsAt0 V c t.val t.isLt).2 = k0_pay2 (grid0.coords t) (iblk0 V c 0 t) (xs0 V c t) (outsAt0 V c (t.val - 1) (by omega)).2 := by
  have h0 : ¬t.val % 147 = 0 := by rw [← coords0_1 t]; exact hk
  by_cases h1 : t.val % 147 = 146
  · rw [outsAt0_C V c t h0 h1]; dsimp only
    exact sout0_C_0_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2
  · rw [outsAt0_B V c t h0 h1]; dsimp only
    exact sout0_B_0_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2

-- at a row's last column the output block is the accumulator scaled by the weights
theorem out0_last (c : Dev nD) (t : Fin cfg0.N) (hk : (grid0.coords t 1).val = 146) :
    (outsAt0 V c t.val t.isLt).1 = k0_pay3 (outsAt0 V c t.val t.isLt).2 (iblk0 V c 1 t) := by
  have h1 : t.val % 147 = 146 := by rw [← coords0_1 t]; exact hk
  have h0 : ¬t.val % 147 = 0 := by omega
  rw [outsAt0_C V c t h0 h1]; dsimp only
  exact out0_C_3_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2

end Cert.KernelIdeal.Hand

end
-- ==== Proof.KI.S1.Runs.lean ====
import proofs.«406629_j10943576670300_1_alg».proof.Proof.Gen.KernelIdeal.Launch
import proofs.«406629_j10943576670300_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem cond1_0_k : ∀ k : Fin 375, ((Scalar.cmpi .ne (Scalar.extui (Scalar.cmpi .eq (BitVec.ofNat 32 k.val) 0#32)) 0#32) = 1#1) ↔ k.val = 0 := by
  decide +kernel

abbrev cond1_1 (i : grid1.Coords) : Prop := k1_cond2 i = 1#1

theorem cond1_1_k : ∀ k : Fin 375, ((Scalar.cmpi .ne (Scalar.extui (Scalar.cmpi .eq (BitVec.ofNat 32 k.val) 374#32)) 0#32) = 1#1) ↔ k.val = 374 := by
  decide +kernel

abbrev VO1_3 : View sig .tc .vmem S1024x64 .f32 := (Memref.whole cc1_stg3_0 : Memref sig .tc .vmem S1024x64 .f32).view

abbrev VS1_0 : View sig .tc .vmem S1024x64 .f32 := (Memref.whole cc1_scratch0 : Memref sig .tc .vmem S1024x64 .f32).view

theorem hz2 : (![0, 0] : Fin 2 → ℕ) = fun _ => 0 := by funext a; fin_cases a <;> rfl

end Cert.KernelIdeal.Hand

end
-- ==== Proof.KI.S1.RunA.lean ====
import proofs.«406629_j10943576670300_1_alg».proof.Proof.KI.S1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S8000x1 .i32) (x1 : Vec F S8000x64 .bf16) (x2 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out1_A_3 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S8000x1 .i32) (x1 : Vec F S8000x64 .bf16) (x2 : Vec F S1024x64 .f32) : Vec F S1024x64 .f32 :=
  VO1_3.read (Elt F) (VO1_3.writes (Elt F) VO1_3.junk (kernelRun1_A c i arg2 harg2 arg3 harg3 arg4 harg4 arg5 harg5 arg6 harg6 hc0 hc1 x0 x1 x2).1)

theorem scover1_A_0 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S8000x1 .i32) (x1 : Vec F S8000x64 .bf16) (x2 : Vec F S1024x64 .f32) (y : S1024x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x64.size (by sl_kernel_rfl) y

def sout1_A_0 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S8000x1 .i32) (x1 : Vec F S8000x64 .bf16) (x2 : Vec F S1024x64 .f32) : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)

theorem sout1_A_0_eq (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S8000x1 .i32) (x1 : Vec F S8000x64 .bf16) (x2 : Vec F S1024x64 .f32) :
    sout1_A_0 c i arg2 harg2 arg3 harg3 arg4 harg4 arg5 harg5 arg6 harg6 hc0 hc1 x0 x1 x2 = k1_pay2 i x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x64) hz2]
  simp only [View.readAt_eq_ld, harg2.read_unread, harg3.read_unread, View.readCov_unit_zero (S := S1024x64) _ hz2,
    View.ld_unit_zero (S := S8000x1) hz2, View.ld_unit_zero (S := S8000x64) hz2, View.ld_unit_zero (S := S1024x64) hz2]

end Cert.KernelIdeal.Hand

end
-- ==== Proof.KI.S1.RunB.lean ====
import proofs.«406629_j10943576670300_1_alg».proof.Proof.KI.S1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S8000x1 .i32) (x1 : Vec F S8000x64 .bf16) (x2 : Vec F S1024x64 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

def out1_B_3 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S8000x1 .i32) (x1 : Vec F S8000x64 .bf16) (x2 : Vec F S1024x64 .f32) (xs0 : Vec F S1024x64 .f32) : Vec F S1024x64 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B_0 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S8000x1 .i32) (x1 : Vec F S8000x64 .bf16) (x2 : Vec F S1024x64 .f32) (xs0 : Vec F S1024x64 .f32) (y : S1024x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x64.size (by sl_kernel_rfl) y

def sout1_B_0 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S8000x1 .i32) (x1 : Vec F S8000x64 .bf16) (x2 : Vec F S1024x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)

theorem sout1_B_0_eq (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S8000x1 .i32) (x1 : Vec F S8000x64 .bf16) (x2 : Vec F S1024x64 .f32) (xs0 : Vec F S1024x64 .f32) :
    sout1_B_0 c i arg2 harg2 arg3 harg3 arg4 harg4 arg5 harg5 arg6 harg6 hc0 hc1 x0 x1 x2 xs0 = k1_pay2 i x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S1024x64) hz2]
  simp only [View.readAt_eq_ld, harg2.read_unread, harg3.read_unread, harg4.read_unread, harg6.read_unread,
    View.ld_unit_zero (S := S8000x1) hz2, View.ld_unit_zero (S := S8000x64) hz2, View.ld_unit_zero (S := S1024x64) hz2]

end Cert.KernelIdeal.Hand

end
-- ==== Proof.KI.S1.RunC.lean ====
import proofs.«406629_j10943576670300_1_alg».proof.Proof.KI.S1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover1_C_3 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) (y : S1024x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x64.size (by sl_kernel_rfl) y

def out1_C_3 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) : Vec F S1024x64 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C_0 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) (y : S1024x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x64.size (by sl_kernel_rfl) y

def sout1_C_0 (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)

theorem sout1_C_0_eq (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) :
    sout1_C_0 c i arg2 harg2 arg3 harg3 arg4 harg4 arg5 harg5 arg6 harg6 hc0 hc1 x0 x1 x2 xs0 = k1_pay2 i x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S1024x64) hz2]
  simp only [View.readAt_eq_ld, harg2.read_unread, harg3.read_unread, harg6.read_unread,
    View.ld_unit_zero (S := S8000x1) hz2, View.ld_unit_zero (S := S8000x64) hz2, View.ld_unit_zero (S := S1024x64) hz2]

theorem out1_C_3_eq (c : Dev nD) (i : grid1.Coords) (arg2 : Memref sig .tc .vmem S8000x1 .i32) (harg2 : arg2.IsWhole) (arg3 : Memref sig .tc .vmem S8000x64 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S8000x1 .i32) (x1 : Vec F S8000x64 .bf16) (x2 : Vec F S1024x64 .f32) (xs0 : Vec F S1024x64 .f32) :
    out1_C_3 c i arg2 harg2 arg3 harg3 arg4 harg4 arg5 harg5 arg6 harg6 hc0 hc1 x0 x1 x2 xs0 = k1_pay3 (k1_pay2 i x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S1024x64) hz2]
  simp only [View.readAt_eq_ld, harg2.read_unread, harg3.read_unread, harg4.read_unread, harg6.read_unread,
    View.readCov_unit_zero (S := S1024x64) _ hz2, View.ld_unit_zero (S := S8000x1) hz2, View.ld_unit_zero (S := S8000x64) hz2, View.ld_unit_zero (S := S1024x64) hz2]

end Cert.KernelIdeal.Hand

end
-- ==== Proof.KI.S1.Frame.lean ====
import proofs.«406629_j10943576670300_1_alg».proof.Proof.KI.S1.RunC
import proofs.«406629_j10943576670300_1_alg».proof.Proof.KI.PointsP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem coords1_1 (t : Fin cfg1.N) : (grid1.coords t 1).val = t.val % 375 := by
  show t.val / grid1.stride 1 % 375 = t.val % 375
  rw [show grid1.stride 1 = 1 from by decide, Nat.div_one]

theorem coords1_0 (t : Fin cfg1.N) : (grid1.coords t 0).val = t.val / 375 := by
  show t.val / grid1.stride 0 % 147 = t.val / 375
  rw [show grid1.stride 0 = 375 from by decide]
  have hN : t.val < 55125 := lt_of_lt_of_eq t.isLt (show cfg1.N = 55125 from N_1)
  exact Nat.mod_eq_of_lt (by omega)

theorem hcond1_0 : ∀ t : Fin cfg1.N, cond1_0 (grid1.coords t) ↔ t.val % 375 = 0 := fun t =>
  (cond1_0_k (grid1.coords t 1)).trans (by rw [coords1_1])

theorem hcond1_1 : ∀ t : Fin cfg1.N, cond1_1 (grid1.coords t) ↔ t.val % 375 = 374 := fun t =>
  (cond1_1_k (grid1.coords t 1)).trans (by rw [coords1_1])

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := fun t h => by
  show (!(k1_cond2 (grid1.coords t) == 1#1)) = true
  rw [Bool.not_eq_true', beq_eq_false_iff_ne]; exact h

theorem noFlush1_3 : ∀ t : Fin cfg1.N, ¬cond1_1 (grid1.coords t) → (cfg1.win 3).flush t = false := fun t h =>
  Bool.eq_false_iff.mpr fun hf => h ((hcond1_1 t).mpr ((flush1_3 t).mp hf))

theorem liveAt1_3 : ∀ t : Fin cfg1.N, cond1_1 (grid1.coords t) → cfg1.idle 3 (grid1.coords t) = false := fun t h => by
  show (!(k1_cond2 (grid1.coords t) == 1#1)) = false
  rw [Bool.not_eq_false', beq_iff_eq]; exact h

abbrev ms1_0 (t : Fin cfg1.N) : Memref sig .tc .vmem S8000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8000x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)

abbrev scM1_0 : Memref sig .tc .vmem S1024x64 .f32 := Memref.whole cc1_scratch0

theorem bodyAt1_eq (t : Fin cfg1.N) :
    bodyAt1 (F := F) t = cc1__scatter_kernel (grid1.coords t) (ms1_0 t) (hs1_0 t) (ms1_1 t) (hs1_1 t) (ms1_2 t) (hs1_2 t) (ms1_3 t) (hs1_3 t) scM1_0 (Memref.isWhole_whole _) := rfl

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

def pair1_A (c : Dev nD) (t : Fin cfg1.N) (h0 : cond1_0 (grid1.coords t)) (h1 : ¬cond1_1 (grid1.coords t)) : Vec F S1024x64 .f32 × Vec F S1024x64 .f32 :=
  (out1_A_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t))

def pair1_B (c : Dev nD) (t : Fin cfg1.N) (h0 : ¬cond1_0 (grid1.coords t)) (h1 : ¬cond1_1 (grid1.coords t)) (prev : Vec F S1024x64 .f32) : Vec F S1024x64 .f32 × Vec F S1024x64 .f32 :=
  (out1_B_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev,
   sout1_B_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev)

def pair1_C (c : Dev nD) (t : Fin cfg1.N) (h0 : ¬cond1_0 (grid1.coords t)) (h1 : cond1_1 (grid1.coords t)) (prev : Vec F S1024x64 .f32) : Vec F S1024x64 .f32 × Vec F S1024x64 .f32 :=
  (out1_C_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev,
   sout1_C_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev)

-- the output block and the accumulator after point n, by recursion on n: the case n's column selects, over what point n - 1 left
def outsAt1 (c : Dev nD) : (n : ℕ) → n < cfg1.N → Vec F S1024x64 .f32 × Vec F S1024x64 .f32
  | 0, hn => pair1_A V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 375 = 0 then
      if h1 : (n + 1) % 375 = 374 then
        False.elim (by omega)
      else
        pair1_A V c ⟨n + 1, hn⟩ ((hcond1_0 ⟨n + 1, hn⟩).mpr h0) (fun h => h1 ((hcond1_1 ⟨n + 1, hn⟩).mp h))
    else
      if h1 : (n + 1) % 375 = 374 then
        pair1_C V c ⟨n + 1, hn⟩ (fun h => h0 ((hcond1_0 ⟨n + 1, hn⟩).mp h)) ((hcond1_1 ⟨n + 1, hn⟩).mpr h1) (outsAt1 c n (Nat.lt_of_succ_lt hn)).2
      else
        pair1_B V c ⟨n + 1, hn⟩ (fun h => h0 ((hcond1_0 ⟨n + 1, hn⟩).mp h)) (fun h => h1 ((hcond1_1 ⟨n + 1, hn⟩).mp h)) (outsAt1 c n (Nat.lt_of_succ_lt hn)).2

theorem outsAt1_A (c : Dev nD) (t : Fin cfg1.N) (h0 : t.val % 375 = 0) (h1 : ¬t.val % 375 = 374) :
    outsAt1 V c t.val t.isLt = pair1_A V c t ((hcond1_0 t).mpr h0) (fun h => h1 ((hcond1_1 t).mp h)) := by
  obtain ⟨n, hn⟩ := t
  cases n with
  | zero => exact rfl
  | succ n => exact (dif_pos h0).trans ((dif_neg h1).trans rfl)

theorem outsAt1_B (c : Dev nD) (t : Fin cfg1.N) (h0 : ¬t.val % 375 = 0) (h1 : ¬t.val % 375 = 374) :
    outsAt1 V c t.val t.isLt = pair1_B V c t (fun h => h0 ((hcond1_0 t).mp h)) (fun h => h1 ((hcond1_1 t).mp h)) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 375 = 0) (h1 : t.val % 375 = 374) :
    outsAt1 V c t.val t.isLt = pair1_C V c t (fun h => h0 ((hcond1_0 t).mp h)) ((hcond1_1 t).mpr h1) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- the body at a point takes the invariant before it to the invariant after it and leaves each input block as it was
set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  rw [bodyAt1_eq]
  unfold bodyPre1 bodyPost1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 55125 := lt_of_lt_of_eq t.isLt (show cfg1.N = 55125 from N_1)
  by_cases h0 : t.val % 375 = 0
  · by_cases h1 : t.val % 375 = 374
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold pair1_A sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        iframe H0 H1 H2 H3
        isplitl [HS0]; · iexists _; iexact HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
  · by_cases h1 : t.val % 375 = 374
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold pair1_C out1_C_3 sout1_C_0; (try dsimp only)
      have hz : t.val ≠ 0 := fun hz => h0 (by rw [hz])
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold pair1_B sout1_B_0; (try dsimp only)
      have hz : t.val ≠ 0 := fun hz => h0 (by rw [hz])
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 55125 := N_1; omega)

-- at a row's first column the accumulator restarts with the point's product
theorem acc1_first (c : Dev nD) (t : Fin cfg1.N) (hk : (grid1.coords t 1).val = 0) :
    (outsAt1 V c t.val t.isLt).2 = k1_pay2 (grid1.coords t) (iblk1 V c 0 t) (iblk1 V c 1 t) (k1_pay1 (F := F)) := by
  have h0 : t.val % 375 = 0 := by rw [← coords1_1]; exact hk
  have h1 : ¬t.val % 375 = 374 := by omega
  rw [outsAt1_A V c t h0 h1]
  unfold pair1_A; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

-- at every other column the point's product is added to what the point before left
theorem acc1_next (c : Dev nD) (t : Fin cfg1.N) (hk : (grid1.coords t 1).val ≠ 0) :
    (outsAt1 V c t.val t.isLt).2 = k1_pay2 (grid1.coords t) (iblk1 V c 0 t) (iblk1 V c 1 t) (outsAt1 V c (t.val - 1) (by omega)).2 := by
  have h0 : ¬t.val % 375 = 0 := by rw [← coords1_1]; exact hk
  by_cases h1 : t.val % 375 = 374
  · rw [outsAt1_C V c t h0 h1]
    unfold pair1_C; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    unfold pair1_B; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

-- at a row's last column the output block is the accumulator plus half of the node's rows
theorem out1_last (c : Dev nD) (t : Fin cfg1.N) (hk : (grid1.coords t 1).val = 374) :
    (outsAt1 V c t.val t.isLt).1 = k1_pay3 (outsAt1 V c t.val t.isLt).2 (iblk1 V c 2 t) := by
  have h1 : t.val % 375 = 374 := by rw [← coords1_1]; exact hk
  have h0 : ¬t.val % 375 = 0 := by omega
  rw [outsAt1_C V c t h0 h1]
  unfold pair1_C; dsimp only
  exact (out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).trans
    (congrArg (fun a => k1_pay3 a (iblk1 V c 2 t)) (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).symm)

end Cert.KernelIdeal.Hand

end
-- ==== Proof.KI.G2.Frame.lean ====
import proofs.«406629_j10943576670300_1_alg».proof.Proof.KI.G0.RunC
import proofs.«406629_j10943576670300_1_alg».proof.Proof.KI.PointsP

set_option maxRecDepth 16384

noncomputable section
namespace Cert.KernelIdeal.Hand
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem stride2_1 : grid2.stride 1 = 1 := by decide

theorem coords2_1 (t : Fin cfg2.N) : (grid2.coords t 1).val = t.val % 147 := by
  show t.val / grid2.stride 1 % 147 = t.val % 147
  rw [stride2_1, Nat.div_one]

-- a point's column is its number modulo 147, so the body's two conditions are congruences on the point's number
theorem hcond2_0 (t : Fin cfg2.N) : cond0_0 (grid2.coords t) ↔ t.val % 147 = 0 := by
  rw [← coords2_1 t]; exact cond0_0_iff (grid2.coords t 1)

theorem hcond2_1 (t : Fin cfg2.N) : cond0_1 (grid2.coords t) ↔ t.val % 147 = 146 := by
  rw [← coords2_1 t]; exact cond0_1_iff (grid2.coords t 1)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem iblk2_eq (c : Dev nD) (w : Fin cfg2.W) (t : Fin cfg2.N) :
    iblk2 V c w t = ((cfg2.win w).blk t).view.read (Elt F) (V c (Pipeline.arrRef spec2 w)) := rfl

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl

theorem idleAt2_3 (i : grid2.Coords) (h1 : ¬cond0_1 i) : cfg2.idle 3 i = true := by
  show (!(decide (cond0_1 i))) = true
  rw [decide_eq_false h1]; rfl

theorem liveAt2_3 (i : grid2.Coords) (h1 : cond0_1 i) : cfg2.idle 3 i = false := by
  show (!(decide (cond0_1 i))) = false
  rw [decide_eq_true h1]; rfl

abbrev ms2_0 (t : Fin cfg2.N) : Memref sig .tc .vmem S8000x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S150528x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8000x64 .bf16 := win2_3.stage (cfg2.slots t 3)
abbrev hs2_3 (t : Fin cfg2.N) : (ms2_3 t).IsWhole := hstage2_3 ((cfg2.slots t 3).cast nbuf2_3)

abbrev scM2_0 : Memref sig .tc .vmem S8000x64 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

set_option maxRecDepth 65536 in
theorem bodyAt2_eq (t : Fin cfg2.N) : bodyAt2 (F := F) t = cc0__gather_kernel (grid2.coords t) (ms2_0 t) (hs2_0 t) (ms2_1 t) (hs2_1 t) (ms2_2 t) (hs2_2 t) (ms2_3 t) (hs2_3 t) scM2_0 (Memref.isWhole_whole _) := rfl

-- the output block and the accumulator after point n, by recursion on n: the case n's column selects, over what point n - 1 left
def outsAt2 (c : Dev nD) : (n : ℕ) → n < cfg2.N → Vec F S8000x64 .bf16 × Vec F S8000x64 .f32
  | 0, hn => (out0_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout0_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 147 = 0 then
      if h1 : (n + 1) % 147 = 146 then
        False.elim (by omega)
      else
        (out0_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout0_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 147 = 146 then
        (out0_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout0_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out0_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout0_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 147 = 0) (h1 : ¬t.val % 147 = 146) :
    outsAt2 V c t.val t.isLt = (out0_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout0_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 147 = 0) (h1 : ¬t.val % 147 = 146) :
    outsAt2 V c t.val t.isLt = (out0_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout0_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 147 = 0) (h1 : t.val % 147 = 146) :
    outsAt2 V c t.val t.isLt = (out0_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout0_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem noFlush2_3 (t : Fin cfg2.N) (h1 : ¬t.val % 147 = 146) : (cfg2.win 3).flush t = false :=
  Bool.eq_false_iff.mpr fun h => h1 ((flush2_3 t).mp h)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

-- the body at a point takes the invariant before it to the invariant after it and leaves each input block as it was
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2; rw [bodyAt2_eq]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 55125 := lt_of_lt_of_eq t.isLt (show cfg2.N = 55125 from N_2)
  by_cases h0 : t.val % 147 = 0
  · by_cases h1 : t.val % 147 = 146
    · exfalso; omega
    · rw [Dat.leavesExact_idle (dat2 V c) 3 t (idleAt2_3 (grid2.coords t) (fun h => h1 ((hcond2_1 t).mp h))) (noFlush2_3 t h1)]
      rw [outsAt2_A V c t h0 h1]
      unfold sout0_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun0_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        iframe H0 H1 H2 H3
        isplitl [HS0]; · iexists _; iexact HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3

  · by_cases h1 : t.val % 147 = 146
    · rw [show (dat2 V c).leavesExact 3 t = owns (c : Thread nD τ) (ms2_3 t) fullShare ((dat2 V c).after 3 t) from by
        unfold Dat.leavesExact; rw [liveAt2_3 (grid2.coords t) ((hcond2_1 t).mpr h1)], after2_3]
      rw [outsAt2_C V c t h0 h1]
      unfold out0_C_3 sout0_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        iframe Hr Hg Ho H0 H1 H2
        isplitl [HS0]
        · unfold owns; iexists _; isplitr
          swap; · iexact HS0
          ipureintro; exact View.read_writes_eq_canon _ _ _ (scover0_C_0 c _ _ _ _ _ _ _ _ _ _ _ _ _ _ _ _ _)
        unfold owns; iexists _; isplitr
        swap; · iexact H3
        ipureintro; exact View.read_writes_eq_canon _ _ _ (cover0_C_3 c _ _ _ _ _ _ _ _ _ _ _ _ _ _ _ _ _)
    · rw [Dat.leavesExact_idle (dat2 V c) 3 t (idleAt2_3 (grid2.coords t) (fun h => h1 ((hcond2_1 t).mp h))) (noFlush2_3 t h1)]
      rw [outsAt2_B V c t h0 h1]
      unfold sout0_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_B_0 c _ _ _ _ _ _ _ _ _ _ _ _ _ _ _ _ _)
        iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 55125 := N_2; omega)

def xs2 (c : Dev nD) (t : Fin cfg2.N) : Vec F S1024x64 .bf16 := View.ld (iblk2 V c 2 t) (r0_x (grid2.coords t))

-- the rows a point loads are rows 1024 * column + j of the table
theorem xs2_apply (c : Dev nD) (t : Fin cfg2.N) (j : Fin 1024) (d : Fin 64) (n : Fin 150528) (hn : n.val = (grid2.coords t 1).val * 1024 + j.val) :
    (xs2 V c t : Vec F S1024x64 .bf16) (ix2 j d) = (V c (Pipeline.arrRef spec2 2) : S150528x64.Idx → Elt F .bf16) (ix2 n d) := by
  unfold xs2 iblk2
  show ((cfg2.win 2).blk t).view.read (Elt F) (V c (Pipeline.arrRef spec2 2)) ((r0_x (grid2.coords t)).idx (ix2 j d)) = _
  rw [View.read_apply]
  show (V c (Pipeline.arrRef spec2 2) : S150528x64.Idx → Elt F .bf16) _ = (V c (Pipeline.arrRef spec2 2) : S150528x64.Idx → Elt F .bf16) _
  congr 1
  funext a
  apply Fin.ext
  match a with
  | ⟨0, _⟩ =>
    show 0 * 150528 + 1 * (k0_off1 (grid2.coords t) 0 + 1 * j.val) = n.val
    rw [k0_off1_0, hn]; omega
  | ⟨1, _⟩ =>
    show 0 * 64 + 1 * (k0_off1 (grid2.coords t) 1 + 1 * d.val) = d.val
    rw [k0_off1_1]; omega

-- at a row's first column the accumulator restarts with the point's product
theorem acc2_first (c : Dev nD) (t : Fin cfg2.N) (hk : (grid2.coords t 1).val = 0) :
    (outsAt2 V c t.val t.isLt).2 = k0_pay2 (grid2.coords t) (iblk2 V c 0 t) (xs2 V c t) (k0_pay1 (F := F)) := by
  have h0 : t.val % 147 = 0 := by rw [← coords2_1 t]; exact hk
  have h1 : ¬t.val % 147 = 146 := by omega
  rw [outsAt2_A V c t h0 h1]; dsimp only
  exact sout0_A_0_eq c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)

-- at every other column the point's product is added to what the point before left
theorem acc2_next (c : Dev nD) (t : Fin cfg2.N) (hk : (grid2.coords t 1).val ≠ 0) :
    (outsAt2 V c t.val t.isLt).2 = k0_pay2 (grid2.coords t) (iblk2 V c 0 t) (xs2 V c t) (outsAt2 V c (t.val - 1) (by omega)).2 := by
  have h0 : ¬t.val % 147 = 0 := by rw [← coords2_1 t]; exact hk
  by_cases h1 : t.val % 147 = 146
  · rw [outsAt2_C V c t h0 h1]; dsimp only
    exact sout0_C_0_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2
  · rw [outsAt2_B V c t h0 h1]; dsimp only
    exact sout0_B_0_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2

-- at a row's last column the output block is the accumulator scaled by the weights
theorem out2_last (c : Dev nD) (t : Fin cfg2.N) (hk : (grid2.coords t 1).val = 146) :
    (outsAt2 V c t.val t.isLt).1 = k0_pay3 (outsAt2 V c t.val t.isLt).2 (iblk2 V c 1 t) := by
  have h1 : t.val % 147 = 146 := by rw [← coords2_1 t]; exact hk
  have h0 : ¬t.val % 147 = 0 := by omega
  rw [outsAt2_C V c t h0 h1]; dsimp only
  exact out0_C_3_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2

end Cert.KernelIdeal.Hand

end
-- ==== Proof.KI.S3.Frame.lean ====
import proofs.«406629_j10943576670300_1_alg».proof.Proof.KI.S1.RunC
import proofs.«406629_j10943576670300_1_alg».proof.Proof.KI.PointsP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem coords3_1 (t : Fin cfg3.N) : (grid3.coords t 1).val = t.val % 375 := by
  show t.val / grid3.stride 1 % 375 = t.val % 375
  rw [show grid3.stride 1 = 1 from by decide, Nat.div_one]

theorem coords3_0 (t : Fin cfg3.N) : (grid3.coords t 0).val = t.val / 375 := by
  show t.val / grid3.stride 0 % 147 = t.val / 375
  rw [show grid3.stride 0 = 375 from by decide]
  have hN : t.val < 55125 := lt_of_lt_of_eq t.isLt (show cfg3.N = 55125 from N_3)
  exact Nat.mod_eq_of_lt (by omega)

theorem hcond3_0 : ∀ t : Fin cfg3.N, cond1_0 (grid3.coords t) ↔ t.val % 375 = 0 := fun t =>
  (cond1_0_k (grid3.coords t 1)).trans (by rw [coords3_1])

theorem hcond3_1 : ∀ t : Fin cfg3.N, cond1_1 (grid3.coords t) ↔ t.val % 375 = 374 := fun t =>
  (cond1_1_k (grid3.coords t 1)).trans (by rw [coords3_1])

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond1_1 (grid3.coords t) → cfg3.idle 3 (grid3.coords t) = true := fun t h => by
  show (!(k1_cond2 (grid3.coords t) == 1#1)) = true
  rw [Bool.not_eq_true', beq_eq_false_iff_ne]; exact h

theorem noFlush3_3 : ∀ t : Fin cfg3.N, ¬cond1_1 (grid3.coords t) → (cfg3.win 3).flush t = false := fun t h =>
  Bool.eq_false_iff.mpr fun hf => h ((hcond3_1 t).mpr ((flush3_3 t).mp hf))

theorem liveAt3_3 : ∀ t : Fin cfg3.N, cond1_1 (grid3.coords t) → cfg3.idle 3 (grid3.coords t) = false := fun t h => by
  show (!(k1_cond2 (grid3.coords t) == 1#1)) = false
  rw [Bool.not_eq_false', beq_iff_eq]; exact h

abbrev ms3_0 (t : Fin cfg3.N) : Memref sig .tc .vmem S8000x1 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8000x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .f32 := win3_3.stage (cfg3.slots t 3)
abbrev hs3_3 (t : Fin cfg3.N) : (ms3_3 t).IsWhole := hstage3_3 ((cfg3.slots t 3).cast nbuf3_3)

abbrev scM3_0 : Memref sig .tc .vmem S1024x64 .f32 := Memref.whole cc3_scratch0

theorem bodyAt3_eq (t : Fin cfg3.N) :
    bodyAt3 (F := F) t = cc1__scatter_kernel (grid3.coords t) (ms3_0 t) (hs3_0 t) (ms3_1 t) (hs3_1 t) (ms3_2 t) (hs3_2 t) (ms3_3 t) (hs3_3 t) scM3_0 (Memref.isWhole_whole _) := rfl

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

def pair3_A (c : Dev nD) (t : Fin cfg3.N) (h0 : cond1_0 (grid3.coords t)) (h1 : ¬cond1_1 (grid3.coords t)) : Vec F S1024x64 .f32 × Vec F S1024x64 .f32 :=
  (out1_A_3 c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t),
   sout1_A_0 c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t))

def pair3_B (c : Dev nD) (t : Fin cfg3.N) (h0 : ¬cond1_0 (grid3.coords t)) (h1 : ¬cond1_1 (grid3.coords t)) (prev : Vec F S1024x64 .f32) : Vec F S1024x64 .f32 × Vec F S1024x64 .f32 :=
  (out1_B_3 c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) prev,
   sout1_B_0 c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) prev)

def pair3_C (c : Dev nD) (t : Fin cfg3.N) (h0 : ¬cond1_0 (grid3.coords t)) (h1 : cond1_1 (grid3.coords t)) (prev : Vec F S1024x64 .f32) : Vec F S1024x64 .f32 × Vec F S1024x64 .f32 :=
  (out1_C_3 c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) prev,
   sout1_C_0 c (grid3.coords t) (ms3_0 t) (hs3_0 t) (ms3_1 t) (hs3_1 t) (ms3_2 t) (hs3_2 t) (ms3_3 t) (hs3_3 t) scM3_0 (Memref.isWhole_whole _) h0 h1 (iblk3 V c 0 t) (iblk3 V c 1 t) (iblk3 V c 2 t) prev)

-- the output block and the accumulator after point n, by recursion on n: the case n's column selects, over what point n - 1 left
def outsAt3 (c : Dev nD) : (n : ℕ) → n < cfg3.N → Vec F S1024x64 .f32 × Vec F S1024x64 .f32
  | 0, hn => pair3_A V c ⟨0, hn⟩ ((hcond3_0 ⟨0, hn⟩).mpr (Nat.zero_mod _)) (fun h => (fun h => by (try dsimp only at h); omega) ((hcond3_1 ⟨0, hn⟩).mp h))
  | n + 1, hn =>
    if h0 : (n + 1) % 375 = 0 then
      if h1 : (n + 1) % 375 = 374 then
        False.elim (by omega)
      else
        pair3_A V c ⟨n + 1, hn⟩ ((hcond3_0 ⟨n + 1, hn⟩).mpr h0) (fun h => h1 ((hcond3_1 ⟨n + 1, hn⟩).mp h))
    else
      if h1 : (n + 1) % 375 = 374 then
        pair3_C V c ⟨n + 1, hn⟩ (fun h => h0 ((hcond3_0 ⟨n + 1, hn⟩).mp h)) ((hcond3_1 ⟨n + 1, hn⟩).mpr h1) (outsAt3 c n (Nat.lt_of_succ_lt hn)).2
      else
        pair3_B V c ⟨n + 1, hn⟩ (fun h => h0 ((hcond3_0 ⟨n + 1, hn⟩).mp h)) (fun h => h1 ((hcond3_1 ⟨n + 1, hn⟩).mp h)) (outsAt3 c n (Nat.lt_of_succ_lt hn)).2

theorem outsAt3_A (c : Dev nD) (t : Fin cfg3.N) (h0 : t.val % 375 = 0) (h1 : ¬t.val % 375 = 374) :
    outsAt3 V c t.val t.isLt = pair3_A V c t ((hcond3_0 t).mpr h0) (fun h => h1 ((hcond3_1 t).mp h)) := by
  obtain ⟨n, hn⟩ := t
  cases n with
  | zero => exact rfl
  | succ n => exact (dif_pos h0).trans ((dif_neg h1).trans rfl)

theorem outsAt3_B (c : Dev nD) (t : Fin cfg3.N) (h0 : ¬t.val % 375 = 0) (h1 : ¬t.val % 375 = 374) :
    outsAt3 V c t.val t.isLt = pair3_B V c t (fun h => h0 ((hcond3_0 t).mp h)) (fun h => h1 ((hcond3_1 t).mp h)) (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 375 = 0) (h1 : t.val % 375 = 374) :
    outsAt3 V c t.val t.isLt = pair3_C V c t (fun h => h0 ((hcond3_0 t).mp h)) ((hcond3_1 t).mpr h1) (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

-- the body at a point takes the invariant before it to the invariant after it and leaves each input block as it was
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  rw [bodyAt3_eq]
  unfold bodyPre3 bodyPost3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 55125 := lt_of_lt_of_eq t.isLt (show cfg3.N = 55125 from N_3)
  by_cases h0 : t.val % 375 = 0
  · by_cases h1 : t.val % 375 = 374
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold pair3_A sout1_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun1_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        iframe H0 H1 H2 H3
        isplitl [HS0]; · iexists _; iexact HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
  · by_cases h1 : t.val % 375 = 374
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold pair3_C out1_C_3 sout1_C_0; (try dsimp only)
      have hz : t.val ≠ 0 := fun hz => h0 (by rw [hz])
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold pair3_B sout1_B_0; (try dsimp only)
      have hz : t.val ≠ 0 := fun hz => h0 (by rw [hz])
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 55125 := N_3; omega)

-- at a row's first column the accumulator restarts with the point's product
theorem acc3_first (c : Dev nD) (t : Fin cfg3.N) (hk : (grid3.coords t 1).val = 0) :
    (outsAt3 V c t.val t.isLt).2 = k1_pay2 (grid3.coords t) (iblk3 V c 0 t) (iblk3 V c 1 t) (k1_pay1 (F := F)) := by
  have h0 : t.val % 375 = 0 := by rw [← coords3_1]; exact hk
  have h1 : ¬t.val % 375 = 374 := by omega
  rw [outsAt3_A V c t h0 h1]
  unfold pair3_A; dsimp only
  exact sout1_A_0_eq c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)

-- at every other column the point's product is added to what the point before left
theorem acc3_next (c : Dev nD) (t : Fin cfg3.N) (hk : (grid3.coords t 1).val ≠ 0) :
    (outsAt3 V c t.val t.isLt).2 = k1_pay2 (grid3.coords t) (iblk3 V c 0 t) (iblk3 V c 1 t) (outsAt3 V c (t.val - 1) (by omega)).2 := by
  have h0 : ¬t.val % 375 = 0 := by rw [← coords3_1]; exact hk
  by_cases h1 : t.val % 375 = 374
  · rw [outsAt3_C V c t h0 h1]
    unfold pair3_C; dsimp only
    exact sout1_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2
  · rw [outsAt3_B V c t h0 h1]
    unfold pair3_B; dsimp only
    exact sout1_B_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2

-- at a row's last column the output block is the accumulator plus half of the node's rows
theorem out3_last (c : Dev nD) (t : Fin cfg3.N) (hk : (grid3.coords t 1).val = 374) :
    (outsAt3 V c t.val t.isLt).1 = k1_pay3 (outsAt3 V c t.val t.isLt).2 (iblk3 V c 2 t) := by
  have h1 : t.val % 375 = 374 := by rw [← coords3_1]; exact hk
  have h0 : ¬t.val % 375 = 0 := by omega
  rw [outsAt3_C V c t h0 h1]
  unfold pair3_C; dsimp only
  exact (out1_C_3_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2).trans
    (congrArg (fun a => k1_pay3 a (iblk3 V c 2 t)) (sout1_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2).symm)

end Cert.KernelIdeal.Hand

end
-- ==== Proof.KI.G4.Frame.lean ====
import proofs.«406629_j10943576670300_1_alg».proof.Proof.KI.G0.RunC
import proofs.«406629_j10943576670300_1_alg».proof.Proof.KI.PointsP

set_option maxRecDepth 16384

noncomputable section
namespace Cert.KernelIdeal.Hand
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem stride4_1 : grid4.stride 1 = 1 := by decide

theorem coords4_1 (t : Fin cfg4.N) : (grid4.coords t 1).val = t.val % 147 := by
  show t.val / grid4.stride 1 % 147 = t.val % 147
  rw [stride4_1, Nat.div_one]

-- a point's column is its number modulo 147, so the body's two conditions are congruences on the point's number
theorem hcond4_0 (t : Fin cfg4.N) : cond0_0 (grid4.coords t) ↔ t.val % 147 = 0 := by
  rw [← coords4_1 t]; exact cond0_0_iff (grid4.coords t 1)

theorem hcond4_1 (t : Fin cfg4.N) : cond0_1 (grid4.coords t) ↔ t.val % 147 = 146 := by
  rw [← coords4_1 t]; exact cond0_1_iff (grid4.coords t 1)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem iblk4_eq (c : Dev nD) (w : Fin cfg4.W) (t : Fin cfg4.N) :
    iblk4 V c w t = ((cfg4.win w).blk t).view.read (Elt F) (V c (Pipeline.arrRef spec4 w)) := rfl

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem liveAt4_0 (t : Fin cfg4.N) : cfg4.idle 0 (grid4.coords t) = false := rfl
theorem liveAt4_1 (t : Fin cfg4.N) : cfg4.idle 1 (grid4.coords t) = false := rfl
theorem liveAt4_2 (t : Fin cfg4.N) : cfg4.idle 2 (grid4.coords t) = false := rfl

theorem idleAt4_3 (i : grid4.Coords) (h1 : ¬cond0_1 i) : cfg4.idle 3 i = true := by
  show (!(decide (cond0_1 i))) = true
  rw [decide_eq_false h1]; rfl

theorem liveAt4_3 (i : grid4.Coords) (h1 : cond0_1 i) : cfg4.idle 3 i = false := by
  show (!(decide (cond0_1 i))) = false
  rw [decide_eq_true h1]; rfl

abbrev ms4_0 (t : Fin cfg4.N) : Memref sig .tc .vmem S8000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S150528x64 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S8000x64 .bf16 := win4_3.stage (cfg4.slots t 3)
abbrev hs4_3 (t : Fin cfg4.N) : (ms4_3 t).IsWhole := hstage4_3 ((cfg4.slots t 3).cast nbuf4_3)

abbrev scM4_0 : Memref sig .tc .vmem S8000x64 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

set_option maxRecDepth 65536 in
theorem bodyAt4_eq (t : Fin cfg4.N) : bodyAt4 (F := F) t = cc0__gather_kernel (grid4.coords t) (ms4_0 t) (hs4_0 t) (ms4_1 t) (hs4_1 t) (ms4_2 t) (hs4_2 t) (ms4_3 t) (hs4_3 t) scM4_0 (Memref.isWhole_whole _) := rfl

-- the output block and the accumulator after point n, by recursion on n: the case n's column selects, over what point n - 1 left
def outsAt4 (c : Dev nD) : (n : ℕ) → n < cfg4.N → Vec F S8000x64 .bf16 × Vec F S8000x64 .f32
  | 0, hn => (out0_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout0_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 147 = 0 then
      if h1 : (n + 1) % 147 = 146 then
        False.elim (by omega)
      else
        (out0_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout0_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 147 = 146 then
        (out0_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout0_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out0_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout0_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 147 = 0) (h1 : ¬t.val % 147 = 146) :
    outsAt4 V c t.val t.isLt = (out0_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout0_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 147 = 0) (h1 : ¬t.val % 147 = 146) :
    outsAt4 V c t.val t.isLt = (out0_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout0_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 147 = 0) (h1 : t.val % 147 = 146) :
    outsAt4 V c t.val t.isLt = (out0_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout0_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

theorem noFlush4_3 (t : Fin cfg4.N) (h1 : ¬t.val % 147 = 146) : (cfg4.win 3).flush t = false :=
  Bool.eq_false_iff.mpr fun h => h1 ((flush4_3 t).mp h)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

-- the body at a point takes the invariant before it to the invariant after it and leaves each input block as it was
set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4; rw [bodyAt4_eq]
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 55125 := lt_of_lt_of_eq t.isLt (show cfg4.N = 55125 from N_4)
  by_cases h0 : t.val % 147 = 0
  · by_cases h1 : t.val % 147 = 146
    · exfalso; omega
    · rw [Dat.leavesExact_idle (dat4 V c) 3 t (idleAt4_3 (grid4.coords t) (fun h => h1 ((hcond4_1 t).mp h))) (noFlush4_3 t h1)]
      rw [outsAt4_A V c t h0 h1]
      unfold sout0_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩, ⟨%d3, H3⟩⟩
        iapply ((kernelRun0_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        iframe H0 H1 H2 H3
        isplitl [HS0]; · iexists _; iexact HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3

  · by_cases h1 : t.val % 147 = 146
    · rw [show (dat4 V c).leavesExact 3 t = owns (c : Thread nD τ) (ms4_3 t) fullShare ((dat4 V c).after 3 t) from by
        unfold Dat.leavesExact; rw [liveAt4_3 (grid4.coords t) ((hcond4_1 t).mpr h1)], after4_3]
      rw [outsAt4_C V c t h0 h1]
      unfold out0_C_3 sout0_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        iframe Hr Hg Ho H0 H1 H2
        isplitl [HS0]
        · unfold owns; iexists _; isplitr
          swap; · iexact HS0
          ipureintro; exact View.read_writes_eq_canon _ _ _ (scover0_C_0 c _ _ _ _ _ _ _ _ _ _ _ _ _ _ _ _ _)
        unfold owns; iexists _; isplitr
        swap; · iexact H3
        ipureintro; exact View.read_writes_eq_canon _ _ _ (cover0_C_3 c _ _ _ _ _ _ _ _ _ _ _ _ _ _ _ _ _)
    · rw [Dat.leavesExact_idle (dat4 V c) 3 t (idleAt4_3 (grid4.coords t) (fun h => h1 ((hcond4_1 t).mp h))) (noFlush4_3 t h1)]
      rw [outsAt4_B V c t h0 h1]
      unfold sout0_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_B_0 c _ _ _ _ _ _ _ _ _ _ _ _ _ _ _ _ _)
        iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 55125 := N_4; omega)

def xs4 (c : Dev nD) (t : Fin cfg4.N) : Vec F S1024x64 .bf16 := View.ld (iblk4 V c 2 t) (r0_x (grid4.coords t))

-- the rows a point loads are rows 1024 * column + j of the table
theorem xs4_apply (c : Dev nD) (t : Fin cfg4.N) (j : Fin 1024) (d : Fin 64) (n : Fin 150528) (hn : n.val = (grid4.coords t 1).val * 1024 + j.val) :
    (xs4 V c t : Vec F S1024x64 .bf16) (ix2 j d) = (V c (Pipeline.arrRef spec4 2) : S150528x64.Idx → Elt F .bf16) (ix2 n d) := by
  unfold xs4 iblk4
  show ((cfg4.win 2).blk t).view.read (Elt F) (V c (Pipeline.arrRef spec4 2)) ((r0_x (grid4.coords t)).idx (ix2 j d)) = _
  rw [View.read_apply]
  show (V c (Pipeline.arrRef spec4 2) : S150528x64.Idx → Elt F .bf16) _ = (V c (Pipeline.arrRef spec4 2) : S150528x64.Idx → Elt F .bf16) _
  congr 1
  funext a
  apply Fin.ext
  match a with
  | ⟨0, _⟩ =>
    show 0 * 150528 + 1 * (k0_off1 (grid4.coords t) 0 + 1 * j.val) = n.val
    rw [k0_off1_0, hn]; omega
  | ⟨1, _⟩ =>
    show 0 * 64 + 1 * (k0_off1 (grid4.coords t) 1 + 1 * d.val) = d.val
    rw [k0_off1_1]; omega

-- at a row's first column the accumulator restarts with the point's product
theorem acc4_first (c : Dev nD) (t : Fin cfg4.N) (hk : (grid4.coords t 1).val = 0) :
    (outsAt4 V c t.val t.isLt).2 = k0_pay2 (grid4.coords t) (iblk4 V c 0 t) (xs4 V c t) (k0_pay1 (F := F)) := by
  have h0 : t.val % 147 = 0 := by rw [← coords4_1 t]; exact hk
  have h1 : ¬t.val % 147 = 146 := by omega
  rw [outsAt4_A V c t h0 h1]; dsimp only
  exact sout0_A_0_eq c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)

-- at every other column the point's product is added to what the point before left
theorem acc4_next (c : Dev nD) (t : Fin cfg4.N) (hk : (grid4.coords t 1).val ≠ 0) :
    (outsAt4 V c t.val t.isLt).2 = k0_pay2 (grid4.coords t) (iblk4 V c 0 t) (xs4 V c t) (outsAt4 V c (t.val - 1) (by omega)).2 := by
  have h0 : ¬t.val % 147 = 0 := by rw [← coords4_1 t]; exact hk
  by_cases h1 : t.val % 147 = 146
  · rw [outsAt4_C V c t h0 h1]; dsimp only
    exact sout0_C_0_eq c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2
  · rw [outsAt4_B V c t h0 h1]; dsimp only
    exact sout0_B_0_eq c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2

-- at a row's last column the output block is the accumulator scaled by the weights
theorem out4_last (c : Dev nD) (t : Fin cfg4.N) (hk : (grid4.coords t 1).val = 146) :
    (outsAt4 V c t.val t.isLt).1 = k0_pay3 (outsAt4 V c t.val t.isLt).2 (iblk4 V c 1 t) := by
  have h1 : t.val % 147 = 146 := by rw [← coords4_1 t]; exact hk
  have h0 : ¬t.val % 147 = 0 := by omega
  rw [outsAt4_C V c t h0 h1]; dsimp only
  exact out0_C_3_eq c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2

end Cert.KernelIdeal.Hand

end
-- ==== Proof.KI.S5.Frame.lean ====
import proofs.«406629_j10943576670300_1_alg».proof.Proof.KI.S1.RunC
import proofs.«406629_j10943576670300_1_alg».proof.Proof.KI.PointsP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem coords5_1 (t : Fin cfg5.N) : (grid5.coords t 1).val = t.val % 375 := by
  show t.val / grid5.stride 1 % 375 = t.val % 375
  rw [show grid5.stride 1 = 1 from by decide, Nat.div_one]

theorem coords5_0 (t : Fin cfg5.N) : (grid5.coords t 0).val = t.val / 375 := by
  show t.val / grid5.stride 0 % 147 = t.val / 375
  rw [show grid5.stride 0 = 375 from by decide]
  have hN : t.val < 55125 := lt_of_lt_of_eq t.isLt (show cfg5.N = 55125 from N_5)
  exact Nat.mod_eq_of_lt (by omega)

theorem hcond5_0 : ∀ t : Fin cfg5.N, cond1_0 (grid5.coords t) ↔ t.val % 375 = 0 := fun t =>
  (cond1_0_k (grid5.coords t 1)).trans (by rw [coords5_1])

theorem hcond5_1 : ∀ t : Fin cfg5.N, cond1_1 (grid5.coords t) ↔ t.val % 375 = 374 := fun t =>
  (cond1_1_k (grid5.coords t 1)).trans (by rw [coords5_1])

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

theorem idleAt5_3 : ∀ t : Fin cfg5.N, ¬cond1_1 (grid5.coords t) → cfg5.idle 3 (grid5.coords t) = true := fun t h => by
  show (!(k1_cond2 (grid5.coords t) == 1#1)) = true
  rw [Bool.not_eq_true', beq_eq_false_iff_ne]; exact h

theorem noFlush5_3 : ∀ t : Fin cfg5.N, ¬cond1_1 (grid5.coords t) → (cfg5.win 3).flush t = false := fun t h =>
  Bool.eq_false_iff.mpr fun hf => h ((hcond5_1 t).mpr ((flush5_3 t).mp hf))

theorem liveAt5_3 : ∀ t : Fin cfg5.N, cond1_1 (grid5.coords t) → cfg5.idle 3 (grid5.coords t) = false := fun t h => by
  show (!(k1_cond2 (grid5.coords t) == 1#1)) = false
  rw [Bool.not_eq_false', beq_iff_eq]; exact h

abbrev ms5_0 (t : Fin cfg5.N) : Memref sig .tc .vmem S8000x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8000x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x64 .f32 := win5_3.stage (cfg5.slots t 3)
abbrev hs5_3 (t : Fin cfg5.N) : (ms5_3 t).IsWhole := hstage5_3 ((cfg5.slots t 3).cast nbuf5_3)

abbrev scM5_0 : Memref sig .tc .vmem S1024x64 .f32 := Memref.whole cc5_scratch0

theorem bodyAt5_eq (t : Fin cfg5.N) :
    bodyAt5 (F := F) t = cc1__scatter_kernel (grid5.coords t) (ms5_0 t) (hs5_0 t) (ms5_1 t) (hs5_1 t) (ms5_2 t) (hs5_2 t) (ms5_3 t) (hs5_3 t) scM5_0 (Memref.isWhole_whole _) := rfl

theorem PhiA5_eq (c : Dev nD) :
    (Pipeline.ΦA spec5 c : sProp 𝕄)
      = iprop(iprop(iprop((∃ d, owns (c : Thread nD τ) scM5_0 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

def pair5_A (c : Dev nD) (t : Fin cfg5.N) (h0 : cond1_0 (grid5.coords t)) (h1 : ¬cond1_1 (grid5.coords t)) : Vec F S1024x64 .f32 × Vec F S1024x64 .f32 :=
  (out1_A_3 c (grid5.coords t) (ms5_0 t) (hs5_0 t) (ms5_1 t) (hs5_1 t) (ms5_2 t) (hs5_2 t) (ms5_3 t) (hs5_3 t) scM5_0 (Memref.isWhole_whole _) h0 h1 (iblk5 V c 0 t) (iblk5 V c 1 t) (iblk5 V c 2 t),
   sout1_A_0 c (grid5.coords t) (ms5_0 t) (hs5_0 t) (ms5_1 t) (hs5_1 t) (ms5_2 t) (hs5_2 t) (ms5_3 t) (hs5_3 t) scM5_0 (Memref.isWhole_whole _) h0 h1 (iblk5 V c 0 t) (iblk5 V c 1 t) (iblk5 V c 2 t))

def pair5_B (c : Dev nD) (t : Fin cfg5.N) (h0 : ¬cond1_0 (grid5.coords t)) (h1 : ¬cond1_1 (grid5.coords t)) (prev : Vec F S1024x64 .f32) : Vec F S1024x64 .f32 × Vec F S1024x64 .f32 :=
  (out1_B_3 c (grid5.coords t) (ms5_0 t) (hs5_0 t) (ms5_1 t) (hs5_1 t) (ms5_2 t) (hs5_2 t) (ms5_3 t) (hs5_3 t) scM5_0 (Memref.isWhole_whole _) h0 h1 (iblk5 V c 0 t) (iblk5 V c 1 t) (iblk5 V c 2 t) prev,
   sout1_B_0 c (grid5.coords t) (ms5_0 t) (hs5_0 t) (ms5_1 t) (hs5_1 t) (ms5_2 t) (hs5_2 t) (ms5_3 t) (hs5_3 t) scM5_0 (Memref.isWhole_whole _) h0 h1 (iblk5 V c 0 t) (iblk5 V c 1 t) (iblk5 V c 2 t) prev)

def pair5_C (c : Dev nD) (t : Fin cfg5.N) (h0 : ¬cond1_0 (grid5.coords t)) (h1 : cond1_1 (grid5.coords t)) (prev : Vec F S1024x64 .f32) : Vec F S1024x64 .f32 × Vec F S1024x64 .f32 :=
  (out1_C_3 c (grid5.coords t) (ms5_0 t) (hs5_0 t) (ms5_1 t) (hs5_1 t) (ms5_2 t) (hs5_2 t) (ms5_3 t) (hs5_3 t) scM5_0 (Memref.isWhole_whole _) h0 h1 (iblk5 V c 0 t) (iblk5 V c 1 t) (iblk5 V c 2 t) prev,
   sout1_C_0 c (grid5.coords t) (ms5_0 t) (hs5_0 t) (ms5_1 t) (hs5_1 t) (ms5_2 t) (hs5_2 t) (ms5_3 t) (hs5_3 t) scM5_0 (Memref.isWhole_whole _) h0 h1 (iblk5 V c 0 t) (iblk5 V c 1 t) (iblk5 V c 2 t) prev)

-- the output block and the accumulator after point n, by recursion on n: the case n's column selects, over what point n - 1 left
def outsAt5 (c : Dev nD) : (n : ℕ) → n < cfg5.N → Vec F S1024x64 .f32 × Vec F S1024x64 .f32
  | 0, hn => pair5_A V c ⟨0, hn⟩ ((hcond5_0 ⟨0, hn⟩).mpr (Nat.zero_mod _)) (fun h => (fun h => by (try dsimp only at h); omega) ((hcond5_1 ⟨0, hn⟩).mp h))
  | n + 1, hn =>
    if h0 : (n + 1) % 375 = 0 then
      if h1 : (n + 1) % 375 = 374 then
        False.elim (by omega)
      else
        pair5_A V c ⟨n + 1, hn⟩ ((hcond5_0 ⟨n + 1, hn⟩).mpr h0) (fun h => h1 ((hcond5_1 ⟨n + 1, hn⟩).mp h))
    else
      if h1 : (n + 1) % 375 = 374 then
        pair5_C V c ⟨n + 1, hn⟩ (fun h => h0 ((hcond5_0 ⟨n + 1, hn⟩).mp h)) ((hcond5_1 ⟨n + 1, hn⟩).mpr h1) (outsAt5 c n (Nat.lt_of_succ_lt hn)).2
      else
        pair5_B V c ⟨n + 1, hn⟩ (fun h => h0 ((hcond5_0 ⟨n + 1, hn⟩).mp h)) (fun h => h1 ((hcond5_1 ⟨n + 1, hn⟩).mp h)) (outsAt5 c n (Nat.lt_of_succ_lt hn)).2

theorem outsAt5_A (c : Dev nD) (t : Fin cfg5.N) (h0 : t.val % 375 = 0) (h1 : ¬t.val % 375 = 374) :
    outsAt5 V c t.val t.isLt = pair5_A V c t ((hcond5_0 t).mpr h0) (fun h => h1 ((hcond5_1 t).mp h)) := by
  obtain ⟨n, hn⟩ := t
  cases n with
  | zero => exact rfl
  | succ n => exact (dif_pos h0).trans ((dif_neg h1).trans rfl)

theorem outsAt5_B (c : Dev nD) (t : Fin cfg5.N) (h0 : ¬t.val % 375 = 0) (h1 : ¬t.val % 375 = 374) :
    outsAt5 V c t.val t.isLt = pair5_B V c t (fun h => h0 ((hcond5_0 t).mp h)) (fun h => h1 ((hcond5_1 t).mp h)) (outsAt5 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 375 = 0) (h1 : t.val % 375 = 374) :
    outsAt5 V c t.val t.isLt = pair5_C V c t (fun h => h0 ((hcond5_0 t).mp h)) ((hcond5_1 t).mpr h1) (outsAt5 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2)) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- the body at a point takes the invariant before it to the invariant after it and leaves each input block as it was
set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  rw [bodyAt5_eq]
  unfold bodyPre5 bodyPost5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 55125 := lt_of_lt_of_eq t.isLt (show cfg5.N = 55125 from N_5)
  by_cases h0 : t.val % 375 = 0
  · by_cases h1 : t.val % 375 = 374
    · exfalso; omega
    · rw [Dat.leavesExact_idle (dat5 V c) 3 t (idleAt5_3 t (fun h => h1 ((hcond5_1 t).mp h))) (noFlush5_3 t (fun h => h1 ((hcond5_1 t).mp h)))]
      rw [outsAt5_A V c t h0 h1]
      unfold pair5_A sout1_A_0; (try dsimp only)
      by_cases hz : t.val = 0
      · rw [PhiS5_castSucc V c t, PhiS5_zero V c _ _ hz, PhiA5_eq]
        iintro ⟨⟨⟨HS0, HR⟩, Hg⟩, Ho, ⟨%d0, H0⟩, ⟨%d1, H1⟩, ⟨%d2, H2⟩, ⟨%d3, H3⟩⟩
        iapply ((kernelRun1_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
      · rw [PhiS5_castSucc V c t, PhiS5_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        iframe H0 H1 H2 H3
        isplitl [HS0]; · iexists _; iexact HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
  · by_cases h1 : t.val % 375 = 374
    · rw [show (dat5 V c).leavesExact 3 t = owns (c : Thread nD τ) (ms5_3 t) fullShare ((dat5 V c).after 3 t) from by
        unfold Dat.leavesExact; rw [liveAt5_3 t ((hcond5_1 t).mpr h1)], after5_3]
      rw [outsAt5_C V c t h0 h1]
      unfold pair5_C out1_C_3 sout1_C_0; (try dsimp only)
      have hz : t.val ≠ 0 := fun hz => h0 (by rw [hz])
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat5 V c) 3 t (idleAt5_3 t (fun h => h1 ((hcond5_1 t).mp h))) (noFlush5_3 t (fun h => h1 ((hcond5_1 t).mp h)))]
      rw [outsAt5_B V c t h0 h1]
      unfold pair5_B sout1_B_0; (try dsimp only)
      have hz : t.val ≠ 0 := fun hz => h0 (by rw [hz])
      rw [PhiS5_castSucc V c t, PhiS5_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, HR⟩, Hg⟩
  isplitl [HS0 HR]
  · isplitl [HS0]
    · iexists _; iexact HS0
    iexact HR
  iexact Hg

theorem hout5 (c : Dev nD) : (dat5 V c).Φ (Fin.last cfg5.N) ⊢ Pipeline.ΦA spec5 c :=
  Phi_out5 V c _ (by rw [Fin.val_last]; have : cfg5.N = 55125 := N_5; omega)

-- at a row's first column the accumulator restarts with the point's product
theorem acc5_first (c : Dev nD) (t : Fin cfg5.N) (hk : (grid5.coords t 1).val = 0) :
    (outsAt5 V c t.val t.isLt).2 = k1_pay2 (grid5.coords t) (iblk5 V c 0 t) (iblk5 V c 1 t) (k1_pay1 (F := F)) := by
  have h0 : t.val % 375 = 0 := by rw [← coords5_1]; exact hk
  have h1 : ¬t.val % 375 = 374 := by omega
  rw [outsAt5_A V c t h0 h1]
  unfold pair5_A; dsimp only
  exact sout1_A_0_eq c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)

-- at every other column the point's product is added to what the point before left
theorem acc5_next (c : Dev nD) (t : Fin cfg5.N) (hk : (grid5.coords t 1).val ≠ 0) :
    (outsAt5 V c t.val t.isLt).2 = k1_pay2 (grid5.coords t) (iblk5 V c 0 t) (iblk5 V c 1 t) (outsAt5 V c (t.val - 1) (by omega)).2 := by
  have h0 : ¬t.val % 375 = 0 := by rw [← coords5_1]; exact hk
  by_cases h1 : t.val % 375 = 374
  · rw [outsAt5_C V c t h0 h1]
    unfold pair5_C; dsimp only
    exact sout1_C_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2
  · rw [outsAt5_B V c t h0 h1]
    unfold pair5_B; dsimp only
    exact sout1_B_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2

-- at a row's last column the output block is the accumulator plus half of the node's rows
theorem out5_last (c : Dev nD) (t : Fin cfg5.N) (hk : (grid5.coords t 1).val = 374) :
    (outsAt5 V c t.val t.isLt).1 = k1_pay3 (outsAt5 V c t.val t.isLt).2 (iblk5 V c 2 t) := by
  have h1 : t.val % 375 = 374 := by rw [← coords5_1]; exact hk
  have h0 : ¬t.val % 375 = 0 := by omega
  rw [outsAt5_C V c t h0 h1]
  unfold pair5_C; dsimp only
  exact (out1_C_3_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2).trans
    (congrArg (fun a => k1_pay3 a (iblk5 V c 2 t)) (sout1_C_0_eq c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2).symm)

end Cert.KernelIdeal.Hand

end
-- ==== Proof.KI.G6.Frame.lean ====
import proofs.«406629_j10943576670300_1_alg».proof.Proof.KI.G0.RunC
import proofs.«406629_j10943576670300_1_alg».proof.Proof.KI.PointsP

set_option maxRecDepth 16384

noncomputable section
namespace Cert.KernelIdeal.Hand
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem stride6_1 : grid6.stride 1 = 1 := by decide

theorem coords6_1 (t : Fin cfg6.N) : (grid6.coords t 1).val = t.val % 147 := by
  show t.val / grid6.stride 1 % 147 = t.val % 147
  rw [stride6_1, Nat.div_one]

-- a point's column is its number modulo 147, so the body's two conditions are congruences on the point's number
theorem hcond6_0 (t : Fin cfg6.N) : cond0_0 (grid6.coords t) ↔ t.val % 147 = 0 := by
  rw [← coords6_1 t]; exact cond0_0_iff (grid6.coords t 1)

theorem hcond6_1 (t : Fin cfg6.N) : cond0_1 (grid6.coords t) ↔ t.val % 147 = 146 := by
  rw [← coords6_1 t]; exact cond0_1_iff (grid6.coords t 1)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem iblk6_eq (c : Dev nD) (w : Fin cfg6.W) (t : Fin cfg6.N) :
    iblk6 V c w t = ((cfg6.win w).blk t).view.read (Elt F) (V c (Pipeline.arrRef spec6 w)) := rfl

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem liveAt6_0 (t : Fin cfg6.N) : cfg6.idle 0 (grid6.coords t) = false := rfl
theorem liveAt6_1 (t : Fin cfg6.N) : cfg6.idle 1 (grid6.coords t) = false := rfl
theorem liveAt6_2 (t : Fin cfg6.N) : cfg6.idle 2 (grid6.coords t) = false := rfl

theorem idleAt6_3 (i : grid6.Coords) (h1 : ¬cond0_1 i) : cfg6.idle 3 i = true := by
  show (!(decide (cond0_1 i))) = true
  rw [decide_eq_false h1]; rfl

theorem liveAt6_3 (i : grid6.Coords) (h1 : cond0_1 i) : cfg6.idle 3 i = false := by
  show (!(decide (cond0_1 i))) = false
  rw [decide_eq_true h1]; rfl

abbrev ms6_0 (t : Fin cfg6.N) : Memref sig .tc .vmem S8000x1 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S8000x1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S150528x64 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S8000x64 .bf16 := win6_3.stage (cfg6.slots t 3)
abbrev hs6_3 (t : Fin cfg6.N) : (ms6_3 t).IsWhole := hstage6_3 ((cfg6.slots t 3).cast nbuf6_3)

abbrev scM6_0 : Memref sig .tc .vmem S8000x64 .f32 := Memref.whole cc6_scratch0

abbrev rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop(iprop((∃ d, owns (c : Thread nD τ) scM6_0 fullShare d)) ∗ rest6 (F := F) c) ∗ (∃ r, prngReg c r)) := by
  unfold Pipeline.ΦA; rw [scopedRest6_split]; simp only [scM6_0, owns_whole]; try rfl

set_option maxRecDepth 65536 in
theorem bodyAt6_eq (t : Fin cfg6.N) : bodyAt6 (F := F) t = cc0__gather_kernel (grid6.coords t) (ms6_0 t) (hs6_0 t) (ms6_1 t) (hs6_1 t) (ms6_2 t) (hs6_2 t) (ms6_3 t) (hs6_3 t) scM6_0 (Memref.isWhole_whole _) := rfl

-- the output block and the accumulator after point n, by recursion on n: the case n's column selects, over what point n - 1 left
def outsAt6 (c : Dev nD) : (n : ℕ) → n < cfg6.N → Vec F S8000x64 .bf16 × Vec F S8000x64 .f32
  | 0, hn => (out0_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩), sout0_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 147 = 0 then
      if h1 : (n + 1) % 147 = 146 then
        False.elim (by omega)
      else
        (out0_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩), sout0_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 147 = 146 then
        (out0_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2, sout0_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2)
      else
        (out0_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2, sout0_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2)

theorem outsAt6_A (c : Dev nD) (t : Fin cfg6.N) (h0 : t.val % 147 = 0) (h1 : ¬t.val % 147 = 146) :
    outsAt6 V c t.val t.isLt = (out0_A_3 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t), sout0_A_0 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)

theorem outsAt6_B (c : Dev nD) (t : Fin cfg6.N) (h0 : ¬t.val % 147 = 0) (h1 : ¬t.val % 147 = 146) :
    outsAt6 V c t.val t.isLt = (out0_B_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2, sout0_B_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 147 = 0) (h1 : t.val % 147 = 146) :
    outsAt6 V c t.val t.isLt = (out0_C_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2, sout0_C_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ rest6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ rest6 (F := F) c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

theorem noFlush6_3 (t : Fin cfg6.N) (h1 : ¬t.val % 147 = 146) : (cfg6.win 3).flush t = false :=
  Bool.eq_false_iff.mpr fun h => h1 ((flush6_3 t).mp h)

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

-- the body at a point takes the invariant before it to the invariant after it and leaves each input block as it was
set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6; rw [bodyAt6_eq]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have hN : t.val < 55125 := lt_of_lt_of_eq t.isLt (show cfg6.N = 55125 from N_6)
  by_cases h0 : t.val % 147 = 0
  · by_cases h1 : t.val % 147 = 146
    · exfalso; omega
    · rw [Dat.leavesExact_idle (dat6 V c) 3 t (idleAt6_3 (grid6.coords t) (fun h => h1 ((hcond6_1 t).mp h))) (noFlush6_3 t h1)]
      rw [outsAt6_A V c t h0 h1]
      unfold sout0_A_0; (try dsimp only)
      by_cases hz : t.val = 0
      · rw [PhiS6_castSucc V c t, PhiS6_zero V c _ _ hz, PhiA6_eq]
        iintro ⟨⟨⟨HS0, Hr⟩, Hg⟩, Ho, ⟨%d0, H0⟩, ⟨%d1, H1⟩, ⟨%d2, H2⟩, ⟨%d3, H3⟩⟩
        iapply ((kernelRun0_A c (grid6.coords t) _ _ _ _ _ _ _ _ _ _ ((hcond6_0 t).mpr h0) (fun h => h1 ((hcond6_1 t).mp h)) (iblk6 V c 0 t) (iblk6 V c 1 t) (iblk6 V c 2 t)).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3
      · rw [PhiS6_castSucc V c t, PhiS6_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid6.coords t) _ _ _ _ _ _ _ _ _ _ ((hcond6_0 t).mpr h0) (fun h => h1 ((hcond6_1 t).mp h)) (iblk6 V c 0 t) (iblk6 V c 1 t) (iblk6 V c 2 t)).2.2 _ Set.univ _)
        iframe H0 H1 H2 H3
        isplitl [HS0]; · iexists _; iexact HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3

  · by_cases h1 : t.val % 147 = 146
    · rw [show (dat6 V c).leavesExact 3 t = owns (c : Thread nD τ) (ms6_3 t) fullShare ((dat6 V c).after 3 t) from by
        unfold Dat.leavesExact; rw [liveAt6_3 (grid6.coords t) ((hcond6_1 t).mpr h1)], after6_3]
      rw [outsAt6_C V c t h0 h1]
      unfold out0_C_3 sout0_C_0; (try dsimp only)
      by_cases hz : t.val = 0
      · exfalso; omega
      · rw [PhiS6_castSucc V c t, PhiS6_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid6.coords t) _ _ _ _ _ _ _ _ _ _ (fun h => h0 ((hcond6_0 t).mp h)) ((hcond6_1 t).mpr h1) (iblk6 V c 0 t) (iblk6 V c 1 t) (iblk6 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        iframe Hr Hg Ho H0 H1 H2
        isplitl [HS0]
        · unfold owns; iexists _; isplitr
          swap; · iexact HS0
          ipureintro; exact View.read_writes_eq_canon _ _ _ (scover0_C_0 c _ _ _ _ _ _ _ _ _ _ _ _ _ _ _ _ _)
        unfold owns; iexists _; isplitr
        swap; · iexact H3
        ipureintro; exact View.read_writes_eq_canon _ _ _ (cover0_C_3 c _ _ _ _ _ _ _ _ _ _ _ _ _ _ _ _ _)
    · rw [Dat.leavesExact_idle (dat6 V c) 3 t (idleAt6_3 (grid6.coords t) (fun h => h1 ((hcond6_1 t).mp h))) (noFlush6_3 t h1)]
      rw [outsAt6_B V c t h0 h1]
      unfold sout0_B_0; (try dsimp only)
      by_cases hz : t.val = 0
      · exfalso; omega
      · rw [PhiS6_castSucc V c t, PhiS6_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid6.coords t) _ _ _ _ _ _ _ _ _ _ (fun h => h0 ((hcond6_0 t).mp h)) (fun h => h1 ((hcond6_1 t).mp h)) (iblk6 V c 0 t) (iblk6 V c 1 t) (iblk6 V c 2 t) _).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_B_0 c _ _ _ _ _ _ _ _ _ _ _ _ _ _ _ _ _)
        iexists _; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

theorem hout6 (c : Dev nD) : (dat6 V c).Φ (Fin.last cfg6.N) ⊢ Pipeline.ΦA spec6 c :=
  Phi_out6 V c _ (by rw [Fin.val_last]; have : cfg6.N = 55125 := N_6; omega)

def xs6 (c : Dev nD) (t : Fin cfg6.N) : Vec F S1024x64 .bf16 := View.ld (iblk6 V c 2 t) (r0_x (grid6.coords t))

-- the rows a point loads are rows 1024 * column + j of the table
theorem xs6_apply (c : Dev nD) (t : Fin cfg6.N) (j : Fin 1024) (d : Fin 64) (n : Fin 150528) (hn : n.val = (grid6.coords t 1).val * 1024 + j.val) :
    (xs6 V c t : Vec F S1024x64 .bf16) (ix2 j d) = (V c (Pipeline.arrRef spec6 2) : S150528x64.Idx → Elt F .bf16) (ix2 n d) := by
  unfold xs6 iblk6
  show ((cfg6.win 2).blk t).view.read (Elt F) (V c (Pipeline.arrRef spec6 2)) ((r0_x (grid6.coords t)).idx (ix2 j d)) = _
  rw [View.read_apply]
  show (V c (Pipeline.arrRef spec6 2) : S150528x64.Idx → Elt F .bf16) _ = (V c (Pipeline.arrRef spec6 2) : S150528x64.Idx → Elt F .bf16) _
  congr 1
  funext a
  apply Fin.ext
  match a with
  | ⟨0, _⟩ =>
    show 0 * 150528 + 1 * (k0_off1 (grid6.coords t) 0 + 1 * j.val) = n.val
    rw [k0_off1_0, hn]; omega
  | ⟨1, _⟩ =>
    show 0 * 64 + 1 * (k0_off1 (grid6.coords t) 1 + 1 * d.val) = d.val
    rw [k0_off1_1]; omega

-- at a row's first column the accumulator restarts with the point's product
theorem acc6_first (c : Dev nD) (t : Fin cfg6.N) (hk : (grid6.coords t 1).val = 0) :
    (outsAt6 V c t.val t.isLt).2 = k0_pay2 (grid6.coords t) (iblk6 V c 0 t) (xs6 V c t) (k0_pay1 (F := F)) := by
  have h0 : t.val % 147 = 0 := by rw [← coords6_1 t]; exact hk
  have h1 : ¬t.val % 147 = 146 := by omega
  rw [outsAt6_A V c t h0 h1]; dsimp only
  exact sout0_A_0_eq c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t)

-- at every other column the point's product is added to what the point before left
theorem acc6_next (c : Dev nD) (t : Fin cfg6.N) (hk : (grid6.coords t 1).val ≠ 0) :
    (outsAt6 V c t.val t.isLt).2 = k0_pay2 (grid6.coords t) (iblk6 V c 0 t) (xs6 V c t) (outsAt6 V c (t.val - 1) (by omega)).2 := by
  have h0 : ¬t.val % 147 = 0 := by rw [← coords6_1 t]; exact hk
  by_cases h1 : t.val % 147 = 146
  · rw [outsAt6_C V c t h0 h1]; dsimp only
    exact sout0_C_0_eq c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2
  · rw [outsAt6_B V c t h0 h1]; dsimp only
    exact sout0_B_0_eq c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2

-- at a row's last column the output block is the accumulator scaled by the weights
theorem out6_last (c : Dev nD) (t : Fin cfg6.N) (hk : (grid6.coords t 1).val = 146) :
    (outsAt6 V c t.val t.isLt).1 = k0_pay3 (outsAt6 V c t.val t.isLt).2 (iblk6 V c 1 t) := by
  have h1 : t.val % 147 = 146 := by rw [← coords6_1 t]; exact hk
  have h0 : ¬t.val % 147 = 0 := by omega
  rw [outsAt6_C V c t h0 h1]; dsimp only
  exact out0_C_3_eq c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2

end Cert.KernelIdeal.Hand

end
-- ==== Proof.KI.S7.Frame.lean ====
import proofs.«406629_j10943576670300_1_alg».proof.Proof.KI.S1.RunC
import proofs.«406629_j10943576670300_1_alg».proof.Proof.KI.PointsP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem coords7_1 (t : Fin cfg7.N) : (grid7.coords t 1).val = t.val % 375 := by
  show t.val / grid7.stride 1 % 375 = t.val % 375
  rw [show grid7.stride 1 = 1 from by decide, Nat.div_one]

theorem coords7_0 (t : Fin cfg7.N) : (grid7.coords t 0).val = t.val / 375 := by
  show t.val / grid7.stride 0 % 147 = t.val / 375
  rw [show grid7.stride 0 = 375 from by decide]
  have hN : t.val < 55125 := lt_of_lt_of_eq t.isLt (show cfg7.N = 55125 from N_7)
  exact Nat.mod_eq_of_lt (by omega)

theorem hcond7_0 : ∀ t : Fin cfg7.N, cond1_0 (grid7.coords t) ↔ t.val % 375 = 0 := fun t =>
  (cond1_0_k (grid7.coords t 1)).trans (by rw [coords7_1])

theorem hcond7_1 : ∀ t : Fin cfg7.N, cond1_1 (grid7.coords t) ↔ t.val % 375 = 374 := fun t =>
  (cond1_1_k (grid7.coords t 1)).trans (by rw [coords7_1])

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl

theorem idleAt7_3 : ∀ t : Fin cfg7.N, ¬cond1_1 (grid7.coords t) → cfg7.idle 3 (grid7.coords t) = true := fun t h => by
  show (!(k1_cond2 (grid7.coords t) == 1#1)) = true
  rw [Bool.not_eq_true', beq_eq_false_iff_ne]; exact h

theorem noFlush7_3 : ∀ t : Fin cfg7.N, ¬cond1_1 (grid7.coords t) → (cfg7.win 3).flush t = false := fun t h =>
  Bool.eq_false_iff.mpr fun hf => h ((hcond7_1 t).mpr ((flush7_3 t).mp hf))

theorem liveAt7_3 : ∀ t : Fin cfg7.N, cond1_1 (grid7.coords t) → cfg7.idle 3 (grid7.coords t) = false := fun t h => by
  show (!(k1_cond2 (grid7.coords t) == 1#1)) = false
  rw [Bool.not_eq_false', beq_iff_eq]; exact h

abbrev ms7_0 (t : Fin cfg7.N) : Memref sig .tc .vmem S8000x1 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8000x64 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x64 .f32 := win7_3.stage (cfg7.slots t 3)
abbrev hs7_3 (t : Fin cfg7.N) : (ms7_3 t).IsWhole := hstage7_3 ((cfg7.slots t 3).cast nbuf7_3)

abbrev scM7_0 : Memref sig .tc .vmem S1024x64 .f32 := Memref.whole cc7_scratch0

theorem bodyAt7_eq (t : Fin cfg7.N) :
    bodyAt7 (F := F) t = cc1__scatter_kernel (grid7.coords t) (ms7_0 t) (hs7_0 t) (ms7_1 t) (hs7_1 t) (ms7_2 t) (hs7_2 t) (ms7_3 t) (hs7_3 t) scM7_0 (Memref.isWhole_whole _) := rfl

theorem PhiA7_eq (c : Dev nD) :
    (Pipeline.ΦA spec7 c : sProp 𝕄)
      = iprop(iprop(iprop((∃ d, owns (c : Thread nD τ) scM7_0 fullShare d)) ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

def pair7_A (c : Dev nD) (t : Fin cfg7.N) (h0 : cond1_0 (grid7.coords t)) (h1 : ¬cond1_1 (grid7.coords t)) : Vec F S1024x64 .f32 × Vec F S1024x64 .f32 :=
  (out1_A_3 c (grid7.coords t) (ms7_0 t) (hs7_0 t) (ms7_1 t) (hs7_1 t) (ms7_2 t) (hs7_2 t) (ms7_3 t) (hs7_3 t) scM7_0 (Memref.isWhole_whole _) h0 h1 (iblk7 V c 0 t) (iblk7 V c 1 t) (iblk7 V c 2 t),
   sout1_A_0 c (grid7.coords t) (ms7_0 t) (hs7_0 t) (ms7_1 t) (hs7_1 t) (ms7_2 t) (hs7_2 t) (ms7_3 t) (hs7_3 t) scM7_0 (Memref.isWhole_whole _) h0 h1 (iblk7 V c 0 t) (iblk7 V c 1 t) (iblk7 V c 2 t))

def pair7_B (c : Dev nD) (t : Fin cfg7.N) (h0 : ¬cond1_0 (grid7.coords t)) (h1 : ¬cond1_1 (grid7.coords t)) (prev : Vec F S1024x64 .f32) : Vec F S1024x64 .f32 × Vec F S1024x64 .f32 :=
  (out1_B_3 c (grid7.coords t) (ms7_0 t) (hs7_0 t) (ms7_1 t) (hs7_1 t) (ms7_2 t) (hs7_2 t) (ms7_3 t) (hs7_3 t) scM7_0 (Memref.isWhole_whole _) h0 h1 (iblk7 V c 0 t) (iblk7 V c 1 t) (iblk7 V c 2 t) prev,
   sout1_B_0 c (grid7.coords t) (ms7_0 t) (hs7_0 t) (ms7_1 t) (hs7_1 t) (ms7_2 t) (hs7_2 t) (ms7_3 t) (hs7_3 t) scM7_0 (Memref.isWhole_whole _) h0 h1 (iblk7 V c 0 t) (iblk7 V c 1 t) (iblk7 V c 2 t) prev)

def pair7_C (c : Dev nD) (t : Fin cfg7.N) (h0 : ¬cond1_0 (grid7.coords t)) (h1 : cond1_1 (grid7.coords t)) (prev : Vec F S1024x64 .f32) : Vec F S1024x64 .f32 × Vec F S1024x64 .f32 :=
  (out1_C_3 c (grid7.coords t) (ms7_0 t) (hs7_0 t) (ms7_1 t) (hs7_1 t) (ms7_2 t) (hs7_2 t) (ms7_3 t) (hs7_3 t) scM7_0 (Memref.isWhole_whole _) h0 h1 (iblk7 V c 0 t) (iblk7 V c 1 t) (iblk7 V c 2 t) prev,
   sout1_C_0 c (grid7.coords t) (ms7_0 t) (hs7_0 t) (ms7_1 t) (hs7_1 t) (ms7_2 t) (hs7_2 t) (ms7_3 t) (hs7_3 t) scM7_0 (Memref.isWhole_whole _) h0 h1 (iblk7 V c 0 t) (iblk7 V c 1 t) (iblk7 V c 2 t) prev)

-- the output block and the accumulator after point n, by recursion on n: the case n's column selects, over what point n - 1 left
def outsAt7 (c : Dev nD) : (n : ℕ) → n < cfg7.N → Vec F S1024x64 .f32 × Vec F S1024x64 .f32
  | 0, hn => pair7_A V c ⟨0, hn⟩ ((hcond7_0 ⟨0, hn⟩).mpr (Nat.zero_mod _)) (fun h => (fun h => by (try dsimp only at h); omega) ((hcond7_1 ⟨0, hn⟩).mp h))
  | n + 1, hn =>
    if h0 : (n + 1) % 375 = 0 then
      if h1 : (n + 1) % 375 = 374 then
        False.elim (by omega)
      else
        pair7_A V c ⟨n + 1, hn⟩ ((hcond7_0 ⟨n + 1, hn⟩).mpr h0) (fun h => h1 ((hcond7_1 ⟨n + 1, hn⟩).mp h))
    else
      if h1 : (n + 1) % 375 = 374 then
        pair7_C V c ⟨n + 1, hn⟩ (fun h => h0 ((hcond7_0 ⟨n + 1, hn⟩).mp h)) ((hcond7_1 ⟨n + 1, hn⟩).mpr h1) (outsAt7 c n (Nat.lt_of_succ_lt hn)).2
      else
        pair7_B V c ⟨n + 1, hn⟩ (fun h => h0 ((hcond7_0 ⟨n + 1, hn⟩).mp h)) (fun h => h1 ((hcond7_1 ⟨n + 1, hn⟩).mp h)) (outsAt7 c n (Nat.lt_of_succ_lt hn)).2

theorem outsAt7_A (c : Dev nD) (t : Fin cfg7.N) (h0 : t.val % 375 = 0) (h1 : ¬t.val % 375 = 374) :
    outsAt7 V c t.val t.isLt = pair7_A V c t ((hcond7_0 t).mpr h0) (fun h => h1 ((hcond7_1 t).mp h)) := by
  obtain ⟨n, hn⟩ := t
  cases n with
  | zero => exact rfl
  | succ n => exact (dif_pos h0).trans ((dif_neg h1).trans rfl)

theorem outsAt7_B (c : Dev nD) (t : Fin cfg7.N) (h0 : ¬t.val % 375 = 0) (h1 : ¬t.val % 375 = 374) :
    outsAt7 V c t.val t.isLt = pair7_B V c t (fun h => h0 ((hcond7_0 t).mp h)) (fun h => h1 ((hcond7_1 t).mp h)) (outsAt7 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 375 = 0) (h1 : t.val % 375 = 374) :
    outsAt7 V c t.val t.isLt = pair7_C V c t (fun h => h0 ((hcond7_0 t).mp h)) ((hcond7_1 t).mpr h1) (outsAt7 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2)) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2)) ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2)) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

-- the body at a point takes the invariant before it to the invariant after it and leaves each input block as it was
set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  rw [bodyAt7_eq]
  unfold bodyPre7 bodyPost7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  have hN : t.val < 55125 := lt_of_lt_of_eq t.isLt (show cfg7.N = 55125 from N_7)
  by_cases h0 : t.val % 375 = 0
  · by_cases h1 : t.val % 375 = 374
    · exfalso; omega
    · rw [Dat.leavesExact_idle (dat7 V c) 3 t (idleAt7_3 t (fun h => h1 ((hcond7_1 t).mp h))) (noFlush7_3 t (fun h => h1 ((hcond7_1 t).mp h)))]
      rw [outsAt7_A V c t h0 h1]
      unfold pair7_A sout1_A_0; (try dsimp only)
      by_cases hz : t.val = 0
      · rw [PhiS7_castSucc V c t, PhiS7_zero V c _ _ hz, PhiA7_eq]
        iintro ⟨⟨⟨HS0, HR⟩, Hg⟩, Ho, ⟨%d0, H0⟩, ⟨%d1, H1⟩, ⟨%d2, H2⟩, ⟨%d3, H3⟩⟩
        iapply ((kernelRun1_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
      · rw [PhiS7_castSucc V c t, PhiS7_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        iframe H0 H1 H2 H3
        isplitl [HS0]; · iexists _; iexact HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
  · by_cases h1 : t.val % 375 = 374
    · rw [show (dat7 V c).leavesExact 3 t = owns (c : Thread nD τ) (ms7_3 t) fullShare ((dat7 V c).after 3 t) from by
        unfold Dat.leavesExact; rw [liveAt7_3 t ((hcond7_1 t).mpr h1)], after7_3]
      rw [outsAt7_C V c t h0 h1]
      unfold pair7_C out1_C_3 sout1_C_0; (try dsimp only)
      have hz : t.val ≠ 0 := fun hz => h0 (by rw [hz])
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat7 V c) 3 t (idleAt7_3 t (fun h => h1 ((hcond7_1 t).mp h))) (noFlush7_3 t (fun h => h1 ((hcond7_1 t).mp h)))]
      rw [outsAt7_B V c t h0 h1]
      unfold pair7_B sout1_B_0; (try dsimp only)
      have hz : t.val ≠ 0 := fun hz => h0 (by rw [hz])
      rw [PhiS7_castSucc V c t, PhiS7_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, HR⟩, Hg⟩
  isplitl [HS0 HR]
  · isplitl [HS0]
    · iexists _; iexact HS0
    iexact HR
  iexact Hg

theorem hout7 (c : Dev nD) : (dat7 V c).Φ (Fin.last cfg7.N) ⊢ Pipeline.ΦA spec7 c :=
  Phi_out7 V c _ (by rw [Fin.val_last]; have : cfg7.N = 55125 := N_7; omega)

-- at a row's first column the accumulator restarts with the point's product
theorem acc7_first (c : Dev nD) (t : Fin cfg7.N) (hk : (grid7.coords t 1).val = 0) :
    (outsAt7 V c t.val t.isLt).2 = k1_pay2 (grid7.coords t) (iblk7 V c 0 t) (iblk7 V c 1 t) (k1_pay1 (F := F)) := by
  have h0 : t.val % 375 = 0 := by rw [← coords7_1]; exact hk
  have h1 : ¬t.val % 375 = 374 := by omega
  rw [outsAt7_A V c t h0 h1]
  unfold pair7_A; dsimp only
  exact sout1_A_0_eq c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)

-- at every other column the point's product is added to what the point before left
theorem acc7_next (c : Dev nD) (t : Fin cfg7.N) (hk : (grid7.coords t 1).val ≠ 0) :
    (outsAt7 V c t.val t.isLt).2 = k1_pay2 (grid7.coords t) (iblk7 V c 0 t) (iblk7 V c 1 t) (outsAt7 V c (t.val - 1) (by omega)).2 := by
  have h0 : ¬t.val % 375 = 0 := by rw [← coords7_1]; exact hk
  by_cases h1 : t.val % 375 = 374
  · rw [outsAt7_C V c t h0 h1]
    unfold pair7_C; dsimp only
    exact sout1_C_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2
  · rw [outsAt7_B V c t h0 h1]
    unfold pair7_B; dsimp only
    exact sout1_B_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2

-- at a row's last column the output block is the accumulator plus half of the node's rows
theorem out7_last (c : Dev nD) (t : Fin cfg7.N) (hk : (grid7.coords t 1).val = 374) :
    (outsAt7 V c t.val t.isLt).1 = k1_pay3 (outsAt7 V c t.val t.isLt).2 (iblk7 V c 2 t) := by
  have h1 : t.val % 375 = 374 := by rw [← coords7_1]; exact hk
  have h0 : ¬t.val % 375 = 0 := by omega
  rw [outsAt7_C V c t h0 h1]
  unfold pair7_C; dsimp only
  exact (out1_C_3_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2).trans
    (congrArg (fun a => k1_pay3 a (iblk7 V c 2 t)) (sout1_C_0_eq c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2).symm)

end Cert.KernelIdeal.Hand

end
-- ==== Proof.KI.G8.Frame.lean ====
import proofs.«406629_j10943576670300_1_alg».proof.Proof.KI.G0.RunC
import proofs.«406629_j10943576670300_1_alg».proof.Proof.KI.PointsP

set_option maxRecDepth 16384

noncomputable section
namespace Cert.KernelIdeal.Hand
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem stride8_1 : grid8.stride 1 = 1 := by decide

theorem coords8_1 (t : Fin cfg8.N) : (grid8.coords t 1).val = t.val % 147 := by
  show t.val / grid8.stride 1 % 147 = t.val % 147
  rw [stride8_1, Nat.div_one]

-- a point's column is its number modulo 147, so the body's two conditions are congruences on the point's number
theorem hcond8_0 (t : Fin cfg8.N) : cond0_0 (grid8.coords t) ↔ t.val % 147 = 0 := by
  rw [← coords8_1 t]; exact cond0_0_iff (grid8.coords t 1)

theorem hcond8_1 (t : Fin cfg8.N) : cond0_1 (grid8.coords t) ↔ t.val % 147 = 146 := by
  rw [← coords8_1 t]; exact cond0_1_iff (grid8.coords t 1)

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem iblk8_eq (c : Dev nD) (w : Fin cfg8.W) (t : Fin cfg8.N) :
    iblk8 V c w t = ((cfg8.win w).blk t).view.read (Elt F) (V c (Pipeline.arrRef spec8 w)) := rfl

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem liveAt8_0 (t : Fin cfg8.N) : cfg8.idle 0 (grid8.coords t) = false := rfl
theorem liveAt8_1 (t : Fin cfg8.N) : cfg8.idle 1 (grid8.coords t) = false := rfl
theorem liveAt8_2 (t : Fin cfg8.N) : cfg8.idle 2 (grid8.coords t) = false := rfl

theorem idleAt8_3 (i : grid8.Coords) (h1 : ¬cond0_1 i) : cfg8.idle 3 i = true := by
  show (!(decide (cond0_1 i))) = true
  rw [decide_eq_false h1]; rfl

theorem liveAt8_3 (i : grid8.Coords) (h1 : cond0_1 i) : cfg8.idle 3 i = false := by
  show (!(decide (cond0_1 i))) = false
  rw [decide_eq_true h1]; rfl

abbrev ms8_0 (t : Fin cfg8.N) : Memref sig .tc .vmem S8000x1 .i32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S8000x1 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S150528x64 .bf16 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S8000x64 .bf16 := win8_3.stage (cfg8.slots t 3)
abbrev hs8_3 (t : Fin cfg8.N) : (ms8_3 t).IsWhole := hstage8_3 ((cfg8.slots t 3).cast nbuf8_3)

abbrev scM8_0 : Memref sig .tc .vmem S8000x64 .f32 := Memref.whole cc8_scratch0

abbrev rest8 (c : Dev nD) : sProp 𝕄 :=
  Pipeline.scopedRestBut (Ix := Unit) (Name := ℕ) (U := UR sig nD τ) (Lvl := ℕ) (Val := Elt F) spec8 c [cc8_scratch0]

theorem PhiA8_eq (c : Dev nD) :
    (Pipeline.ΦA spec8 c : sProp 𝕄)
      = iprop(iprop(iprop((∃ d, owns (c : Thread nD τ) scM8_0 fullShare d)) ∗ rest8 (F := F) c) ∗ (∃ r, prngReg c r)) := by
  unfold Pipeline.ΦA; rw [scopedRest8_split]; simp only [scM8_0, owns_whole]; try rfl

set_option maxRecDepth 65536 in
theorem bodyAt8_eq (t : Fin cfg8.N) : bodyAt8 (F := F) t = cc0__gather_kernel (grid8.coords t) (ms8_0 t) (hs8_0 t) (ms8_1 t) (hs8_1 t) (ms8_2 t) (hs8_2 t) (ms8_3 t) (hs8_3 t) scM8_0 (Memref.isWhole_whole _) := rfl

-- the output block and the accumulator after point n, by recursion on n: the case n's column selects, over what point n - 1 left
def outsAt8 (c : Dev nD) : (n : ℕ) → n < cfg8.N → Vec F S8000x64 .bf16 × Vec F S8000x64 .f32
  | 0, hn => (out0_A_3 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩), sout0_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if h0 : (n + 1) % 147 = 0 then
      if h1 : (n + 1) % 147 = 146 then
        False.elim (by omega)
      else
        (out0_A_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩), sout0_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩))
    else
      if h1 : (n + 1) % 147 = 146 then
        (out0_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2, sout0_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2)
      else
        (out0_B_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2, sout0_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (outsAt8 c n (Nat.lt_of_succ_lt hn)).2)

theorem outsAt8_A (c : Dev nD) (t : Fin cfg8.N) (h0 : t.val % 147 = 0) (h1 : ¬t.val % 147 = 146) :
    outsAt8 V c t.val t.isLt = (out0_A_3 c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t), sout0_A_0 c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t)) := by
  obtain ⟨n, hn⟩ := t
  cases n with
  | zero => exact rfl
  | succ n => exact (dif_pos h0).trans ((dif_neg h1).trans rfl)

theorem outsAt8_B (c : Dev nD) (t : Fin cfg8.N) (h0 : ¬t.val % 147 = 0) (h1 : ¬t.val % 147 = 146) :
    outsAt8 V c t.val t.isLt = (out0_B_3 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) (fun h => h1 ((hcond8_1 t).mp h)) (iblk8 V c 0 t) (iblk8 V c 1 t) (iblk8 V c 2 t) (outsAt8 V c (t.val - 1) (Nat.lt_of_le_of_lt (Nat.sub_le _ _) t.isLt)).2, sout0_B_0 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) (fun h => h1 ((hcond8_1 t).mp h)) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 147 = 0) (h1 : t.val % 147 = 146) :
    outsAt8 V c t.val t.isLt = (out0_C_3 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2, sout0_C_0 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ rest8 (F := F) c) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8_0 fullShare ((outsAt8 V c n hn).2) ∗ rest8 (F := F) c) ∗ (∃ r, prngReg c r)) := rfl

theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ rest8 (F := F) c) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

theorem noFlush8_3 (t : Fin cfg8.N) (h1 : ¬t.val % 147 = 146) : (cfg8.win 3).flush t = false :=
  Bool.eq_false_iff.mpr fun h => h1 ((flush8_3 t).mp h)

def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

-- the body at a point takes the invariant before it to the invariant after it and leaves each input block as it was
set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8; rw [bodyAt8_eq]
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  have hN : t.val < 55125 := lt_of_lt_of_eq t.isLt (show cfg8.N = 55125 from N_8)
  by_cases h0 : t.val % 147 = 0
  · by_cases h1 : t.val % 147 = 146
    · exfalso; omega
    · rw [Dat.leavesExact_idle (dat8 V c) 3 t (idleAt8_3 (grid8.coords t) (fun h => h1 ((hcond8_1 t).mp h))) (noFlush8_3 t h1)]
      rw [outsAt8_A V c t h0 h1]
      unfold sout0_A_0; (try dsimp only)
      by_cases hz : t.val = 0
      · rw [PhiS8_castSucc V c t, PhiS8_zero V c _ _ hz, PhiA8_eq]
        iintro ⟨⟨⟨HS0, Hr⟩, Hg⟩, Ho, ⟨%d0, H0⟩, ⟨%d1, H1⟩, ⟨%d2, H2⟩, ⟨%d3, H3⟩⟩
        iapply ((kernelRun0_A c (grid8.coords t) _ _ _ _ _ _ _ _ _ _ ((hcond8_0 t).mpr h0) (fun h => h1 ((hcond8_1 t).mp h)) (iblk8 V c 0 t) (iblk8 V c 1 t) (iblk8 V c 2 t)).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid8.coords t) _ _ _ _ _ _ _ _ _ _ ((hcond8_0 t).mpr h0) (fun h => h1 ((hcond8_1 t).mp h)) (iblk8 V c 0 t) (iblk8 V c 1 t) (iblk8 V c 2 t)).2.2 _ Set.univ _)
        iframe H0 H1 H2 H3
        isplitl [HS0]; · iexists _; iexact HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3

  · by_cases h1 : t.val % 147 = 146
    · rw [show (dat8 V c).leavesExact 3 t = owns (c : Thread nD τ) (ms8_3 t) fullShare ((dat8 V c).after 3 t) from by
        unfold Dat.leavesExact; rw [liveAt8_3 (grid8.coords t) ((hcond8_1 t).mpr h1)], after8_3]
      rw [outsAt8_C V c t h0 h1]
      unfold out0_C_3 sout0_C_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid8.coords t) _ _ _ _ _ _ _ _ _ _ (fun h => h0 ((hcond8_0 t).mp h)) ((hcond8_1 t).mpr h1) (iblk8 V c 0 t) (iblk8 V c 1 t) (iblk8 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        iframe Hr Hg Ho H0 H1 H2
        isplitl [HS0]
        · unfold owns; iexists _; isplitr
          swap; · iexact HS0
          ipureintro; exact View.read_writes_eq_canon _ _ _ (scover0_C_0 c _ _ _ _ _ _ _ _ _ _ _ _ _ _ _ _ _)
        unfold owns; iexists _; isplitr
        swap; · iexact H3
        ipureintro; exact View.read_writes_eq_canon _ _ _ (cover0_C_3 c _ _ _ _ _ _ _ _ _ _ _ _ _ _ _ _ _)
    · rw [Dat.leavesExact_idle (dat8 V c) 3 t (idleAt8_3 (grid8.coords t) (fun h => h1 ((hcond8_1 t).mp h))) (noFlush8_3 t h1)]
      rw [outsAt8_B V c t h0 h1]
      unfold sout0_B_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid8.coords t) _ _ _ _ _ _ _ _ _ _ (fun h => h0 ((hcond8_0 t).mp h)) (fun h => h1 ((hcond8_1 t).mp h)) (iblk8 V c 0 t) (iblk8 V c 1 t) (iblk8 V c 2 t) _).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_B_0 c _ _ _ _ _ _ _ _ _ _ _ _ _ _ _ _ _)
        iexists _; iexact H3

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

theorem hout8 (c : Dev nD) : (dat8 V c).Φ (Fin.last cfg8.N) ⊢ Pipeline.ΦA spec8 c :=
  Phi_out8 V c _ (by rw [Fin.val_last]; have : cfg8.N = 55125 := N_8; omega)

def xs8 (c : Dev nD) (t : Fin cfg8.N) : Vec F S1024x64 .bf16 := View.ld (iblk8 V c 2 t) (r0_x (grid8.coords t))

-- the rows a point loads are rows 1024 * column + j of the table
theorem xs8_apply (c : Dev nD) (t : Fin cfg8.N) (j : Fin 1024) (d : Fin 64) (n : Fin 150528) (hn : n.val = (grid8.coords t 1).val * 1024 + j.val) :
    (xs8 V c t : Vec F S1024x64 .bf16) (ix2 j d) = (V c (Pipeline.arrRef spec8 2) : S150528x64.Idx → Elt F .bf16) (ix2 n d) := by
  unfold xs8 iblk8
  show ((cfg8.win 2).blk t).view.read (Elt F) (V c (Pipeline.arrRef spec8 2)) ((r0_x (grid8.coords t)).idx (ix2 j d)) = _
  rw [View.read_apply]
  show (V c (Pipeline.arrRef spec8 2) : S150528x64.Idx → Elt F .bf16) _ = (V c (Pipeline.arrRef spec8 2) : S150528x64.Idx → Elt F .bf16) _
  congr 1
  funext a
  apply Fin.ext
  match a with
  | ⟨0, _⟩ =>
    show 0 * 150528 + 1 * (k0_off1 (grid8.coords t) 0 + 1 * j.val) = n.val
    rw [k0_off1_0, hn]; omega
  | ⟨1, _⟩ =>
    show 0 * 64 + 1 * (k0_off1 (grid8.coords t) 1 + 1 * d.val) = d.val
    rw [k0_off1_1]; omega

-- at a row's first column the accumulator restarts with the point's product
theorem acc8_first (c : Dev nD) (t : Fin cfg8.N) (hk : (grid8.coords t 1).val = 0) :
    (outsAt8 V c t.val t.isLt).2 = k0_pay2 (grid8.coords t) (iblk8 V c 0 t) (xs8 V c t) (k0_pay1 (F := F)) := by
  have h0 : t.val % 147 = 0 := by rw [← coords8_1 t]; exact hk
  have h1 : ¬t.val % 147 = 146 := by omega
  rw [outsAt8_A V c t h0 h1]; dsimp only
  exact sout0_A_0_eq c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t)

-- at every other column the point's product is added to what the point before left
theorem acc8_next (c : Dev nD) (t : Fin cfg8.N) (hk : (grid8.coords t 1).val ≠ 0) :
    (outsAt8 V c t.val t.isLt).2 = k0_pay2 (grid8.coords t) (iblk8 V c 0 t) (xs8 V c t) (outsAt8 V c (t.val - 1) (by omega)).2 := by
  have h0 : ¬t.val % 147 = 0 := by rw [← coords8_1 t]; exact hk
  by_cases h1 : t.val % 147 = 146
  · rw [outsAt8_C V c t h0 h1]; dsimp only
    exact sout0_C_0_eq c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2
  · rw [outsAt8_B V c t h0 h1]; dsimp only
    exact sout0_B_0_eq c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) (fun h => h1 ((hcond8_1 t).mp h)) (iblk8 V c 0 t) (iblk8 V c 1 t) (iblk8 V c 2 t) (outsAt8 V c (t.val - 1) (Nat.lt_of_le_of_lt (Nat.sub_le _ _) t.isLt)).2

-- at a row's last column the output block is the accumulator scaled by the weights
theorem out8_last (c : Dev nD) (t : Fin cfg8.N) (hk : (grid8.coords t 1).val = 146) :
    (outsAt8 V c t.val t.isLt).1 = k0_pay3 (outsAt8 V c t.val t.isLt).2 (iblk8 V c 1 t) := by
  have h1 : t.val % 147 = 146 := by rw [← coords8_1 t]; exact hk
  have h0 : ¬t.val % 147 = 0 := by omega
  rw [outsAt8_C V c t h0 h1]; dsimp only
  exact out0_C_3_eq c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2

end Cert.KernelIdeal.Hand

end
-- ==== Proof.KI.S9.Frame.lean ====
import proofs.«406629_j10943576670300_1_alg».proof.Proof.KI.S1.RunC
import proofs.«406629_j10943576670300_1_alg».proof.Proof.KI.PointsP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem coords9_1 (t : Fin cfg9.N) : (grid9.coords t 1).val = t.val % 375 := by
  show t.val / grid9.stride 1 % 375 = t.val % 375
  rw [show grid9.stride 1 = 1 from by decide, Nat.div_one]

theorem coords9_0 (t : Fin cfg9.N) : (grid9.coords t 0).val = t.val / 375 := by
  show t.val / grid9.stride 0 % 147 = t.val / 375
  rw [show grid9.stride 0 = 375 from by decide]
  have hN : t.val < 55125 := lt_of_lt_of_eq t.isLt (show cfg9.N = 55125 from N_9)
  exact Nat.mod_eq_of_lt (by omega)

theorem hcond9_0 : ∀ t : Fin cfg9.N, cond1_0 (grid9.coords t) ↔ t.val % 375 = 0 := fun t =>
  (cond1_0_k (grid9.coords t 1)).trans (by rw [coords9_1])

theorem hcond9_1 : ∀ t : Fin cfg9.N, cond1_1 (grid9.coords t) ↔ t.val % 375 = 374 := fun t =>
  (cond1_1_k (grid9.coords t 1)).trans (by rw [coords9_1])

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl

theorem idleAt9_3 : ∀ t : Fin cfg9.N, ¬cond1_1 (grid9.coords t) → cfg9.idle 3 (grid9.coords t) = true := fun t h => by
  show (!(k1_cond2 (grid9.coords t) == 1#1)) = true
  rw [Bool.not_eq_true', beq_eq_false_iff_ne]; exact h

theorem noFlush9_3 : ∀ t : Fin cfg9.N, ¬cond1_1 (grid9.coords t) → (cfg9.win 3).flush t = false := fun t h =>
  Bool.eq_false_iff.mpr fun hf => h ((hcond9_1 t).mpr ((flush9_3 t).mp hf))

theorem liveAt9_3 : ∀ t : Fin cfg9.N, cond1_1 (grid9.coords t) → cfg9.idle 3 (grid9.coords t) = false := fun t h => by
  show (!(k1_cond2 (grid9.coords t) == 1#1)) = false
  rw [Bool.not_eq_false', beq_iff_eq]; exact h

abbrev ms9_0 (t : Fin cfg9.N) : Memref sig .tc .vmem S8000x1 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S8000x64 .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1024x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x64 .f32 := win9_3.stage (cfg9.slots t 3)
abbrev hs9_3 (t : Fin cfg9.N) : (ms9_3 t).IsWhole := hstage9_3 ((cfg9.slots t 3).cast nbuf9_3)

abbrev scM9_0 : Memref sig .tc .vmem S1024x64 .f32 := Memref.whole cc9_scratch0

theorem bodyAt9_eq (t : Fin cfg9.N) :
    bodyAt9 (F := F) t = cc1__scatter_kernel (grid9.coords t) (ms9_0 t) (hs9_0 t) (ms9_1 t) (hs9_1 t) (ms9_2 t) (hs9_2 t) (ms9_3 t) (hs9_3 t) scM9_0 (Memref.isWhole_whole _) := rfl

theorem PhiA9_eq (c : Dev nD) :
    (Pipeline.ΦA spec9 c : sProp 𝕄)
      = iprop(iprop(iprop((∃ d, owns (c : Thread nD τ) scM9_0 fullShare d)) ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

def pair9_A (c : Dev nD) (t : Fin cfg9.N) (h0 : cond1_0 (grid9.coords t)) (h1 : ¬cond1_1 (grid9.coords t)) : Vec F S1024x64 .f32 × Vec F S1024x64 .f32 :=
  (out1_A_3 c (grid9.coords t) (ms9_0 t) (hs9_0 t) (ms9_1 t) (hs9_1 t) (ms9_2 t) (hs9_2 t) (ms9_3 t) (hs9_3 t) scM9_0 (Memref.isWhole_whole _) h0 h1 (iblk9 V c 0 t) (iblk9 V c 1 t) (iblk9 V c 2 t),
   sout1_A_0 c (grid9.coords t) (ms9_0 t) (hs9_0 t) (ms9_1 t) (hs9_1 t) (ms9_2 t) (hs9_2 t) (ms9_3 t) (hs9_3 t) scM9_0 (Memref.isWhole_whole _) h0 h1 (iblk9 V c 0 t) (iblk9 V c 1 t) (iblk9 V c 2 t))

def pair9_B (c : Dev nD) (t : Fin cfg9.N) (h0 : ¬cond1_0 (grid9.coords t)) (h1 : ¬cond1_1 (grid9.coords t)) (prev : Vec F S1024x64 .f32) : Vec F S1024x64 .f32 × Vec F S1024x64 .f32 :=
  (out1_B_3 c (grid9.coords t) (ms9_0 t) (hs9_0 t) (ms9_1 t) (hs9_1 t) (ms9_2 t) (hs9_2 t) (ms9_3 t) (hs9_3 t) scM9_0 (Memref.isWhole_whole _) h0 h1 (iblk9 V c 0 t) (iblk9 V c 1 t) (iblk9 V c 2 t) prev,
   sout1_B_0 c (grid9.coords t) (ms9_0 t) (hs9_0 t) (ms9_1 t) (hs9_1 t) (ms9_2 t) (hs9_2 t) (ms9_3 t) (hs9_3 t) scM9_0 (Memref.isWhole_whole _) h0 h1 (iblk9 V c 0 t) (iblk9 V c 1 t) (iblk9 V c 2 t) prev)

def pair9_C (c : Dev nD) (t : Fin cfg9.N) (h0 : ¬cond1_0 (grid9.coords t)) (h1 : cond1_1 (grid9.coords t)) (prev : Vec F S1024x64 .f32) : Vec F S1024x64 .f32 × Vec F S1024x64 .f32 :=
  (out1_C_3 c (grid9.coords t) (ms9_0 t) (hs9_0 t) (ms9_1 t) (hs9_1 t) (ms9_2 t) (hs9_2 t) (ms9_3 t) (hs9_3 t) scM9_0 (Memref.isWhole_whole _) h0 h1 (iblk9 V c 0 t) (iblk9 V c 1 t) (iblk9 V c 2 t) prev,
   sout1_C_0 c (grid9.coords t) (ms9_0 t) (hs9_0 t) (ms9_1 t) (hs9_1 t) (ms9_2 t) (hs9_2 t) (ms9_3 t) (hs9_3 t) scM9_0 (Memref.isWhole_whole _) h0 h1 (iblk9 V c 0 t) (iblk9 V c 1 t) (iblk9 V c 2 t) prev)

-- the output block and the accumulator after point n, by recursion on n: the case n's column selects, over what point n - 1 left
def outsAt9 (c : Dev nD) : (n : ℕ) → n < cfg9.N → Vec F S1024x64 .f32 × Vec F S1024x64 .f32
  | 0, hn => pair9_A V c ⟨0, hn⟩ ((hcond9_0 ⟨0, hn⟩).mpr (Nat.zero_mod _)) (fun h => (fun h => by (try dsimp only at h); omega) ((hcond9_1 ⟨0, hn⟩).mp h))
  | n + 1, hn =>
    if h0 : (n + 1) % 375 = 0 then
      if h1 : (n + 1) % 375 = 374 then
        False.elim (by omega)
      else
        pair9_A V c ⟨n + 1, hn⟩ ((hcond9_0 ⟨n + 1, hn⟩).mpr h0) (fun h => h1 ((hcond9_1 ⟨n + 1, hn⟩).mp h))
    else
      if h1 : (n + 1) % 375 = 374 then
        pair9_C V c ⟨n + 1, hn⟩ (fun h => h0 ((hcond9_0 ⟨n + 1, hn⟩).mp h)) ((hcond9_1 ⟨n + 1, hn⟩).mpr h1) (outsAt9 c n (Nat.lt_of_succ_lt hn)).2
      else
        pair9_B V c ⟨n + 1, hn⟩ (fun h => h0 ((hcond9_0 ⟨n + 1, hn⟩).mp h)) (fun h => h1 ((hcond9_1 ⟨n + 1, hn⟩).mp h)) (outsAt9 c n (Nat.lt_of_succ_lt hn)).2

theorem outsAt9_A (c : Dev nD) (t : Fin cfg9.N) (h0 : t.val % 375 = 0) (h1 : ¬t.val % 375 = 374) :
    outsAt9 V c t.val t.isLt = pair9_A V c t ((hcond9_0 t).mpr h0) (fun h => h1 ((hcond9_1 t).mp h)) := by
  obtain ⟨n, hn⟩ := t
  cases n with
  | zero => exact rfl
  | succ n => exact (dif_pos h0).trans ((dif_neg h1).trans rfl)

theorem outsAt9_B (c : Dev nD) (t : Fin cfg9.N) (h0 : ¬t.val % 375 = 0) (h1 : ¬t.val % 375 = 374) :
    outsAt9 V c t.val t.isLt = pair9_B V c t (fun h => h0 ((hcond9_0 t).mp h)) (fun h => h1 ((hcond9_1 t).mp h)) (outsAt9 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt9_C (c : Dev nD) (t : Fin cfg9.N) (h0 : ¬t.val % 375 = 0) (h1 : t.val % 375 = 374) :
    outsAt9 V c t.val t.isLt = pair9_C V c t (fun h => h0 ((hcond9_0 t).mp h)) ((hcond9_1 t).mpr h1) (outsAt9 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2)) ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2)) ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2)) ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

-- the body at a point takes the invariant before it to the invariant after it and leaves each input block as it was
set_option maxHeartbeats 4800000 in
theorem sound_body9 (c : Dev nD) (t : Fin cfg9.N) :
    bodyPre9 V c t ⊢ wp frame (wpE (defs₀ (F := F)) Variants.none c none) Set.univ (bodyAt9 t) (fun _ => bodyPost9 V c t) := by
  rw [bodyAt9_eq]
  unfold bodyPre9 bodyPost9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  have hN : t.val < 55125 := lt_of_lt_of_eq t.isLt (show cfg9.N = 55125 from N_9)
  by_cases h0 : t.val % 375 = 0
  · by_cases h1 : t.val % 375 = 374
    · exfalso; omega
    · rw [Dat.leavesExact_idle (dat9 V c) 3 t (idleAt9_3 t (fun h => h1 ((hcond9_1 t).mp h))) (noFlush9_3 t (fun h => h1 ((hcond9_1 t).mp h)))]
      rw [outsAt9_A V c t h0 h1]
      unfold pair9_A sout1_A_0; (try dsimp only)
      by_cases hz : t.val = 0
      · rw [PhiS9_castSucc V c t, PhiS9_zero V c _ _ hz, PhiA9_eq]
        iintro ⟨⟨⟨HS0, HR⟩, Hg⟩, Ho, ⟨%d0, H0⟩, ⟨%d1, H1⟩, ⟨%d2, H2⟩, ⟨%d3, H3⟩⟩
        iapply ((kernelRun1_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
      · rw [PhiS9_castSucc V c t, PhiS9_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid9.coords t) _ _ _ _ _ _ _ _ _ _ ((hcond9_0 t).mpr h0) (fun h => h1 ((hcond9_1 t).mp h)) (iblk9 V c 0 t) (iblk9 V c 1 t) (iblk9 V c 2 t)).2.2 _ Set.univ _)
        iframe H0 H1 H2 H3
        isplitl [HS0]; · iexists _; iexact HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
  · by_cases h1 : t.val % 375 = 374
    · rw [show (dat9 V c).leavesExact 3 t = owns (c : Thread nD τ) (ms9_3 t) fullShare ((dat9 V c).after 3 t) from by
        unfold Dat.leavesExact; rw [liveAt9_3 t ((hcond9_1 t).mpr h1)], after9_3]
      rw [outsAt9_C V c t h0 h1]
      unfold pair9_C out1_C_3 sout1_C_0; (try dsimp only)
      have hz : t.val ≠ 0 := fun hz => h0 (by rw [hz])
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid9.coords t) _ _ _ _ _ _ _ _ _ _ (fun h => h0 ((hcond9_0 t).mp h)) ((hcond9_1 t).mpr h1) (iblk9 V c 0 t) (iblk9 V c 1 t) (iblk9 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat9 V c) 3 t (idleAt9_3 t (fun h => h1 ((hcond9_1 t).mp h))) (noFlush9_3 t (fun h => h1 ((hcond9_1 t).mp h)))]
      rw [outsAt9_B V c t h0 h1]
      unfold pair9_B sout1_B_0; (try dsimp only)
      have hz : t.val ≠ 0 := fun hz => h0 (by rw [hz])
      rw [PhiS9_castSucc V c t, PhiS9_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid9.coords t) _ _ _ _ _ _ _ _ _ _ (fun h => h0 ((hcond9_0 t).mp h)) (fun h => h1 ((hcond9_1 t).mp h)) (iblk9 V c 0 t) (iblk9 V c 1 t) (iblk9 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, HR⟩, Hg⟩
  isplitl [HS0 HR]
  · isplitl [HS0]
    · iexists _; iexact HS0
    iexact HR
  iexact Hg

theorem hout9 (c : Dev nD) : (dat9 V c).Φ (Fin.last cfg9.N) ⊢ Pipeline.ΦA spec9 c :=
  Phi_out9 V c _ (by rw [Fin.val_last]; have : cfg9.N = 55125 := N_9; omega)

-- at a row's first column the accumulator restarts with the point's product
theorem acc9_first (c : Dev nD) (t : Fin cfg9.N) (hk : (grid9.coords t 1).val = 0) :
    (outsAt9 V c t.val t.isLt).2 = k1_pay2 (grid9.coords t) (iblk9 V c 0 t) (iblk9 V c 1 t) (k1_pay1 (F := F)) := by
  have h0 : t.val % 375 = 0 := by rw [← coords9_1]; exact hk
  have h1 : ¬t.val % 375 = 374 := by omega
  rw [outsAt9_A V c t h0 h1]
  unfold pair9_A; dsimp only
  exact sout1_A_0_eq c (grid9.coords t) (ms9_0 t) (hs9_0 t) (ms9_1 t) (hs9_1 t) (ms9_2 t) (hs9_2 t) (ms9_3 t) (hs9_3 t) scM9_0 (Memref.isWhole_whole _) ((hcond9_0 t).mpr h0) (fun h => h1 ((hcond9_1 t).mp h)) (iblk9 V c 0 t) (iblk9 V c 1 t) (iblk9 V c 2 t)

-- at every other column the point's product is added to what the point before left
theorem acc9_next (c : Dev nD) (t : Fin cfg9.N) (hk : (grid9.coords t 1).val ≠ 0) :
    (outsAt9 V c t.val t.isLt).2 = k1_pay2 (grid9.coords t) (iblk9 V c 0 t) (iblk9 V c 1 t) (outsAt9 V c (t.val - 1) (by omega)).2 := by
  have h0 : ¬t.val % 375 = 0 := by rw [← coords9_1]; exact hk
  by_cases h1 : t.val % 375 = 374
  · rw [outsAt9_C V c t h0 h1]
    unfold pair9_C; dsimp only
    exact sout1_C_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2
  · rw [outsAt9_B V c t h0 h1]
    unfold pair9_B; dsimp only
    exact sout1_B_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) (fun h => h1 ((hcond9_1 t).mp h)) (iblk9 V c 0 t) (iblk9 V c 1 t) (iblk9 V c 2 t) (outsAt9 V c (t.val - 1) (Nat.lt_of_le_of_lt (Nat.sub_le _ _) t.isLt)).2

-- at a row's last column the output block is the accumulator plus half of the node's rows
theorem out9_last (c : Dev nD) (t : Fin cfg9.N) (hk : (grid9.coords t 1).val = 374) :
    (outsAt9 V c t.val t.isLt).1 = k1_pay3 (outsAt9 V c t.val t.isLt).2 (iblk9 V c 2 t) := by
  have h1 : t.val % 375 = 374 := by rw [← coords9_1]; exact hk
  have h0 : ¬t.val % 375 = 0 := by omega
  rw [outsAt9_C V c t h0 h1]
  unfold pair9_C; dsimp only
  exact (out1_C_3_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2).trans
    (congrArg (fun a => k1_pay3 a (iblk9 V c 2 t)) (sout1_C_0_eq c (grid9.coords t) (ms9_0 t) (hs9_0 t) (ms9_1 t) (hs9_1 t) (ms9_2 t) (hs9_2 t) (ms9_3 t) (hs9_3 t) scM9_0 (Memref.isWhole_whole _) (fun h => h0 ((hcond9_0 t).mp h)) ((hcond9_1 t).mpr h1) (iblk9 V c 0 t) (iblk9 V c 1 t) (iblk9 V c 2 t) (outsAt9 V c (t.val - 1) (Nat.lt_of_le_of_lt (Nat.sub_le _ _) t.isLt)).2).symm)

end Cert.KernelIdeal.Hand

end
-- ==== Proof.KI.G10.Frame.lean ====
import proofs.«406629_j10943576670300_1_alg».proof.Proof.KI.G0.RunC
import proofs.«406629_j10943576670300_1_alg».proof.Proof.KI.PointsP

set_option maxRecDepth 16384

noncomputable section
namespace Cert.KernelIdeal.Hand
open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ (UR sig nD τ) ℕ

variable (V : (c : Dev nD) → (b : Ref sig .tc) → Buf (Elt F) ((c : Thread nD τ).loc b))

theorem stride10_1 : grid10.stride 1 = 1 := by decide

theorem coords10_1 (t : Fin cfg10.N) : (grid10.coords t 1).val = t.val % 147 := by
  show t.val / grid10.stride 1 % 147 = t.val % 147
  rw [stride10_1, Nat.div_one]

-- a point's column is its number modulo 147, so the body's two conditions are congruences on the point's number
theorem hcond10_0 (t : Fin cfg10.N) : cond0_0 (grid10.coords t) ↔ t.val % 147 = 0 := by
  rw [← coords10_1 t]; exact cond0_0_iff (grid10.coords t 1)

theorem hcond10_1 (t : Fin cfg10.N) : cond0_1 (grid10.coords t) ↔ t.val % 147 = 146 := by
  rw [← coords10_1 t]; exact cond0_1_iff (grid10.coords t 1)

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem iblk10_eq (c : Dev nD) (w : Fin cfg10.W) (t : Fin cfg10.N) :
    iblk10 V c w t = ((cfg10.win w).blk t).view.read (Elt F) (V c (Pipeline.arrRef spec10 w)) := rfl

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem liveAt10_0 (t : Fin cfg10.N) : cfg10.idle 0 (grid10.coords t) = false := rfl
theorem liveAt10_1 (t : Fin cfg10.N) : cfg10.idle 1 (grid10.coords t) = false := rfl
theorem liveAt10_2 (t : Fin cfg10.N) : cfg10.idle 2 (grid10.coords t) = false := rfl

theorem idleAt10_3 (i : grid10.Coords) (h1 : ¬cond0_1 i) : cfg10.idle 3 i = true := by
  show (!(decide (cond0_1 i))) = true
  rw [decide_eq_false h1]; rfl

theorem liveAt10_3 (i : grid10.Coords) (h1 : cond0_1 i) : cfg10.idle 3 i = false := by
  show (!(decide (cond0_1 i))) = false
  rw [decide_eq_true h1]; rfl

abbrev ms10_0 (t : Fin cfg10.N) : Memref sig .tc .vmem S8000x1 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S8000x1 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S150528x64 .bf16 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S8000x64 .bf16 := win10_3.stage (cfg10.slots t 3)
abbrev hs10_3 (t : Fin cfg10.N) : (ms10_3 t).IsWhole := hstage10_3 ((cfg10.slots t 3).cast nbuf10_3)

abbrev scM10_0 : Memref sig .tc .vmem S8000x64 .f32 := Memref.whole cc10_scratch0

abbrev rest10 (c : Dev nD) : sProp 𝕄 :=
  Pipeline.scopedRestBut (Ix := Unit) (Name := ℕ) (U := UR sig nD τ) (Lvl := ℕ) (Val := Elt F) spec10 c [cc10_scratch0]

theorem PhiA10_eq (c : Dev nD) :
    (Pipeline.ΦA spec10 c : sProp 𝕄)
      = iprop(iprop(iprop((∃ d, owns (c : Thread nD τ) scM10_0 fullShare d)) ∗ rest10 (F := F) c) ∗ (∃ r, prngReg c r)) := by
  unfold Pipeline.ΦA; rw [scopedRest10_split]; simp only [scM10_0, owns_whole]; try rfl

set_option maxRecDepth 65536 in
theorem bodyAt10_eq (t : Fin cfg10.N) : bodyAt10 (F := F) t = cc0__gather_kernel (grid10.coords t) (ms10_0 t) (hs10_0 t) (ms10_1 t) (hs10_1 t) (ms10_2 t) (hs10_2 t) (ms10_3 t) (hs10_3 t) scM10_0 (Memref.isWhole_whole _) := rfl

-- the output block and the accumulator after point n, by recursion on n: the case n's column selects, over what point n - 1 left
def outsAt10 (c : Dev nD) : (n : ℕ) → n < cfg10.N → Vec F S8000x64 .bf16 × Vec F S8000x64 .f32
  | 0, hn => (out0_A_3 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩) (iblk10 V c 2 ⟨0, hn⟩), sout0_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩) (iblk10 V c 2 ⟨0, hn⟩))
  | n + 1, hn =>
    if h0 : (n + 1) % 147 = 0 then
      if h1 : (n + 1) % 147 = 146 then
        False.elim (by omega)
      else
        (out0_A_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩) (iblk10 V c 2 ⟨n + 1, hn⟩), sout0_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩) (iblk10 V c 2 ⟨n + 1, hn⟩))
    else
      if h1 : (n + 1) % 147 = 146 then
        (out0_C_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2, sout0_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (outsAt10 c n (Nat.lt_of_succ_lt hn)).2)
      else
        (out0_B_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (outsAt10 c n (Nat.lt_of_succ_lt hn)).2, sout0_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (outsAt10 c n (Nat.lt_of_succ_lt hn)).2)

theorem outsAt10_A (c : Dev nD) (t : Fin cfg10.N) (h0 : t.val % 147 = 0) (h1 : ¬t.val % 147 = 146) :
    outsAt10 V c t.val t.isLt = (out0_A_3 c (grid10.coords t) (ms10_0 t) (hs10_0 t) (ms10_1 t) (hs10_1 t) (ms10_2 t) (hs10_2 t) (ms10_3 t) (hs10_3 t) scM10_0 (Memref.isWhole_whole _) ((hcond10_0 t).mpr h0) (fun h => h1 ((hcond10_1 t).mp h)) (iblk10 V c 0 t) (iblk10 V c 1 t) (iblk10 V c 2 t), sout0_A_0 c (grid10.coords t) (ms10_0 t) (hs10_0 t) (ms10_1 t) (hs10_1 t) (ms10_2 t) (hs10_2 t) (ms10_3 t) (hs10_3 t) scM10_0 (Memref.isWhole_whole _) ((hcond10_0 t).mpr h0) (fun h => h1 ((hcond10_1 t).mp h)) (iblk10 V c 0 t) (iblk10 V c 1 t) (iblk10 V c 2 t)) := by
  obtain ⟨n, hn⟩ := t
  cases n with
  | zero => exact rfl
  | succ n => exact (dif_pos h0).trans ((dif_neg h1).trans rfl)

theorem outsAt10_B (c : Dev nD) (t : Fin cfg10.N) (h0 : ¬t.val % 147 = 0) (h1 : ¬t.val % 147 = 146) :
    outsAt10 V c t.val t.isLt = (out0_B_3 c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) (fun h => h1 ((hcond10_1 t).mp h)) (iblk10 V c 0 t) (iblk10 V c 1 t) (iblk10 V c 2 t) (outsAt10 V c (t.val - 1) (Nat.lt_of_le_of_lt (Nat.sub_le _ _) t.isLt)).2, sout0_B_0 c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) (fun h => h1 ((hcond10_1 t).mp h)) (iblk10 V c 0 t) (iblk10 V c 1 t) (iblk10 V c 2 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt10_C (c : Dev nD) (t : Fin cfg10.N) (h0 : ¬t.val % 147 = 0) (h1 : t.val % 147 = 146) :
    outsAt10 V c t.val t.isLt = (out0_C_3 c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2, sout0_C_0 c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2) ∗ rest10 (F := F) c) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(owns (c : Thread nD τ) scM10_0 fullShare ((outsAt10 V c n hn).2) ∗ rest10 (F := F) c) ∗ (∃ r, prngReg c r)) := rfl

theorem PhiS10_pos (c : Dev nD) (n : ℕ) (h : n ≤ cfg10.N) (hz : n ≠ 0) :
    PhiS10 V c n h = iprop(iprop(owns (c : Thread nD τ) scM10_0 fullShare ((outsAt10 V c (n - 1) (by omega)).2) ∗ rest10 (F := F) c) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

theorem noFlush10_3 (t : Fin cfg10.N) (h1 : ¬t.val % 147 = 146) : (cfg10.win 3).flush t = false :=
  Bool.eq_false_iff.mpr fun h => h1 ((flush10_3 t).mp h)

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

-- the body at a point takes the invariant before it to the invariant after it and leaves each input block as it was
set_option maxHeartbeats 4800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10; rw [bodyAt10_eq]
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  have hN : t.val < 55125 := lt_of_lt_of_eq t.isLt (show cfg10.N = 55125 from N_10)
  by_cases h0 : t.val % 147 = 0
  · by_cases h1 : t.val % 147 = 146
    · exfalso; omega
    · rw [Dat.leavesExact_idle (dat10 V c) 3 t (idleAt10_3 (grid10.coords t) (fun h => h1 ((hcond10_1 t).mp h))) (noFlush10_3 t h1)]
      rw [outsAt10_A V c t h0 h1]
      unfold sout0_A_0; (try dsimp only)
      by_cases hz : t.val = 0
      · rw [PhiS10_castSucc V c t, PhiS10_zero V c _ _ hz, PhiA10_eq]
        iintro ⟨⟨⟨HS0, Hr⟩, Hg⟩, Ho, ⟨%d0, H0⟩, ⟨%d1, H1⟩, ⟨%d2, H2⟩, ⟨%d3, H3⟩⟩
        iapply ((kernelRun0_A c (grid10.coords t) _ _ _ _ _ _ _ _ _ _ ((hcond10_0 t).mpr h0) (fun h => h1 ((hcond10_1 t).mp h)) (iblk10 V c 0 t) (iblk10 V c 1 t) (iblk10 V c 2 t)).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3
      · rw [PhiS10_castSucc V c t, PhiS10_pos V c _ _ hz]
        iintro ⟨⟨⟨HS0, Hr⟩, Hg⟩, Ho, ⟨%d0, H0⟩, ⟨%d1, H1⟩, ⟨%d2, H2⟩, ⟨%d3, H3⟩⟩
        iapply ((kernelRun0_A c (grid10.coords t) _ _ _ _ _ _ _ _ _ _ ((hcond10_0 t).mpr h0) (fun h => h1 ((hcond10_1 t).mp h)) (iblk10 V c 0 t) (iblk10 V c 1 t) (iblk10 V c 2 t)).2.2 _ Set.univ _)
        iframe H0 H1 H2 H3
        isplitl [HS0]; · iexists _; iexact HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_A_0 c _ _ _ _ _ _ _ _ _ _ _ _ _ _ _ _)
        iexists _; iexact H3

  · by_cases h1 : t.val % 147 = 146
    · rw [show (dat10 V c).leavesExact 3 t = owns (c : Thread nD τ) (ms10_3 t) fullShare ((dat10 V c).after 3 t) from by
        unfold Dat.leavesExact; rw [liveAt10_3 (grid10.coords t) ((hcond10_1 t).mpr h1)], after10_3]
      rw [outsAt10_C V c t h0 h1]
      unfold out0_C_3 sout0_C_0; (try dsimp only)
      by_cases hz : t.val = 0
      · exfalso; omega
      · rw [PhiS10_castSucc V c t, PhiS10_pos V c _ _ hz]
        iintro ⟨⟨⟨HS0, Hr⟩, Hg⟩, Ho, ⟨%d0, H0⟩, ⟨%d1, H1⟩, ⟨%d2, H2⟩, ⟨%d3, H3⟩⟩
        iapply ((kernelRun0_C c (grid10.coords t) _ _ _ _ _ _ _ _ _ _ (fun h => h0 ((hcond10_0 t).mp h)) ((hcond10_1 t).mpr h1) (iblk10 V c 0 t) (iblk10 V c 1 t) (iblk10 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        iframe Hr Hg Ho H0 H1 H2
        isplitl [HS0]
        · unfold owns; iexists _; isplitr
          swap; · iexact HS0
          ipureintro; exact View.read_writes_eq_canon _ _ _ (scover0_C_0 c _ _ _ _ _ _ _ _ _ _ _ _ _ _ _ _ _)
        unfold owns; iexists _; isplitr
        swap; · iexact H3
        ipureintro; exact View.read_writes_eq_canon _ _ _ (cover0_C_3 c _ _ _ _ _ _ _ _ _ _ _ _ _ _ _ _ _)
    · rw [Dat.leavesExact_idle (dat10 V c) 3 t (idleAt10_3 (grid10.coords t) (fun h => h1 ((hcond10_1 t).mp h))) (noFlush10_3 t h1)]
      rw [outsAt10_B V c t h0 h1]
      unfold sout0_B_0; (try dsimp only)
      by_cases hz : t.val = 0
      · exfalso; omega
      · rw [PhiS10_castSucc V c t, PhiS10_pos V c _ _ hz]
        iintro ⟨⟨⟨HS0, Hr⟩, Hg⟩, Ho, ⟨%d0, H0⟩, ⟨%d1, H1⟩, ⟨%d2, H2⟩, ⟨%d3, H3⟩⟩
        iapply ((kernelRun0_B c (grid10.coords t) _ _ _ _ _ _ _ _ _ _ (fun h => h0 ((hcond10_0 t).mp h)) (fun h => h1 ((hcond10_1 t).mp h)) (iblk10 V c 0 t) (iblk10 V c 1 t) (iblk10 V c 2 t) _).2.2 _ Set.univ _)
        iframe H0 H1 H2 H3 HS0
        iintro ⟨H0, H1, H2, H3, ⟨%es0, HS0⟩⟩
        iframe Hr Hg Ho H0 H1 H2
        isplitl [HS0]
        · unfold owns; iexists _; isplitr
          swap; · iexact HS0
          ipureintro; exact View.read_writes_eq_canon _ _ _ (scover0_B_0 c _ _ _ _ _ _ _ _ _ _ _ _ _ _ _ _ _)
        iexists _; iexact H3

theorem body_obligation10 (c : Dev nD) : BodyObligation (dat10 (F := F) V c) (defs₀ (F := F)) Variants.none () Set.univ := fun t => by
  rw [bigSep_W10, bigSep_W10]
  exact sound_body10 V c t

theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, Hr⟩, Hg⟩
  isplitl [HS0 Hr]
  · isplitl [HS0]
    · iexists _; iexact HS0
    iexact Hr
  iexact Hg

theorem hout10 (c : Dev nD) : (dat10 V c).Φ (Fin.last cfg10.N) ⊢ Pipeline.ΦA spec10 c :=
  Phi_out10 V c _ (by rw [Fin.val_last]; have : cfg10.N = 55125 := N_10; omega)

def xs10 (c : Dev nD) (t : Fin cfg10.N) : Vec F S1024x64 .bf16 := View.ld (iblk10 V c 2 t) (r0_x (grid10.coords t))

-- the rows a point loads are rows 1024 * column + j of the table
theorem xs10_apply (c : Dev nD) (t : Fin cfg10.N) (j : Fin 1024) (d : Fin 64) (n : Fin 150528) (hn : n.val = (grid10.coords t 1).val * 1024 + j.val) :
    (xs10 V c t : Vec F S1024x64 .bf16) (ix2 j d) = (V c (Pipeline.arrRef spec10 2) : S150528x64.Idx → Elt F .bf16) (ix2 n d) := by
  unfold xs10 iblk10
  show ((cfg10.win 2).blk t).view.read (Elt F) (V c (Pipeline.arrRef spec10 2)) ((r0_x (grid10.coords t)).idx (ix2 j d)) = _
  rw [View.read_apply]
  show (V c (Pipeline.arrRef spec10 2) : S150528x64.Idx → Elt F .bf16) _ = (V c (Pipeline.arrRef spec10 2) : S150528x64.Idx → Elt F .bf16) _
  congr 1
  funext a
  apply Fin.ext
  match a with
  | ⟨0, _⟩ =>
    show 0 * 150528 + 1 * (k0_off1 (grid10.coords t) 0 + 1 * j.val) = n.val
    rw [k0_off1_0, hn]; omega
  | ⟨1, _⟩ =>
    show 0 * 64 + 1 * (k0_off1 (grid10.coords t) 1 + 1 * d.val) = d.val
    rw [k0_off1_1]; omega

-- at a row's first column the accumulator restarts with the point's product
theorem acc10_first (c : Dev nD) (t : Fin cfg10.N) (hk : (grid10.coords t 1).val = 0) :
    (outsAt10 V c t.val t.isLt).2 = k0_pay2 (grid10.coords t) (iblk10 V c 0 t) (xs10 V c t) (k0_pay1 (F := F)) := by
  have h0 : t.val % 147 = 0 := by rw [← coords10_1 t]; exact hk
  have h1 : ¬t.val % 147 = 146 := by omega
  rw [outsAt10_A V c t h0 h1]; dsimp only
  exact sout0_A_0_eq c (grid10.coords t) (ms10_0 t) (hs10_0 t) (ms10_1 t) (hs10_1 t) (ms10_2 t) (hs10_2 t) (ms10_3 t) (hs10_3 t) scM10_0 (Memref.isWhole_whole _) ((hcond10_0 t).mpr h0) (fun h => h1 ((hcond10_1 t).mp h)) (iblk10 V c 0 t) (iblk10 V c 1 t) (iblk10 V c 2 t)

-- at every other column the point's product is added to what the point before left
theorem acc10_next (c : Dev nD) (t : Fin cfg10.N) (hk : (grid10.coords t 1).val ≠ 0) :
    (outsAt10 V c t.val t.isLt).2 = k0_pay2 (grid10.coords t) (iblk10 V c 0 t) (xs10 V c t) (outsAt10 V c (t.val - 1) (by omega)).2 := by
  have h0 : ¬t.val % 147 = 0 := by rw [← coords10_1 t]; exact hk
  by_cases h1 : t.val % 147 = 146
  · rw [outsAt10_C V c t h0 h1]; dsimp only
    exact sout0_C_0_eq c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2
  · rw [outsAt10_B V c t h0 h1]; dsimp only
    exact sout0_B_0_eq c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) (fun h => h1 ((hcond10_1 t).mp h)) (iblk10 V c 0 t) (iblk10 V c 1 t) (iblk10 V c 2 t) (outsAt10 V c (t.val - 1) (Nat.lt_of_le_of_lt (Nat.sub_le _ _) t.isLt)).2

-- at a row's last column the output block is the accumulator scaled by the weights
theorem out10_last (c : Dev nD) (t : Fin cfg10.N) (hk : (grid10.coords t 1).val = 146) :
    (outsAt10 V c t.val t.isLt).1 = k0_pay3 (outsAt10 V c t.val t.isLt).2 (iblk10 V c 1 t) := by
  have h1 : t.val % 147 = 146 := by rw [← coords10_1 t]; exact hk
  have h0 : ¬t.val % 147 = 0 := by omega
  rw [outsAt10_C V c t h0 h1]; dsimp only
  exact out0_C_3_eq c (grid10.coords t) (ms10_0 t) (hs10_0 t) (ms10_1 t) (hs10_1 t) (ms10_2 t) (hs10_2 t) (ms10_3 t) (hs10_3 t) scM10_0 (Memref.isWhole_whole _) (fun h => h0 ((hcond10_0 t).mp h)) ((hcond10_1 t).mpr h1) (iblk10 V c 0 t) (iblk10 V c 1 t) (iblk10 V c 2 t) (outsAt10 V c (t.val - 1) (Nat.lt_of_le_of_lt (Nat.sub_le _ _) t.isLt)).2

end Cert.KernelIdeal.Hand

end
-- ==== Proof.KI.S11.Frame.lean ====
import proofs.«406629_j10943576670300_1_alg».proof.Proof.KI.S1.RunC
import proofs.«406629_j10943576670300_1_alg».proof.Proof.KI.PointsP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem coords11_1 (t : Fin cfg11.N) : (grid11.coords t 1).val = t.val % 375 := by
  show t.val / grid11.stride 1 % 375 = t.val % 375
  rw [show grid11.stride 1 = 1 from by decide, Nat.div_one]

theorem coords11_0 (t : Fin cfg11.N) : (grid11.coords t 0).val = t.val / 375 := by
  show t.val / grid11.stride 0 % 147 = t.val / 375
  rw [show grid11.stride 0 = 375 from by decide]
  have hN : t.val < 55125 := lt_of_lt_of_eq t.isLt (show cfg11.N = 55125 from N_11)
  exact Nat.mod_eq_of_lt (by omega)

theorem hcond11_0 : ∀ t : Fin cfg11.N, cond1_0 (grid11.coords t) ↔ t.val % 375 = 0 := fun t =>
  (cond1_0_k (grid11.coords t 1)).trans (by rw [coords11_1])

theorem hcond11_1 : ∀ t : Fin cfg11.N, cond1_1 (grid11.coords t) ↔ t.val % 375 = 374 := fun t =>
  (cond1_1_k (grid11.coords t 1)).trans (by rw [coords11_1])

theorem liveAt11_0 : ∀ t : Fin cfg11.N, cfg11.idle 0 (grid11.coords t) = false := fun _ => rfl
theorem liveAt11_1 : ∀ t : Fin cfg11.N, cfg11.idle 1 (grid11.coords t) = false := fun _ => rfl
theorem liveAt11_2 : ∀ t : Fin cfg11.N, cfg11.idle 2 (grid11.coords t) = false := fun _ => rfl

theorem idleAt11_3 : ∀ t : Fin cfg11.N, ¬cond1_1 (grid11.coords t) → cfg11.idle 3 (grid11.coords t) = true := fun t h => by
  show (!(k1_cond2 (grid11.coords t) == 1#1)) = true
  rw [Bool.not_eq_true', beq_eq_false_iff_ne]; exact h

theorem noFlush11_3 : ∀ t : Fin cfg11.N, ¬cond1_1 (grid11.coords t) → (cfg11.win 3).flush t = false := fun t h =>
  Bool.eq_false_iff.mpr fun hf => h ((hcond11_1 t).mpr ((flush11_3 t).mp hf))

theorem liveAt11_3 : ∀ t : Fin cfg11.N, cond1_1 (grid11.coords t) → cfg11.idle 3 (grid11.coords t) = false := fun t h => by
  show (!(k1_cond2 (grid11.coords t) == 1#1)) = false
  rw [Bool.not_eq_false', beq_iff_eq]; exact h

abbrev ms11_0 (t : Fin cfg11.N) : Memref sig .tc .vmem S8000x1 .i32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S8000x64 .bf16 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1024x64 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1024x64 .f32 := win11_3.stage (cfg11.slots t 3)
abbrev hs11_3 (t : Fin cfg11.N) : (ms11_3 t).IsWhole := hstage11_3 ((cfg11.slots t 3).cast nbuf11_3)

abbrev scM11_0 : Memref sig .tc .vmem S1024x64 .f32 := Memref.whole cc11_scratch0

theorem bodyAt11_eq (t : Fin cfg11.N) :
    bodyAt11 (F := F) t = cc1__scatter_kernel (grid11.coords t) (ms11_0 t) (hs11_0 t) (ms11_1 t) (hs11_1 t) (ms11_2 t) (hs11_2 t) (ms11_3 t) (hs11_3 t) scM11_0 (Memref.isWhole_whole _) := rfl

theorem PhiA11_eq (c : Dev nD) :
    (Pipeline.ΦA spec11 c : sProp 𝕄)
      = iprop(iprop(iprop((∃ d, owns (c : Thread nD τ) scM11_0 fullShare d)) ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11_0, owns_whole]; try rfl

def pair11_A (c : Dev nD) (t : Fin cfg11.N) (h0 : cond1_0 (grid11.coords t)) (h1 : ¬cond1_1 (grid11.coords t)) : Vec F S1024x64 .f32 × Vec F S1024x64 .f32 :=
  (out1_A_3 c (grid11.coords t) (ms11_0 t) (hs11_0 t) (ms11_1 t) (hs11_1 t) (ms11_2 t) (hs11_2 t) (ms11_3 t) (hs11_3 t) scM11_0 (Memref.isWhole_whole _) h0 h1 (iblk11 V c 0 t) (iblk11 V c 1 t) (iblk11 V c 2 t),
   sout1_A_0 c (grid11.coords t) (ms11_0 t) (hs11_0 t) (ms11_1 t) (hs11_1 t) (ms11_2 t) (hs11_2 t) (ms11_3 t) (hs11_3 t) scM11_0 (Memref.isWhole_whole _) h0 h1 (iblk11 V c 0 t) (iblk11 V c 1 t) (iblk11 V c 2 t))

def pair11_B (c : Dev nD) (t : Fin cfg11.N) (h0 : ¬cond1_0 (grid11.coords t)) (h1 : ¬cond1_1 (grid11.coords t)) (prev : Vec F S1024x64 .f32) : Vec F S1024x64 .f32 × Vec F S1024x64 .f32 :=
  (out1_B_3 c (grid11.coords t) (ms11_0 t) (hs11_0 t) (ms11_1 t) (hs11_1 t) (ms11_2 t) (hs11_2 t) (ms11_3 t) (hs11_3 t) scM11_0 (Memref.isWhole_whole _) h0 h1 (iblk11 V c 0 t) (iblk11 V c 1 t) (iblk11 V c 2 t) prev,
   sout1_B_0 c (grid11.coords t) (ms11_0 t) (hs11_0 t) (ms11_1 t) (hs11_1 t) (ms11_2 t) (hs11_2 t) (ms11_3 t) (hs11_3 t) scM11_0 (Memref.isWhole_whole _) h0 h1 (iblk11 V c 0 t) (iblk11 V c 1 t) (iblk11 V c 2 t) prev)

def pair11_C (c : Dev nD) (t : Fin cfg11.N) (h0 : ¬cond1_0 (grid11.coords t)) (h1 : cond1_1 (grid11.coords t)) (prev : Vec F S1024x64 .f32) : Vec F S1024x64 .f32 × Vec F S1024x64 .f32 :=
  (out1_C_3 c (grid11.coords t) (ms11_0 t) (hs11_0 t) (ms11_1 t) (hs11_1 t) (ms11_2 t) (hs11_2 t) (ms11_3 t) (hs11_3 t) scM11_0 (Memref.isWhole_whole _) h0 h1 (iblk11 V c 0 t) (iblk11 V c 1 t) (iblk11 V c 2 t) prev,
   sout1_C_0 c (grid11.coords t) (ms11_0 t) (hs11_0 t) (ms11_1 t) (hs11_1 t) (ms11_2 t) (hs11_2 t) (ms11_3 t) (hs11_3 t) scM11_0 (Memref.isWhole_whole _) h0 h1 (iblk11 V c 0 t) (iblk11 V c 1 t) (iblk11 V c 2 t) prev)

-- the output block and the accumulator after point n, by recursion on n: the case n's column selects, over what point n - 1 left
def outsAt11 (c : Dev nD) : (n : ℕ) → n < cfg11.N → Vec F S1024x64 .f32 × Vec F S1024x64 .f32
  | 0, hn => pair11_A V c ⟨0, hn⟩ ((hcond11_0 ⟨0, hn⟩).mpr (Nat.zero_mod _)) (fun h => (fun h => by (try dsimp only at h); omega) ((hcond11_1 ⟨0, hn⟩).mp h))
  | n + 1, hn =>
    if h0 : (n + 1) % 375 = 0 then
      if h1 : (n + 1) % 375 = 374 then
        False.elim (by omega)
      else
        pair11_A V c ⟨n + 1, hn⟩ ((hcond11_0 ⟨n + 1, hn⟩).mpr h0) (fun h => h1 ((hcond11_1 ⟨n + 1, hn⟩).mp h))
    else
      if h1 : (n + 1) % 375 = 374 then
        pair11_C V c ⟨n + 1, hn⟩ (fun h => h0 ((hcond11_0 ⟨n + 1, hn⟩).mp h)) ((hcond11_1 ⟨n + 1, hn⟩).mpr h1) (outsAt11 c n (Nat.lt_of_succ_lt hn)).2
      else
        pair11_B V c ⟨n + 1, hn⟩ (fun h => h0 ((hcond11_0 ⟨n + 1, hn⟩).mp h)) (fun h => h1 ((hcond11_1 ⟨n + 1, hn⟩).mp h)) (outsAt11 c n (Nat.lt_of_succ_lt hn)).2

theorem outsAt11_A (c : Dev nD) (t : Fin cfg11.N) (h0 : t.val % 375 = 0) (h1 : ¬t.val % 375 = 374) :
    outsAt11 V c t.val t.isLt = pair11_A V c t ((hcond11_0 t).mpr h0) (fun h => h1 ((hcond11_1 t).mp h)) := by
  obtain ⟨n, hn⟩ := t
  cases n with
  | zero => exact rfl
  | succ n => exact (dif_pos h0).trans ((dif_neg h1).trans rfl)

theorem outsAt11_B (c : Dev nD) (t : Fin cfg11.N) (h0 : ¬t.val % 375 = 0) (h1 : ¬t.val % 375 = 374) :
    outsAt11 V c t.val t.isLt = pair11_B V c t (fun h => h0 ((hcond11_0 t).mp h)) (fun h => h1 ((hcond11_1 t).mp h)) (outsAt11 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt11_C (c : Dev nD) (t : Fin cfg11.N) (h0 : ¬t.val % 375 = 0) (h1 : t.val % 375 = 374) :
    outsAt11 V c t.val t.isLt = pair11_C V c t (fun h => h0 ((hcond11_0 t).mp h)) ((hcond11_1 t).mpr h1) (outsAt11 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

-- the invariant before point n: the accumulator holds what point n - 1 left (anything before the first point)
def PhiS11 (c : Dev nD) : (n : ℕ) → n ≤ cfg11.N → sProp 𝕄
  | 0, _ => Pipeline.ΦA spec11 c
  | n + 1, hn => iprop(iprop(iprop(owns (c : Thread nD τ) scM11_0 fullShare ((outsAt11 V c n hn).2)) ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(iprop(owns (c : Thread nD τ) scM11_0 fullShare ((outsAt11 V c n hn).2)) ∗ Pipeline.scopedRestBut (Ix := Unit) (Name := ℕ) (U := UR sig nD τ) (Lvl := ℕ) (Val := Elt F) spec11 c [cc11_scratch0]) ∗ (∃ r, prngReg c r)) := rfl

theorem PhiS11_pos (c : Dev nD) (n : ℕ) (h : n ≤ cfg11.N) (hz : n ≠ 0) :
    PhiS11 V c n h = iprop(iprop(iprop(owns (c : Thread nD τ) scM11_0 fullShare ((outsAt11 V c (n - 1) (by omega)).2)) ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d)))

def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t)

-- the body at a point takes the invariant before it to the invariant after it and leaves each input block as it was
set_option maxHeartbeats 4800000 in
theorem sound_body11 (c : Dev nD) (t : Fin cfg11.N) :
    bodyPre11 V c t ⊢ wp frame (wpE (defs₀ (F := F)) Variants.none c none) Set.univ (bodyAt11 t) (fun _ => bodyPost11 V c t) := by
  rw [bodyAt11_eq]
  unfold bodyPre11 bodyPost11
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  have hN : t.val < 55125 := lt_of_lt_of_eq t.isLt (show cfg11.N = 55125 from N_11)
  by_cases h0 : t.val % 375 = 0
  · by_cases h1 : t.val % 375 = 374
    · exfalso; omega
    · rw [Dat.leavesExact_idle (dat11 V c) 3 t (idleAt11_3 t (fun h => h1 ((hcond11_1 t).mp h))) (noFlush11_3 t (fun h => h1 ((hcond11_1 t).mp h)))]
      rw [outsAt11_A V c t h0 h1]
      unfold pair11_A sout1_A_0; (try dsimp only)
      by_cases hz : t.val = 0
      · rw [PhiS11_castSucc V c t, PhiS11_zero V c _ _ hz, PhiA11_eq]
        iintro ⟨⟨⟨HS0, HR⟩, Hg⟩, Ho, ⟨%d0, H0⟩, ⟨%d1, H1⟩, ⟨%d2, H2⟩, ⟨%d3, H3⟩⟩
        iapply ((kernelRun1_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        iframe H0 H1 H2 H3 HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
      · rw [PhiS11_castSucc V c t, PhiS11_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid11.coords t) _ _ _ _ _ _ _ _ _ _ ((hcond11_0 t).mpr h0) (fun h => h1 ((hcond11_1 t).mp h)) (iblk11 V c 0 t) (iblk11 V c 1 t) (iblk11 V c 2 t)).2.2 _ Set.univ _)
        iframe H0 H1 H2 H3
        isplitl [HS0]; · iexists _; iexact HS0
        iintro ⟨H0, H1, H2, H3, ⟨%es0, HS0⟩⟩
        iframe HR Hg Ho H0 H1 H2
        isplitl [HS0]
        · unfold owns; iexists _; isplitr
          swap; · iexact HS0
          ipureintro; exact View.read_writes_of_cover _ _ _ _ _ (scover1_A_0 c _ _ _ _ _ _ _ _ _ _ _ _ _ _ _ _)
        iexists _; iexact H3
  · by_cases h1 : t.val % 375 = 374
    · rw [show (dat11 V c).leavesExact 3 t = owns (c : Thread nD τ) (ms11_3 t) fullShare ((dat11 V c).after 3 t) from by
        unfold Dat.leavesExact; rw [liveAt11_3 t ((hcond11_1 t).mpr h1)], after11_3]
      rw [outsAt11_C V c t h0 h1]
      unfold pair11_C out1_C_3 sout1_C_0; (try dsimp only)
      have hz : t.val ≠ 0 := fun hz => h0 (by rw [hz])
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid11.coords t) _ _ _ _ _ _ _ _ _ _ (fun h => h0 ((hcond11_0 t).mp h)) ((hcond11_1 t).mpr h1) (iblk11 V c 0 t) (iblk11 V c 1 t) (iblk11 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat11 V c) 3 t (idleAt11_3 t (fun h => h1 ((hcond11_1 t).mp h))) (noFlush11_3 t (fun h => h1 ((hcond11_1 t).mp h)))]
      rw [outsAt11_B V c t h0 h1]
      unfold pair11_B sout1_B_0; (try dsimp only)
      have hz : t.val ≠ 0 := fun hz => h0 (by rw [hz])
      rw [PhiS11_castSucc V c t, PhiS11_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid11.coords t) _ _ _ _ _ _ _ _ _ _ (fun h => h0 ((hcond11_0 t).mp h)) (fun h => h1 ((hcond11_1 t).mp h)) (iblk11 V c 0 t) (iblk11 V c 1 t) (iblk11 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation11 (c : Dev nD) : BodyObligation (dat11 (F := F) V c) (defs₀ (F := F)) Variants.none () Set.univ := fun t => by
  rw [bigSep_W11, bigSep_W11]
  exact sound_body11 V c t

theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS0, HR⟩, Hg⟩
  isplitl [HS0 HR]
  · isplitl [HS0]
    · iexists _; iexact HS0
    iexact HR
  iexact Hg

theorem hout11 (c : Dev nD) : (dat11 V c).Φ (Fin.last cfg11.N) ⊢ Pipeline.ΦA spec11 c :=
  Phi_out11 V c _ (by rw [Fin.val_last]; have : cfg11.N = 55125 := N_11; omega)

-- at a row's first column the accumulator restarts with the point's product
theorem acc11_first (c : Dev nD) (t : Fin cfg11.N) (hk : (grid11.coords t 1).val = 0) :
    (outsAt11 V c t.val t.isLt).2 = k1_pay2 (grid11.coords t) (iblk11 V c 0 t) (iblk11 V c 1 t) (k1_pay1 (F := F)) := by
  have h0 : t.val % 375 = 0 := by rw [← coords11_1]; exact hk
  have h1 : ¬t.val % 375 = 374 := by omega
  rw [outsAt11_A V c t h0 h1]
  unfold pair11_A; dsimp only
  exact sout1_A_0_eq c (grid11.coords t) (ms11_0 t) (hs11_0 t) (ms11_1 t) (hs11_1 t) (ms11_2 t) (hs11_2 t) (ms11_3 t) (hs11_3 t) scM11_0 (Memref.isWhole_whole _) ((hcond11_0 t).mpr h0) (fun h => h1 ((hcond11_1 t).mp h)) (iblk11 V c 0 t) (iblk11 V c 1 t) (iblk11 V c 2 t)

-- at every other column the point's product is added to what the point before left
theorem acc11_next (c : Dev nD) (t : Fin cfg11.N) (hk : (grid11.coords t 1).val ≠ 0) :
    (outsAt11 V c t.val t.isLt).2 = k1_pay2 (grid11.coords t) (iblk11 V c 0 t) (iblk11 V c 1 t) (outsAt11 V c (t.val - 1) (by omega)).2 := by
  have h0 : ¬t.val % 375 = 0 := by rw [← coords11_1]; exact hk
  by_cases h1 : t.val % 375 = 374
  · rw [outsAt11_C V c t h0 h1]
    unfold pair11_C; dsimp only
    exact sout1_C_0_eq c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2
  · rw [outsAt11_B V c t h0 h1]
    unfold pair11_B; dsimp only
    exact sout1_B_0_eq c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) (fun h => h1 ((hcond11_1 t).mp h)) (iblk11 V c 0 t) (iblk11 V c 1 t) (iblk11 V c 2 t) (outsAt11 V c (t.val - 1) (Nat.lt_of_le_of_lt (Nat.sub_le _ _) t.isLt)).2

-- at a row's last column the output block is the accumulator plus half of the node's rows
theorem out11_last (c : Dev nD) (t : Fin cfg11.N) (hk : (grid11.coords t 1).val = 374) :
    (outsAt11 V c t.val t.isLt).1 = k1_pay3 (outsAt11 V c t.val t.isLt).2 (iblk11 V c 2 t) := by
  have h1 : t.val % 375 = 374 := by rw [← coords11_1]; exact hk
  have h0 : ¬t.val % 375 = 0 := by omega
  rw [outsAt11_C V c t h0 h1]
  unfold pair11_C; dsimp only
  exact (out1_C_3_eq c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2).trans
    (congrArg (fun a => k1_pay3 a (iblk11 V c 2 t)) (sout1_C_0_eq c (grid11.coords t) (ms11_0 t) (hs11_0 t) (ms11_1 t) (hs11_1 t) (ms11_2 t) (hs11_2 t) (ms11_3 t) (hs11_3 t) scM11_0 (Memref.isWhole_whole _) (fun h => h0 ((hcond11_0 t).mp h)) ((hcond11_1 t).mpr h1) (iblk11 V c 0 t) (iblk11 V c 1 t) (iblk11 V c 2 t) (outsAt11 V c (t.val - 1) (Nat.lt_of_le_of_lt (Nat.sub_le _ _) t.isLt)).2).symm)

end Cert.KernelIdeal.Hand

end
-- ==== Proof.KI.Run.Vals.lean ====
import proofs.«406629_j10943576670300_1_alg».proof.Proof.Gen.KernelIdeal.Regions
import proofs.«406629_j10943576670300_1_alg».proof.Proof.KI.G0.Frame
import proofs.«406629_j10943576670300_1_alg».proof.Proof.KI.S1.Frame
import proofs.«406629_j10943576670300_1_alg».proof.Proof.KI.G2.Frame
import proofs.«406629_j10943576670300_1_alg».proof.Proof.KI.S3.Frame
import proofs.«406629_j10943576670300_1_alg».proof.Proof.KI.G4.Frame
import proofs.«406629_j10943576670300_1_alg».proof.Proof.KI.S5.Frame
import proofs.«406629_j10943576670300_1_alg».proof.Proof.KI.G6.Frame
import proofs.«406629_j10943576670300_1_alg».proof.Proof.KI.S7.Frame
import proofs.«406629_j10943576670300_1_alg».proof.Proof.KI.G8.Frame
import proofs.«406629_j10943576670300_1_alg».proof.Proof.KI.S9.Frame
import proofs.«406629_j10943576670300_1_alg».proof.Proof.KI.G10.Frame
import proofs.«406629_j10943576670300_1_alg».proof.Proof.KI.S11.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

abbrev V7 : (c : Dev nD) → (b : Ref sig .tc) → Buf (Elt F) ((c : Thread nD τ).loc b) := fun c b => W7 m ρ c b

abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b

abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b

def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b

abbrev W14 : Dev nD → Valuation τ sig (Elt F) := fun c => StableHlo.after hostOps6 (W13 m ρ c)
abbrev V14 : (c : Dev nD) → (b : Ref sig .tc) → Buf (Elt F) ((c : Thread nD τ).loc b) := fun c b => W14 m ρ c b

def W15 (c : Dev nD) : Valuation τ sig (Elt F) :=
  Pipeline.withArrays spec6 c (W14 m ρ c) fun w => (dat6 (V14 m ρ) c).arrAt w cfg6.N
theorem W15_arr (c : Dev nD) (w : Fin cfg6.W) :
    W15 m ρ c (Proc.devRef .tc (Pipeline.arrRef spec6 w)) = (dat6 (V14 m ρ) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m ρ c (Proc.devRef .tc b) = W14 m ρ c (Proc.devRef .tc b) := by
  unfold W15; exact Pipeline.withArrays_of_ne spec6 c _ _ b hb
abbrev V15 : (c : Dev nD) → (b : Ref sig .tc) → Buf (Elt F) ((c : Thread nD τ).loc b) := fun c b => W15 m ρ c b

def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b

abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b

def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b

def W19 (c : Dev nD) : Valuation τ sig (Elt F) :=
  Pipeline.withArrays spec9 c (W18 m ρ c) fun w => (dat9 (V18 m ρ) c).arrAt w cfg9.N
theorem W19_arr (c : Dev nD) (w : Fin cfg9.W) :
    W19 m ρ c (Proc.devRef .tc (Pipeline.arrRef spec9 w)) = (dat9 (V18 m ρ) c).arrAt w cfg9.N := by
  unfold W19; exact Pipeline.withArrays_arr spec9 launch9.win.arr_inj c _ _ w
theorem W19_of_ne (c : Dev nD) (b : Ref sig .tc) (hb : ∀ w, Pipeline.arrRef spec9 w ≠ b) :
    W19 m ρ c (Proc.devRef .tc b) = W18 m ρ c (Proc.devRef .tc b) := by
  unfold W19; exact Pipeline.withArrays_of_ne spec9 c _ _ b hb
abbrev V19 : (c : Dev nD) → (b : Ref sig .tc) → Buf (Elt F) ((c : Thread nD τ).loc b) := fun c b => W19 m ρ c b

abbrev W20 : Dev nD → Valuation τ sig (Elt F) := fun c => StableHlo.after hostOps10 (W19 m ρ c)
abbrev V20 : (c : Dev nD) → (b : Ref sig .tc) → Buf (Elt F) ((c : Thread nD τ).loc b) := fun c b => W20 m ρ c b

def W21 (c : Dev nD) : Valuation τ sig (Elt F) :=
  Pipeline.withArrays spec10 c (W20 m ρ c) fun w => (dat10 (V20 m ρ) c).arrAt w cfg10.N
theorem W21_arr (c : Dev nD) (w : Fin cfg10.W) :
    W21 m ρ c (Proc.devRef .tc (Pipeline.arrRef spec10 w)) = (dat10 (V20 m ρ) c).arrAt w cfg10.N := by
  unfold W21; exact Pipeline.withArrays_arr spec10 launch10.win.arr_inj c _ _ w
theorem W21_of_ne (c : Dev nD) (b : Ref sig .tc) (hb : ∀ w, Pipeline.arrRef spec10 w ≠ b) :
    W21 m ρ c (Proc.devRef .tc b) = W20 m ρ c (Proc.devRef .tc b) := by
  unfold W21; exact Pipeline.withArrays_of_ne spec10 c _ _ b hb
abbrev V21 : (c : Dev nD) → (b : Ref sig .tc) → Buf (Elt F) ((c : Thread nD τ).loc b) := fun c b => W21 m ρ c b

def W22 (c : Dev nD) : Valuation τ sig (Elt F) :=
  Pipeline.withArrays spec11 c (W21 m ρ c) fun w => (dat11 (V21 m ρ) c).arrAt w cfg11.N
theorem W22_arr (c : Dev nD) (w : Fin cfg11.W) :
    W22 m ρ c (Proc.devRef .tc (Pipeline.arrRef spec11 w)) = (dat11 (V21 m ρ) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 m ρ c (Proc.devRef .tc b) = W21 m ρ c (Proc.devRef .tc b) := by
  unfold W22; exact Pipeline.withArrays_of_ne spec11 c _ _ b hb
abbrev V22 : (c : Dev nD) → (b : Ref sig .tc) → Buf (Elt F) ((c : Thread nD τ).loc b) := fun c b => W22 m ρ c b

abbrev W23 : Dev nD → Valuation τ sig (Elt F) := fun c => StableHlo.after hostOps12 (W22 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W14_of (c : Dev nD) (r : Ref sig .tc) (h : r ∉ hostOps6_W) : W14 m ρ c (Proc.devRef .tc r) = W13 m ρ c (Proc.devRef .tc r) :=
  StableHlo.after_of_writes_sub hostOps6 _ hostOps6_writes h
theorem W17_of (c : Dev nD) (r : Ref sig .tc) (h : r ∉ hostOps8_W) : W17 m ρ c (Proc.devRef .tc r) = W16 m ρ c (Proc.devRef .tc r) :=
  StableHlo.after_of_writes_sub hostOps8 _ hostOps8_writes h
theorem W20_of (c : Dev nD) (r : Ref sig .tc) (h : r ∉ hostOps10_W) : W20 m ρ c (Proc.devRef .tc r) = W19 m ρ c (Proc.devRef .tc r) :=
  StableHlo.after_of_writes_sub hostOps10 _ hostOps10_writes h
theorem W23_of (c : Dev nD) (r : Ref sig .tc) (h : r ∉ hostOps12_W) : W23 m ρ c (Proc.devRef .tc r) = W22 m ρ c (Proc.devRef .tc r) :=
  StableHlo.after_of_writes_sub hostOps12 _ hostOps12_writes h

def pdats : (p : Fin 12) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V8 m ρ) c
  | ⟨3, _⟩ => fun c => dat3 (V9 m ρ) c
  | ⟨4, _⟩ => fun c => dat4 (V11 m ρ) c
  | ⟨5, _⟩ => fun c => dat5 (V12 m ρ) c
  | ⟨6, _⟩ => fun c => dat6 (V14 m ρ) c
  | ⟨7, _⟩ => fun c => dat7 (V15 m ρ) c
  | ⟨8, _⟩ => fun c => dat8 (V17 m ρ) c
  | ⟨9, _⟩ => fun c => dat9 (V18 m ρ) c
  | ⟨10, _⟩ => fun c => dat10 (V20 m ρ) c
  | ⟨11, _⟩ => fun c => dat11 (V21 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W23 m ρ c) ∗ ∃ r, prngReg c r)

theorem W23_main_arg0 (c : Dev nD) : W23 m ρ c (Proc.devRef .tc main_arg0) = m ((c : Thread nD τ).loc main_arg0) :=
  (W23_of m ρ c main_arg0 (by decide)).trans <| (W22_of_ne m ρ c main_arg0 (by decide)).trans <|
  (W21_of_ne m ρ c main_arg0 (by decide)).trans <| (W20_of m ρ c main_arg0 (by decide)).trans <|
  (W19_of_ne m ρ c main_arg0 (by decide)).trans <| (W18_of_ne m ρ c main_arg0 (by decide)).trans <|
  (W17_of m ρ c main_arg0 (by decide)).trans <| (W16_of_ne m ρ c main_arg0 (by decide)).trans <|
  (W15_of_ne m ρ c main_arg0 (by decide)).trans <| (W14_of m ρ c main_arg0 (by decide)).trans <|
  (W13_of_ne m ρ c main_arg0 (by decide)).trans <| (W12_of_ne m ρ c main_arg0 (by decide)).trans <|
  (W11_of m ρ c main_arg0 (by decide)).trans <| (W10_of_ne m ρ c main_arg0 (by decide)).trans <|
  (W9_of_ne m ρ c main_arg0 (by decide)).trans <| (W8_of m ρ c main_arg0 (by decide)).trans <|
  (W7_of_ne m ρ c main_arg0 (by decide)).trans <| (W6_of_ne m ρ c main_arg0 (by decide)).trans <|
  (W5_of m ρ c main_arg0 (by decide)).trans <| (W4_of m ρ c main_arg0 (by decide)).trans <|
  (W3_of m ρ c main_arg0 (by decide)).trans <| (W2_of m ρ c main_arg0 (by decide)).trans <|
  (W1_of m ρ c main_arg0 (by decide)).trans rfl

theorem W23_main_arg1 (c : Dev nD) : W23 m ρ c (Proc.devRef .tc main_arg1) = m ((c : Thread nD τ).loc main_arg1) :=
  (W23_of m ρ c main_arg1 (by decide)).trans <| (W22_of_ne m ρ c main_arg1 (by decide)).trans <|
  (W21_of_ne m ρ c main_arg1 (by decide)).trans <| (W20_of m ρ c main_arg1 (by decide)).trans <|
  (W19_of_ne m ρ c main_arg1 (by decide)).trans <| (W18_of_ne m ρ c main_arg1 (by decide)).trans <|
  (W17_of m ρ c main_arg1 (by decide)).trans <| (W16_of_ne m ρ c main_arg1 (by decide)).trans <|
  (W15_of_ne m ρ c main_arg1 (by decide)).trans <| (W14_of m ρ c main_arg1 (by decide)).trans <|
  (W13_of_ne m ρ c main_arg1 (by decide)).trans <|
  ((W12_arr m ρ c 1).trans (((dat4 (V11 m ρ) c).arrAt_in 1 rfl _).trans (A_eq4 (V11 m ρ) c 1))).trans <|
  (W11_of m ρ c main_arg1 (by decide)).trans <| (W10_of_ne m ρ c main_arg1 (by decide)).trans <|
  ((W9_arr m ρ c 1).trans (((dat2 (V8 m ρ) c).arrAt_in 1 rfl _).trans (A_eq2 (V8 m ρ) c 1))).trans <|
  (W8_of m ρ c main_arg1 (by decide)).trans <| (W7_of_ne m ρ c main_arg1 (by decide)).trans <|
  ((W6_arr m ρ c 1).trans (((dat0 (V5 m ρ) c).arrAt_in 1 rfl _).trans (A_eq0 (V5 m ρ) c 1))).trans <|
  (W5_of m ρ c main_arg1 (by decide)).trans <| (W4_of m ρ c main_arg1 (by decide)).trans <|
  (W3_of m ρ c main_arg1 (by decide)).trans <| (W2_of m ρ c main_arg1 (by decide)).trans <|
  (W1_of m ρ c main_arg1 (by decide)).trans rfl

theorem W23_main_arg2 (c : Dev nD) : W23 m ρ c (Proc.devRef .tc main_arg2) = m ((c : Thread nD τ).loc main_arg2) :=
  (W23_of m ρ c main_arg2 (by decide)).trans <| (W22_of_ne m ρ c main_arg2 (by decide)).trans <|
  (W21_of_ne m ρ c main_arg2 (by decide)).trans <| (W20_of m ρ c main_arg2 (by decide)).trans <|
  (W19_of_ne m ρ c main_arg2 (by decide)).trans <| (W18_of_ne m ρ c main_arg2 (by decide)).trans <|
  (W17_of m ρ c main_arg2 (by decide)).trans <| (W16_of_ne m ρ c main_arg2 (by decide)).trans <|
  (W15_of_ne m ρ c main_arg2 (by decide)).trans <| (W14_of m ρ c main_arg2 (by decide)).trans <|
  (W13_of_ne m ρ c main_arg2 (by decide)).trans <| (W12_of_ne m ρ c main_arg2 (by decide)).trans <|
  (W11_of m ρ c main_arg2 (by decide)).trans <| (W10_of_ne m ρ c main_arg2 (by decide)).trans <|
  (W9_of_ne m ρ c main_arg2 (by decide)).trans <| (W8_of m ρ c main_arg2 (by decide)).trans <|
  (W7_of_ne m ρ c main_arg2 (by decide)).trans <| (W6_of_ne m ρ c main_arg2 (by decide)).trans <|
  (W5_of m ρ c main_arg2 (by decide)).trans <| (W4_of m ρ c main_arg2 (by decide)).trans <|
  (W3_of m ρ c main_arg2 (by decide)).trans <| (W2_of m ρ c main_arg2 (by decide)).trans <|
  (W1_of m ρ c main_arg2 (by decide)).trans rfl

theorem W23_main_arg3 (c : Dev nD) : W23 m ρ c (Proc.devRef .tc main_arg3) = m ((c : Thread nD τ).loc main_arg3) :=
  (W23_of m ρ c main_arg3 (by decide)).trans <| (W22_of_ne m ρ c main_arg3 (by decide)).trans <|
  ((W21_arr m ρ c 1).trans (((dat10 (V20 m ρ) c).arrAt_in 1 rfl _).trans (A_eq10 (V20 m ρ) c 1))).trans <|
  (W20_of m ρ c main_arg3 (by decide)).trans <| (W19_of_ne m ρ c main_arg3 (by decide)).trans <|
  ((W18_arr m ρ c 1).trans (((dat8 (V17 m ρ) c).arrAt_in 1 rfl _).trans (A_eq8 (V17 m ρ) c 1))).trans <|
  (W17_of m ρ c main_arg3 (by decide)).trans <| (W16_of_ne m ρ c main_arg3 (by decide)).trans <|
  ((W15_arr m ρ c 1).trans (((dat6 (V14 m ρ) c).arrAt_in 1 rfl _).trans (A_eq6 (V14 m ρ) c 1))).trans <|
  (W14_of m ρ c main_arg3 (by decide)).trans <|
  (W13_of_ne m ρ c main_arg3 (by decide)).trans <| (W12_of_ne m ρ c main_arg3 (by decide)).trans <|
  (W11_of m ρ c main_arg3 (by decide)).trans <| (W10_of_ne m ρ c main_arg3 (by decide)).trans <|
  (W9_of_ne m ρ c main_arg3 (by decide)).trans <| (W8_of m ρ c main_arg3 (by decide)).trans <|
  (W7_of_ne m ρ c main_arg3 (by decide)).trans <| (W6_of_ne m ρ c main_arg3 (by decide)).trans <|
  (W5_of m ρ c main_arg3 (by decide)).trans <| (W4_of m ρ c main_arg3 (by decide)).trans <|
  (W3_of m ρ c main_arg3 (by decide)).trans <| (W2_of m ρ c main_arg3 (by decide)).trans <|
  (W1_of m ρ c main_arg3 (by decide)).trans rfl

theorem W23_main_arg4 (c : Dev nD) : W23 m ρ c (Proc.devRef .tc main_arg4) = m ((c : Thread nD τ).loc main_arg4) :=
  (W23_of m ρ c main_arg4 (by decide)).trans <| (W22_of_ne m ρ c main_arg4 (by decide)).trans <|
  (W21_of_ne m ρ c main_arg4 (by decide)).trans <| (W20_of m ρ c main_arg4 (by decide)).trans <|
  (W19_of_ne m ρ c main_arg4 (by decide)).trans <| (W18_of_ne m ρ c main_arg4 (by decide)).trans <|
  (W17_of m ρ c main_arg4 (by decide)).trans <| (W16_of_ne m ρ c main_arg4 (by decide)).trans <|
  (W15_of_ne m ρ c main_arg4 (by decide)).trans <| (W14_of m ρ c main_arg4 (by decide)).trans <|
  (W13_of_ne m ρ c main_arg4 (by decide)).trans <| (W12_of_ne m ρ c main_arg4 (by decide)).trans <|
  (W11_of m ρ c main_arg4 (by decide)).trans <| (W10_of_ne m ρ c main_arg4 (by decide)).trans <|
  (W9_of_ne m ρ c main_arg4 (by decide)).trans <| (W8_of m ρ c main_arg4 (by decide)).trans <|
  (W7_of_ne m ρ c main_arg4 (by decide)).trans <| (W6_of_ne m ρ c main_arg4 (by decide)).trans <|
  (W5_of m ρ c main_arg4 (by decide)).trans <| (W4_of m ρ c main_arg4 (by decide)).trans <|
  (W3_of m ρ c main_arg4 (by decide)).trans <| (W2_of m ρ c main_arg4 (by decide)).trans <|
  (W1_of m ρ c main_arg4 (by decide)).trans rfl

theorem W23_main_arg5 (c : Dev nD) : W23 m ρ c (Proc.devRef .tc main_arg5) = m ((c : Thread nD τ).loc main_arg5) :=
  (W23_of m ρ c main_arg5 (by decide)).trans <| (W22_of_ne m ρ c main_arg5 (by decide)).trans <|
  (W21_of_ne m ρ c main_arg5 (by decide)).trans <| (W20_of m ρ c main_arg5 (by decide)).trans <|
  (W19_of_ne m ρ c main_arg5 (by decide)).trans <| (W18_of_ne m ρ c main_arg5 (by decide)).trans <|
  (W17_of m ρ c main_arg5 (by decide)).trans <| (W16_of_ne m ρ c main_arg5 (by decide)).trans <|
  (W15_of_ne m ρ c main_arg5 (by decide)).trans <| (W14_of m ρ c main_arg5 (by decide)).trans <|
  (W13_of_ne m ρ c main_arg5 (by decide)).trans <| (W12_of_ne m ρ c main_arg5 (by decide)).trans <|
  (W11_of m ρ c main_arg5 (by decide)).trans <| (W10_of_ne m ρ c main_arg5 (by decide)).trans <|
  (W9_of_ne m ρ c main_arg5 (by decide)).trans <| (W8_of m ρ c main_arg5 (by decide)).trans <|
  (W7_of_ne m ρ c main_arg5 (by decide)).trans <| (W6_of_ne m ρ c main_arg5 (by decide)).trans <|
  (W5_of m ρ c main_arg5 (by decide)).trans <| (W4_of m ρ c main_arg5 (by decide)).trans <|
  (W3_of m ρ c main_arg5 (by decide)).trans <| (W2_of m ρ c main_arg5 (by decide)).trans <|
  (W1_of m ρ c main_arg5 (by decide)).trans rfl

theorem W23_main_arg6 (c : Dev nD) : W23 m ρ c (Proc.devRef .tc main_arg6) = m ((c : Thread nD τ).loc main_arg6) :=
  (W23_of m ρ c main_arg6 (by decide)).trans <| (W22_of_ne m ρ c main_arg6 (by decide)).trans <|
  (W21_of_ne m ρ c main_arg6 (by decide)).trans <| (W20_of m ρ c main_arg6 (by decide)).trans <|
  (W19_of_ne m ρ c main_arg6 (by decide)).trans <| (W18_of_ne m ρ c main_arg6 (by decide)).trans <|
  (W17_of m ρ c main_arg6 (by decide)).trans <| (W16_of_ne m ρ c main_arg6 (by decide)).trans <|
  (W15_of_ne m ρ c main_arg6 (by decide)).trans <| (W14_of m ρ c main_arg6 (by decide)).trans <|
  (W13_of_ne m ρ c main_arg6 (by decide)).trans <| (W12_of_ne m ρ c main_arg6 (by decide)).trans <|
  (W11_of m ρ c main_arg6 (by decide)).trans <| (W10_of_ne m ρ c main_arg6 (by decide)).trans <|
  (W9_of_ne m ρ c main_arg6 (by decide)).trans <| (W8_of m ρ c main_arg6 (by decide)).trans <|
  (W7_of_ne m ρ c main_arg6 (by decide)).trans <| (W6_of_ne m ρ c main_arg6 (by decide)).trans <|
  (W5_of m ρ c main_arg6 (by decide)).trans <| (W4_of m ρ c main_arg6 (by decide)).trans <|
  (W3_of m ρ c main_arg6 (by decide)).trans <| (W2_of m ρ c main_arg6 (by decide)).trans <|
  (W1_of m ρ c main_arg6 (by decide)).trans rfl

theorem W23_main_arg7 (c : Dev nD) : W23 m ρ c (Proc.devRef .tc main_arg7) = m ((c : Thread nD τ).loc main_arg7) :=
  (W23_of m ρ c main_arg7 (by decide)).trans <| (W22_of_ne m ρ c main_arg7 (by decide)).trans <|
  (W21_of_ne m ρ c main_arg7 (by decide)).trans <| (W20_of m ρ c main_arg7 (by decide)).trans <|
  (W19_of_ne m ρ c main_arg7 (by decide)).trans <| (W18_of_ne m ρ c main_arg7 (by decide)).trans <|
  (W17_of m ρ c main_arg7 (by decide)).trans <| (W16_of_ne m ρ c main_arg7 (by decide)).trans <|
  (W15_of_ne m ρ c main_arg7 (by decide)).trans <| (W14_of m ρ c main_arg7 (by decide)).trans <|
  (W13_of_ne m ρ c main_arg7 (by decide)).trans <| (W12_of_ne m ρ c main_arg7 (by decide)).trans <|
  (W11_of m ρ c main_arg7 (by decide)).trans <| (W10_of_ne m ρ c main_arg7 (by decide)).trans <|
  (W9_of_ne m ρ c main_arg7 (by decide)).trans <| (W8_of m ρ c main_arg7 (by decide)).trans <|
  (W7_of_ne m ρ c main_arg7 (by decide)).trans <| (W6_of_ne m ρ c main_arg7 (by decide)).trans <|
  (W5_of m ρ c main_arg7 (by decide)).trans <| (W4_of m ρ c main_arg7 (by decide)).trans <|
  (W3_of m ρ c main_arg7 (by decide)).trans <| (W2_of m ρ c main_arg7 (by decide)).trans <|
  (W1_of m ρ c main_arg7 (by decide)).trans rfl

end Cert.KernelIdeal.Hand

end
-- ==== Proof.KI.Run.Regs.lean ====
import proofs.«406629_j10943576670300_1_alg».proof.Proof.KI.Run.Vals

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
-- a region as a segment of the program, from the contents it is entered at to the contents it leaves, given its body obligation and its invariant's entry and exit
def regOf (p : Fin 12) (launch : Pipeline.LaunchFacts (nD := nD) (τ := τ) cfgs p)
    (Win Wout : Dev nD → Valuation τ sig (Elt F))
    (hbody : ∀ c, BodyObligation (pdats m ρ p c) (defs₀ (F := F)) Variants.none () Set.univ)
    (howed : ∀ (c : Dev nD) (t : Fin ((Pipeline.pin (pcfgs (F := F)) adm p).N + 1)), (pdats m ρ p c).owed t = 0)
    (hrec : ∀ (c : Dev nD), (pdats m ρ p c).recorded 0 = Set.univ)
    (hq : ∀ (c : Dev nD) (w : Fin (Pipeline.pin (pcfgs (F := F)) adm p).W), (pdats m ρ p c).q w = fullShare)
    (hA : ∀ (c : Dev nD) (w : Fin (Pipeline.pin (pcfgs (F := F)) adm p).W), (pdats m ρ p c).A w = Win c (Pipeline.arrRef (Pipeline.pin (pcfgs (F := F)) adm p).spec w))
    (hin : ∀ c, Pipeline.ΦA (Pipeline.pin (pcfgs (F := F)) adm p).spec c ⊢ (pdats m ρ p c).Φ 0)
    (hout : ∀ c, (pdats m ρ p c).Φ (Fin.last _) ⊢ Pipeline.ΦA (Pipeline.pin (pcfgs (F := F)) adm p).spec c)
    (harr : ∀ (c : Dev nD) (w : Fin (Pipeline.pin (pcfgs (F := F)) adm p).W), Wout c (Proc.devRef .tc (Pipeline.arrRef (Pipeline.pin (pcfgs (F := F)) adm p).spec w)) = (pdats m ρ p c).arrAt w (Pipeline.pin (pcfgs (F := F)) adm p).N)
    (hne : ∀ (c : Dev nD) (b : Ref sig .tc), (∀ w, Pipeline.arrRef (Pipeline.pin (pcfgs (F := F)) adm p).spec w ≠ b) → Wout c (Proc.devRef .tc b) = Win c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    unfold Pipeline.Dat.owesAt Pipeline.owesWithin; rw [howed c 0]
    have hsplit := Pipeline.arrays_of_unscopedBufs (p := p) (pcfgs (F := F)) adm (pdats m ρ) launch.win launch.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl ((hrec c).symm ▸ Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Win c b) (fun b => Wout c b) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    unfold Pipeline.Dat.owesAt Pipeline.owesWithin; rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W5 m ρ) (W6 m ρ) (body_obligation0 (V5 m ρ)) (fun _ _ => rfl) (fun _ => rfl) (fun _ _ => rfl)
    (A_eq0 (V5 m ρ)) (hin0 (V5 m ρ)) (hout0 (V5 m ρ)) (W6_arr m ρ) (W6_of_ne m ρ)

set_option backward.isDefEq.respectTransparency.types false in
def reg1 : Pipeline.RegionSeg (pcfgs (F := F)) adm (pdats m ρ) () defs₀ 𝒱₀ L lv 1 :=
  regOf m ρ 1 launch1 (W6 m ρ) (W7 m ρ) (body_obligation1 (V6 m ρ)) (fun _ _ => rfl) (fun _ => rfl) (fun _ _ => rfl)
    (A_eq1 (V6 m ρ)) (hin1 (V6 m ρ)) (hout1 (V6 m ρ)) (W7_arr m ρ) (W7_of_ne m ρ)

set_option backward.isDefEq.respectTransparency.types false in
def reg2 : Pipeline.RegionSeg (pcfgs (F := F)) adm (pdats m ρ) () defs₀ 𝒱₀ L lv 2 :=
  regOf m ρ 2 launch2 (W8 m ρ) (W9 m ρ) (body_obligation2 (V8 m ρ)) (fun _ _ => rfl) (fun _ => rfl) (fun _ _ => rfl)
    (A_eq2 (V8 m ρ)) (hin2 (V8 m ρ)) (hout2 (V8 m ρ)) (W9_arr m ρ) (W9_of_ne m ρ)

set_option backward.isDefEq.respectTransparency.types false in
def reg3 : Pipeline.RegionSeg (pcfgs (F := F)) adm (pdats m ρ) () defs₀ 𝒱₀ L lv 3 :=
  regOf m ρ 3 launch3 (W9 m ρ) (W10 m ρ) (body_obligation3 (V9 m ρ)) (fun _ _ => rfl) (fun _ => rfl) (fun _ _ => rfl)
    (A_eq3 (V9 m ρ)) (hin3 (V9 m ρ)) (hout3 (V9 m ρ)) (W10_arr m ρ) (W10_of_ne m ρ)

set_option backward.isDefEq.respectTransparency.types false in
def reg4 : Pipeline.RegionSeg (pcfgs (F := F)) adm (pdats m ρ) () defs₀ 𝒱₀ L lv 4 :=
  regOf m ρ 4 launch4 (W11 m ρ) (W12 m ρ) (body_obligation4 (V11 m ρ)) (fun _ _ => rfl) (fun _ => rfl) (fun _ _ => rfl)
    (A_eq4 (V11 m ρ)) (hin4 (V11 m ρ)) (hout4 (V11 m ρ)) (W12_arr m ρ) (W12_of_ne m ρ)

set_option backward.isDefEq.respectTransparency.types false in
def reg5 : Pipeline.RegionSeg (pcfgs (F := F)) adm (pdats m ρ) () defs₀ 𝒱₀ L lv 5 :=
  regOf m ρ 5 launch5 (W12 m ρ) (W13 m ρ) (body_obligation5 (V12 m ρ)) (fun _ _ => rfl) (fun _ => rfl) (fun _ _ => rfl)
    (A_eq5 (V12 m ρ)) (hin5 (V12 m ρ)) (hout5 (V12 m ρ)) (W13_arr m ρ) (W13_of_ne m ρ)

set_option backward.isDefEq.respectTransparency.types false in
def reg6 : Pipeline.RegionSeg (pcfgs (F := F)) adm (pdats m ρ) () defs₀ 𝒱₀ L lv 6 :=
  regOf m ρ 6 launch6 (W14 m ρ) (W15 m ρ) (body_obligation6 (V14 m ρ)) (fun _ _ => rfl) (fun _ => rfl) (fun _ _ => rfl)
    (A_eq6 (V14 m ρ)) (hin6 (V14 m ρ)) (hout6 (V14 m ρ)) (W15_arr m ρ) (W15_of_ne m ρ)

set_option backward.isDefEq.respectTransparency.types false in
def reg7 : Pipeline.RegionSeg (pcfgs (F := F)) adm (pdats m ρ) () defs₀ 𝒱₀ L lv 7 :=
  regOf m ρ 7 launch7 (W15 m ρ) (W16 m ρ) (body_obligation7 (V15 m ρ)) (fun _ _ => rfl) (fun _ => rfl) (fun _ _ => rfl)
    (A_eq7 (V15 m ρ)) (hin7 (V15 m ρ)) (hout7 (V15 m ρ)) (W16_arr m ρ) (W16_of_ne m ρ)

set_option backward.isDefEq.respectTransparency.types false in
def reg8 : Pipeline.RegionSeg (pcfgs (F := F)) adm (pdats m ρ) () defs₀ 𝒱₀ L lv 8 :=
  regOf m ρ 8 launch8 (W17 m ρ) (W18 m ρ) (body_obligation8 (V17 m ρ)) (fun _ _ => rfl) (fun _ => rfl) (fun _ _ => rfl)
    (A_eq8 (V17 m ρ)) (hin8 (V17 m ρ)) (hout8 (V17 m ρ)) (W18_arr m ρ) (W18_of_ne m ρ)

set_option backward.isDefEq.respectTransparency.types false in
def reg9 : Pipeline.RegionSeg (pcfgs (F := F)) adm (pdats m ρ) () defs₀ 𝒱₀ L lv 9 :=
  regOf m ρ 9 launch9 (W18 m ρ) (W19 m ρ) (body_obligation9 (V18 m ρ)) (fun _ _ => rfl) (fun _ => rfl) (fun _ _ => rfl)
    (A_eq9 (V18 m ρ)) (hin9 (V18 m ρ)) (hout9 (V18 m ρ)) (W19_arr m ρ) (W19_of_ne m ρ)

set_option backward.isDefEq.respectTransparency.types false in
def reg10 : Pipeline.RegionSeg (pcfgs (F := F)) adm (pdats m ρ) () defs₀ 𝒱₀ L lv 10 :=
  regOf m ρ 10 launch10 (W20 m ρ) (W21 m ρ) (body_obligation10 (V20 m ρ)) (fun _ _ => rfl) (fun _ => rfl) (fun _ _ => rfl)
    (A_eq10 (V20 m ρ)) (hin10 (V20 m ρ)) (hout10 (V20 m ρ)) (W21_arr m ρ) (W21_of_ne m ρ)

set_option backward.isDefEq.respectTransparency.types false in
def reg11 : Pipeline.RegionSeg (pcfgs (F := F)) adm (pdats m ρ) () defs₀ 𝒱₀ L lv 11 :=
  regOf m ρ 11 launch11 (W21 m ρ) (W22 m ρ) (body_obligation11 (V21 m ρ)) (fun _ _ => rfl) (fun _ => rfl) (fun _ _ => rfl)
    (A_eq11 (V21 m ρ)) (hin11 (V21 m ρ)) (hout11 (V21 m ρ)) (W22_arr m ρ) (W22_of_ne m ρ)

end Cert.KernelIdeal.Hand

end
-- ==== Proof.KI.Run.lean ====
import proofs.«406629_j10943576670300_1_alg».proof.Proof.KI.Run.Regs

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)),
    .region (reg2 m ρ),
    .region (reg3 m ρ),
    .host (hseg hostOps4 hostOps4_sub hostOps4_fresh (W10 m ρ)),
    .region (reg4 m ρ),
    .region (reg5 m ρ),
    .host (hseg hostOps6 hostOps6_sub hostOps6_fresh (W13 m ρ)),
    .region (reg6 m ρ),
    .region (reg7 m ρ),
    .host (hseg hostOps8 hostOps8_sub hostOps8_fresh (W16 m ρ)),
    .region (reg8 m ρ),
    .region (reg9 m ρ),
    .host (hseg hostOps10 hostOps10_sub hostOps10_fresh (W19 m ρ)),
    .region (reg10 m ρ),
    .region (reg11 m ρ),
    .host (hseg hostOps12 hostOps12_sub hostOps12_fresh (W22 m ρ)) ]

-- the program is the run of its 23 segments in order
theorem main_run (c : Dev nD) : main (F := F) c = Pipeline.Seg.run (segs m ρ) := (main_chain c).trans (by chain_rfl)

-- every execution ends, and every buffer that outlives a region holds the last boundary's contents
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W23 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl,
      fun c => by

        show iprop(StableHlo.held (c : Thread nD τ) (Pipeline.ucRefs τ sig) (W23 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h => h)

-- the eight argument arrays are among those buffers and no segment writes them
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs (onTc (τ := τ) (main (F := F))) ⟨m, fun _ => 0, ρ⟩).mono (fun r h c =>
    ⟨(h c _ (mem_uc main_arg0 (by decide))).trans (W23_main_arg0 m ρ c),
     (h c _ (mem_uc main_arg1 (by decide))).trans (W23_main_arg1 m ρ c),
     (h c _ (mem_uc main_arg2 (by decide))).trans (W23_main_arg2 m ρ c),
     (h c _ (mem_uc main_arg3 (by decide))).trans (W23_main_arg3 m ρ c),
     (h c _ (mem_uc main_arg4 (by decide))).trans (W23_main_arg4 m ρ c),
     (h c _ (mem_uc main_arg5 (by decide))).trans (W23_main_arg5 m ρ c),
     (h c _ (mem_uc main_arg6 (by decide))).trans (W23_main_arg6 m ρ c),
     (h c _ (mem_uc main_arg7 (by decide))).trans (W23_main_arg7 m ρ c)⟩) (run_all m ρ)

end Cert.KernelIdeal.Hand

end
-- ==== Proof.KI.Bridge.KeepA.lean ====
import proofs.«406629_j10943576670300_1_alg».proof.Proof.KI.Run.Vals
import proofs.«406629_j10943576670300_1_alg».proof.Proof.Gen.KernelIdeal.Regions
import Idealize.ShloMosaic.Lib.ValueIdx

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

theorem keep0 (c : Dev nD) (b : Ref sig .tc) (hb : b ∉ hostOps0_W) :
    W1 m ρ c (Proc.devRef .tc b) = W0 m ρ c (Proc.devRef .tc b) :=
  StableHlo.after_of_writes_sub hostOps0 _ hostOps0_writes hb

theorem keep1 (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb

theorem keep2 (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb

theorem keep3 (c : Dev nD) (b : Ref sig .tc) (hb : b ∉ hostOps0_3_W) :
    W4 m ρ c (Proc.devRef .tc b) = W3 m ρ c (Proc.devRef .tc b) :=
  StableHlo.after_of_writes_sub hostOps0_3 _ hostOps0_3_writes hb

theorem keep4 (c : Dev nD) (b : Ref sig .tc) (hb : b ∉ hostOps0_4_W) :
    W5 m ρ c (Proc.devRef .tc b) = W4 m ρ c (Proc.devRef .tc b) :=
  StableHlo.after_of_writes_sub hostOps0_4 _ hostOps0_4_writes hb

theorem keep5 (c : Dev nD) (b : Ref sig .tc) (hb : b ≠ main_v17) :
    W6 m ρ c (Proc.devRef .tc b) = W5 m ρ c (Proc.devRef .tc b) := by
  by_cases h0 : Pipeline.arrRef spec0 0 = b
  · subst h0; exact (W6_arr m ρ c 0).trans (((dat0 _ c).arrAt_in 0 rfl _).trans (A_eq0 _ c 0))
  by_cases h1 : Pipeline.arrRef spec0 1 = b
  · subst h1; exact (W6_arr m ρ c 1).trans (((dat0 _ c).arrAt_in 1 rfl _).trans (A_eq0 _ c 1))
  by_cases h2 : Pipeline.arrRef spec0 2 = b
  · subst h2; exact (W6_arr m ρ c 2).trans (((dat0 _ c).arrAt_in 2 rfl _).trans (A_eq0 _ c 2))
  exact W6_of_ne m ρ c b (fun
    | 0 => h0 | 1 => h1 | 2 => h2 | 3 => fun e => hb e.symm
    | ⟨_ + 4, h⟩ => absurd h (Nat.not_lt.2 (Nat.le_add_left _ _)))

theorem keep6 (c : Dev nD) (b : Ref sig .tc) (hb : b ≠ main_v18) :
    W7 m ρ c (Proc.devRef .tc b) = W6 m ρ c (Proc.devRef .tc b) := by
  by_cases h0 : Pipeline.arrRef spec1 0 = b
  · subst h0; exact (W7_arr m ρ c 0).trans (((dat1 _ c).arrAt_in 0 rfl _).trans (A_eq1 _ c 0))
  by_cases h1 : Pipeline.arrRef spec1 1 = b
  · subst h1; exact (W7_arr m ρ c 1).trans (((dat1 _ c).arrAt_in 1 rfl _).trans (A_eq1 _ c 1))
  by_cases h2 : Pipeline.arrRef spec1 2 = b
  · subst h2; exact (W7_arr m ρ c 2).trans (((dat1 _ c).arrAt_in 2 rfl _).trans (A_eq1 _ c 2))
  exact W7_of_ne m ρ c b (fun
    | 0 => h0 | 1 => h1 | 2 => h2 | 3 => fun e => hb e.symm
    | ⟨_ + 4, h⟩ => absurd h (Nat.not_lt.2 (Nat.le_add_left _ _)))

theorem keep7 (c : Dev nD) (b : Ref sig .tc) (hb : b ∉ hostOps2_W) :
    W8 m ρ c (Proc.devRef .tc b) = W7 m ρ c (Proc.devRef .tc b) :=
  StableHlo.after_of_writes_sub hostOps2 _ hostOps2_writes hb

theorem keep8 (c : Dev nD) (b : Ref sig .tc) (hb : b ≠ main_v20) :
    W9 m ρ c (Proc.devRef .tc b) = W8 m ρ c (Proc.devRef .tc b) := by
  by_cases h0 : Pipeline.arrRef spec2 0 = b
  · subst h0; exact (W9_arr m ρ c 0).trans (((dat2 _ c).arrAt_in 0 rfl _).trans (A_eq2 _ c 0))
  by_cases h1 : Pipeline.arrRef spec2 1 = b
  · subst h1; exact (W9_arr m ρ c 1).trans (((dat2 _ c).arrAt_in 1 rfl _).trans (A_eq2 _ c 1))
  by_cases h2 : Pipeline.arrRef spec2 2 = b
  · subst h2; exact (W9_arr m ρ c 2).trans (((dat2 _ c).arrAt_in 2 rfl _).trans (A_eq2 _ c 2))
  exact W9_of_ne m ρ c b (fun
    | 0 => h0 | 1 => h1 | 2 => h2 | 3 => fun e => hb e.symm
    | ⟨_ + 4, h⟩ => absurd h (Nat.not_lt.2 (Nat.le_add_left _ _)))

theorem keep9 (c : Dev nD) (b : Ref sig .tc) (hb : b ≠ main_v21) :
    W10 m ρ c (Proc.devRef .tc b) = W9 m ρ c (Proc.devRef .tc b) := by
  by_cases h0 : Pipeline.arrRef spec3 0 = b
  · subst h0; exact (W10_arr m ρ c 0).trans (((dat3 _ c).arrAt_in 0 rfl _).trans (A_eq3 _ c 0))
  by_cases h1 : Pipeline.arrRef spec3 1 = b
  · subst h1; exact (W10_arr m ρ c 1).trans (((dat3 _ c).arrAt_in 1 rfl _).trans (A_eq3 _ c 1))
  by_cases h2 : Pipeline.arrRef spec3 2 = b
  · subst h2; exact (W10_arr m ρ c 2).trans (((dat3 _ c).arrAt_in 2 rfl _).trans (A_eq3 _ c 2))
  exact W10_of_ne m ρ c b (fun
    | 0 => h0 | 1 => h1 | 2 => h2 | 3 => fun e => hb e.symm
    | ⟨_ + 4, h⟩ => absurd h (Nat.not_lt.2 (Nat.le_add_left _ _)))

theorem keep10 (c : Dev nD) (b : Ref sig .tc) (hb : b ∉ hostOps4_W) :
    W11 m ρ c (Proc.devRef .tc b) = W10 m ρ c (Proc.devRef .tc b) :=
  StableHlo.after_of_writes_sub hostOps4 _ hostOps4_writes hb

theorem keep11 (c : Dev nD) (b : Ref sig .tc) (hb : b ≠ main_v23) :
    W12 m ρ c (Proc.devRef .tc b) = W11 m ρ c (Proc.devRef .tc b) := by
  by_cases h0 : Pipeline.arrRef spec4 0 = b
  · subst h0; exact (W12_arr m ρ c 0).trans (((dat4 _ c).arrAt_in 0 rfl _).trans (A_eq4 _ c 0))
  by_cases h1 : Pipeline.arrRef spec4 1 = b
  · subst h1; exact (W12_arr m ρ c 1).trans (((dat4 _ c).arrAt_in 1 rfl _).trans (A_eq4 _ c 1))
  by_cases h2 : Pipeline.arrRef spec4 2 = b
  · subst h2; exact (W12_arr m ρ c 2).trans (((dat4 _ c).arrAt_in 2 rfl _).trans (A_eq4 _ c 2))
  exact W12_of_ne m ρ c b (fun
    | 0 => h0 | 1 => h1 | 2 => h2 | 3 => fun e => hb e.symm
    | ⟨_ + 4, h⟩ => absurd h (Nat.not_lt.2 (Nat.le_add_left _ _)))

end Cert.KernelIdeal.Hand
-- ==== Proof.KI.Bridge.KeepB.lean ====
import proofs.«406629_j10943576670300_1_alg».proof.Proof.KI.Run.Vals
import proofs.«406629_j10943576670300_1_alg».proof.Proof.Gen.KernelIdeal.Regions
import Idealize.ShloMosaic.Lib.ValueIdx

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

theorem keep12 (c : Dev nD) (b : Ref sig .tc) (hb : b ≠ main_v24) :
    W13 m ρ c (Proc.devRef .tc b) = W12 m ρ c (Proc.devRef .tc b) := by
  by_cases h0 : Pipeline.arrRef spec5 0 = b
  · subst h0; exact (W13_arr m ρ c 0).trans (((dat5 _ c).arrAt_in 0 rfl _).trans (A_eq5 _ c 0))
  by_cases h1 : Pipeline.arrRef spec5 1 = b
  · subst h1; exact (W13_arr m ρ c 1).trans (((dat5 _ c).arrAt_in 1 rfl _).trans (A_eq5 _ c 1))
  by_cases h2 : Pipeline.arrRef spec5 2 = b
  · subst h2; exact (W13_arr m ρ c 2).trans (((dat5 _ c).arrAt_in 2 rfl _).trans (A_eq5 _ c 2))
  exact W13_of_ne m ρ c b (fun
    | 0 => h0 | 1 => h1 | 2 => h2 | 3 => fun e => hb e.symm
    | ⟨_ + 4, h⟩ => absurd h (Nat.not_lt.2 (Nat.le_add_left _ _)))

theorem keep13 (c : Dev nD) (b : Ref sig .tc) (hb : b ∉ hostOps6_W) :
    W14 m ρ c (Proc.devRef .tc b) = W13 m ρ c (Proc.devRef .tc b) :=
  StableHlo.after_of_writes_sub hostOps6 _ hostOps6_writes hb

theorem keep14 (c : Dev nD) (b : Ref sig .tc) (hb : b ≠ main_v26) :
    W15 m ρ c (Proc.devRef .tc b) = W14 m ρ c (Proc.devRef .tc b) := by
  by_cases h0 : Pipeline.arrRef spec6 0 = b
  · subst h0; exact (W15_arr m ρ c 0).trans (((dat6 _ c).arrAt_in 0 rfl _).trans (A_eq6 _ c 0))
  by_cases h1 : Pipeline.arrRef spec6 1 = b
  · subst h1; exact (W15_arr m ρ c 1).trans (((dat6 _ c).arrAt_in 1 rfl _).trans (A_eq6 _ c 1))
  by_cases h2 : Pipeline.arrRef spec6 2 = b
  · subst h2; exact (W15_arr m ρ c 2).trans (((dat6 _ c).arrAt_in 2 rfl _).trans (A_eq6 _ c 2))
  exact W15_of_ne m ρ c b (fun
    | 0 => h0 | 1 => h1 | 2 => h2 | 3 => fun e => hb e.symm
    | ⟨_ + 4, h⟩ => absurd h (Nat.not_lt.2 (Nat.le_add_left _ _)))

theorem keep15 (c : Dev nD) (b : Ref sig .tc) (hb : b ≠ main_v27) :
    W16 m ρ c (Proc.devRef .tc b) = W15 m ρ c (Proc.devRef .tc b) := by
  by_cases h0 : Pipeline.arrRef spec7 0 = b
  · subst h0; exact (W16_arr m ρ c 0).trans (((dat7 _ c).arrAt_in 0 rfl _).trans (A_eq7 _ c 0))
  by_cases h1 : Pipeline.arrRef spec7 1 = b
  · subst h1; exact (W16_arr m ρ c 1).trans (((dat7 _ c).arrAt_in 1 rfl _).trans (A_eq7 _ c 1))
  by_cases h2 : Pipeline.arrRef spec7 2 = b
  · subst h2; exact (W16_arr m ρ c 2).trans (((dat7 _ c).arrAt_in 2 rfl _).trans (A_eq7 _ c 2))
  exact W16_of_ne m ρ c b (fun
    | 0 => h0 | 1 => h1 | 2 => h2 | 3 => fun e => hb e.symm
    | ⟨_ + 4, h⟩ => absurd h (Nat.not_lt.2 (Nat.le_add_left _ _)))

theorem keep16 (c : Dev nD) (b : Ref sig .tc) (hb : b ∉ hostOps8_W) :
    W17 m ρ c (Proc.devRef .tc b) = W16 m ρ c (Proc.devRef .tc b) :=
  StableHlo.after_of_writes_sub hostOps8 _ hostOps8_writes hb

theorem keep17 (c : Dev nD) (b : Ref sig .tc) (hb : b ≠ main_v29) :
    W18 m ρ c (Proc.devRef .tc b) = W17 m ρ c (Proc.devRef .tc b) := by
  by_cases h0 : Pipeline.arrRef spec8 0 = b
  · subst h0; exact (W18_arr m ρ c 0).trans (((dat8 _ c).arrAt_in 0 rfl _).trans (A_eq8 _ c 0))
  by_cases h1 : Pipeline.arrRef spec8 1 = b
  · subst h1; exact (W18_arr m ρ c 1).trans (((dat8 _ c).arrAt_in 1 rfl _).trans (A_eq8 _ c 1))
  by_cases h2 : Pipeline.arrRef spec8 2 = b
  · subst h2; exact (W18_arr m ρ c 2).trans (((dat8 _ c).arrAt_in 2 rfl _).trans (A_eq8 _ c 2))
  exact W18_of_ne m ρ c b (fun
    | 0 => h0 | 1 => h1 | 2 => h2 | 3 => fun e => hb e.symm
    | ⟨_ + 4, h⟩ => absurd h (Nat.not_lt.2 (Nat.le_add_left _ _)))

theorem keep18 (c : Dev nD) (b : Ref sig .tc) (hb : b ≠ main_v30) :
    W19 m ρ c (Proc.devRef .tc b) = W18 m ρ c (Proc.devRef .tc b) := by
  by_cases h0 : Pipeline.arrRef spec9 0 = b
  · subst h0; exact (W19_arr m ρ c 0).trans (((dat9 _ c).arrAt_in 0 rfl _).trans (A_eq9 _ c 0))
  by_cases h1 : Pipeline.arrRef spec9 1 = b
  · subst h1; exact (W19_arr m ρ c 1).trans (((dat9 _ c).arrAt_in 1 rfl _).trans (A_eq9 _ c 1))
  by_cases h2 : Pipeline.arrRef spec9 2 = b
  · subst h2; exact (W19_arr m ρ c 2).trans (((dat9 _ c).arrAt_in 2 rfl _).trans (A_eq9 _ c 2))
  exact W19_of_ne m ρ c b (fun
    | 0 => h0 | 1 => h1 | 2 => h2 | 3 => fun e => hb e.symm
    | ⟨_ + 4, h⟩ => absurd h (Nat.not_lt.2 (Nat.le_add_left _ _)))

theorem keep19 (c : Dev nD) (b : Ref sig .tc) (hb : b ∉ hostOps10_W) :
    W20 m ρ c (Proc.devRef .tc b) = W19 m ρ c (Proc.devRef .tc b) :=
  StableHlo.after_of_writes_sub hostOps10 _ hostOps10_writes hb

theorem keep20 (c : Dev nD) (b : Ref sig .tc) (hb : b ≠ main_v32) :
    W21 m ρ c (Proc.devRef .tc b) = W20 m ρ c (Proc.devRef .tc b) := by
  by_cases h0 : Pipeline.arrRef spec10 0 = b
  · subst h0; exact (W21_arr m ρ c 0).trans (((dat10 _ c).arrAt_in 0 rfl _).trans (A_eq10 _ c 0))
  by_cases h1 : Pipeline.arrRef spec10 1 = b
  · subst h1; exact (W21_arr m ρ c 1).trans (((dat10 _ c).arrAt_in 1 rfl _).trans (A_eq10 _ c 1))
  by_cases h2 : Pipeline.arrRef spec10 2 = b
  · subst h2; exact (W21_arr m ρ c 2).trans (((dat10 _ c).arrAt_in 2 rfl _).trans (A_eq10 _ c 2))
  exact W21_of_ne m ρ c b (fun
    | 0 => h0 | 1 => h1 | 2 => h2 | 3 => fun e => hb e.symm
    | ⟨_ + 4, h⟩ => absurd h (Nat.not_lt.2 (Nat.le_add_left _ _)))

theorem keep21 (c : Dev nD) (b : Ref sig .tc) (hb : b ≠ main_v33) :
    W22 m ρ c (Proc.devRef .tc b) = W21 m ρ c (Proc.devRef .tc b) := by
  by_cases h0 : Pipeline.arrRef spec11 0 = b
  · subst h0; exact (W22_arr m ρ c 0).trans (((dat11 _ c).arrAt_in 0 rfl _).trans (A_eq11 _ c 0))
  by_cases h1 : Pipeline.arrRef spec11 1 = b
  · subst h1; exact (W22_arr m ρ c 1).trans (((dat11 _ c).arrAt_in 1 rfl _).trans (A_eq11 _ c 1))
  by_cases h2 : Pipeline.arrRef spec11 2 = b
  · subst h2; exact (W22_arr m ρ c 2).trans (((dat11 _ c).arrAt_in 2 rfl _).trans (A_eq11 _ c 2))
  exact W22_of_ne m ρ c b (fun
    | 0 => h0 | 1 => h1 | 2 => h2 | 3 => fun e => hb e.symm
    | ⟨_ + 4, h⟩ => absurd h (Nat.not_lt.2 (Nat.le_add_left _ _)))

theorem keep22 (c : Dev nD) (b : Ref sig .tc) (hb : b ∉ hostOps12_W) :
    W23 m ρ c (Proc.devRef .tc b) = W22 m ρ c (Proc.devRef .tc b) :=
  StableHlo.after_of_writes_sub hostOps12 _ hostOps12_writes hb

end Cert.KernelIdeal.Hand
-- ==== Proof.Spec.lean ====
import Idealize.ShloMosaic.PureOps.Ideal
import Mathlib.Algebra.BigOperators.Group.Finset.Basic

noncomputable section

namespace Cert.Spec

open Idealize.ShloMosaic

abbrev nE : Nat := 3000000
abbrev nN : Nat := 150000
abbrev nP : Nat := 150528

abbrev half : EReal := Ideal.ofBits .f32 0x3F000000#32

-- the message of edge e: its weight times the source node's row (zero when the source word names no row below N)
def msg (N : Nat) (src : Fin nE → BitVec 32) (w : Fin nE → EReal) (x : Fin N → Fin 64 → EReal) (e : Fin nE) (d : Fin 64) : EReal :=
  (if h : (src e).toNat < N then x ⟨(src e).toNat, h⟩ d else 0) * w e

-- the sum of the messages of the edges that end at node n
def agg (N : Nat) (dst : Fin nE → BitVec 32) (mg : Fin nE → Fin 64 → EReal) (n : Fin N) (d : Fin 64) : EReal :=
  ∑ e : Fin nE, if (dst e).toNat = n.val then mg e d else 0

-- one layer: the aggregated messages plus half of the node's own row
def layer (N : Nat) (src dst : Fin nE → BitVec 32) (w : Fin nE → EReal) (x : Fin N → Fin 64 → EReal) (n : Fin N) (d : Fin 64) : EReal :=
  agg N dst (msg N src w x) n d + half * x n d

def layers3 (N : Nat) (src dst : Fin nE → BitVec 32) (w : Fin nE → EReal) (x : Fin N → Fin 64 → EReal) : Fin N → Fin 64 → EReal :=
  layer N src dst w (layer N src dst w (layer N src dst w x))

def AgreeOn {N M : Nat} (hNM : N ≤ M) (x : Fin N → Fin 64 → EReal) (x' : Fin M → Fin 64 → EReal) : Prop :=
  ∀ (n : Fin N) (d : Fin 64), x' ⟨n.val, lt_of_lt_of_le n.isLt hNM⟩ d = x n d

-- with every source below N a layer reads only rows below N, so tables that agree there have layers that agree there
theorem layer_agree {N M : Nat} (hNM : N ≤ M) (src dst : Fin nE → BitVec 32) (w : Fin nE → EReal)
    (hsrc : ∀ e, (src e).toNat < N) (x : Fin N → Fin 64 → EReal) (x' : Fin M → Fin 64 → EReal) (hx : AgreeOn hNM x x') :
    AgreeOn hNM (layer N src dst w x) (layer M src dst w x') := by
  intro n d
  have hm : ∀ e, msg M src w x' e d = msg N src w x e d := fun e => by
    have h1 := hsrc e
    have h2 := lt_of_lt_of_le h1 hNM
    simp only [msg, dif_pos h1, dif_pos h2]
    exact congrArg (fun v => v * w e) (hx ⟨(src e).toNat, h1⟩ d)
  show (∑ e : Fin nE, if (dst e).toNat = n.val then msg M src w x' e d else 0) + half * x' ⟨n.val, _⟩ d
    = (∑ e : Fin nE, if (dst e).toNat = n.val then msg N src w x e d else 0) + half * x n d
  rw [hx n d]
  exact congrArg (fun s => s + half * x n d) (Finset.sum_congr rfl fun e _ => by rw [hm e])

theorem layers3_agree {N M : Nat} (hNM : N ≤ M) (src dst : Fin nE → BitVec 32) (w : Fin nE → EReal)
    (hsrc : ∀ e, (src e).toNat < N) (x : Fin N → Fin 64 → EReal) (x' : Fin M → Fin 64 → EReal) (hx : AgreeOn hNM x x') :
    AgreeOn hNM (layers3 N src dst w x) (layers3 M src dst w x') :=
  layer_agree hNM src dst w hsrc _ _ (layer_agree hNM src dst w hsrc _ _ (layer_agree hNM src dst w hsrc _ _ hx))

def ego0 (users : Fin 100000 → Fin 64 → EReal) (items : Fin 50000 → Fin 64 → EReal) (n : Fin nN) (d : Fin 64) : EReal :=
  if h : n.val < 100000 then users ⟨n.val, h⟩ d else items ⟨n.val - 100000, by have := n.isLt; simp only [nN] at this; omega⟩ d

def ego0P (users : Fin 100000 → Fin 64 → EReal) (items : Fin 50000 → Fin 64 → EReal) (n : Fin nP) (d : Fin 64) : EReal :=
  if h : n.val < nN then ego0 users items ⟨n.val, h⟩ d else 0

theorem ego0P_agree (users : Fin 100000 → Fin 64 → EReal) (items : Fin 50000 → Fin 64 → EReal) :
    AgreeOn (show nN ≤ nP by decide) (ego0 users items) (ego0P users items) := by
  intro n d
  unfold ego0P
  rw [dif_pos n.isLt]

def userRows (img txt : Fin nN → Fin 64 → EReal) (u : Fin 100000) (d : Fin 128) : EReal :=
  if h : d.val < 64 then img ⟨u.val, by have := u.isLt; simp only [nN]; omega⟩ ⟨d.val, h⟩
  else txt ⟨u.val, by have := u.isLt; simp only [nN]; omega⟩ ⟨d.val - 64, by have := d.isLt; omega⟩

def itemRows (img txt : Fin nN → Fin 64 → EReal) (i : Fin 50000) (d : Fin 128) : EReal :=
  if h : d.val < 64 then img ⟨100000 + i.val, by have := i.isLt; simp only [nN]; omega⟩ ⟨d.val, h⟩
  else txt ⟨100000 + i.val, by have := i.isLt; simp only [nN]; omega⟩ ⟨d.val - 64, by have := d.isLt; omega⟩

end Cert.Spec

end
-- ==== Proof.KI.Bridge.Layout2.lean ====
import Idealize.ShloMosaic.Lib.ValueIdx
import Idealize.ShloMosaic.Lib.ValueLayout
import Idealize.ShloMosaic.Lib.Pipeline.Value
import Idealize.ShloMosaic.Lib.KernelVsHost

namespace Cert.KernelIdeal.Hand.Layout2
open Idealize.ShloMosaic Idealize.ShloMosaic.ValueIdx

variable {α : Type}

theorem concat2_rows_apply {a b c n1 : Nat} (x₁ : (⟨2, ![a, n1]⟩ : Shape).Idx → α) (x₂ : (⟨2, ![b, n1]⟩ : Shape).Idx → α)
    (h : Shape.Concatenates [(⟨2, ![a, n1]⟩ : Shape), ⟨2, ![b, n1]⟩] ⟨2, ![c, n1]⟩ (0 : Fin 2)) (hc : c = a + b) (n : Fin c) (d : Fin n1) :
    concatenate (⟨2, ![c, n1]⟩ : Shape) (0 : Fin 2) [⟨⟨2, ![a, n1]⟩, x₁⟩, ⟨⟨2, ![b, n1]⟩, x₂⟩] h (ix2 n d)
      = if hn : n.val < a then x₁ (ix2 ⟨n.val, hn⟩ d) else x₂ (ix2 ⟨n.val - a, by have := n.isLt; omega⟩ d) := by
  by_cases hn : n.val < a
  · rw [dif_pos hn]
    exact concatenate_pair_apply_left (0 : Fin 2) x₁ x₂ h (ix2 n d) rfl (ix2 ⟨n.val, hn⟩ d) (fun b => by
      match b with
      | ⟨0, _⟩ => rfl
      | ⟨1, _⟩ => rfl)
  · rw [dif_neg hn]
    exact concatenate_pair_apply_right (0 : Fin 2) x₁ x₂ h (ix2 n d) rfl rfl (ix2 ⟨n.val - a, by have := n.isLt; omega⟩ d) (fun b hb => by
      match b, hb with
      | ⟨0, _⟩, hb => exact absurd rfl hb
      | ⟨1, _⟩, _ => rfl) (by show n.val - a + a = n.val; omega)

theorem concat2_cols_apply {a b c n0 : Nat} (x₁ : (⟨2, ![n0, a]⟩ : Shape).Idx → α) (x₂ : (⟨2, ![n0, b]⟩ : Shape).Idx → α)
    (h : Shape.Concatenates [(⟨2, ![n0, a]⟩ : Shape), ⟨2, ![n0, b]⟩] ⟨2, ![n0, c]⟩ (1 : Fin 2)) (hc : c = a + b) (n : Fin n0) (d : Fin c) :
    concatenate (⟨2, ![n0, c]⟩ : Shape) (1 : Fin 2) [⟨⟨2, ![n0, a]⟩, x₁⟩, ⟨⟨2, ![n0, b]⟩, x₂⟩] h (ix2 n d)
      = if hd : d.val < a then x₁ (ix2 n ⟨d.val, hd⟩) else x₂ (ix2 n ⟨d.val - a, by have := d.isLt; omega⟩) := by
  by_cases hd : d.val < a
  · rw [dif_pos hd]
    exact concatenate_pair_apply_left (1 : Fin 2) x₁ x₂ h (ix2 n d) rfl (ix2 n ⟨d.val, hd⟩) (fun b => by
      match b with
      | ⟨0, _⟩ => rfl
      | ⟨1, _⟩ => rfl)
  · rw [dif_neg hd]
    exact concatenate_pair_apply_right (1 : Fin 2) x₁ x₂ h (ix2 n d) rfl rfl (ix2 n ⟨d.val - a, by have := d.isLt; omega⟩) (fun b hb => by
      match b, hb with
      | ⟨0, _⟩, _ => rfl
      | ⟨1, _⟩, hb => exact absurd rfl hb) (by show d.val - a + a = d.val; omega)

theorem pad_rows_apply {a c n1 : Nat} (x : (⟨2, ![a, n1]⟩ : Shape).Idx → α) {u : Shape} (v : u.Idx → α) (p : Nat)
    (h : (⟨2, ![a, n1]⟩ : Shape).Pads ![0, 0] ![p, 0] ![0, 0] ⟨2, ![c, n1]⟩) (hu : 0 < u.numel) (n : Fin c) (d : Fin n1) :
    pad (⟨2, ![c, n1]⟩ : Shape) ![0, 0] ![p, 0] ![0, 0] x v h hu (ix2 n d)
      = if hn : n.val < a then x (ix2 ⟨n.val, hn⟩ d) else v (Shape.Idx.first hu) := by
  by_cases hn : n.val < a
  · rw [dif_pos hn]
    exact pad_apply_of_inside _ _ _ x v h hu (ix2 n d) (ix2 ⟨n.val, hn⟩ d) (fun ax => by
      match ax with
      | ⟨0, _⟩ => show n.val = 0 + n.val * (0 + 1); omega
      | ⟨1, _⟩ => show d.val = 0 + d.val * (0 + 1); omega)
  · rw [dif_neg hn]
    exact pad_apply_of_not_inside _ _ _ x v h hu (ix2 n d) (0 : Fin 2) (fun hh => hn (by
      have h3 : (n.val - 0) / (0 + 1) < a := hh.2.2
      simpa using h3))

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.KernelIdeal.Hand.Layout2
-- ==== Proof.KI.Bridge.Host.lean ====
import proofs.«406629_j10943576670300_1_alg».proof.Proof.Gen.KernelIdeal.Launch
import proofs.«406629_j10943576670300_1_alg».proof.Proof.Spec
import proofs.«406629_j10943576670300_1_alg».proof.Proof.KI.Bridge.Layout2
import Idealize.ShloMosaic.Lib.StableHlo.Run

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Hand.Layout2

variable (W : Valuation τ sig (Elt Ideal))

theorem host0_v0_eq : (StableHlo.after hostOps0 W (Proc.devRef .tc main_v0) : S150000x64.Idx → EReal)
    = concatenate S150000x64 0 [⟨S100000x64, (W (Proc.devRef .tc main_arg4) : S100000x64.Idx → EReal)⟩, ⟨S50000x64, (W (Proc.devRef .tc main_arg6) : S50000x64.Idx → EReal)⟩] concatenates_S100000x64_S50000x64_S150000x64_d0 := by
  show StableHlo.after hostOps0 W (Proc.devRef .tc main_v0) = _
  after_results

theorem host0_v0 (n : Fin 150000) (d : Fin 64) :
    (StableHlo.after hostOps0 W (Proc.devRef .tc main_v0) : S150000x64.Idx → EReal) (ix2 n d)
      = Cert.Spec.ego0 (fun u d => (W (Proc.devRef .tc main_arg4) : S100000x64.Idx → EReal) (ix2 u d)) (fun i d => (W (Proc.devRef .tc main_arg6) : S50000x64.Idx → EReal) (ix2 i d)) n d := by
  rw [host0_v0_eq]
  refine (concat2_rows_apply _ _ _ (by decide) n d).trans ?_
  rfl

theorem host0_v1_eq : (StableHlo.after hostOps0 W (Proc.devRef .tc main_v1) : S150000x64.Idx → EReal)
    = concatenate S150000x64 0 [⟨S100000x64, (W (Proc.devRef .tc main_arg5) : S100000x64.Idx → EReal)⟩, ⟨S50000x64, (W (Proc.devRef .tc main_arg7) : S50000x64.Idx → EReal)⟩] concatenates_S100000x64_S50000x64_S150000x64_d0 := by
  show StableHlo.after hostOps0 W (Proc.devRef .tc main_v1) = _
  after_results

theorem host0_v1 (n : Fin 150000) (d : Fin 64) :
    (StableHlo.after hostOps0 W (Proc.devRef .tc main_v1) : S150000x64.Idx → EReal) (ix2 n d)
      = Cert.Spec.ego0 (fun u d => (W (Proc.devRef .tc main_arg5) : S100000x64.Idx → EReal) (ix2 u d)) (fun i d => (W (Proc.devRef .tc main_arg7) : S50000x64.Idx → EReal) (ix2 i d)) n d := by
  rw [host0_v1_eq]
  refine (concat2_rows_apply _ _ _ (by decide) n d).trans ?_
  rfl

theorem host0_c : (StableHlo.after hostOps0 W (Proc.devRef .tc main_c) : IVec S_ 32) = constantI S_ 32 0#32 := by
  show StableHlo.after hostOps0 W (Proc.devRef .tc main_c) = _
  after_results

theorem host02_c_0 : (StableHlo.after hostOps0_2 W (Proc.devRef .tc main_c_0) : IVec S_ 32) = constantI S_ 32 0#32 := by
  show StableHlo.after hostOps0_2 W (Proc.devRef .tc main_c_0) = _
  after_results

theorem host01_v2_eq : (StableHlo.after hostOps0_1 W (Proc.devRef .tc main_v2) : S150528x64.Idx → EReal)
    = pad S150528x64 ![0, 0] ![528, 0] ![0, 0] (W (Proc.devRef .tc main_v0) : S150000x64.Idx → EReal) (sitofp (F := Ideal) .f32 (W (Proc.devRef .tc main_c) : IVec S_ 32)) pads_S150000x64_S150528x64_05280_000 h_S_ := by
  show StableHlo.after hostOps0_1 W (Proc.devRef .tc main_v2) = _
  after_results
  rfl

theorem host01_v2 (hc : (W (Proc.devRef .tc main_c) : IVec S_ 32) = constantI S_ 32 0#32) (n : Fin 150528) (d : Fin 64) :
    (StableHlo.after hostOps0_1 W (Proc.devRef .tc main_v2) : S150528x64.Idx → EReal) (ix2 n d)
      = if h : n.val < 150000 then (W (Proc.devRef .tc main_v0) : S150000x64.Idx → EReal) (ix2 ⟨n.val, h⟩ d) else (0 : EReal) := by
  rw [host01_v2_eq, hc]
  refine (pad_rows_apply _ _ 528 _ _ n d).trans ?_
  by_cases h : n.val < 150000
  · rw [dif_pos h, dif_pos h]
  · rw [dif_neg h, dif_neg h]
    exact sitofp_zero (φ := .f32)

theorem host03_v3_eq : (StableHlo.after hostOps0_3 W (Proc.devRef .tc main_v3) : S150528x64.Idx → EReal)
    = pad S150528x64 ![0, 0] ![528, 0] ![0, 0] (W (Proc.devRef .tc main_v1) : S150000x64.Idx → EReal) (sitofp (F := Ideal) .f32 (W (Proc.devRef .tc main_c_0) : IVec S_ 32)) pads_S150000x64_S150528x64_05280_000 h_S_ := by
  show StableHlo.after hostOps0_3 W (Proc.devRef .tc main_v3) = _
  after_results
  rfl

theorem host03_v3 (hc : (W (Proc.devRef .tc main_c_0) : IVec S_ 32) = constantI S_ 32 0#32) (n : Fin 150528) (d : Fin 64) :
    (StableHlo.after hostOps0_3 W (Proc.devRef .tc main_v3) : S150528x64.Idx → EReal) (ix2 n d)
      = if h : n.val < 150000 then (W (Proc.devRef .tc main_v1) : S150000x64.Idx → EReal) (ix2 ⟨n.val, h⟩ d) else (0 : EReal) := by
  rw [host03_v3_eq, hc]
  refine (pad_rows_apply _ _ 528 _ _ n d).trans ?_
  by_cases h : n.val < 150000
  · rw [dif_pos h, dif_pos h]
  · rw [dif_neg h, dif_neg h]
    exact sitofp_zero (φ := .f32)

theorem host04_v6_eq : (StableHlo.after hostOps0_4 W (Proc.devRef .tc main_v6) : IVec S3000000x1 32)
    = shapeCast S3000000x1 (shapeCast S3000000 (extractStridedSlice S1x3000000 ![0, 0] (W (Proc.devRef .tc main_arg0) : IVec S2x3000000 32) slices_S2x3000000_S1x3000000_0_0) shapeCasts_S1x3000000_S3000000) shapeCasts_S3000000_S3000000x1 := by
  show StableHlo.after hostOps0_4 W (Proc.devRef .tc main_v6) = _
  after_results
  rfl

theorem host04_v6 (e : Fin 3000000) (u : Fin 1) :
    (StableHlo.after hostOps0_4 W (Proc.devRef .tc main_v6) : IVec S3000000x1 32) (ix2 e u) = (W (Proc.devRef .tc main_arg0) : IVec S2x3000000 32) (ix2 (0 : Fin 2) e) := by
  rw [host04_v6_eq]
  refine (shapeCast_a_a1_apply _ _ e u).trans ?_
  refine (shapeCast_1a_a_apply _ _ e).trans ?_
  exact slice2_axis0_apply 0 _ _ (0 : Fin 1) e (0 : Fin 2) rfl

theorem host04_v9_eq : (StableHlo.after hostOps0_4 W (Proc.devRef .tc main_v9) : IVec S3000000x1 32)
    = shapeCast S3000000x1 (shapeCast S3000000 (extractStridedSlice S1x3000000 ![1, 0] (W (Proc.devRef .tc main_arg0) : IVec S2x3000000 32) slices_S2x3000000_S1x3000000_1_0) shapeCasts_S1x3000000_S3000000) shapeCasts_S3000000_S3000000x1 := by
  show StableHlo.after hostOps0_4 W (Proc.devRef .tc main_v9) = _
  after_results
  rfl

theorem host04_v9 (e : Fin 3000000) (u : Fin 1) :
    (StableHlo.after hostOps0_4 W (Proc.devRef .tc main_v9) : IVec S3000000x1 32) (ix2 e u) = (W (Proc.devRef .tc main_arg0) : IVec S2x3000000 32) (ix2 (1 : Fin 2) e) := by
  rw [host04_v9_eq]
  refine (shapeCast_a_a1_apply _ _ e u).trans ?_
  refine (shapeCast_1a_a_apply _ _ e).trans ?_
  exact slice2_axis0_apply 1 _ _ (0 : Fin 1) e (1 : Fin 2) rfl

theorem host04_v12_eq : (StableHlo.after hostOps0_4 W (Proc.devRef .tc main_v12) : IVec S3000000x1 32)
    = shapeCast S3000000x1 (shapeCast S3000000 (extractStridedSlice S1x3000000 ![0, 0] (W (Proc.devRef .tc main_arg2) : IVec S2x3000000 32) slices_S2x3000000_S1x3000000_0_0) shapeCasts_S1x3000000_S3000000) shapeCasts_S3000000_S3000000x1 := by
  show StableHlo.after hostOps0_4 W (Proc.devRef .tc main_v12) = _
  after_results
  rfl

theorem host04_v12 (e : Fin 3000000) (u : Fin 1) :
    (StableHlo.after hostOps0_4 W (Proc.devRef .tc main_v12) : IVec S3000000x1 32) (ix2 e u) = (W (Proc.devRef .tc main_arg2) : IVec S2x3000000 32) (ix2 (0 : Fin 2) e) := by
  rw [host04_v12_eq]
  refine (shapeCast_a_a1_apply _ _ e u).trans ?_
  refine (shapeCast_1a_a_apply _ _ e).trans ?_
  exact slice2_axis0_apply 0 _ _ (0 : Fin 1) e (0 : Fin 2) rfl

theorem host04_v15_eq : (StableHlo.after hostOps0_4 W (Proc.devRef .tc main_v15) : IVec S3000000x1 32)
    = shapeCast S3000000x1 (shapeCast S3000000 (extractStridedSlice S1x3000000 ![1, 0] (W (Proc.devRef .tc main_arg2) : IVec S2x3000000 32) slices_S2x3000000_S1x3000000_1_0) shapeCasts_S1x3000000_S3000000) shapeCasts_S3000000_S3000000x1 := by
  show StableHlo.after hostOps0_4 W (Proc.devRef .tc main_v15) = _
  after_results
  rfl

theorem host04_v15 (e : Fin 3000000) (u : Fin 1) :
    (StableHlo.after hostOps0_4 W (Proc.devRef .tc main_v15) : IVec S3000000x1 32) (ix2 e u) = (W (Proc.devRef .tc main_arg2) : IVec S2x3000000 32) (ix2 (1 : Fin 2) e) := by
  rw [host04_v15_eq]
  refine (shapeCast_a_a1_apply _ _ e u).trans ?_
  refine (shapeCast_1a_a_apply _ _ e).trans ?_
  exact slice2_axis0_apply 1 _ _ (0 : Fin 1) e (1 : Fin 2) rfl

theorem host_v16 : (StableHlo.after hostOps0_4 W (Proc.devRef .tc main_v16) : S150528x64.Idx → EReal) = (W (Proc.devRef .tc main_v2) : S150528x64.Idx → EReal) := by
  show StableHlo.after hostOps0_4 W (Proc.devRef .tc main_v16) = truncf (F := Ideal) .bf16 (W (Proc.devRef .tc main_v2) : S150528x64.Idx → EReal) bitsLt_bf16_f32
  after_results

theorem host_v19 : (StableHlo.after hostOps2 W (Proc.devRef .tc main_v19) : S150528x64.Idx → EReal) = (W (Proc.devRef .tc main_v18) : S150528x64.Idx → EReal) := by
  show StableHlo.after hostOps2 W (Proc.devRef .tc main_v19) = truncf (F := Ideal) .bf16 (W (Proc.devRef .tc main_v18) : S150528x64.Idx → EReal) bitsLt_bf16_f32
  after_results

theorem host_v22 : (StableHlo.after hostOps4 W (Proc.devRef .tc main_v22) : S150528x64.Idx → EReal) = (W (Proc.devRef .tc main_v21) : S150528x64.Idx → EReal) := by
  show StableHlo.after hostOps4 W (Proc.devRef .tc main_v22) = truncf (F := Ideal) .bf16 (W (Proc.devRef .tc main_v21) : S150528x64.Idx → EReal) bitsLt_bf16_f32
  after_results

theorem host_v25 : (StableHlo.after hostOps6 W (Proc.devRef .tc main_v25) : S150528x64.Idx → EReal) = (W (Proc.devRef .tc main_v3) : S150528x64.Idx → EReal) := by
  show StableHlo.after hostOps6 W (Proc.devRef .tc main_v25) = truncf (F := Ideal) .bf16 (W (Proc.devRef .tc main_v3) : S150528x64.Idx → EReal) bitsLt_bf16_f32
  after_results

theorem host_v28 : (StableHlo.after hostOps8 W (Proc.devRef .tc main_v28) : S150528x64.Idx → EReal) = (W (Proc.devRef .tc main_v27) : S150528x64.Idx → EReal) := by
  show StableHlo.after hostOps8 W (Proc.devRef .tc main_v28) = truncf (F := Ideal) .bf16 (W (Proc.devRef .tc main_v27) : S150528x64.Idx → EReal) bitsLt_bf16_f32
  after_results

theorem host_v31 : (StableHlo.after hostOps10 W (Proc.devRef .tc main_v31) : S150528x64.Idx → EReal) = (W (Proc.devRef .tc main_v30) : S150528x64.Idx → EReal) := by
  show StableHlo.after hostOps10 W (Proc.devRef .tc main_v31) = truncf (F := Ideal) .bf16 (W (Proc.devRef .tc main_v30) : S150528x64.Idx → EReal) bitsLt_bf16_f32
  after_results

theorem host12_v41_eq : (StableHlo.after hostOps12 W (Proc.devRef .tc main_v41) : S100000x128.Idx → EReal)
    = concatenate S100000x128 1
        [⟨S100000x64, extractStridedSlice S100000x64 ![0, 0] (extractStridedSlice S150000x64 ![0, 0] (W (Proc.devRef .tc main_v24) : S150528x64.Idx → EReal) slices_S150528x64_S150000x64_0_0) slices_S150000x64_S100000x64_0_0⟩,
         ⟨S100000x64, extractStridedSlice S100000x64 ![0, 0] (extractStridedSlice S150000x64 ![0, 0] (W (Proc.devRef .tc main_v33) : S150528x64.Idx → EReal) slices_S150528x64_S150000x64_0_0) slices_S150000x64_S100000x64_0_0⟩]
        concatenates_S100000x64_S100000x64_S100000x128_d1 := by
  show StableHlo.after hostOps12 W (Proc.devRef .tc main_v41) = _
  after_results

theorem host12_v40_eq : (StableHlo.after hostOps12 W (Proc.devRef .tc main_v40) : S50000x128.Idx → EReal)
    = concatenate S50000x128 1
        [⟨S50000x64, extractStridedSlice S50000x64 ![100000, 0] (extractStridedSlice S150000x64 ![0, 0] (W (Proc.devRef .tc main_v24) : S150528x64.Idx → EReal) slices_S150528x64_S150000x64_0_0) slices_S150000x64_S50000x64_100000_0⟩,
         ⟨S50000x64, extractStridedSlice S50000x64 ![100000, 0] (extractStridedSlice S150000x64 ![0, 0] (W (Proc.devRef .tc main_v33) : S150528x64.Idx → EReal) slices_S150528x64_S150000x64_0_0) slices_S150000x64_S50000x64_100000_0⟩]
        concatenates_S50000x64_S50000x64_S50000x128_d1 := by
  show StableHlo.after hostOps12 W (Proc.devRef .tc main_v40) = _
  after_results

def top (X : S150528x64.Idx → EReal) (n : Fin Cert.Spec.nN) (d : Fin 64) : EReal :=
  X (ix2 ⟨n.val, lt_of_lt_of_le n.isLt (by decide)⟩ d)

theorem host12_v41 (u : Fin 100000) (d : Fin 128) :
    (StableHlo.after hostOps12 W (Proc.devRef .tc main_v41) : S100000x128.Idx → EReal) (ix2 u d)
      = Cert.Spec.userRows (top (W (Proc.devRef .tc main_v24) : S150528x64.Idx → EReal)) (top (W (Proc.devRef .tc main_v33) : S150528x64.Idx → EReal)) u d := by
  rw [host12_v41_eq]
  refine (concat2_cols_apply _ _ _ (by decide) u d).trans ?_
  have hu : u.val < 150000 := Nat.lt_of_lt_of_le u.isLt (by decide)
  have hu' : u.val < 150528 := Nat.lt_of_lt_of_le u.isLt (by decide)
  have key : ∀ (X : S150528x64.Idx → EReal) (e : Fin 64),
      extractStridedSlice S100000x64 ![0, 0] (extractStridedSlice S150000x64 ![0, 0] X slices_S150528x64_S150000x64_0_0) slices_S150000x64_S100000x64_0_0 (ix2 u e)
        = X (ix2 ⟨u.val, hu'⟩ e) := fun X e =>
    (slice2_axis0_apply 0 _ slices_S150000x64_S100000x64_0_0 u e (⟨u.val, hu⟩ : Fin 150000) (Nat.zero_add _).symm).trans
      (slice2_axis0_apply 0 X slices_S150528x64_S150000x64_0_0 (⟨u.val, hu⟩ : Fin 150000) e (⟨u.val, hu'⟩ : Fin 150528) (Nat.zero_add _).symm)
  unfold Cert.Spec.userRows top
  by_cases h : d.val < 64
  · rw [dif_pos h, dif_pos h]; exact key _ _
  · rw [dif_neg h, dif_neg h]; exact key _ _

theorem host12_v40 (i : Fin 50000) (d : Fin 128) :
    (StableHlo.after hostOps12 W (Proc.devRef .tc main_v40) : S50000x128.Idx → EReal) (ix2 i d)
      = Cert.Spec.itemRows (top (W (Proc.devRef .tc main_v24) : S150528x64.Idx → EReal)) (top (W (Proc.devRef .tc main_v33) : S150528x64.Idx → EReal)) i d := by
  rw [host12_v40_eq]
  refine (concat2_cols_apply _ _ _ (by decide) i d).trans ?_
  have hi : 100000 + i.val < 150000 := by have := i.isLt; omega
  have hi' : 100000 + i.val < 150528 := by have := i.isLt; omega
  have key : ∀ (X : S150528x64.Idx → EReal) (e : Fin 64),
      extractStridedSlice S50000x64 ![100000, 0] (extractStridedSlice S150000x64 ![0, 0] X slices_S150528x64_S150000x64_0_0) slices_S150000x64_S50000x64_100000_0 (ix2 i e)
        = X (ix2 ⟨100000 + i.val, hi'⟩ e) := fun X e =>
    (slice2_axis0_apply 100000 _ slices_S150000x64_S50000x64_100000_0 i e (⟨100000 + i.val, hi⟩ : Fin 150000) rfl).trans
      (slice2_axis0_apply 0 X slices_S150528x64_S150000x64_0_0 (⟨100000 + i.val, hi⟩ : Fin 150000) e (⟨100000 + i.val, hi'⟩ : Fin 150528) (Nat.zero_add _).symm)
  unfold Cert.Spec.itemRows top
  by_cases h : d.val < 64
  · rw [dif_pos h, dif_pos h]; exact key _ _
  · rw [dif_neg h, dif_neg h]; exact key _ _

theorem arrRef0_0 : Pipeline.arrRef spec0 0 = main_v6 := rfl
theorem arrRef0_1 : Pipeline.arrRef spec0 1 = main_arg1 := rfl
theorem arrRef0_2 : Pipeline.arrRef spec0 2 = main_v16 := rfl
theorem arrRef0_3 : Pipeline.arrRef spec0 3 = main_v17 := rfl
theorem arrRef1_0 : Pipeline.arrRef spec1 0 = main_v9 := rfl
theorem arrRef1_1 : Pipeline.arrRef spec1 1 = main_v17 := rfl
theorem arrRef1_2 : Pipeline.arrRef spec1 2 = main_v2 := rfl
theorem arrRef1_3 : Pipeline.arrRef spec1 3 = main_v18 := rfl
theorem arrRef2_0 : Pipeline.arrRef spec2 0 = main_v6 := rfl
theorem arrRef2_1 : Pipeline.arrRef spec2 1 = main_arg1 := rfl
theorem arrRef2_2 : Pipeline.arrRef spec2 2 = main_v19 := rfl
theorem arrRef2_3 : Pipeline.arrRef spec2 3 = main_v20 := rfl
theorem arrRef3_0 : Pipeline.arrRef spec3 0 = main_v9 := rfl
theorem arrRef3_1 : Pipeline.arrRef spec3 1 = main_v20 := rfl
theorem arrRef3_2 : Pipeline.arrRef spec3 2 = main_v18 := rfl
theorem arrRef3_3 : Pipeline.arrRef spec3 3 = main_v21 := rfl
theorem arrRef4_0 : Pipeline.arrRef spec4 0 = main_v6 := rfl
theorem arrRef4_1 : Pipeline.arrRef spec4 1 = main_arg1 := rfl
theorem arrRef4_2 : Pipeline.arrRef spec4 2 = main_v22 := rfl
theorem arrRef4_3 : Pipeline.arrRef spec4 3 = main_v23 := rfl
theorem arrRef5_0 : Pipeline.arrRef spec5 0 = main_v9 := rfl
theorem arrRef5_1 : Pipeline.arrRef spec5 1 = main_v23 := rfl
theorem arrRef5_2 : Pipeline.arrRef spec5 2 = main_v21 := rfl
theorem arrRef5_3 : Pipeline.arrRef spec5 3 = main_v24 := rfl
theorem arrRef6_0 : Pipeline.arrRef spec6 0 = main_v12 := rfl
theorem arrRef6_1 : Pipeline.arrRef spec6 1 = main_arg3 := rfl
theorem arrRef6_2 : Pipeline.arrRef spec6 2 = main_v25 := rfl
theorem arrRef6_3 : Pipeline.arrRef spec6 3 = main_v26 := rfl
theorem arrRef7_0 : Pipeline.arrRef spec7 0 = main_v15 := rfl
theorem arrRef7_1 : Pipeline.arrRef spec7 1 = main_v26 := rfl
theorem arrRef7_2 : Pipeline.arrRef spec7 2 = main_v3 := rfl
theorem arrRef7_3 : Pipeline.arrRef spec7 3 = main_v27 := rfl
theorem arrRef8_0 : Pipeline.arrRef spec8 0 = main_v12 := rfl
theorem arrRef8_1 : Pipeline.arrRef spec8 1 = main_arg3 := rfl
theorem arrRef8_2 : Pipeline.arrRef spec8 2 = main_v28 := rfl
theorem arrRef8_3 : Pipeline.arrRef spec8 3 = main_v29 := rfl
theorem arrRef9_0 : Pipeline.arrRef spec9 0 = main_v15 := rfl
theorem arrRef9_1 : Pipeline.arrRef spec9 1 = main_v29 := rfl
theorem arrRef9_2 : Pipeline.arrRef spec9 2 = main_v27 := rfl
theorem arrRef9_3 : Pipeline.arrRef spec9 3 = main_v30 := rfl
theorem arrRef10_0 : Pipeline.arrRef spec10 0 = main_v12 := rfl
theorem arrRef10_1 : Pipeline.arrRef spec10 1 = main_arg3 := rfl
theorem arrRef10_2 : Pipeline.arrRef spec10 2 = main_v31 := rfl
theorem arrRef10_3 : Pipeline.arrRef spec10 3 = main_v32 := rfl
theorem arrRef11_0 : Pipeline.arrRef spec11 0 = main_v15 := rfl
theorem arrRef11_1 : Pipeline.arrRef spec11 1 = main_v32 := rfl
theorem arrRef11_2 : Pipeline.arrRef spec11 2 = main_v30 := rfl
theorem arrRef11_3 : Pipeline.arrRef spec11 3 = main_v33 := rfl

end Cert.KernelIdeal.Hand
-- ==== Proof.KI.Bridge.Algebra.lean ====
import proofs.«406629_j10943576670300_1_alg».proof.Proof.Spec

noncomputable section
namespace Cert.KernelIdeal.Hand
open Cert.Spec

theorem msg_congr {N : Nat} {src src' : Fin nE → BitVec 32} {w w' : Fin nE → EReal} {x x' : Fin N → Fin 64 → EReal}
    (hs : ∀ e, src e = src' e) (hw : ∀ e, w e = w' e) (hx : ∀ n d, x n d = x' n d) (e : Fin nE) (d : Fin 64) :
    msg N src w x e d = msg N src' w' x' e d := by
  have e1 : src = src' := funext hs
  have e2 : w = w' := funext hw
  have e3 : x = x' := funext fun n => funext fun d => hx n d
  rw [e1, e2, e3]

theorem layer_of_parts {N : Nat} (src dst : Fin nE → BitVec 32) (w : Fin nE → EReal) (x : Fin N → Fin 64 → EReal)
    {dst' : Fin nE → BitVec 32} {mg : Fin nE → Fin 64 → EReal} {x' : Fin N → Fin 64 → EReal}
    (hd : ∀ e, dst' e = dst e) (hm : ∀ e d, mg e d = msg N src w x e d) (hx : ∀ n d, x' n d = x n d) (n : Fin N) (d : Fin 64) :
    agg N dst' mg n d + half * x' n d = layer N src dst w x n d := by
  have e1 : dst' = dst := funext hd
  have e2 : mg = msg N src w x := funext fun e => funext fun d => hm e d
  rw [e1, e2, hx n d]
  rfl

theorem at_ix {ι α : Type} {X Y : ι → α} (h : X = Y) (i : ι) : X i = Y i := congrFun h i

end Cert.KernelIdeal.Hand
-- ==== Proof.KI.Bridge.Base.lean ====
import proofs.«406629_j10943576670300_1_alg».proof.Proof.KI.Bridge.KeepA
import proofs.«406629_j10943576670300_1_alg».proof.Proof.KI.Bridge.KeepB
import proofs.«406629_j10943576670300_1_alg».proof.Proof.KI.Bridge.Host
import proofs.«406629_j10943576670300_1_alg».proof.Proof.KI.Bridge.Algebra

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

abbrev arg0A : IVec S2x3000000 32 := W0 m ρ c (Proc.devRef .tc main_arg0)
abbrev arg1A : S3000000x1.Idx → EReal := W0 m ρ c (Proc.devRef .tc main_arg1)
abbrev arg2A : IVec S2x3000000 32 := W0 m ρ c (Proc.devRef .tc main_arg2)
abbrev arg3A : S3000000x1.Idx → EReal := W0 m ρ c (Proc.devRef .tc main_arg3)
abbrev arg4A : S100000x64.Idx → EReal := W0 m ρ c (Proc.devRef .tc main_arg4)
abbrev arg5A : S100000x64.Idx → EReal := W0 m ρ c (Proc.devRef .tc main_arg5)
abbrev arg6A : S50000x64.Idx → EReal := W0 m ρ c (Proc.devRef .tc main_arg6)
abbrev arg7A : S50000x64.Idx → EReal := W0 m ρ c (Proc.devRef .tc main_arg7)

def srcI : Fin Cert.Spec.nE → BitVec 32 := fun e => arg0A m ρ c (ix2 (0 : Fin 2) e)
def dstI : Fin Cert.Spec.nE → BitVec 32 := fun e => arg0A m ρ c (ix2 (1 : Fin 2) e)
def wI : Fin Cert.Spec.nE → EReal := fun e => arg1A m ρ c (ix2 e (0 : Fin 1))
def srcT : Fin Cert.Spec.nE → BitVec 32 := fun e => arg2A m ρ c (ix2 (0 : Fin 2) e)
def dstT : Fin Cert.Spec.nE → BitVec 32 := fun e => arg2A m ρ c (ix2 (1 : Fin 2) e)
def wT : Fin Cert.Spec.nE → EReal := fun e => arg3A m ρ c (ix2 e (0 : Fin 1))

def usrI : Fin 100000 → Fin 64 → EReal := fun u d => arg4A m ρ c (ix2 u d)
def itmI : Fin 50000 → Fin 64 → EReal := fun i d => arg6A m ρ c (ix2 i d)
def usrT : Fin 100000 → Fin 64 → EReal := fun u d => arg5A m ρ c (ix2 u d)
def itmT : Fin 50000 → Fin 64 → EReal := fun i d => arg7A m ρ c (ix2 i d)

def tabI0 : Fin Cert.Spec.nP → Fin 64 → EReal := Cert.Spec.ego0P (usrI m ρ c) (itmI m ρ c)
def tabI1 : Fin Cert.Spec.nP → Fin 64 → EReal := Cert.Spec.layer Cert.Spec.nP (srcI m ρ c) (dstI m ρ c) (wI m ρ c) (tabI0 m ρ c)
def tabI2 : Fin Cert.Spec.nP → Fin 64 → EReal := Cert.Spec.layer Cert.Spec.nP (srcI m ρ c) (dstI m ρ c) (wI m ρ c) (tabI1 m ρ c)
def tabI3 : Fin Cert.Spec.nP → Fin 64 → EReal := Cert.Spec.layer Cert.Spec.nP (srcI m ρ c) (dstI m ρ c) (wI m ρ c) (tabI2 m ρ c)
def tabT0 : Fin Cert.Spec.nP → Fin 64 → EReal := Cert.Spec.ego0P (usrT m ρ c) (itmT m ρ c)
def tabT1 : Fin Cert.Spec.nP → Fin 64 → EReal := Cert.Spec.layer Cert.Spec.nP (srcT m ρ c) (dstT m ρ c) (wT m ρ c) (tabT0 m ρ c)
def tabT2 : Fin Cert.Spec.nP → Fin 64 → EReal := Cert.Spec.layer Cert.Spec.nP (srcT m ρ c) (dstT m ρ c) (wT m ρ c) (tabT1 m ρ c)
def tabT3 : Fin Cert.Spec.nP → Fin 64 → EReal := Cert.Spec.layer Cert.Spec.nP (srcT m ρ c) (dstT m ρ c) (wT m ρ c) (tabT2 m ρ c)
theorem tabI3_eq : tabI3 m ρ c = Cert.Spec.layers3 Cert.Spec.nP (srcI m ρ c) (dstI m ρ c) (wI m ρ c) (tabI0 m ρ c) := rfl
theorem tabT3_eq : tabT3 m ρ c = Cert.Spec.layers3 Cert.Spec.nP (srcT m ρ c) (dstT m ρ c) (wT m ρ c) (tabT0 m ρ c) := rfl

theorem arg0_at1 : W1 m ρ c (Proc.devRef .tc main_arg0) = W0 m ρ c (Proc.devRef .tc main_arg0) := keep0 m ρ c main_arg0 (by decide)
theorem arg0_at2 : W2 m ρ c (Proc.devRef .tc main_arg0) = W0 m ρ c (Proc.devRef .tc main_arg0) := (keep1 m ρ c main_arg0 (by decide)).trans (arg0_at1 m ρ c)
theorem arg0_at3 : W3 m ρ c (Proc.devRef .tc main_arg0) = W0 m ρ c (Proc.devRef .tc main_arg0) := (keep2 m ρ c main_arg0 (by decide)).trans (arg0_at2 m ρ c)
theorem arg0_at4 : W4 m ρ c (Proc.devRef .tc main_arg0) = W0 m ρ c (Proc.devRef .tc main_arg0) := (keep3 m ρ c main_arg0 (by decide)).trans (arg0_at3 m ρ c)
theorem arg2_at1 : W1 m ρ c (Proc.devRef .tc main_arg2) = W0 m ρ c (Proc.devRef .tc main_arg2) := keep0 m ρ c main_arg2 (by decide)
theorem arg2_at2 : W2 m ρ c (Proc.devRef .tc main_arg2) = W0 m ρ c (Proc.devRef .tc main_arg2) := (keep1 m ρ c main_arg2 (by decide)).trans (arg2_at1 m ρ c)
theorem arg2_at3 : W3 m ρ c (Proc.devRef .tc main_arg2) = W0 m ρ c (Proc.devRef .tc main_arg2) := (keep2 m ρ c main_arg2 (by decide)).trans (arg2_at2 m ρ c)
theorem arg2_at4 : W4 m ρ c (Proc.devRef .tc main_arg2) = W0 m ρ c (Proc.devRef .tc main_arg2) := (keep3 m ρ c main_arg2 (by decide)).trans (arg2_at3 m ρ c)
theorem arg1_at1 : W1 m ρ c (Proc.devRef .tc main_arg1) = W0 m ρ c (Proc.devRef .tc main_arg1) := keep0 m ρ c main_arg1 (by decide)
theorem arg1_at2 : W2 m ρ c (Proc.devRef .tc main_arg1) = W0 m ρ c (Proc.devRef .tc main_arg1) := (keep1 m ρ c main_arg1 (by decide)).trans (arg1_at1 m ρ c)
theorem arg1_at3 : W3 m ρ c (Proc.devRef .tc main_arg1) = W0 m ρ c (Proc.devRef .tc main_arg1) := (keep2 m ρ c main_arg1 (by decide)).trans (arg1_at2 m ρ c)
theorem arg1_at4 : W4 m ρ c (Proc.devRef .tc main_arg1) = W0 m ρ c (Proc.devRef .tc main_arg1) := (keep3 m ρ c main_arg1 (by decide)).trans (arg1_at3 m ρ c)
theorem arg1_at5 : W5 m ρ c (Proc.devRef .tc main_arg1) = W0 m ρ c (Proc.devRef .tc main_arg1) := (keep4 m ρ c main_arg1 (by decide)).trans (arg1_at4 m ρ c)
theorem arg1_at6 : W6 m ρ c (Proc.devRef .tc main_arg1) = W0 m ρ c (Proc.devRef .tc main_arg1) := (keep5 m ρ c main_arg1 (by decide)).trans (arg1_at5 m ρ c)
theorem arg1_at7 : W7 m ρ c (Proc.devRef .tc main_arg1) = W0 m ρ c (Proc.devRef .tc main_arg1) := (keep6 m ρ c main_arg1 (by decide)).trans (arg1_at6 m ρ c)
theorem arg1_at8 : W8 m ρ c (Proc.devRef .tc main_arg1) = W0 m ρ c (Proc.devRef .tc main_arg1) := (keep7 m ρ c main_arg1 (by decide)).trans (arg1_at7 m ρ c)
theorem arg1_at9 : W9 m ρ c (Proc.devRef .tc main_arg1) = W0 m ρ c (Proc.devRef .tc main_arg1) := (keep8 m ρ c main_arg1 (by decide)).trans (arg1_at8 m ρ c)
theorem arg1_at10 : W10 m ρ c (Proc.devRef .tc main_arg1) = W0 m ρ c (Proc.devRef .tc main_arg1) := (keep9 m ρ c main_arg1 (by decide)).trans (arg1_at9 m ρ c)
theorem arg1_at11 : W11 m ρ c (Proc.devRef .tc main_arg1) = W0 m ρ c (Proc.devRef .tc main_arg1) := (keep10 m ρ c main_arg1 (by decide)).trans (arg1_at10 m ρ c)
theorem arg3_at1 : W1 m ρ c (Proc.devRef .tc main_arg3) = W0 m ρ c (Proc.devRef .tc main_arg3) := keep0 m ρ c main_arg3 (by decide)
theorem arg3_at2 : W2 m ρ c (Proc.devRef .tc main_arg3) = W0 m ρ c (Proc.devRef .tc main_arg3) := (keep1 m ρ c main_arg3 (by decide)).trans (arg3_at1 m ρ c)
theorem arg3_at3 : W3 m ρ c (Proc.devRef .tc main_arg3) = W0 m ρ c (Proc.devRef .tc main_arg3) := (keep2 m ρ c main_arg3 (by decide)).trans (arg3_at2 m ρ c)
theorem arg3_at4 : W4 m ρ c (Proc.devRef .tc main_arg3) = W0 m ρ c (Proc.devRef .tc main_arg3) := (keep3 m ρ c main_arg3 (by decide)).trans (arg3_at3 m ρ c)
theorem arg3_at5 : W5 m ρ c (Proc.devRef .tc main_arg3) = W0 m ρ c (Proc.devRef .tc main_arg3) := (keep4 m ρ c main_arg3 (by decide)).trans (arg3_at4 m ρ c)
theorem arg3_at6 : W6 m ρ c (Proc.devRef .tc main_arg3) = W0 m ρ c (Proc.devRef .tc main_arg3) := (keep5 m ρ c main_arg3 (by decide)).trans (arg3_at5 m ρ c)
theorem arg3_at7 : W7 m ρ c (Proc.devRef .tc main_arg3) = W0 m ρ c (Proc.devRef .tc main_arg3) := (keep6 m ρ c main_arg3 (by decide)).trans (arg3_at6 m ρ c)
theorem arg3_at8 : W8 m ρ c (Proc.devRef .tc main_arg3) = W0 m ρ c (Proc.devRef .tc main_arg3) := (keep7 m ρ c main_arg3 (by decide)).trans (arg3_at7 m ρ c)
theorem arg3_at9 : W9 m ρ c (Proc.devRef .tc main_arg3) = W0 m ρ c (Proc.devRef .tc main_arg3) := (keep8 m ρ c main_arg3 (by decide)).trans (arg3_at8 m ρ c)
theorem arg3_at10 : W10 m ρ c (Proc.devRef .tc main_arg3) = W0 m ρ c (Proc.devRef .tc main_arg3) := (keep9 m ρ c main_arg3 (by decide)).trans (arg3_at9 m ρ c)
theorem arg3_at11 : W11 m ρ c (Proc.devRef .tc main_arg3) = W0 m ρ c (Proc.devRef .tc main_arg3) := (keep10 m ρ c main_arg3 (by decide)).trans (arg3_at10 m ρ c)
theorem arg3_at12 : W12 m ρ c (Proc.devRef .tc main_arg3) = W0 m ρ c (Proc.devRef .tc main_arg3) := (keep11 m ρ c main_arg3 (by decide)).trans (arg3_at11 m ρ c)
theorem arg3_at13 : W13 m ρ c (Proc.devRef .tc main_arg3) = W0 m ρ c (Proc.devRef .tc main_arg3) := (keep12 m ρ c main_arg3 (by decide)).trans (arg3_at12 m ρ c)
theorem arg3_at14 : W14 m ρ c (Proc.devRef .tc main_arg3) = W0 m ρ c (Proc.devRef .tc main_arg3) := (keep13 m ρ c main_arg3 (by decide)).trans (arg3_at13 m ρ c)
theorem arg3_at15 : W15 m ρ c (Proc.devRef .tc main_arg3) = W0 m ρ c (Proc.devRef .tc main_arg3) := (keep14 m ρ c main_arg3 (by decide)).trans (arg3_at14 m ρ c)
theorem arg3_at16 : W16 m ρ c (Proc.devRef .tc main_arg3) = W0 m ρ c (Proc.devRef .tc main_arg3) := (keep15 m ρ c main_arg3 (by decide)).trans (arg3_at15 m ρ c)
theorem arg3_at17 : W17 m ρ c (Proc.devRef .tc main_arg3) = W0 m ρ c (Proc.devRef .tc main_arg3) := (keep16 m ρ c main_arg3 (by decide)).trans (arg3_at16 m ρ c)
theorem arg3_at18 : W18 m ρ c (Proc.devRef .tc main_arg3) = W0 m ρ c (Proc.devRef .tc main_arg3) := (keep17 m ρ c main_arg3 (by decide)).trans (arg3_at17 m ρ c)
theorem arg3_at19 : W19 m ρ c (Proc.devRef .tc main_arg3) = W0 m ρ c (Proc.devRef .tc main_arg3) := (keep18 m ρ c main_arg3 (by decide)).trans (arg3_at18 m ρ c)
theorem arg3_at20 : W20 m ρ c (Proc.devRef .tc main_arg3) = W0 m ρ c (Proc.devRef .tc main_arg3) := (keep19 m ρ c main_arg3 (by decide)).trans (arg3_at19 m ρ c)

theorem v2_at2 (n : Fin 150528) (d : Fin 64) :
    (W2 m ρ c (Proc.devRef .tc main_v2) : S150528x64.Idx → EReal) (ix2 n d) = tabI0 m ρ c n d := by
  have hc : (W1 m ρ c (Proc.devRef .tc main_c) : IVec S_ 32) = constantI S_ 32 0#32 := host0_c (W0 m ρ c)
  refine (host01_v2 (W1 m ρ c) hc n d).trans ?_
  unfold tabI0 Cert.Spec.ego0P
  by_cases h : n.val < 150000
  · rw [dif_pos h, dif_pos h]
    exact host0_v0 (W0 m ρ c) ⟨n.val, h⟩ d
  · rw [dif_neg h, dif_neg h]

theorem v3_at4 (n : Fin 150528) (d : Fin 64) :
    (W4 m ρ c (Proc.devRef .tc main_v3) : S150528x64.Idx → EReal) (ix2 n d) = tabT0 m ρ c n d := by
  have hc : (W3 m ρ c (Proc.devRef .tc main_c_0) : IVec S_ 32) = constantI S_ 32 0#32 := host02_c_0 (W2 m ρ c)
  refine (host03_v3 (W3 m ρ c) hc n d).trans ?_
  unfold tabT0 Cert.Spec.ego0P
  by_cases h : n.val < 150000
  · rw [dif_pos h, dif_pos h]
    exact (at_ix ((keep2 m ρ c main_v1 (by decide)).trans (keep1 m ρ c main_v1 (by decide))) (ix2 (⟨n.val, h⟩ : Fin 150000) d)).trans (host0_v1 (W0 m ρ c) ⟨n.val, h⟩ d)
  · rw [dif_neg h, dif_neg h]

theorem v6_at5 (e : Fin 3000000) (u : Fin 1) : (W5 m ρ c (Proc.devRef .tc main_v6) : IVec S3000000x1 32) (ix2 e u) = srcI m ρ c e :=
  (host04_v6 (W4 m ρ c) e u).trans (at_ix (arg0_at4 m ρ c) (ix2 (0 : Fin 2) e))
theorem v9_at5 (e : Fin 3000000) (u : Fin 1) : (W5 m ρ c (Proc.devRef .tc main_v9) : IVec S3000000x1 32) (ix2 e u) = dstI m ρ c e :=
  (host04_v9 (W4 m ρ c) e u).trans (at_ix (arg0_at4 m ρ c) (ix2 (1 : Fin 2) e))
theorem v12_at5 (e : Fin 3000000) (u : Fin 1) : (W5 m ρ c (Proc.devRef .tc main_v12) : IVec S3000000x1 32) (ix2 e u) = srcT m ρ c e :=
  (host04_v12 (W4 m ρ c) e u).trans (at_ix (arg2_at4 m ρ c) (ix2 (0 : Fin 2) e))
theorem v15_at5 (e : Fin 3000000) (u : Fin 1) : (W5 m ρ c (Proc.devRef .tc main_v15) : IVec S3000000x1 32) (ix2 e u) = dstT m ρ c e :=
  (host04_v15 (W4 m ρ c) e u).trans (at_ix (arg2_at4 m ρ c) (ix2 (1 : Fin 2) e))

end Cert.KernelIdeal.Hand
-- ==== Proof.KI.G0.Value.PayMat.lean ====
import proofs.«406629_j10943576670300_1_alg».proof.Proof.Gen.KernelIdeal.Skeleton
import Idealize.ShloMosaic.PureOps.Ideal.Laws
import Idealize.ShloMosaic.Lib.ValueIdx

noncomputable section
namespace Cert.KernelIdeal.Hand
open Cert.KernelIdeal Cert.KernelIdeal.Gen
open Idealize.ShloMosaic Idealize.ShloMosaic.TcCoe Idealize.ShloMosaic.ValueIdx

abbrev dotG := dot_S8000x1024_S1024x64_S8000x64_1_0_0_1_n_n

theorem matmul_gather_apply (lhs : FVec Ideal S8000x1024 .bf16) (rhs : FVec Ideal S1024x64 .bf16) (e : Fin 8000) (d : Fin 64) :
    FloatOps.matmul dotG none lhs rhs (constant (F := Ideal) S8000x64 .f32 0x00000000#32) (ix2 e d)
      = ∑ j : Fin 1024, lhs (ix2 e j) * rhs (ix2 j d) := by
  rw [Ideal.matmul_constant_zero_apply, ← Equiv.sum_comp (contrEquiv1 dotG 1024 rfl rfl).symm]
  refine Finset.sum_congr rfl fun j _ => ?_
  have c2 := contrEquiv1_symm_val dotG 1024 rfl rfl j
  have l2 : dotG.lhsIdx (ix2 e d) ((contrEquiv1 dotG 1024 rfl rfl).symm j) = ix2 e j := by
    funext ax; apply Fin.ext
    match ax with
    | ⟨0, _⟩ => simp [DotDims.lhsIdx, dotG, dot_S8000x1024_S1024x64_S8000x64_1_0_0_1_n_n]; rfl
    | ⟨1, _⟩ => simp [DotDims.lhsIdx, dotG, dot_S8000x1024_S1024x64_S8000x64_1_0_0_1_n_n]; exact c2
  have r2 : dotG.rhsIdx (ix2 e d) ((contrEquiv1 dotG 1024 rfl rfl).symm j) = ix2 j d := by
    funext ax; apply Fin.ext
    match ax with
    | ⟨0, _⟩ => simp [DotDims.rhsIdx, dotG, dot_S8000x1024_S1024x64_S8000x64_1_0_0_1_n_n]; exact c2
    | ⟨1, _⟩ => simp [DotDims.rhsIdx, dotG, dot_S8000x1024_S1024x64_S8000x64_1_0_0_1_n_n]; rfl
  rw [l2, r2]

end Cert.KernelIdeal.Hand
end
-- ==== Proof.KI.G0.Value.Pay.lean ====
import proofs.«406629_j10943576670300_1_alg».proof.Proof.KI.G0.Value.PayMat
import Idealize.ShloMosaic.Lib.Pipeline.Value
import Idealize.ShloMosaic.Lib.KernelVsHost
import Idealize.ShloMosaic.Lib.StableHlo.Predicate

noncomputable section
namespace Cert.KernelIdeal.Hand
open Cert.KernelIdeal Cert.KernelIdeal.Gen
open Idealize.ShloMosaic Idealize.ShloMosaic.TcCoe Idealize.ShloMosaic.ValueIdx

theorem mask_apply (a : BitVec 32) (v4 : IVec S8000x1 32) (e : Fin 8000) (j : Fin 1024) :
    (truncf .bf16 (sitofp .f32 (extui 32 (cmpi .eq (broadcastTo S8000x1024 v4 broadcasts_S8000x1_S8000x1024)
        (broadcastTo S8000x1024 (addi (broadcast S1x1024 a) (iota .tc S1x1024 32 [1] iota_S1x1024_d1_w32)) broadcasts_S1x1024_S8000x1024))
        natLt_1_32) : FVec Ideal S8000x1024 .f32) bitsLt_bf16_f32 : FVec Ideal S8000x1024 .bf16) (ix2 e j)
      = if v4 (ix2 e 0) = a + BitVec.ofNat 32 j.val then (1 : EReal) else 0 := by
  rw [truncf_apply, sitofp_apply, extui_apply]
  have h1 : broadcastTo S8000x1024 v4 broadcasts_S8000x1_S8000x1024 (ix2 e j) = v4 (ix2 e 0) :=
    broadcastTo_apply v4 _ (ix2 e j) (ix2 e 0) (fun ax => by
      match ax with
      | ⟨0, _⟩ => rfl
      | ⟨1, _⟩ => rfl)
  have h2 : broadcastTo S8000x1024 (addi (broadcast S1x1024 a) (iota .tc S1x1024 32 [1] iota_S1x1024_d1_w32)) broadcasts_S1x1024_S8000x1024 (ix2 e j)
      = a + BitVec.ofNat 32 j.val := by
    rw [broadcastTo_apply _ _ (ix2 e j) (ix2 (0 : Fin 1) j) (fun ax => by
      match ax with
      | ⟨0, _⟩ => rfl
      | ⟨1, _⟩ => rfl)]
    show IntOp.addi a (iota .tc S1x1024 32 [1] iota_S1x1024_d1_w32 (ix2 (0 : Fin 1) j)) = _
    rw [iota_single_apply]
    rfl
  show FloatOps.sitofp (F := Ideal) .f32 ((IntOp.cmpi .eq (broadcastTo S8000x1024 v4 broadcasts_S8000x1_S8000x1024 (ix2 e j))
      (broadcastTo S8000x1024 (addi (broadcast S1x1024 a) (iota .tc S1x1024 32 [1] iota_S1x1024_d1_w32)) broadcasts_S1x1024_S8000x1024 (ix2 e j))).setWidth 32) = _
  rw [h1, h2]
  by_cases h : v4 (ix2 e 0) = a + BitVec.ofNat 32 j.val
  · rw [if_pos h, StableHlo.Predicate.cmpi_eq_iff.mpr h]
    show ((((1#1 : BitVec 1).setWidth 32).toInt : ℝ) : EReal) = 1
    norm_num
  · rw [if_neg h, eq_zero_of_ne_one (mt StableHlo.Predicate.cmpi_eq_iff.mp h)]
    show ((((0#1 : BitVec 1).setWidth 32).toInt : ℝ) : EReal) = 0
    norm_num

theorem word_eq_iff (x : BitVec 32) (k j : Nat) (hk : k < 147) (hj : j < 1024) :
    x = Scalar.muli (BitVec.ofNat 32 k) 1024#32 + BitVec.ofNat 32 j ↔ x.toNat = k * 1024 + j := by
  have e : (Scalar.muli (BitVec.ofNat 32 k) 1024#32 + BitVec.ofNat 32 j).toNat = k * 1024 + j := by
    show (BitVec.ofNat 32 k * 1024#32 + BitVec.ofNat 32 j).toNat = _
    rw [BitVec.toNat_add, BitVec.toNat_mul, BitVec.toNat_ofNat, BitVec.toNat_ofNat, BitVec.toNat_ofNat]
    simp only [Nat.reducePow]
    omega
  exact ⟨fun h => h ▸ e, fun h => BitVec.eq_of_toNat_eq (h.trans e.symm)⟩

theorem k0_pay1_apply (j : S8000x64.Idx) : (k0_pay1 (F := Ideal)) j = 0 := by
  unfold k0_pay1
  simp only [shapeCast_self]
  show Ideal.ofBits .f32 0x00000000#32 = 0
  exact Ideal.ofBits_zero_f32

theorem k0_pay2_apply (i : grid0.Coords) (hi : (i 1).val < 147) (v3 : Vec Ideal S8000x1 .i32) (v17 : Vec Ideal S1024x64 .bf16) (v20 : Vec Ideal S8000x64 .f32)
    (e : Fin 8000) (d : Fin 64) :
    k0_pay2 i v3 v17 v20 (ix2 e d)
      = (v20 (ix2 e d) : EReal) + ∑ j : Fin 1024, (if (v3 (ix2 e 0) : BitVec 32).toNat = (i 1).val * 1024 + j.val then (1 : EReal) else 0) * (v17 (ix2 j d) : EReal) := by
  unfold k0_pay2
  simp only [shapeCast_self]
  refine (addf_apply _ _ _).trans ?_
  refine congrArg (fun z : EReal => (v20 (ix2 e d) : EReal) + z) ?_
  refine (matmul_gather_apply _ _ e d).trans ?_
  refine Finset.sum_congr rfl fun j _ => ?_
  refine congrArg (fun z : EReal => z * (v17 (ix2 j d) : EReal)) ?_
  refine (mask_apply _ _ e j).trans ?_
  exact if_congr (word_eq_iff _ _ _ hi j.isLt) rfl rfl

theorem k0_pay3_apply (v28 : Vec Ideal S8000x64 .f32) (v29 : Vec Ideal S8000x1 .f32) (e : Fin 8000) (d : Fin 64) :
    k0_pay3 v28 v29 (ix2 e d) = (v28 (ix2 e d) : EReal) * (v29 (ix2 e 0) : EReal) := by
  unfold k0_pay3
  rw [truncf_apply]
  refine (mulf_apply _ _ _).trans ?_
  refine congrArg (fun z : EReal => (v28 (ix2 e d) : EReal) * z) ?_
  exact broadcastTo_apply v29 _ (ix2 e d) (ix2 e 0) (fun ax => by
    match ax with
    | ⟨0, _⟩ => rfl
    | ⟨1, _⟩ => rfl)

theorem gather_step (k : Nat) (hk : k < 147) (s : Nat) (X : Fin 150528 → EReal) (xs : Fin 1024 → EReal)
    (hxs : ∀ (j : Fin 1024) (n : Fin 150528), n.val = k * 1024 + j.val → xs j = X n)
    (prev : EReal) (hprev : prev = if h : s < k * 1024 then X ⟨s, by omega⟩ else 0) :
    prev + ∑ j : Fin 1024, (if s = k * 1024 + j.val then (1 : EReal) else 0) * xs j
      = if h : s < (k + 1) * 1024 then X ⟨s, by omega⟩ else 0 := by
  by_cases h1 : s < k * 1024
  · have hz : ∑ j : Fin 1024, (if s = k * 1024 + j.val then (1 : EReal) else 0) * xs j = 0 :=
      Finset.sum_eq_zero fun j _ => by rw [if_neg (by omega), zero_mul]
    rw [hprev, dif_pos h1, hz, add_zero, dif_pos (by omega)]
  · rw [hprev, dif_neg h1, zero_add]
    by_cases h2 : s < (k + 1) * 1024
    · rw [dif_pos h2]
      rw [Finset.sum_eq_single (⟨s - k * 1024, by omega⟩ : Fin 1024)]
      · rw [if_pos (by show s = k * 1024 + (s - k * 1024); omega), one_mul]
        exact hxs _ _ (by show s = k * 1024 + (s - k * 1024); omega)
      · intro j _ hj
        rw [if_neg (fun hs => hj (Fin.ext (by show j.val = s - k * 1024; omega))), zero_mul]
      · intro h; exact absurd (Finset.mem_univ _) h
    · rw [dif_neg h2]
      exact Finset.sum_eq_zero fun j _ => by rw [if_neg (by omega), zero_mul]

end Cert.KernelIdeal.Hand
end
-- ==== Proof.KI.G0.Value.Blocks.lean ====
import proofs.«406629_j10943576670300_1_alg».proof.Proof.KI.G0.Frame
import Idealize.ShloMosaic.Lib.ValueIdx
import Idealize.ShloMosaic.Lib.Pipeline.Value

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem iblk0_0_apply (c : Dev nD) (t : Fin cfg0.N) (e' : Fin 8000) (e : Fin 3000000)
    (he : e.val = t.val / 147 % 375 * 8000 + e'.val) :
    (iblk0 V c 0 t : Vec F S8000x1 .i32) (ix2 e' 0) = (V c (Pipeline.arrRef spec0 0) : S3000000x1.Idx → Elt F .i32) (ix2 e 0) := by
  rw [iblk0_eq, View.read_apply]
  refine congrArg (V c (Pipeline.arrRef spec0 0) : S3000000x1.Idx → Elt F .i32) ?_
  have hi := index0_0 t
  funext a; apply Fin.ext
  match a with
  | ⟨0, _⟩ =>
    show win0_0.index t 0 * 8000 + 1 * e'.val = e.val
    rw [hi, he]; simp only [Matrix.cons_val_zero]; omega
  | ⟨1, _⟩ =>
    show win0_0.index t 1 * 1 + 1 * 0 = 0
    rw [hi]; rfl

theorem iblk0_1_apply (c : Dev nD) (t : Fin cfg0.N) (e' : Fin 8000) (e : Fin 3000000)
    (he : e.val = t.val / 147 % 375 * 8000 + e'.val) :
    (iblk0 V c 1 t : Vec F S8000x1 .f32) (ix2 e' 0) = (V c (Pipeline.arrRef spec0 1) : S3000000x1.Idx → Elt F .f32) (ix2 e 0) := by
  rw [iblk0_eq, View.read_apply]
  refine congrArg (V c (Pipeline.arrRef spec0 1) : S3000000x1.Idx → Elt F .f32) ?_
  have hi := index0_1 t
  funext a; apply Fin.ext
  match a with
  | ⟨0, _⟩ =>
    show win0_1.index t 0 * 8000 + 1 * e'.val = e.val
    rw [hi, he]; simp only [Matrix.cons_val_zero]; omega
  | ⟨1, _⟩ =>
    show win0_1.index t 1 * 1 + 1 * 0 = 0
    rw [hi]; rfl

end Cert.KernelIdeal.Hand
end
-- ==== Proof.KI.G0.Value.Acc.lean ====
import proofs.«406629_j10943576670300_1_alg».proof.Proof.KI.G0.Value.Pay
import proofs.«406629_j10943576670300_1_alg».proof.Proof.KI.G0.Value.Blocks
import proofs.«406629_j10943576670300_1_alg».proof.Proof.Spec

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev srcW0 (c : Dev nD) (e : Fin 3000000) : BitVec 32 := (V c (Pipeline.arrRef spec0 0) : IVec S3000000x1 32) (ix2 e 0)
abbrev wgt0 (c : Dev nD) (e : Fin 3000000) : EReal := (V c (Pipeline.arrRef spec0 1) : S3000000x1.Idx → EReal) (ix2 e 0)
abbrev tab0 (c : Dev nD) (n : Fin 150528) (d : Fin 64) : EReal := (V c (Pipeline.arrRef spec0 2) : S150528x64.Idx → EReal) (ix2 n d)

theorem acc0_step (c : Dev nD) (n : ℕ) (hn : n < cfg0.N) (e' : Fin 8000) (d : Fin 64) (e : Fin 3000000)
    (he : e.val = n / 147 % 375 * 8000 + e'.val) (prev : Vec Ideal S8000x64 .f32)
    (hprev : (prev (ix2 e' d) : EReal) = if h : (srcW0 V c e).toNat < n % 147 * 1024 then tab0 V c ⟨(srcW0 V c e).toNat, by omega⟩ d else 0) :
    (k0_pay2 (grid0.coords ⟨n, hn⟩) (iblk0 V c 0 ⟨n, hn⟩) (xs0 V c ⟨n, hn⟩) prev (ix2 e' d) : EReal)
      = if h : (srcW0 V c e).toNat < (n % 147 + 1) * 1024 then tab0 V c ⟨(srcW0 V c e).toNat, by omega⟩ d else 0 := by
  have hk1 : (grid0.coords ⟨n, hn⟩ 1).val = n % 147 := coords0_1 _
  refine (k0_pay2_apply (grid0.coords ⟨n, hn⟩) (by rw [hk1]; omega) _ _ _ e' d).trans ?_
  rw [iblk0_0_apply V c ⟨n, hn⟩ e' e he, hk1]
  exact gather_step (n % 147) (by omega) (srcW0 V c e).toNat (fun m => tab0 V c m d) (fun j => (xs0 V c ⟨n, hn⟩ (ix2 j d) : EReal))
    (fun j m hm => xs0_apply V c ⟨n, hn⟩ j d m (by rw [hk1]; exact hm)) _ hprev

theorem acc0_value (c : Dev nD) : ∀ (n : ℕ) (hn : n < cfg0.N) (e' : Fin 8000) (d : Fin 64) (e : Fin 3000000)
    (he : e.val = n / 147 % 375 * 8000 + e'.val),
    (((outsAt0 V c n hn).2 : Vec Ideal S8000x64 .f32) (ix2 e' d) : EReal)
      = if h : (srcW0 V c e).toNat < (n % 147 + 1) * 1024 then tab0 V c ⟨(srcW0 V c e).toNat, by omega⟩ d else 0 := by
  intro n
  induction n using Nat.strong_induction_on with
  | _ n ih =>
    intro hn e' d e he
    have hk1 : (grid0.coords ⟨n, hn⟩ 1).val = n % 147 := coords0_1 _
    by_cases hk : n % 147 = 0
    · have h := acc0_first V c ⟨n, hn⟩ (hk1.trans hk)
      refine (congrFun h (ix2 e' d)).trans ?_
      refine acc0_step V c n hn e' d e he _ ?_
      rw [k0_pay1_apply, dif_neg (by omega)]
    · have h := acc0_next V c ⟨n, hn⟩ (by rw [hk1]; exact hk)
      refine (congrFun h (ix2 e' d)).trans ?_
      refine acc0_step V c n hn e' d e he _ ?_
      have hn' : n - 1 < cfg0.N := by omega
      refine (ih (n - 1) (by omega) hn' e' d e (by rw [he]; congr 2; omega)).trans ?_
      by_cases hs : (srcW0 V c e).toNat < n % 147 * 1024
      · rw [dif_pos hs, dif_pos (by omega)]
      · rw [dif_neg hs, dif_neg (by omega)]

theorem out0_value (c : Dev nD) (n : ℕ) (hn : n < cfg0.N) (hk : n % 147 = 146) (e' : Fin 8000) (d : Fin 64) (e : Fin 3000000)
    (he : e.val = n / 147 % 375 * 8000 + e'.val) :
    (((outsAt0 V c n hn).1 : Vec Ideal S8000x64 .bf16) (ix2 e' d) : EReal)
      = Cert.Spec.msg 150528 (srcW0 V c) (wgt0 V c) (tab0 V c) e d := by
  have hk1 : (grid0.coords ⟨n, hn⟩ 1).val = n % 147 := coords0_1 _
  have h := out0_last V c ⟨n, hn⟩ (hk1.trans hk)
  refine (congrFun h (ix2 e' d)).trans ?_
  refine (k0_pay3_apply _ _ e' d).trans ?_
  rw [iblk0_1_apply V c ⟨n, hn⟩ e' e he]
  refine congrArg (fun z : EReal => z * wgt0 V c e) ?_
  refine (acc0_value V c n hn e' d e he).trans ?_
  by_cases hs : (srcW0 V c e).toNat < 150528
  · rw [dif_pos hs, dif_pos (by omega)]
  · rw [dif_neg hs, dif_neg (by omega)]

end Cert.KernelIdeal.Hand
end
-- ==== Proof.KI.G0.Value.lean ====
import proofs.«406629_j10943576670300_1_alg».proof.Proof.KI.G0.Value.Acc

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev msgs0 (c : Dev nD) : S3000000x64.Idx → EReal := fun i =>
  Cert.Spec.msg 150528 (srcW0 V c) (wgt0 V c) (tab0 V c) (i 0) (i 1)

theorem flushed0_3_eq (c : Dev nD) (t : Fin cfg0.N) (hf : (cfg0.win 3).flush t = true) :
    (dat0 V c).flushed 3 t = ((cfg0.win 3).blk t).view.read (Elt Ideal) (msgs0 V c) := by
  have hk : t.val % 147 = 146 := (flush0_3 t).mp hf
  have hN : t.val < 55125 := lt_of_lt_of_eq t.isLt N_0
  show (cfg0.win 3).cut (grid0.coords t) ((dat0 V c).after 3 t) = _
  rw [after0_3]
  funext y
  obtain ⟨e', d, rfl⟩ : ∃ (e' : Fin 8000) (d : Fin 64), y = ix2 e' d := ⟨y 0, y 1, eq_ix2 y⟩
  rw [View.read_apply]
  have hi := index0_3 t
  show (((outsAt0 V c t.val t.isLt).1 : Vec Ideal S8000x64 .bf16) (ix2 e' d) : EReal) = msgs0 V c (((cfg0.win 3).blk t).view.emb (ix2 e' d))
  rw [out0_value V c t.val t.isLt hk e' d ⟨t.val / 147 % 375 * 8000 + e'.val, by omega⟩ rfl]
  have h0 : (⟨t.val / 147 % 375 * 8000 + e'.val, by omega⟩ : Fin 3000000) = (((cfg0.win 3).blk t).view.emb (ix2 e' d) : S3000000x64.Idx) 0 := by
    apply Fin.ext
    show t.val / 147 % 375 * 8000 + e'.val = win0_3.index t 0 * 8000 + 1 * e'.val
    rw [hi]; simp only [Matrix.cons_val_zero]; omega
  have h1 : d = (((cfg0.win 3).blk t).view.emb (ix2 e' d) : S3000000x64.Idx) 1 := by
    apply Fin.ext
    show d.val = win0_3.index t 1 * 64 + 1 * d.val
    rw [hi]; simp only [Matrix.cons_val_one, Matrix.cons_val_zero]; omega
  exact congrArg₂ (Cert.Spec.msg 150528 (srcW0 V c) (wgt0 V c) (tab0 V c)) h0 h1

theorem cover0_3 (i : S3000000x64.Idx) :
    ∃ t : Fin cfg0.N, (cfg0.win 3).flush t = true ∧ i ∈ ((cfg0.win 3).blk t).view.set := by
  have h0 : (i 0).val < 3000000 := (i 0).isLt
  have h1 : (i 1).val < 64 := (i 1).isLt
  let t : Fin cfg0.N := ⟨(i 0).val / 8000 * 147 + 146, by rw [show cfg0.N = 55125 from N_0]; omega⟩
  have ht : t.val = (i 0).val / 8000 * 147 + 146 := rfl
  refine ⟨t, (flush0_3 t).mpr (by rw [ht]; omega), ?_⟩
  have hset : ((cfg0.win 3).blk t).view.set = (win0_3.rect t).set := View.set_slice_whole _ _
  rw [hset, Rect.mem_set_unit]
  have hi := index0_3 t
  intro a
  match a with
  | ⟨0, _⟩ =>
    show win0_3.index t 0 * 8000 ≤ (i 0).val ∧ (i 0).val < win0_3.index t 0 * 8000 + 8000
    rw [hi]; simp only [Matrix.cons_val_zero]; rw [ht]; omega
  | ⟨1, _⟩ =>
    show win0_3.index t 1 * 64 ≤ (i 1).val ∧ (i 1).val < win0_3.index t 1 * 64 + 64
    rw [hi]; simp only [Matrix.cons_val_one, Matrix.cons_val_zero]; omega

theorem final0_3 (c : Dev nD) : (dat0 V c).arrAt 3 cfg0.N = msgs0 V c :=
  (dat0 V c).arrAt_eq_of_cover 3 (msgs0 V c) (flushed0_3_eq V c) (cover0_3)

theorem gather0_value (c : Dev nD) (e : Fin 3000000) (d : Fin 64) :
    ((dat0 (F := Ideal) V c).arrAt 3 cfg0.N : S3000000x64.Idx → EReal) (ix2 e d)
      = Cert.Spec.msg 150528 (fun e => (V c (Pipeline.arrRef spec0 0) : IVec S3000000x1 32) (ix2 e 0)) (fun e => (V c (Pipeline.arrRef spec0 1) : S3000000x1.Idx → EReal) (ix2 e 0))
          (fun n d => (V c (Pipeline.arrRef spec0 2) : S150528x64.Idx → EReal) (ix2 n d)) e d := by
  rw [final0_3]

end Cert.KernelIdeal.Hand
end
-- ==== Proof.KI.S1.Value.PayDot.lean ====
import proofs.«406629_j10943576670300_1_alg».proof.Proof.Gen.KernelIdeal.Skeleton
import Idealize.ShloMosaic.PureOps.Ideal.Laws
import Idealize.ShloMosaic.Lib.ValueIdx

noncomputable section
namespace Cert.KernelIdeal.Hand
open Cert.KernelIdeal Cert.KernelIdeal.Gen
open Idealize.ShloMosaic Idealize.ShloMosaic.ValueIdx

theorem dotS_rank : dot_S8000x1024_S8000x64_S1024x64_0_0_1_1_n_n.contr.rank = 1 := by decide

theorem dotS_size : dot_S8000x1024_S8000x64_S1024x64_0_0_1_1_n_n.contr.size ⟨0, by decide⟩ = 8000 := by decide

theorem lhs_dot_S8000x1024_S8000x64_S1024x64_0_0_1_1_n_n_0 (j : S1024x64.Idx)
    (k : dot_S8000x1024_S8000x64_S1024x64_0_0_1_1_n_n.contr.Idx) :
    (dot_S8000x1024_S8000x64_S1024x64_0_0_1_1_n_n.lhsIdx j k 0).val = (k ⟨0, by decide⟩).val :=
  DotDims.lhsIdx_val_of_single (d := dot_S8000x1024_S8000x64_S1024x64_0_0_1_1_n_n) (cl := 0) rfl j k

theorem lhs_dot_S8000x1024_S8000x64_S1024x64_0_0_1_1_n_n_1 (j : S1024x64.Idx)
    (k : dot_S8000x1024_S8000x64_S1024x64_0_0_1_1_n_n.contr.Idx) :
    (dot_S8000x1024_S8000x64_S1024x64_0_0_1_1_n_n.lhsIdx j k 1).val = (j 0).val := by
  unfold DotDims.lhsIdx
  rw [dif_neg (show ¬(1 : Fin S8000x1024.rank) ∈ dot_S8000x1024_S8000x64_S1024x64_0_0_1_1_n_n.lhsBatch by decide),
    dif_pos (show (1 : Fin S8000x1024.rank) ∈ dot_S8000x1024_S8000x64_S1024x64_0_0_1_1_n_n.lhsNonContracting by decide)]
  rfl

theorem rhs_dot_S8000x1024_S8000x64_S1024x64_0_0_1_1_n_n_0 (j : S1024x64.Idx)
    (k : dot_S8000x1024_S8000x64_S1024x64_0_0_1_1_n_n.contr.Idx) :
    (dot_S8000x1024_S8000x64_S1024x64_0_0_1_1_n_n.rhsIdx j k 0).val = (k ⟨0, by decide⟩).val :=
  DotDims.rhsIdx_val_of_single (d := dot_S8000x1024_S8000x64_S1024x64_0_0_1_1_n_n) (cr := 0) rfl j k

theorem rhs_dot_S8000x1024_S8000x64_S1024x64_0_0_1_1_n_n_1 (j : S1024x64.Idx)
    (k : dot_S8000x1024_S8000x64_S1024x64_0_0_1_1_n_n.contr.Idx) :
    (dot_S8000x1024_S8000x64_S1024x64_0_0_1_1_n_n.rhsIdx j k 1).val = (j 1).val := by
  unfold DotDims.rhsIdx
  rw [dif_neg (show ¬(1 : Fin S8000x64.rank) ∈ dot_S8000x1024_S8000x64_S1024x64_0_0_1_1_n_n.rhsBatch by decide),
    dif_pos (show (1 : Fin S8000x64.rank) ∈ dot_S8000x1024_S8000x64_S1024x64_0_0_1_1_n_n.rhsNonContracting by decide)]
  rfl

theorem matmulS_zero_apply (L : FVec Ideal S8000x1024 .bf16) (R : FVec Ideal S8000x64 .bf16) (n : Fin 1024) (d : Fin 64) :
    (matmul dot_S8000x1024_S8000x64_S1024x64_0_0_1_1_n_n none L R (constant (F := Ideal) S1024x64 .f32 0x00000000#32)
        : FVec Ideal S1024x64 .f32) (ix2 n d)
      = ∑ e : Fin 8000, L (ix2 e n) * R (ix2 e d) := by
  simp only [matmul]
  rw [Ideal.matmul_constant_zero_apply,
    ← Equiv.sum_comp (contrEquiv1 dot_S8000x1024_S8000x64_S1024x64_0_0_1_1_n_n 8000 dotS_rank dotS_size).symm]
  refine Finset.sum_congr rfl fun e _ => ?_
  have hk := contrEquiv1_symm_val dot_S8000x1024_S8000x64_S1024x64_0_0_1_1_n_n 8000 dotS_rank dotS_size e
  congr 1
  · refine congrArg L (funext fun a => Fin.ext ?_)
    match a with
    | ⟨0, _⟩ => exact (lhs_dot_S8000x1024_S8000x64_S1024x64_0_0_1_1_n_n_0 _ _).trans hk
    | ⟨1, _⟩ => exact lhs_dot_S8000x1024_S8000x64_S1024x64_0_0_1_1_n_n_1 _ _
  · refine congrArg R (funext fun a => Fin.ext ?_)
    match a with
    | ⟨0, _⟩ => exact (rhs_dot_S8000x1024_S8000x64_S1024x64_0_0_1_1_n_n_0 _ _).trans hk
    | ⟨1, _⟩ => exact rhs_dot_S8000x1024_S8000x64_S1024x64_0_0_1_1_n_n_1 _ _

end Cert.KernelIdeal.Hand
end
-- ==== Proof.KI.S1.Value.Pay.lean ====
import proofs.«406629_j10943576670300_1_alg».proof.Proof.KI.S1.Value.PayDot
import Idealize.ShloMosaic.Lib.KernelVsHost
import Idealize.ShloMosaic.Lib.Pipeline.Value

noncomputable section
namespace Cert.KernelIdeal.Hand
open Cert.KernelIdeal Cert.KernelIdeal.Gen
open Idealize.ShloMosaic Idealize.ShloMosaic.ValueIdx

theorem onehot_word (a b : BitVec 32) :
    (FloatOps.sitofp .f32 ((IntOp.cmpi .eq a b).setWidth 32) : Ideal .f32) = if a.toNat = b.toNat then 1 else 0 := by
  show ((((IntOp.cmpi .eq a b).setWidth 32).toInt : ℝ) : EReal) = _
  rw [toInt_setWidth_bit]
  by_cases h : a = b
  · subst h
    simp [IntOp.cmpi]
  · have h' : ¬a.toNat = b.toNat := fun e => h (BitVec.eq_of_toNat_eq e)
    rw [if_neg h']
    simp [IntOp.cmpi, h]

theorem tile_word (i0 : ℕ) (hi : i0 < 147) (n : ℕ) (hn : n < 1024) :
    (IntOp.addi (Scalar.muli (BitVec.ofNat 32 i0) 1024#32) (BitVec.ofNat 32 (0 * 1024 + n))).toNat = i0 * 1024 + n := by
  simp only [IntOp.addi, Scalar.muli, IntOp.muli, BitVec.toNat_add, BitVec.toNat_mul, BitVec.toNat_ofNat]
  omega

theorem k1_pay1_apply (j : S1024x64.Idx) : (k1_pay1 (F := Ideal)) j = 0 := by
  unfold k1_pay1
  refine (congrFun (shapeCast_self _ _) j).trans ?_
  exact Ideal.ofBits_zero_f32

theorem spread_edges (x : IVec S8000x1 32) (e : Fin 8000) (n : Fin 1024) :
    broadcastTo S8000x1024 x broadcasts_S8000x1_S8000x1024 (ix2 e n) = x (ix2 e 0) :=
  broadcastTo_apply x broadcasts_S8000x1_S8000x1024 (ix2 e n) (ix2 e 0) fun a => by
    match a with
    | ⟨0, _⟩ => rfl
    | ⟨1, _⟩ => rfl

theorem spread_nodes (x : IVec S1x1024 32) (e : Fin 8000) (n : Fin 1024) :
    broadcastTo S8000x1024 x broadcasts_S1x1024_S8000x1024 (ix2 e n) = x (ix2 0 n) :=
  broadcastTo_apply x broadcasts_S1x1024_S8000x1024 (ix2 e n) (ix2 0 n) fun a => by
    match a with
    | ⟨0, _⟩ => rfl
    | ⟨1, _⟩ => rfl

theorem k1_pay2_apply (i : grid1.Coords) (dst : Vec Ideal S8000x1 .i32) (msg : Vec Ideal S8000x64 .bf16)
    (acc : Vec Ideal S1024x64 .f32) (n : Fin 1024) (d : Fin 64) :
    k1_pay2 i dst msg acc (ix2 n d)
      = acc (ix2 n d) + ∑ e : Fin 8000, if (dst (ix2 e 0)).toNat = (i 0).val * 1024 + n.val then msg (ix2 e d) else 0 := by
  unfold k1_pay2
  dsimp only
  refine (congrFun (shapeCast_self _ _) (ix2 n d)).trans ?_
  refine congrArg (fun v => acc (ix2 n d) + v) ?_
  refine (matmulS_zero_apply _ _ n d).trans ?_
  refine Finset.sum_congr rfl fun e _ => ?_
  have hR : shapeCast S8000x64 msg shapeCasts_S8000x64_S8000x64 (ix2 e d) = msg (ix2 e d) :=
    congrFun (shapeCast_self msg _) _
  have hd : broadcastTo S8000x1024 (shapeCast S8000x1 dst shapeCasts_S8000x1_S8000x1) broadcasts_S8000x1_S8000x1024 (ix2 e n)
      = dst (ix2 e 0) :=
    (spread_edges _ e n).trans (congrFun (shapeCast_self dst _) _)
  have hn := spread_nodes (addi (broadcast S1x1024 (Scalar.muli (BitVec.ofNat 32 (i 0).val) 1024#32))
      (iota Kind.tc S1x1024 32 [1] iota_S1x1024_d1_w32)) e n
  have hw : (addi (broadcast S1x1024 (Scalar.muli (BitVec.ofNat 32 (i 0).val) 1024#32))
      (iota Kind.tc S1x1024 32 [1] iota_S1x1024_d1_w32)) (ix2 0 n)
      = IntOp.addi (Scalar.muli (BitVec.ofNat 32 (i 0).val) 1024#32) (BitVec.ofNat 32 (0 * 1024 + n.val)) := rfl
  show (FloatOps.sitofp (F := Ideal) .f32 ((IntOp.cmpi .eq
        (broadcastTo S8000x1024 (shapeCast S8000x1 dst shapeCasts_S8000x1_S8000x1) broadcasts_S8000x1_S8000x1024 (ix2 e n))
        (broadcastTo S8000x1024 (addi (broadcast S1x1024 (Scalar.muli (BitVec.ofNat 32 (i 0).val) 1024#32))
          (iota Kind.tc S1x1024 32 [1] iota_S1x1024_d1_w32)) broadcasts_S1x1024_S8000x1024 (ix2 e n))).setWidth 32) : EReal)
      * shapeCast S8000x64 msg shapeCasts_S8000x64_S8000x64 (ix2 e d) = _
  rw [hR, hd, hn, hw, onehot_word, tile_word (i 0).val (i 0).isLt n.val n.isLt]
  by_cases h : (dst (ix2 e 0)).toNat = (i 0).val * 1024 + n.val
  · rw [if_pos h, if_pos h, one_mul]
  · rw [if_neg h, if_neg h, zero_mul]

theorem k1_pay3_apply (acc ego : Vec Ideal S1024x64 .f32) (j : S1024x64.Idx) :
    k1_pay3 acc ego j = acc j + Ideal.ofBits .f32 0x3F000000#32 * ego j := by
  unfold k1_pay3
  exact congrArg (fun v => acc j + Ideal.ofBits .f32 0x3F000000#32 * v) (congrFun (shapeCast_self ego _) j)

end Cert.KernelIdeal.Hand
end
-- ==== Proof.KI.S1.Value.Tiles.lean ====
import Mathlib.Data.Fintype.BigOperators
import Mathlib.Logic.Equiv.Fin.Basic
import Mathlib.Algebra.BigOperators.Group.Finset.Piecewise

noncomputable section
namespace Cert.KernelIdeal.Hand

variable {M : Type*} [AddCommMonoid M]

def tileEdge (a : Fin 375) (b : Fin 8000) : Fin 3000000 := ⟨a.val * 8000 + b.val, by have := a.isLt; have := b.isLt; omega⟩

theorem tileEdge_val (a : Fin 375) (b : Fin 8000) : (tileEdge a b).val = a.val * 8000 + b.val := rfl

theorem sum_tiles (g : Fin 3000000 → M) : ∑ e : Fin 3000000, g e = ∑ a : Fin 375, ∑ b : Fin 8000, g (tileEdge a b) := by
  have h := Equiv.sum_comp (finProdFinEquiv : Fin 375 × Fin 8000 ≃ Fin (375 * 8000)) g
  rw [← h, Fintype.sum_prod_type]
  refine Finset.sum_congr rfl fun a _ => Finset.sum_congr rfl fun b _ => congrArg g (Fin.ext ?_)
  show b.val + 8000 * a.val = a.val * 8000 + b.val
  omega

def upto (T : Fin 375 → M) (k : ℕ) : M := ∑ a : Fin 375, if a.val < k then T a else 0

theorem upto_zero (T : Fin 375 → M) : upto T 0 = 0 := by
  unfold upto
  exact Finset.sum_eq_zero fun a _ => if_neg (Nat.not_lt_zero _)

theorem upto_succ (T : Fin 375 → M) (k : ℕ) (h : k < 375) : upto T (k + 1) = upto T k + T ⟨k, h⟩ := by
  unfold upto
  have hs : ∀ a : Fin 375, (if a.val < k + 1 then T a else 0)
      = (if a.val < k then T a else 0) + (if a = ⟨k, h⟩ then T a else 0) := by
    intro a
    by_cases h1 : a.val < k
    · have h2 : a ≠ ⟨k, h⟩ := fun e => by rw [e] at h1; exact lt_irrefl _ h1
      rw [if_pos (Nat.lt_succ_of_lt h1), if_pos h1, if_neg h2, add_zero]
    · by_cases h2 : a = ⟨k, h⟩
      · subst h2
        rw [if_pos (Nat.lt_succ_self _), if_neg (lt_irrefl _), if_pos rfl, zero_add]
      · have h3 : ¬a.val < k + 1 := fun h3 => h2 (Fin.ext (by show a.val = k; omega))
        rw [if_neg h3, if_neg h1, if_neg h2, add_zero]
  rw [Finset.sum_congr rfl fun a _ => hs a, Finset.sum_add_distrib, Finset.sum_ite_eq', if_pos (Finset.mem_univ _)]

theorem upto_all (T : Fin 375 → M) : upto T 375 = ∑ a : Fin 375, T a := by
  unfold upto
  exact Finset.sum_congr rfl fun a _ => if_pos a.isLt

end Cert.KernelIdeal.Hand
end
-- ==== Proof.KI.S1.Value.Fold.lean ====
import proofs.«406629_j10943576670300_1_alg».proof.Proof.KI.S1.Value.Pay
import proofs.«406629_j10943576670300_1_alg».proof.Proof.KI.S1.Value.Tiles
import proofs.«406629_j10943576670300_1_alg».proof.Proof.Spec

noncomputable section
namespace Cert.KernelIdeal.Hand
open Cert.KernelIdeal Cert.KernelIdeal.Gen
open Idealize.ShloMosaic Idealize.ShloMosaic.ValueIdx

variable (dstA : Fin 3000000 → BitVec 32) (msgA : Fin 3000000 → Fin 64 → EReal)

def tileSum (node : ℕ) (d : Fin 64) (a : Fin 375) : EReal :=
  ∑ b : Fin 8000, if (dstA (tileEdge a b)).toNat = node then msgA (tileEdge a b) d else 0

theorem agg_eq_upto (node : Fin 150528) (d : Fin 64) :
    Cert.Spec.agg 150528 dstA msgA node d = upto (tileSum dstA msgA node.val d) 375 := by
  rw [upto_all]
  unfold Cert.Spec.agg tileSum
  exact sum_tiles (fun e => if (dstA e).toNat = node.val then msgA e d else 0)

theorem pay2_step (i : grid1.Coords) (a : Fin 375) (dstB : Vec Ideal S8000x1 .i32) (msgB : Vec Ideal S8000x64 .bf16)
    (acc : Vec Ideal S1024x64 .f32)
    (hdst : ∀ b : Fin 8000, dstB (ix2 b 0) = dstA (tileEdge a b))
    (hmsg : ∀ (b : Fin 8000) (d : Fin 64), msgB (ix2 b d) = msgA (tileEdge a b) d)
    (n : Fin 1024) (d : Fin 64)
    (hacc : acc (ix2 n d) = upto (tileSum dstA msgA ((i 0).val * 1024 + n.val) d) a.val) :
    k1_pay2 i dstB msgB acc (ix2 n d) = upto (tileSum dstA msgA ((i 0).val * 1024 + n.val) d) (a.val + 1) := by
  rw [k1_pay2_apply, hacc, upto_succ _ a.val a.isLt]
  refine congrArg (fun v => upto (tileSum dstA msgA ((i 0).val * 1024 + n.val) d) a.val + v) ?_
  show _ = tileSum dstA msgA ((i 0).val * 1024 + n.val) d a
  unfold tileSum
  exact Finset.sum_congr rfl fun b _ => by rw [hdst b, hmsg b d]

theorem pay1_start (node : ℕ) (n : Fin 1024) (d : Fin 64) :
    (k1_pay1 (F := Ideal)) (ix2 n d) = upto (tileSum dstA msgA node d) 0 := by
  rw [k1_pay1_apply, upto_zero]

theorem pay3_out (acc ego : Vec Ideal S1024x64 .f32) (j : S1024x64.Idx) :
    k1_pay3 acc ego j = acc j + Cert.Spec.half * ego j :=
  k1_pay3_apply acc ego j

end Cert.KernelIdeal.Hand
end
-- ==== Proof.KI.S1.Value.lean ====
import proofs.«406629_j10943576670300_1_alg».proof.Proof.KI.S1.Frame
import proofs.«406629_j10943576670300_1_alg».proof.Proof.KI.S1.Value.Fold
import Idealize.ShloMosaic.Lib.Pipeline.Value

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev dstArr1 (c : Dev nD) : Fin 3000000 → BitVec 32 := fun e => (V c (Pipeline.arrRef spec1 0) : IVec S3000000x1 32) (ix2 e 0)
abbrev msgArr1 (c : Dev nD) : Fin 3000000 → Fin 64 → EReal := fun e d => (V c (Pipeline.arrRef spec1 1) : S3000000x64.Idx → EReal) (ix2 e d)
abbrev egoArr1 (c : Dev nD) : Fin 150528 → Fin 64 → EReal := fun n d => (V c (Pipeline.arrRef spec1 2) : S150528x64.Idx → EReal) (ix2 n d)

abbrev dstBlk1 (c : Dev nD) (t : Fin cfg1.N) : Vec Ideal S8000x1 .i32 := iblk1 V c 0 t
abbrev msgBlk1 (c : Dev nD) (t : Fin cfg1.N) : Vec Ideal S8000x64 .bf16 := iblk1 V c 1 t
abbrev egoBlk1 (c : Dev nD) (t : Fin cfg1.N) : Vec Ideal S1024x64 .f32 := iblk1 V c 2 t

theorem dstBlk1_apply (c : Dev nD) (t : Fin cfg1.N) (a : Fin 375) (ha : a.val = t.val % 375) (b : Fin 8000) :
    dstBlk1 V c t (ix2 b 0) = dstArr1 V c (tileEdge a b) := by
  show iblk1 V c 0 t (ix2 b 0) = _
  unfold iblk1
  rw [View.read_apply]
  show (V c (Pipeline.arrRef spec1 0) : IVec S3000000x1 32) (((cfg1.win 0).blk t).view.emb (ix2 b 0))
    = (V c (Pipeline.arrRef spec1 0) : IVec S3000000x1 32) (ix2 (tileEdge a b) 0)
  refine congrArg _ (funext fun x => Fin.ext ?_)
  match x with
  | ⟨0, _⟩ =>
    show win1_0.index t 0 * 8000 + 1 * b.val = a.val * 8000 + b.val
    rw [congrFun (GenP.index1_0 t) 0, ha]
    show t.val % 375 * 8000 + 1 * b.val = _
    omega
  | ⟨1, _⟩ =>
    show win1_0.index t 1 * 1 + 1 * 0 = 0
    rw [congrFun (GenP.index1_0 t) 1]
    rfl

theorem msgBlk1_apply (c : Dev nD) (t : Fin cfg1.N) (a : Fin 375) (ha : a.val = t.val % 375) (b : Fin 8000) (d : Fin 64) :
    msgBlk1 V c t (ix2 b d) = msgArr1 V c (tileEdge a b) d := by
  show iblk1 V c 1 t (ix2 b d) = _
  unfold iblk1
  rw [View.read_apply]
  show (V c (Pipeline.arrRef spec1 1) : S3000000x64.Idx → EReal) (((cfg1.win 1).blk t).view.emb (ix2 b d))
    = (V c (Pipeline.arrRef spec1 1) : S3000000x64.Idx → EReal) (ix2 (tileEdge a b) d)
  refine congrArg _ (funext fun x => Fin.ext ?_)
  match x with
  | ⟨0, _⟩ =>
    show win1_1.index t 0 * 8000 + 1 * b.val = a.val * 8000 + b.val
    rw [congrFun (GenP.index1_1 t) 0, ha]
    show t.val % 375 * 8000 + 1 * b.val = _
    omega
  | ⟨1, _⟩ =>
    show win1_1.index t 1 * 64 + 1 * d.val = d.val
    rw [congrFun (GenP.index1_1 t) 1]
    show 0 * 64 + 1 * d.val = d.val
    omega

theorem egoBlk1_apply (c : Dev nD) (t : Fin cfg1.N) (n : Fin 1024) (d : Fin 64) (N : Fin 150528)
    (hN : N.val = t.val / 375 * 1024 + n.val) :
    egoBlk1 V c t (ix2 n d) = egoArr1 V c N d := by
  have hT : t.val < 55125 := lt_of_lt_of_eq t.isLt (show cfg1.N = 55125 from N_1)
  show iblk1 V c 2 t (ix2 n d) = _
  unfold iblk1
  rw [View.read_apply]
  show (V c (Pipeline.arrRef spec1 2) : S150528x64.Idx → EReal) (((cfg1.win 2).blk t).view.emb (ix2 n d))
    = (V c (Pipeline.arrRef spec1 2) : S150528x64.Idx → EReal) (ix2 N d)
  refine congrArg _ (funext fun x => Fin.ext ?_)
  match x with
  | ⟨0, _⟩ =>
    show win1_2.index t 0 * 1024 + 1 * n.val = N.val
    rw [congrFun (GenP.index1_2 t) 0, hN]
    show t.val / 375 % 147 * 1024 + 1 * n.val = _
    have : t.val / 375 % 147 = t.val / 375 := Nat.mod_eq_of_lt (by omega)
    omega
  | ⟨1, _⟩ =>
    show win1_2.index t 1 * 64 + 1 * d.val = d.val
    rw [congrFun (GenP.index1_2 t) 1]
    show 0 * 64 + 1 * d.val = d.val
    omega

theorem acc1_step (c : Dev nD) (t : Fin cfg1.N) (prev : Vec Ideal S1024x64 .f32) (n : Fin 1024) (d : Fin 64)
    (hprev : prev (ix2 n d) = upto (tileSum (dstArr1 V c) (msgArr1 V c) (t.val / 375 * 1024 + n.val) d) (t.val % 375)) :
    k1_pay2 (grid1.coords t) (iblk1 V c 0 t) (iblk1 V c 1 t) prev (ix2 n d)
      = upto (tileSum (dstArr1 V c) (msgArr1 V c) (t.val / 375 * 1024 + n.val) d) (t.val % 375 + 1) := by
  have hi : (grid1.coords t 0).val = t.val / 375 := coords1_0 t
  have s := pay2_step (dstArr1 V c) (msgArr1 V c) (grid1.coords t) ⟨t.val % 375, Nat.mod_lt _ (by decide)⟩
    (dstBlk1 V c t) (msgBlk1 V c t) prev
    (fun b => dstBlk1_apply V c t ⟨t.val % 375, Nat.mod_lt _ (by decide)⟩ rfl b)
    (fun b d => msgBlk1_apply V c t ⟨t.val % 375, Nat.mod_lt _ (by decide)⟩ rfl b d) n d
    (by rw [hi]; exact hprev)
  rw [hi] at s
  exact s

theorem acc1_eq (c : Dev nD) (m : ℕ) : ∀ (h : m < cfg1.N) (n : Fin 1024) (d : Fin 64),
    (outsAt1 V c m h).2 (ix2 n d)
      = upto (tileSum (dstArr1 V c) (msgArr1 V c) (m / 375 * 1024 + n.val) d) (m % 375 + 1) := by
  induction m using Nat.strong_induction_on with
  | _ m ih =>
    intro h n d
    by_cases h0 : m % 375 = 0
    · have hk : (grid1.coords (⟨m, h⟩ : Fin cfg1.N) 1).val = 0 := (coords1_1 ⟨m, h⟩).trans h0
      refine (congrFun (acc1_first V c ⟨m, h⟩ hk) (ix2 n d)).trans ?_
      refine acc1_step V c ⟨m, h⟩ (k1_pay1 (F := Ideal)) n d ?_
      show (k1_pay1 (F := Ideal)) (ix2 n d) = upto _ (m % 375)
      rw [h0]
      exact pay1_start (dstArr1 V c) (msgArr1 V c) (m / 375 * 1024 + n.val) n d
    · have hk : (grid1.coords (⟨m, h⟩ : Fin cfg1.N) 1).val ≠ 0 := fun e => h0 ((coords1_1 ⟨m, h⟩).symm.trans e)
      refine (congrFun (acc1_next V c ⟨m, h⟩ hk) (ix2 n d)).trans ?_
      refine acc1_step V c ⟨m, h⟩ _ n d ?_
      have e := ih (m - 1) (by omega) (by omega) n d
      have e1 : (m - 1) / 375 = m / 375 := by omega
      have e2 : (m - 1) % 375 + 1 = m % 375 := by omega
      rw [e1, e2] at e
      exact e

theorem out1_eq (c : Dev nD) (t : Fin cfg1.N) (hk : t.val % 375 = 374) (n : Fin 1024) (d : Fin 64) (N : Fin 150528)
    (hN : N.val = t.val / 375 * 1024 + n.val) :
    (outsAt1 V c t.val t.isLt).1 (ix2 n d)
      = Cert.Spec.agg 150528 (dstArr1 V c) (msgArr1 V c) N d + Cert.Spec.half * egoArr1 V c N d := by
  have hk' : (grid1.coords t 1).val = 374 := (coords1_1 t).trans hk
  refine (congrFun (out1_last V c t hk') (ix2 n d)).trans ?_
  refine (pay3_out (outsAt1 V c t.val t.isLt).2 (iblk1 V c 2 t) (ix2 n d)).trans ?_
  have ha : (outsAt1 V c t.val t.isLt).2 (ix2 n d) = Cert.Spec.agg 150528 (dstArr1 V c) (msgArr1 V c) N d := by
    rw [acc1_eq V c t.val t.isLt n d, agg_eq_upto, hk, hN]
  have he : iblk1 V c 2 t (ix2 n d) = egoArr1 V c N d := egoBlk1_apply V c t n d N hN
  rw [ha, he]

abbrev res1 (c : Dev nD) : S150528x64.Idx → EReal := fun j =>
  Cert.Spec.agg 150528 (dstArr1 V c) (msgArr1 V c) (j 0) (j 1) + Cert.Spec.half * egoArr1 V c (j 0) (j 1)

theorem cut1_3_eq (t : Fin cfg1.N) (X : Vec Ideal S1024x64 .f32) (G : S150528x64.Idx → EReal)
    (hX : ∀ (n : Fin 1024) (d : Fin 64) (N : Fin 150528), N.val = t.val / 375 * 1024 + n.val → X (ix2 n d) = G (ix2 N d)) :
    (cfg1.win 3).cut (grid1.coords t) X = ((cfg1.win 3).blk t).view.read (Elt Ideal) G := by
  have hT : t.val < 55125 := lt_of_lt_of_eq t.isLt (show cfg1.N = 55125 from N_1)
  funext j
  obtain ⟨n, d, rfl⟩ : ∃ (n : Fin 1024) (d : Fin 64), j = ix2 n d := ⟨j 0, j 1, eq_ix2 j⟩
  rw [View.read_apply]
  have hemb : ((cfg1.win 3).blk t).view.emb (ix2 n d)
      = ix2 (⟨t.val / 375 * 1024 + n.val, by have := n.isLt; omega⟩ : Fin 150528) d := by
    funext x
    apply Fin.ext
    match x with
    | ⟨0, _⟩ =>
      show win1_3.index t 0 * 1024 + 1 * n.val = t.val / 375 * 1024 + n.val
      rw [congrFun (GenP.index1_3 t) 0]
      show t.val / 375 % 147 * 1024 + 1 * n.val = _
      have : t.val / 375 % 147 = t.val / 375 := Nat.mod_eq_of_lt (by omega)
      omega
    | ⟨1, _⟩ =>
      show win1_3.index t 1 * 64 + 1 * d.val = d.val
      rw [congrFun (GenP.index1_3 t) 1]
      show 0 * 64 + 1 * d.val = d.val
      omega
  show X (ix2 n d) = G (((cfg1.win 3).blk t).view.emb (ix2 n d))
  rw [hemb]
  exact hX n d _ rfl

theorem flushed1_3_eq (c : Dev nD) (t : Fin cfg1.N) (hf : (cfg1.win 3).flush t = true) :
    (dat1 V c).flushed 3 t = ((cfg1.win 3).blk t).view.read (Elt Ideal) (res1 V c) := by
  have hk : t.val % 375 = 374 := (GenP.flush1_3 t).mp hf
  show (cfg1.win 3).cut (grid1.coords t) ((dat1 V c).after 3 t) = _
  rw [after1_3]
  exact cut1_3_eq t (outsAt1 V c t.val t.isLt).1 (res1 V c) (fun n d N hN => out1_eq V c t hk n d N hN)

theorem cover1_3 (i : S150528x64.Idx) :
    ∃ t : Fin cfg1.N, (cfg1.win 3).flush t = true ∧ i ∈ ((cfg1.win 3).blk t).view.set := by
  have h0 : (i 0).val < 150528 := (i 0).isLt
  have h1 : (i 1).val < 64 := (i 1).isLt
  have hN : cfg1.N = 55125 := N_1
  obtain ⟨t, ht⟩ : ∃ t : Fin cfg1.N, t.val = (i 0).val / 1024 * 375 + 374 :=
    ⟨⟨(i 0).val / 1024 * 375 + 374, by rw [hN]; omega⟩, rfl⟩
  refine ⟨t, (GenP.flush1_3 t).mpr (by rw [ht]; omega), ?_⟩
  have hset : ((cfg1.win 3).blk t).view.set = (win1_3.rect t).set := View.set_slice_whole _ _
  rw [hset, Rect.mem_set_unit]
  have hi0 : win1_3.index t 0 = t.val / 375 % 147 := congrFun (GenP.index1_3 t) 0
  have hi1 : win1_3.index t 1 = 0 := congrFun (GenP.index1_3 t) 1
  intro a
  match a with
  | ⟨0, _⟩ =>
    show win1_3.index t 0 * 1024 ≤ (i 0).val ∧ (i 0).val < win1_3.index t 0 * 1024 + 1024
    rw [hi0, ht]
    omega
  | ⟨1, _⟩ =>
    show win1_3.index t 1 * 64 ≤ (i 1).val ∧ (i 1).val < win1_3.index t 1 * 64 + 64
    rw [hi1]
    omega

theorem scatter1_array (c : Dev nD) : (dat1 V c).arrAt 3 cfg1.N = res1 V c :=
  (dat1 V c).arrAt_eq_of_cover 3 (res1 V c) (flushed1_3_eq V c) cover1_3

theorem scatter1_value (c : Dev nD) (n : Fin 150528) (d : Fin 64) :
    ((dat1 (F := Ideal) V c).arrAt 3 cfg1.N : S150528x64.Idx → EReal) (ix2 n d)
      = Cert.Spec.agg 150528 (fun e => (V c (Pipeline.arrRef spec1 0) : IVec S3000000x1 32) (ix2 e 0))
          (fun e d => (V c (Pipeline.arrRef spec1 1) : S3000000x64.Idx → EReal) (ix2 e d)) n d
        + Cert.Spec.half * (V c (Pipeline.arrRef spec1 2) : S150528x64.Idx → EReal) (ix2 n d) :=
  congrFun (scatter1_array V c) (ix2 n d)

end Cert.KernelIdeal.Hand
end
-- ==== Proof.KI.G2.Value.Blocks.lean ====
import proofs.«406629_j10943576670300_1_alg».proof.Proof.KI.G2.Frame
import Idealize.ShloMosaic.Lib.ValueIdx
import Idealize.ShloMosaic.Lib.Pipeline.Value

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem iblk2_0_apply (c : Dev nD) (t : Fin cfg2.N) (e' : Fin 8000) (e : Fin 3000000)
    (he : e.val = t.val / 147 % 375 * 8000 + e'.val) :
    (iblk2 V c 0 t : Vec F S8000x1 .i32) (ix2 e' 0) = (V c (Pipeline.arrRef spec2 0) : S3000000x1.Idx → Elt F .i32) (ix2 e 0) := by
  rw [iblk2_eq, View.read_apply]
  refine congrArg (V c (Pipeline.arrRef spec2 0) : S3000000x1.Idx → Elt F .i32) ?_
  have hi := index2_0 t
  funext a; apply Fin.ext
  match a with
  | ⟨0, _⟩ =>
    show win2_0.index t 0 * 8000 + 1 * e'.val = e.val
    rw [hi, he]; simp only [Matrix.cons_val_zero]; omega
  | ⟨1, _⟩ =>
    show win2_0.index t 1 * 1 + 1 * 0 = 0
    rw [hi]; rfl

theorem iblk2_1_apply (c : Dev nD) (t : Fin cfg2.N) (e' : Fin 8000) (e : Fin 3000000)
    (he : e.val = t.val / 147 % 375 * 8000 + e'.val) :
    (iblk2 V c 1 t : Vec F S8000x1 .f32) (ix2 e' 0) = (V c (Pipeline.arrRef spec2 1) : S3000000x1.Idx → Elt F .f32) (ix2 e 0) := by
  rw [iblk2_eq, View.read_apply]
  refine congrArg (V c (Pipeline.arrRef spec2 1) : S3000000x1.Idx → Elt F .f32) ?_
  have hi := index2_1 t
  funext a; apply Fin.ext
  match a with
  | ⟨0, _⟩ =>
    show win2_1.index t 0 * 8000 + 1 * e'.val = e.val
    rw [hi, he]; simp only [Matrix.cons_val_zero]; omega
  | ⟨1, _⟩ =>
    show win2_1.index t 1 * 1 + 1 * 0 = 0
    rw [hi]; rfl

end Cert.KernelIdeal.Hand
end
-- ==== Proof.KI.G2.Value.Acc.lean ====
import proofs.«406629_j10943576670300_1_alg».proof.Proof.KI.G0.Value.Pay
import proofs.«406629_j10943576670300_1_alg».proof.Proof.KI.G2.Value.Blocks
import proofs.«406629_j10943576670300_1_alg».proof.Proof.Spec

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev srcW2 (c : Dev nD) (e : Fin 3000000) : BitVec 32 := (V c (Pipeline.arrRef spec2 0) : IVec S3000000x1 32) (ix2 e 0)
abbrev wgt2 (c : Dev nD) (e : Fin 3000000) : EReal := (V c (Pipeline.arrRef spec2 1) : S3000000x1.Idx → EReal) (ix2 e 0)
abbrev tab2 (c : Dev nD) (n : Fin 150528) (d : Fin 64) : EReal := (V c (Pipeline.arrRef spec2 2) : S150528x64.Idx → EReal) (ix2 n d)

theorem acc2_step (c : Dev nD) (n : ℕ) (hn : n < cfg2.N) (e' : Fin 8000) (d : Fin 64) (e : Fin 3000000)
    (he : e.val = n / 147 % 375 * 8000 + e'.val) (prev : Vec Ideal S8000x64 .f32)
    (hprev : (prev (ix2 e' d) : EReal) = if h : (srcW2 V c e).toNat < n % 147 * 1024 then tab2 V c ⟨(srcW2 V c e).toNat, by omega⟩ d else 0) :
    (k0_pay2 (grid2.coords ⟨n, hn⟩) (iblk2 V c 0 ⟨n, hn⟩) (xs2 V c ⟨n, hn⟩) prev (ix2 e' d) : EReal)
      = if h : (srcW2 V c e).toNat < (n % 147 + 1) * 1024 then tab2 V c ⟨(srcW2 V c e).toNat, by omega⟩ d else 0 := by
  have hk1 : (grid2.coords ⟨n, hn⟩ 1).val = n % 147 := coords2_1 _
  refine (k0_pay2_apply (grid2.coords ⟨n, hn⟩) (by rw [hk1]; omega) _ _ _ e' d).trans ?_
  rw [iblk2_0_apply V c ⟨n, hn⟩ e' e he, hk1]
  exact gather_step (n % 147) (by omega) (srcW2 V c e).toNat (fun m => tab2 V c m d) (fun j => (xs2 V c ⟨n, hn⟩ (ix2 j d) : EReal))
    (fun j m hm => xs2_apply V c ⟨n, hn⟩ j d m (by rw [hk1]; exact hm)) _ hprev

theorem acc2_value (c : Dev nD) : ∀ (n : ℕ) (hn : n < cfg2.N) (e' : Fin 8000) (d : Fin 64) (e : Fin 3000000)
    (he : e.val = n / 147 % 375 * 8000 + e'.val),
    (((outsAt2 V c n hn).2 : Vec Ideal S8000x64 .f32) (ix2 e' d) : EReal)
      = if h : (srcW2 V c e).toNat < (n % 147 + 1) * 1024 then tab2 V c ⟨(srcW2 V c e).toNat, by omega⟩ d else 0 := by
  intro n
  induction n using Nat.strong_induction_on with
  | _ n ih =>
    intro hn e' d e he
    have hk1 : (grid2.coords ⟨n, hn⟩ 1).val = n % 147 := coords2_1 _
    by_cases hk : n % 147 = 0
    · have h := acc2_first V c ⟨n, hn⟩ (hk1.trans hk)
      refine (congrFun h (ix2 e' d)).trans ?_
      refine acc2_step V c n hn e' d e he _ ?_
      rw [k0_pay1_apply, dif_neg (by omega)]
    · have h := acc2_next V c ⟨n, hn⟩ (by rw [hk1]; exact hk)
      refine (congrFun h (ix2 e' d)).trans ?_
      refine acc2_step V c n hn e' d e he _ ?_
      have hn' : n - 1 < cfg2.N := by omega
      refine (ih (n - 1) (by omega) hn' e' d e (by rw [he]; congr 2; omega)).trans ?_
      by_cases hs : (srcW2 V c e).toNat < n % 147 * 1024
      · rw [dif_pos hs, dif_pos (by omega)]
      · rw [dif_neg hs, dif_neg (by omega)]

theorem out2_value (c : Dev nD) (n : ℕ) (hn : n < cfg2.N) (hk : n % 147 = 146) (e' : Fin 8000) (d : Fin 64) (e : Fin 3000000)
    (he : e.val = n / 147 % 375 * 8000 + e'.val) :
    (((outsAt2 V c n hn).1 : Vec Ideal S8000x64 .bf16) (ix2 e' d) : EReal)
      = Cert.Spec.msg 150528 (srcW2 V c) (wgt2 V c) (tab2 V c) e d := by
  have hk1 : (grid2.coords ⟨n, hn⟩ 1).val = n % 147 := coords2_1 _
  have h := out2_last V c ⟨n, hn⟩ (hk1.trans hk)
  refine (congrFun h (ix2 e' d)).trans ?_
  refine (k0_pay3_apply _ _ e' d).trans ?_
  rw [iblk2_1_apply V c ⟨n, hn⟩ e' e he]
  refine congrArg (fun z : EReal => z * wgt2 V c e) ?_
  refine (acc2_value V c n hn e' d e he).trans ?_
  by_cases hs : (srcW2 V c e).toNat < 150528
  · rw [dif_pos hs, dif_pos (by omega)]
  · rw [dif_neg hs, dif_neg (by omega)]

end Cert.KernelIdeal.Hand
end
-- ==== Proof.KI.G2.Value.lean ====
import proofs.«406629_j10943576670300_1_alg».proof.Proof.KI.G2.Value.Acc

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev msgs2 (c : Dev nD) : S3000000x64.Idx → EReal := fun i =>
  Cert.Spec.msg 150528 (srcW2 V c) (wgt2 V c) (tab2 V c) (i 0) (i 1)

theorem flushed2_3_eq (c : Dev nD) (t : Fin cfg2.N) (hf : (cfg2.win 3).flush t = true) :
    (dat2 V c).flushed 3 t = ((cfg2.win 3).blk t).view.read (Elt Ideal) (msgs2 V c) := by
  have hk : t.val % 147 = 146 := (flush2_3 t).mp hf
  have hN : t.val < 55125 := lt_of_lt_of_eq t.isLt N_2
  show (cfg2.win 3).cut (grid2.coords t) ((dat2 V c).after 3 t) = _
  rw [after2_3]
  funext y
  obtain ⟨e', d, rfl⟩ : ∃ (e' : Fin 8000) (d : Fin 64), y = ix2 e' d := ⟨y 0, y 1, eq_ix2 y⟩
  rw [View.read_apply]
  have hi := index2_3 t
  show (((outsAt2 V c t.val t.isLt).1 : Vec Ideal S8000x64 .bf16) (ix2 e' d) : EReal) = msgs2 V c (((cfg2.win 3).blk t).view.emb (ix2 e' d))
  rw [out2_value V c t.val t.isLt hk e' d ⟨t.val / 147 % 375 * 8000 + e'.val, by omega⟩ rfl]
  have h0 : (⟨t.val / 147 % 375 * 8000 + e'.val, by omega⟩ : Fin 3000000) = (((cfg2.win 3).blk t).view.emb (ix2 e' d) : S3000000x64.Idx) 0 := by
    apply Fin.ext
    show t.val / 147 % 375 * 8000 + e'.val = win2_3.index t 0 * 8000 + 1 * e'.val
    rw [hi]; simp only [Matrix.cons_val_zero]; omega
  have h1 : d = (((cfg2.win 3).blk t).view.emb (ix2 e' d) : S3000000x64.Idx) 1 := by
    apply Fin.ext
    show d.val = win2_3.index t 1 * 64 + 1 * d.val
    rw [hi]; simp only [Matrix.cons_val_one, Matrix.cons_val_zero]; omega
  exact congrArg₂ (Cert.Spec.msg 150528 (srcW2 V c) (wgt2 V c) (tab2 V c)) h0 h1

theorem cover2_3 (i : S3000000x64.Idx) :
    ∃ t : Fin cfg2.N, (cfg2.win 3).flush t = true ∧ i ∈ ((cfg2.win 3).blk t).view.set := by
  have h0 : (i 0).val < 3000000 := (i 0).isLt
  have h1 : (i 1).val < 64 := (i 1).isLt
  let t : Fin cfg2.N := ⟨(i 0).val / 8000 * 147 + 146, by rw [show cfg2.N = 55125 from N_2]; omega⟩
  have ht : t.val = (i 0).val / 8000 * 147 + 146 := rfl
  refine ⟨t, (flush2_3 t).mpr (by rw [ht]; omega), ?_⟩
  have hset : ((cfg2.win 3).blk t).view.set = (win2_3.rect t).set := View.set_slice_whole _ _
  rw [hset, Rect.mem_set_unit]
  have hi := index2_3 t
  intro a
  match a with
  | ⟨0, _⟩ =>
    show win2_3.index t 0 * 8000 ≤ (i 0).val ∧ (i 0).val < win2_3.index t 0 * 8000 + 8000
    rw [hi]; simp only [Matrix.cons_val_zero]; rw [ht]; omega
  | ⟨1, _⟩ =>
    show win2_3.index t 1 * 64 ≤ (i 1).val ∧ (i 1).val < win2_3.index t 1 * 64 + 64
    rw [hi]; simp only [Matrix.cons_val_one, Matrix.cons_val_zero]; omega

theorem final2_3 (c : Dev nD) : (dat2 V c).arrAt 3 cfg2.N = msgs2 V c :=
  (dat2 V c).arrAt_eq_of_cover 3 (msgs2 V c) (flushed2_3_eq V c) (cover2_3)

theorem gather2_value (c : Dev nD) (e : Fin 3000000) (d : Fin 64) :
    ((dat2 (F := Ideal) V c).arrAt 3 cfg2.N : S3000000x64.Idx → EReal) (ix2 e d)
      = Cert.Spec.msg 150528 (fun e => (V c (Pipeline.arrRef spec2 0) : IVec S3000000x1 32) (ix2 e 0)) (fun e => (V c (Pipeline.arrRef spec2 1) : S3000000x1.Idx → EReal) (ix2 e 0))
          (fun n d => (V c (Pipeline.arrRef spec2 2) : S150528x64.Idx → EReal) (ix2 n d)) e d := by
  rw [final2_3]

end Cert.KernelIdeal.Hand
end
-- ==== Proof.KI.S3.Value.lean ====
import proofs.«406629_j10943576670300_1_alg».proof.Proof.KI.S3.Frame
import proofs.«406629_j10943576670300_1_alg».proof.Proof.KI.S1.Value.Fold
import Idealize.ShloMosaic.Lib.Pipeline.Value

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev dstArr3 (c : Dev nD) : Fin 3000000 → BitVec 32 := fun e => (V c (Pipeline.arrRef spec3 0) : IVec S3000000x1 32) (ix2 e 0)
abbrev msgArr3 (c : Dev nD) : Fin 3000000 → Fin 64 → EReal := fun e d => (V c (Pipeline.arrRef spec3 1) : S3000000x64.Idx → EReal) (ix2 e d)
abbrev egoArr3 (c : Dev nD) : Fin 150528 → Fin 64 → EReal := fun n d => (V c (Pipeline.arrRef spec3 2) : S150528x64.Idx → EReal) (ix2 n d)

abbrev dstBlk3 (c : Dev nD) (t : Fin cfg3.N) : Vec Ideal S8000x1 .i32 := iblk3 V c 0 t
abbrev msgBlk3 (c : Dev nD) (t : Fin cfg3.N) : Vec Ideal S8000x64 .bf16 := iblk3 V c 1 t
abbrev egoBlk3 (c : Dev nD) (t : Fin cfg3.N) : Vec Ideal S1024x64 .f32 := iblk3 V c 2 t

theorem dstBlk3_apply (c : Dev nD) (t : Fin cfg3.N) (a : Fin 375) (ha : a.val = t.val % 375) (b : Fin 8000) :
    dstBlk3 V c t (ix2 b 0) = dstArr3 V c (tileEdge a b) := by
  show iblk3 V c 0 t (ix2 b 0) = _
  unfold iblk3
  rw [View.read_apply]
  show (V c (Pipeline.arrRef spec3 0) : IVec S3000000x1 32) (((cfg3.win 0).blk t).view.emb (ix2 b 0))
    = (V c (Pipeline.arrRef spec3 0) : IVec S3000000x1 32) (ix2 (tileEdge a b) 0)
  refine congrArg _ (funext fun x => Fin.ext ?_)
  match x with
  | ⟨0, _⟩ =>
    show win3_0.index t 0 * 8000 + 1 * b.val = a.val * 8000 + b.val
    rw [congrFun (GenP.index3_0 t) 0, ha]
    show t.val % 375 * 8000 + 1 * b.val = _
    omega
  | ⟨1, _⟩ =>
    show win3_0.index t 1 * 1 + 1 * 0 = 0
    rw [congrFun (GenP.index3_0 t) 1]
    rfl

theorem msgBlk3_apply (c : Dev nD) (t : Fin cfg3.N) (a : Fin 375) (ha : a.val = t.val % 375) (b : Fin 8000) (d : Fin 64) :
    msgBlk3 V c t (ix2 b d) = msgArr3 V c (tileEdge a b) d := by
  show iblk3 V c 1 t (ix2 b d) = _
  unfold iblk3
  rw [View.read_apply]
  show (V c (Pipeline.arrRef spec3 1) : S3000000x64.Idx → EReal) (((cfg3.win 1).blk t).view.emb (ix2 b d))
    = (V c (Pipeline.arrRef spec3 1) : S3000000x64.Idx → EReal) (ix2 (tileEdge a b) d)
  refine congrArg _ (funext fun x => Fin.ext ?_)
  match x with
  | ⟨0, _⟩ =>
    show win3_1.index t 0 * 8000 + 1 * b.val = a.val * 8000 + b.val
    rw [congrFun (GenP.index3_1 t) 0, ha]
    show t.val % 375 * 8000 + 1 * b.val = _
    omega
  | ⟨1, _⟩ =>
    show win3_1.index t 1 * 64 + 1 * d.val = d.val
    rw [congrFun (GenP.index3_1 t) 1]
    show 0 * 64 + 1 * d.val = d.val
    omega

theorem egoBlk3_apply (c : Dev nD) (t : Fin cfg3.N) (n : Fin 1024) (d : Fin 64) (N : Fin 150528)
    (hN : N.val = t.val / 375 * 1024 + n.val) :
    egoBlk3 V c t (ix2 n d) = egoArr3 V c N d := by
  have hT : t.val < 55125 := lt_of_lt_of_eq t.isLt (show cfg3.N = 55125 from N_3)
  show iblk3 V c 2 t (ix2 n d) = _
  unfold iblk3
  rw [View.read_apply]
  show (V c (Pipeline.arrRef spec3 2) : S150528x64.Idx → EReal) (((cfg3.win 2).blk t).view.emb (ix2 n d))
    = (V c (Pipeline.arrRef spec3 2) : S150528x64.Idx → EReal) (ix2 N d)
  refine congrArg _ (funext fun x => Fin.ext ?_)
  match x with
  | ⟨0, _⟩ =>
    show win3_2.index t 0 * 1024 + 1 * n.val = N.val
    rw [congrFun (GenP.index3_2 t) 0, hN]
    show t.val / 375 % 147 * 1024 + 1 * n.val = _
    have : t.val / 375 % 147 = t.val / 375 := Nat.mod_eq_of_lt (by omega)
    omega
  | ⟨1, _⟩ =>
    show win3_2.index t 1 * 64 + 1 * d.val = d.val
    rw [congrFun (GenP.index3_2 t) 1]
    show 0 * 64 + 1 * d.val = d.val
    omega

theorem acc3_step (c : Dev nD) (t : Fin cfg3.N) (prev : Vec Ideal S1024x64 .f32) (n : Fin 1024) (d : Fin 64)
    (hprev : prev (ix2 n d) = upto (tileSum (dstArr3 V c) (msgArr3 V c) (t.val / 375 * 1024 + n.val) d) (t.val % 375)) :
    k1_pay2 (grid3.coords t) (iblk3 V c 0 t) (iblk3 V c 1 t) prev (ix2 n d)
      = upto (tileSum (dstArr3 V c) (msgArr3 V c) (t.val / 375 * 1024 + n.val) d) (t.val % 375 + 1) := by
  have hi : (grid3.coords t 0).val = t.val / 375 := coords3_0 t
  have s := pay2_step (dstArr3 V c) (msgArr3 V c) (grid3.coords t) ⟨t.val % 375, Nat.mod_lt _ (by decide)⟩
    (dstBlk3 V c t) (msgBlk3 V c t) prev
    (fun b => dstBlk3_apply V c t ⟨t.val % 375, Nat.mod_lt _ (by decide)⟩ rfl b)
    (fun b d => msgBlk3_apply V c t ⟨t.val % 375, Nat.mod_lt _ (by decide)⟩ rfl b d) n d
    (by rw [hi]; exact hprev)
  rw [hi] at s
  exact s

theorem acc3_eq (c : Dev nD) (m : ℕ) : ∀ (h : m < cfg3.N) (n : Fin 1024) (d : Fin 64),
    (outsAt3 V c m h).2 (ix2 n d)
      = upto (tileSum (dstArr3 V c) (msgArr3 V c) (m / 375 * 1024 + n.val) d) (m % 375 + 1) := by
  induction m using Nat.strong_induction_on with
  | _ m ih =>
    intro h n d
    by_cases h0 : m % 375 = 0
    · have hk : (grid3.coords (⟨m, h⟩ : Fin cfg3.N) 1).val = 0 := (coords3_1 ⟨m, h⟩).trans h0
      refine (congrFun (acc3_first V c ⟨m, h⟩ hk) (ix2 n d)).trans ?_
      refine acc3_step V c ⟨m, h⟩ (k1_pay1 (F := Ideal)) n d ?_
      show (k1_pay1 (F := Ideal)) (ix2 n d) = upto _ (m % 375)
      rw [h0]
      exact pay1_start (dstArr3 V c) (msgArr3 V c) (m / 375 * 1024 + n.val) n d
    · have hk : (grid3.coords (⟨m, h⟩ : Fin cfg3.N) 1).val ≠ 0 := fun e => h0 ((coords3_1 ⟨m, h⟩).symm.trans e)
      refine (congrFun (acc3_next V c ⟨m, h⟩ hk) (ix2 n d)).trans ?_
      refine acc3_step V c ⟨m, h⟩ _ n d ?_
      have e := ih (m - 1) (by omega) (by omega) n d
      have e1 : (m - 1) / 375 = m / 375 := by omega
      have e2 : (m - 1) % 375 + 1 = m % 375 := by omega
      rw [e1, e2] at e
      exact e

theorem out3_eq (c : Dev nD) (t : Fin cfg3.N) (hk : t.val % 375 = 374) (n : Fin 1024) (d : Fin 64) (N : Fin 150528)
    (hN : N.val = t.val / 375 * 1024 + n.val) :
    (outsAt3 V c t.val t.isLt).1 (ix2 n d)
      = Cert.Spec.agg 150528 (dstArr3 V c) (msgArr3 V c) N d + Cert.Spec.half * egoArr3 V c N d := by
  have hk' : (grid3.coords t 1).val = 374 := (coords3_1 t).trans hk
  refine (congrFun (out3_last V c t hk') (ix2 n d)).trans ?_
  refine (pay3_out (outsAt3 V c t.val t.isLt).2 (iblk3 V c 2 t) (ix2 n d)).trans ?_
  have ha : (outsAt3 V c t.val t.isLt).2 (ix2 n d) = Cert.Spec.agg 150528 (dstArr3 V c) (msgArr3 V c) N d := by
    rw [acc3_eq V c t.val t.isLt n d, agg_eq_upto, hk, hN]
  have he : iblk3 V c 2 t (ix2 n d) = egoArr3 V c N d := egoBlk3_apply V c t n d N hN
  rw [ha, he]

abbrev res3 (c : Dev nD) : S150528x64.Idx → EReal := fun j =>
  Cert.Spec.agg 150528 (dstArr3 V c) (msgArr3 V c) (j 0) (j 1) + Cert.Spec.half * egoArr3 V c (j 0) (j 1)

theorem cut3_3_eq (t : Fin cfg3.N) (X : Vec Ideal S1024x64 .f32) (G : S150528x64.Idx → EReal)
    (hX : ∀ (n : Fin 1024) (d : Fin 64) (N : Fin 150528), N.val = t.val / 375 * 1024 + n.val → X (ix2 n d) = G (ix2 N d)) :
    (cfg3.win 3).cut (grid3.coords t) X = ((cfg3.win 3).blk t).view.read (Elt Ideal) G := by
  have hT : t.val < 55125 := lt_of_lt_of_eq t.isLt (show cfg3.N = 55125 from N_3)
  funext j
  obtain ⟨n, d, rfl⟩ : ∃ (n : Fin 1024) (d : Fin 64), j = ix2 n d := ⟨j 0, j 1, eq_ix2 j⟩
  rw [View.read_apply]
  have hemb : ((cfg3.win 3).blk t).view.emb (ix2 n d)
      = ix2 (⟨t.val / 375 * 1024 + n.val, by have := n.isLt; omega⟩ : Fin 150528) d := by
    funext x
    apply Fin.ext
    match x with
    | ⟨0, _⟩ =>
      show win3_3.index t 0 * 1024 + 1 * n.val = t.val / 375 * 1024 + n.val
      rw [congrFun (GenP.index3_3 t) 0]
      show t.val / 375 % 147 * 1024 + 1 * n.val = _
      have : t.val / 375 % 147 = t.val / 375 := Nat.mod_eq_of_lt (by omega)
      omega
    | ⟨1, _⟩ =>
      show win3_3.index t 1 * 64 + 1 * d.val = d.val
      rw [congrFun (GenP.index3_3 t) 1]
      show 0 * 64 + 1 * d.val = d.val
      omega
  show X (ix2 n d) = G (((cfg3.win 3).blk t).view.emb (ix2 n d))
  rw [hemb]
  exact hX n d _ rfl

theorem flushed3_3_eq (c : Dev nD) (t : Fin cfg3.N) (hf : (cfg3.win 3).flush t = true) :
    (dat3 V c).flushed 3 t = ((cfg3.win 3).blk t).view.read (Elt Ideal) (res3 V c) := by
  have hk : t.val % 375 = 374 := (GenP.flush3_3 t).mp hf
  show (cfg3.win 3).cut (grid3.coords t) ((dat3 V c).after 3 t) = _
  rw [after3_3]
  exact cut3_3_eq t (outsAt3 V c t.val t.isLt).1 (res3 V c) (fun n d N hN => out3_eq V c t hk n d N hN)

theorem cover3_3 (i : S150528x64.Idx) :
    ∃ t : Fin cfg3.N, (cfg3.win 3).flush t = true ∧ i ∈ ((cfg3.win 3).blk t).view.set := by
  have h0 : (i 0).val < 150528 := (i 0).isLt
  have h1 : (i 1).val < 64 := (i 1).isLt
  have hN : cfg3.N = 55125 := N_3
  obtain ⟨t, ht⟩ : ∃ t : Fin cfg3.N, t.val = (i 0).val / 1024 * 375 + 374 :=
    ⟨⟨(i 0).val / 1024 * 375 + 374, by rw [hN]; omega⟩, rfl⟩
  refine ⟨t, (GenP.flush3_3 t).mpr (by rw [ht]; omega), ?_⟩
  have hset : ((cfg3.win 3).blk t).view.set = (win3_3.rect t).set := View.set_slice_whole _ _
  rw [hset, Rect.mem_set_unit]
  have hi0 : win3_3.index t 0 = t.val / 375 % 147 := congrFun (GenP.index3_3 t) 0
  have hi1 : win3_3.index t 1 = 0 := congrFun (GenP.index3_3 t) 1
  intro a
  match a with
  | ⟨0, _⟩ =>
    show win3_3.index t 0 * 1024 ≤ (i 0).val ∧ (i 0).val < win3_3.index t 0 * 1024 + 1024
    rw [hi0, ht]
    omega
  | ⟨1, _⟩ =>
    show win3_3.index t 1 * 64 ≤ (i 1).val ∧ (i 1).val < win3_3.index t 1 * 64 + 64
    rw [hi1]
    omega

theorem scatter3_array (c : Dev nD) : (dat3 V c).arrAt 3 cfg3.N = res3 V c :=
  (dat3 V c).arrAt_eq_of_cover 3 (res3 V c) (flushed3_3_eq V c) cover3_3

theorem scatter3_value (c : Dev nD) (n : Fin 150528) (d : Fin 64) :
    ((dat3 (F := Ideal) V c).arrAt 3 cfg3.N : S150528x64.Idx → EReal) (ix2 n d)
      = Cert.Spec.agg 150528 (fun e => (V c (Pipeline.arrRef spec3 0) : IVec S3000000x1 32) (ix2 e 0))
          (fun e d => (V c (Pipeline.arrRef spec3 1) : S3000000x64.Idx → EReal) (ix2 e d)) n d
        + Cert.Spec.half * (V c (Pipeline.arrRef spec3 2) : S150528x64.Idx → EReal) (ix2 n d) :=
  congrFun (scatter3_array V c) (ix2 n d)

end Cert.KernelIdeal.Hand
end
-- ==== Proof.KI.G4.Value.Blocks.lean ====
import proofs.«406629_j10943576670300_1_alg».proof.Proof.KI.G4.Frame
import Idealize.ShloMosaic.Lib.ValueIdx
import Idealize.ShloMosaic.Lib.Pipeline.Value

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem iblk4_0_apply (c : Dev nD) (t : Fin cfg4.N) (e' : Fin 8000) (e : Fin 3000000)
    (he : e.val = t.val / 147 % 375 * 8000 + e'.val) :
    (iblk4 V c 0 t : Vec F S8000x1 .i32) (ix2 e' 0) = (V c (Pipeline.arrRef spec4 0) : S3000000x1.Idx → Elt F .i32) (ix2 e 0) := by
  rw [iblk4_eq, View.read_apply]
  refine congrArg (V c (Pipeline.arrRef spec4 0) : S3000000x1.Idx → Elt F .i32) ?_
  have hi := index4_0 t
  funext a; apply Fin.ext
  match a with
  | ⟨0, _⟩ =>
    show win4_0.index t 0 * 8000 + 1 * e'.val = e.val
    rw [hi, he]; simp only [Matrix.cons_val_zero]; omega
  | ⟨1, _⟩ =>
    show win4_0.index t 1 * 1 + 1 * 0 = 0
    rw [hi]; rfl

theorem iblk4_1_apply (c : Dev nD) (t : Fin cfg4.N) (e' : Fin 8000) (e : Fin 3000000)
    (he : e.val = t.val / 147 % 375 * 8000 + e'.val) :
    (iblk4 V c 1 t : Vec F S8000x1 .f32) (ix2 e' 0) = (V c (Pipeline.arrRef spec4 1) : S3000000x1.Idx → Elt F .f32) (ix2 e 0) := by
  rw [iblk4_eq, View.read_apply]
  refine congrArg (V c (Pipeline.arrRef spec4 1) : S3000000x1.Idx → Elt F .f32) ?_
  have hi := index4_1 t
  funext a; apply Fin.ext
  match a with
  | ⟨0, _⟩ =>
    show win4_1.index t 0 * 8000 + 1 * e'.val = e.val
    rw [hi, he]; simp only [Matrix.cons_val_zero]; omega
  | ⟨1, _⟩ =>
    show win4_1.index t 1 * 1 + 1 * 0 = 0
    rw [hi]; rfl

end Cert.KernelIdeal.Hand
end
-- ==== Proof.KI.G4.Value.Acc.lean ====
import proofs.«406629_j10943576670300_1_alg».proof.Proof.KI.G0.Value.Pay
import proofs.«406629_j10943576670300_1_alg».proof.Proof.KI.G4.Value.Blocks
import proofs.«406629_j10943576670300_1_alg».proof.Proof.Spec

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev srcW4 (c : Dev nD) (e : Fin 3000000) : BitVec 32 := (V c (Pipeline.arrRef spec4 0) : IVec S3000000x1 32) (ix2 e 0)
abbrev wgt4 (c : Dev nD) (e : Fin 3000000) : EReal := (V c (Pipeline.arrRef spec4 1) : S3000000x1.Idx → EReal) (ix2 e 0)
abbrev tab4 (c : Dev nD) (n : Fin 150528) (d : Fin 64) : EReal := (V c (Pipeline.arrRef spec4 2) : S150528x64.Idx → EReal) (ix2 n d)

theorem acc4_step (c : Dev nD) (n : ℕ) (hn : n < cfg4.N) (e' : Fin 8000) (d : Fin 64) (e : Fin 3000000)
    (he : e.val = n / 147 % 375 * 8000 + e'.val) (prev : Vec Ideal S8000x64 .f32)
    (hprev : (prev (ix2 e' d) : EReal) = if h : (srcW4 V c e).toNat < n % 147 * 1024 then tab4 V c ⟨(srcW4 V c e).toNat, by omega⟩ d else 0) :
    (k0_pay2 (grid4.coords ⟨n, hn⟩) (iblk4 V c 0 ⟨n, hn⟩) (xs4 V c ⟨n, hn⟩) prev (ix2 e' d) : EReal)
      = if h : (srcW4 V c e).toNat < (n % 147 + 1) * 1024 then tab4 V c ⟨(srcW4 V c e).toNat, by omega⟩ d else 0 := by
  have hk1 : (grid4.coords ⟨n, hn⟩ 1).val = n % 147 := coords4_1 _
  refine (k0_pay2_apply (grid4.coords ⟨n, hn⟩) (by rw [hk1]; omega) _ _ _ e' d).trans ?_
  rw [iblk4_0_apply V c ⟨n, hn⟩ e' e he, hk1]
  exact gather_step (n % 147) (by omega) (srcW4 V c e).toNat (fun m => tab4 V c m d) (fun j => (xs4 V c ⟨n, hn⟩ (ix2 j d) : EReal))
    (fun j m hm => xs4_apply V c ⟨n, hn⟩ j d m (by rw [hk1]; exact hm)) _ hprev

theorem acc4_value (c : Dev nD) : ∀ (n : ℕ) (hn : n < cfg4.N) (e' : Fin 8000) (d : Fin 64) (e : Fin 3000000)
    (he : e.val = n / 147 % 375 * 8000 + e'.val),
    (((outsAt4 V c n hn).2 : Vec Ideal S8000x64 .f32) (ix2 e' d) : EReal)
      = if h : (srcW4 V c e).toNat < (n % 147 + 1) * 1024 then tab4 V c ⟨(srcW4 V c e).toNat, by omega⟩ d else 0 := by
  intro n
  induction n using Nat.strong_induction_on with
  | _ n ih =>
    intro hn e' d e he
    have hk1 : (grid4.coords ⟨n, hn⟩ 1).val = n % 147 := coords4_1 _
    by_cases hk : n % 147 = 0
    · have h := acc4_first V c ⟨n, hn⟩ (hk1.trans hk)
      refine (congrFun h (ix2 e' d)).trans ?_
      refine acc4_step V c n hn e' d e he _ ?_
      rw [k0_pay1_apply, dif_neg (by omega)]
    · have h := acc4_next V c ⟨n, hn⟩ (by rw [hk1]; exact hk)
      refine (congrFun h (ix2 e' d)).trans ?_
      refine acc4_step V c n hn e' d e he _ ?_
      have hn' : n - 1 < cfg4.N := by omega
      refine (ih (n - 1) (by omega) hn' e' d e (by rw [he]; congr 2; omega)).trans ?_
      by_cases hs : (srcW4 V c e).toNat < n % 147 * 1024
      · rw [dif_pos hs, dif_pos (by omega)]
      · rw [dif_neg hs, dif_neg (by omega)]

theorem out4_value (c : Dev nD) (n : ℕ) (hn : n < cfg4.N) (hk : n % 147 = 146) (e' : Fin 8000) (d : Fin 64) (e : Fin 3000000)
    (he : e.val = n / 147 % 375 * 8000 + e'.val) :
    (((outsAt4 V c n hn).1 : Vec Ideal S8000x64 .bf16) (ix2 e' d) : EReal)
      = Cert.Spec.msg 150528 (srcW4 V c) (wgt4 V c) (tab4 V c) e d := by
  have hk1 : (grid4.coords ⟨n, hn⟩ 1).val = n % 147 := coords4_1 _
  have h := out4_last V c ⟨n, hn⟩ (hk1.trans hk)
  refine (congrFun h (ix2 e' d)).trans ?_
  refine (k0_pay3_apply _ _ e' d).trans ?_
  rw [iblk4_1_apply V c ⟨n, hn⟩ e' e he]
  refine congrArg (fun z : EReal => z * wgt4 V c e) ?_
  refine (acc4_value V c n hn e' d e he).trans ?_
  by_cases hs : (srcW4 V c e).toNat < 150528
  · rw [dif_pos hs, dif_pos (by omega)]
  · rw [dif_neg hs, dif_neg (by omega)]

end Cert.KernelIdeal.Hand
end
-- ==== Proof.KI.G4.Value.lean ====
import proofs.«406629_j10943576670300_1_alg».proof.Proof.KI.G4.Value.Acc

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev msgs4 (c : Dev nD) : S3000000x64.Idx → EReal := fun i =>
  Cert.Spec.msg 150528 (srcW4 V c) (wgt4 V c) (tab4 V c) (i 0) (i 1)

theorem flushed4_3_eq (c : Dev nD) (t : Fin cfg4.N) (hf : (cfg4.win 3).flush t = true) :
    (dat4 V c).flushed 3 t = ((cfg4.win 3).blk t).view.read (Elt Ideal) (msgs4 V c) := by
  have hk : t.val % 147 = 146 := (flush4_3 t).mp hf
  have hN : t.val < 55125 := lt_of_lt_of_eq t.isLt N_4
  show (cfg4.win 3).cut (grid4.coords t) ((dat4 V c).after 3 t) = _
  rw [after4_3]
  funext y
  obtain ⟨e', d, rfl⟩ : ∃ (e' : Fin 8000) (d : Fin 64), y = ix2 e' d := ⟨y 0, y 1, eq_ix2 y⟩
  rw [View.read_apply]
  have hi := index4_3 t
  show (((outsAt4 V c t.val t.isLt).1 : Vec Ideal S8000x64 .bf16) (ix2 e' d) : EReal) = msgs4 V c (((cfg4.win 3).blk t).view.emb (ix2 e' d))
  rw [out4_value V c t.val t.isLt hk e' d ⟨t.val / 147 % 375 * 8000 + e'.val, by omega⟩ rfl]
  have h0 : (⟨t.val / 147 % 375 * 8000 + e'.val, by omega⟩ : Fin 3000000) = (((cfg4.win 3).blk t).view.emb (ix2 e' d) : S3000000x64.Idx) 0 := by
    apply Fin.ext
    show t.val / 147 % 375 * 8000 + e'.val = win4_3.index t 0 * 8000 + 1 * e'.val
    rw [hi]; simp only [Matrix.cons_val_zero]; omega
  have h1 : d = (((cfg4.win 3).blk t).view.emb (ix2 e' d) : S3000000x64.Idx) 1 := by
    apply Fin.ext
    show d.val = win4_3.index t 1 * 64 + 1 * d.val
    rw [hi]; simp only [Matrix.cons_val_one, Matrix.cons_val_zero]; omega
  exact congrArg₂ (Cert.Spec.msg 150528 (srcW4 V c) (wgt4 V c) (tab4 V c)) h0 h1

theorem cover4_3 (i : S3000000x64.Idx) :
    ∃ t : Fin cfg4.N, (cfg4.win 3).flush t = true ∧ i ∈ ((cfg4.win 3).blk t).view.set := by
  have h0 : (i 0).val < 3000000 := (i 0).isLt
  have h1 : (i 1).val < 64 := (i 1).isLt
  let t : Fin cfg4.N := ⟨(i 0).val / 8000 * 147 + 146, by rw [show cfg4.N = 55125 from N_4]; omega⟩
  have ht : t.val = (i 0).val / 8000 * 147 + 146 := rfl
  refine ⟨t, (flush4_3 t).mpr (by rw [ht]; omega), ?_⟩
  have hset : ((cfg4.win 3).blk t).view.set = (win4_3.rect t).set := View.set_slice_whole _ _
  rw [hset, Rect.mem_set_unit]
  have hi := index4_3 t
  intro a
  match a with
  | ⟨0, _⟩ =>
    show win4_3.index t 0 * 8000 ≤ (i 0).val ∧ (i 0).val < win4_3.index t 0 * 8000 + 8000
    rw [hi]; simp only [Matrix.cons_val_zero]; rw [ht]; omega
  | ⟨1, _⟩ =>
    show win4_3.index t 1 * 64 ≤ (i 1).val ∧ (i 1).val < win4_3.index t 1 * 64 + 64
    rw [hi]; simp only [Matrix.cons_val_one, Matrix.cons_val_zero]; omega

theorem final4_3 (c : Dev nD) : (dat4 V c).arrAt 3 cfg4.N = msgs4 V c :=
  (dat4 V c).arrAt_eq_of_cover 3 (msgs4 V c) (flushed4_3_eq V c) (cover4_3)

theorem gather4_value (c : Dev nD) (e : Fin 3000000) (d : Fin 64) :
    ((dat4 (F := Ideal) V c).arrAt 3 cfg4.N : S3000000x64.Idx → EReal) (ix2 e d)
      = Cert.Spec.msg 150528 (fun e => (V c (Pipeline.arrRef spec4 0) : IVec S3000000x1 32) (ix2 e 0)) (fun e => (V c (Pipeline.arrRef spec4 1) : S3000000x1.Idx → EReal) (ix2 e 0))
          (fun n d => (V c (Pipeline.arrRef spec4 2) : S150528x64.Idx → EReal) (ix2 n d)) e d := by
  rw [final4_3]

end Cert.KernelIdeal.Hand
end
-- ==== Proof.KI.S5.Value.lean ====
import proofs.«406629_j10943576670300_1_alg».proof.Proof.KI.S5.Frame
import proofs.«406629_j10943576670300_1_alg».proof.Proof.KI.S1.Value.Fold
import Idealize.ShloMosaic.Lib.Pipeline.Value

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev dstArr5 (c : Dev nD) : Fin 3000000 → BitVec 32 := fun e => (V c (Pipeline.arrRef spec5 0) : IVec S3000000x1 32) (ix2 e 0)
abbrev msgArr5 (c : Dev nD) : Fin 3000000 → Fin 64 → EReal := fun e d => (V c (Pipeline.arrRef spec5 1) : S3000000x64.Idx → EReal) (ix2 e d)
abbrev egoArr5 (c : Dev nD) : Fin 150528 → Fin 64 → EReal := fun n d => (V c (Pipeline.arrRef spec5 2) : S150528x64.Idx → EReal) (ix2 n d)

abbrev dstBlk5 (c : Dev nD) (t : Fin cfg5.N) : Vec Ideal S8000x1 .i32 := iblk5 V c 0 t
abbrev msgBlk5 (c : Dev nD) (t : Fin cfg5.N) : Vec Ideal S8000x64 .bf16 := iblk5 V c 1 t
abbrev egoBlk5 (c : Dev nD) (t : Fin cfg5.N) : Vec Ideal S1024x64 .f32 := iblk5 V c 2 t

theorem dstBlk5_apply (c : Dev nD) (t : Fin cfg5.N) (a : Fin 375) (ha : a.val = t.val % 375) (b : Fin 8000) :
    dstBlk5 V c t (ix2 b 0) = dstArr5 V c (tileEdge a b) := by
  show iblk5 V c 0 t (ix2 b 0) = _
  unfold iblk5
  rw [View.read_apply]
  show (V c (Pipeline.arrRef spec5 0) : IVec S3000000x1 32) (((cfg5.win 0).blk t).view.emb (ix2 b 0))
    = (V c (Pipeline.arrRef spec5 0) : IVec S3000000x1 32) (ix2 (tileEdge a b) 0)
  refine congrArg _ (funext fun x => Fin.ext ?_)
  match x with
  | ⟨0, _⟩ =>
    show win5_0.index t 0 * 8000 + 1 * b.val = a.val * 8000 + b.val
    rw [congrFun (GenP.index5_0 t) 0, ha]
    show t.val % 375 * 8000 + 1 * b.val = _
    omega
  | ⟨1, _⟩ =>
    show win5_0.index t 1 * 1 + 1 * 0 = 0
    rw [congrFun (GenP.index5_0 t) 1]
    rfl

theorem msgBlk5_apply (c : Dev nD) (t : Fin cfg5.N) (a : Fin 375) (ha : a.val = t.val % 375) (b : Fin 8000) (d : Fin 64) :
    msgBlk5 V c t (ix2 b d) = msgArr5 V c (tileEdge a b) d := by
  show iblk5 V c 1 t (ix2 b d) = _
  unfold iblk5
  rw [View.read_apply]
  show (V c (Pipeline.arrRef spec5 1) : S3000000x64.Idx → EReal) (((cfg5.win 1).blk t).view.emb (ix2 b d))
    = (V c (Pipeline.arrRef spec5 1) : S3000000x64.Idx → EReal) (ix2 (tileEdge a b) d)
  refine congrArg _ (funext fun x => Fin.ext ?_)
  match x with
  | ⟨0, _⟩ =>
    show win5_1.index t 0 * 8000 + 1 * b.val = a.val * 8000 + b.val
    rw [congrFun (GenP.index5_1 t) 0, ha]
    show t.val % 375 * 8000 + 1 * b.val = _
    omega
  | ⟨1, _⟩ =>
    show win5_1.index t 1 * 64 + 1 * d.val = d.val
    rw [congrFun (GenP.index5_1 t) 1]
    show 0 * 64 + 1 * d.val = d.val
    omega

theorem egoBlk5_apply (c : Dev nD) (t : Fin cfg5.N) (n : Fin 1024) (d : Fin 64) (N : Fin 150528)
    (hN : N.val = t.val / 375 * 1024 + n.val) :
    egoBlk5 V c t (ix2 n d) = egoArr5 V c N d := by
  have hT : t.val < 55125 := lt_of_lt_of_eq t.isLt (show cfg5.N = 55125 from N_5)
  show iblk5 V c 2 t (ix2 n d) = _
  unfold iblk5
  rw [View.read_apply]
  show (V c (Pipeline.arrRef spec5 2) : S150528x64.Idx → EReal) (((cfg5.win 2).blk t).view.emb (ix2 n d))
    = (V c (Pipeline.arrRef spec5 2) : S150528x64.Idx → EReal) (ix2 N d)
  refine congrArg _ (funext fun x => Fin.ext ?_)
  match x with
  | ⟨0, _⟩ =>
    show win5_2.index t 0 * 1024 + 1 * n.val = N.val
    rw [congrFun (GenP.index5_2 t) 0, hN]
    show t.val / 375 % 147 * 1024 + 1 * n.val = _
    have : t.val / 375 % 147 = t.val / 375 := Nat.mod_eq_of_lt (by omega)
    omega
  | ⟨1, _⟩ =>
    show win5_2.index t 1 * 64 + 1 * d.val = d.val
    rw [congrFun (GenP.index5_2 t) 1]
    show 0 * 64 + 1 * d.val = d.val
    omega

theorem acc5_step (c : Dev nD) (t : Fin cfg5.N) (prev : Vec Ideal S1024x64 .f32) (n : Fin 1024) (d : Fin 64)
    (hprev : prev (ix2 n d) = upto (tileSum (dstArr5 V c) (msgArr5 V c) (t.val / 375 * 1024 + n.val) d) (t.val % 375)) :
    k1_pay2 (grid5.coords t) (iblk5 V c 0 t) (iblk5 V c 1 t) prev (ix2 n d)
      = upto (tileSum (dstArr5 V c) (msgArr5 V c) (t.val / 375 * 1024 + n.val) d) (t.val % 375 + 1) := by
  have hi : (grid5.coords t 0).val = t.val / 375 := coords5_0 t
  have s := pay2_step (dstArr5 V c) (msgArr5 V c) (grid5.coords t) ⟨t.val % 375, Nat.mod_lt _ (by decide)⟩
    (dstBlk5 V c t) (msgBlk5 V c t) prev
    (fun b => dstBlk5_apply V c t ⟨t.val % 375, Nat.mod_lt _ (by decide)⟩ rfl b)
    (fun b d => msgBlk5_apply V c t ⟨t.val % 375, Nat.mod_lt _ (by decide)⟩ rfl b d) n d
    (by rw [hi]; exact hprev)
  rw [hi] at s
  exact s

theorem acc5_eq (c : Dev nD) (m : ℕ) : ∀ (h : m < cfg5.N) (n : Fin 1024) (d : Fin 64),
    (outsAt5 V c m h).2 (ix2 n d)
      = upto (tileSum (dstArr5 V c) (msgArr5 V c) (m / 375 * 1024 + n.val) d) (m % 375 + 1) := by
  induction m using Nat.strong_induction_on with
  | _ m ih =>
    intro h n d
    by_cases h0 : m % 375 = 0
    · have hk : (grid5.coords (⟨m, h⟩ : Fin cfg5.N) 1).val = 0 := (coords5_1 ⟨m, h⟩).trans h0
      refine (congrFun (acc5_first V c ⟨m, h⟩ hk) (ix2 n d)).trans ?_
      refine acc5_step V c ⟨m, h⟩ (k1_pay1 (F := Ideal)) n d ?_
      show (k1_pay1 (F := Ideal)) (ix2 n d) = upto _ (m % 375)
      rw [h0]
      exact pay1_start (dstArr5 V c) (msgArr5 V c) (m / 375 * 1024 + n.val) n d
    · have hk : (grid5.coords (⟨m, h⟩ : Fin cfg5.N) 1).val ≠ 0 := fun e => h0 ((coords5_1 ⟨m, h⟩).symm.trans e)
      refine (congrFun (acc5_next V c ⟨m, h⟩ hk) (ix2 n d)).trans ?_
      refine acc5_step V c ⟨m, h⟩ _ n d ?_
      have e := ih (m - 1) (by omega) (by omega) n d
      have e1 : (m - 1) / 375 = m / 375 := by omega
      have e2 : (m - 1) % 375 + 1 = m % 375 := by omega
      rw [e1, e2] at e
      exact e

theorem out5_eq (c : Dev nD) (t : Fin cfg5.N) (hk : t.val % 375 = 374) (n : Fin 1024) (d : Fin 64) (N : Fin 150528)
    (hN : N.val = t.val / 375 * 1024 + n.val) :
    (outsAt5 V c t.val t.isLt).1 (ix2 n d)
      = Cert.Spec.agg 150528 (dstArr5 V c) (msgArr5 V c) N d + Cert.Spec.half * egoArr5 V c N d := by
  have hk' : (grid5.coords t 1).val = 374 := (coords5_1 t).trans hk
  refine (congrFun (out5_last V c t hk') (ix2 n d)).trans ?_
  refine (pay3_out (outsAt5 V c t.val t.isLt).2 (iblk5 V c 2 t) (ix2 n d)).trans ?_
  have ha : (outsAt5 V c t.val t.isLt).2 (ix2 n d) = Cert.Spec.agg 150528 (dstArr5 V c) (msgArr5 V c) N d := by
    rw [acc5_eq V c t.val t.isLt n d, agg_eq_upto, hk, hN]
  have he : iblk5 V c 2 t (ix2 n d) = egoArr5 V c N d := egoBlk5_apply V c t n d N hN
  rw [ha, he]

abbrev res5 (c : Dev nD) : S150528x64.Idx → EReal := fun j =>
  Cert.Spec.agg 150528 (dstArr5 V c) (msgArr5 V c) (j 0) (j 1) + Cert.Spec.half * egoArr5 V c (j 0) (j 1)

theorem cut5_3_eq (t : Fin cfg5.N) (X : Vec Ideal S1024x64 .f32) (G : S150528x64.Idx → EReal)
    (hX : ∀ (n : Fin 1024) (d : Fin 64) (N : Fin 150528), N.val = t.val / 375 * 1024 + n.val → X (ix2 n d) = G (ix2 N d)) :
    (cfg5.win 3).cut (grid5.coords t) X = ((cfg5.win 3).blk t).view.read (Elt Ideal) G := by
  have hT : t.val < 55125 := lt_of_lt_of_eq t.isLt (show cfg5.N = 55125 from N_5)
  funext j
  obtain ⟨n, d, rfl⟩ : ∃ (n : Fin 1024) (d : Fin 64), j = ix2 n d := ⟨j 0, j 1, eq_ix2 j⟩
  rw [View.read_apply]
  have hemb : ((cfg5.win 3).blk t).view.emb (ix2 n d)
      = ix2 (⟨t.val / 375 * 1024 + n.val, by have := n.isLt; omega⟩ : Fin 150528) d := by
    funext x
    apply Fin.ext
    match x with
    | ⟨0, _⟩ =>
      show win5_3.index t 0 * 1024 + 1 * n.val = t.val / 375 * 1024 + n.val
      rw [congrFun (GenP.index5_3 t) 0]
      show t.val / 375 % 147 * 1024 + 1 * n.val = _
      have : t.val / 375 % 147 = t.val / 375 := Nat.mod_eq_of_lt (by omega)
      omega
    | ⟨1, _⟩ =>
      show win5_3.index t 1 * 64 + 1 * d.val = d.val
      rw [congrFun (GenP.index5_3 t) 1]
      show 0 * 64 + 1 * d.val = d.val
      omega
  show X (ix2 n d) = G (((cfg5.win 3).blk t).view.emb (ix2 n d))
  rw [hemb]
  exact hX n d _ rfl

theorem flushed5_3_eq (c : Dev nD) (t : Fin cfg5.N) (hf : (cfg5.win 3).flush t = true) :
    (dat5 V c).flushed 3 t = ((cfg5.win 3).blk t).view.read (Elt Ideal) (res5 V c) := by
  have hk : t.val % 375 = 374 := (GenP.flush5_3 t).mp hf
  show (cfg5.win 3).cut (grid5.coords t) ((dat5 V c).after 3 t) = _
  rw [after5_3]
  exact cut5_3_eq t (outsAt5 V c t.val t.isLt).1 (res5 V c) (fun n d N hN => out5_eq V c t hk n d N hN)

theorem cover5_3 (i : S150528x64.Idx) :
    ∃ t : Fin cfg5.N, (cfg5.win 3).flush t = true ∧ i ∈ ((cfg5.win 3).blk t).view.set := by
  have h0 : (i 0).val < 150528 := (i 0).isLt
  have h1 : (i 1).val < 64 := (i 1).isLt
  have hN : cfg5.N = 55125 := N_5
  obtain ⟨t, ht⟩ : ∃ t : Fin cfg5.N, t.val = (i 0).val / 1024 * 375 + 374 :=
    ⟨⟨(i 0).val / 1024 * 375 + 374, by rw [hN]; omega⟩, rfl⟩
  refine ⟨t, (GenP.flush5_3 t).mpr (by rw [ht]; omega), ?_⟩
  have hset : ((cfg5.win 3).blk t).view.set = (win5_3.rect t).set := View.set_slice_whole _ _
  rw [hset, Rect.mem_set_unit]
  have hi0 : win5_3.index t 0 = t.val / 375 % 147 := congrFun (GenP.index5_3 t) 0
  have hi1 : win5_3.index t 1 = 0 := congrFun (GenP.index5_3 t) 1
  intro a
  match a with
  | ⟨0, _⟩ =>
    show win5_3.index t 0 * 1024 ≤ (i 0).val ∧ (i 0).val < win5_3.index t 0 * 1024 + 1024
    rw [hi0, ht]
    omega
  | ⟨1, _⟩ =>
    show win5_3.index t 1 * 64 ≤ (i 1).val ∧ (i 1).val < win5_3.index t 1 * 64 + 64
    rw [hi1]
    omega

theorem scatter5_array (c : Dev nD) : (dat5 V c).arrAt 3 cfg5.N = res5 V c :=
  (dat5 V c).arrAt_eq_of_cover 3 (res5 V c) (flushed5_3_eq V c) cover5_3

theorem scatter5_value (c : Dev nD) (n : Fin 150528) (d : Fin 64) :
    ((dat5 (F := Ideal) V c).arrAt 3 cfg5.N : S150528x64.Idx → EReal) (ix2 n d)
      = Cert.Spec.agg 150528 (fun e => (V c (Pipeline.arrRef spec5 0) : IVec S3000000x1 32) (ix2 e 0))
          (fun e d => (V c (Pipeline.arrRef spec5 1) : S3000000x64.Idx → EReal) (ix2 e d)) n d
        + Cert.Spec.half * (V c (Pipeline.arrRef spec5 2) : S150528x64.Idx → EReal) (ix2 n d) :=
  congrFun (scatter5_array V c) (ix2 n d)

end Cert.KernelIdeal.Hand
end
-- ==== Proof.KI.Bridge.Img.lean ====
import proofs.«406629_j10943576670300_1_alg».proof.Proof.KI.Bridge.Base
import proofs.«406629_j10943576670300_1_alg».proof.Proof.KI.G0.Value
import proofs.«406629_j10943576670300_1_alg».proof.Proof.KI.S1.Value
import proofs.«406629_j10943576670300_1_alg».proof.Proof.KI.G2.Value
import proofs.«406629_j10943576670300_1_alg».proof.Proof.KI.S3.Value
import proofs.«406629_j10943576670300_1_alg».proof.Proof.KI.G4.Value
import proofs.«406629_j10943576670300_1_alg».proof.Proof.KI.S5.Value

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

theorem v16_at5 (n : Fin 150528) (d : Fin 64) : (W5 m ρ c (Proc.devRef .tc main_v16) : S150528x64.Idx → EReal) (ix2 n d) = tabI0 m ρ c n d :=
  (at_ix (host_v16 (W4 m ρ c)) (ix2 n d)).trans ((at_ix ((keep3 m ρ c main_v2 (by decide)).trans (keep2 m ρ c main_v2 (by decide))) (ix2 n d)).trans (v2_at2 m ρ c n d))

theorem v17_at6 (e : Fin 3000000) (d : Fin 64) :
    (W6 m ρ c (Proc.devRef .tc main_v17) : S3000000x64.Idx → EReal) (ix2 e d) = Cert.Spec.msg Cert.Spec.nP (srcI m ρ c) (wI m ρ c) (tabI0 m ρ c) e d :=
  (at_ix (W6_arr m ρ c 3) (ix2 e d)).trans ((gather0_value (fun c b => W5 m ρ c b) c e d).trans
    (msg_congr (fun e => v6_at5 m ρ c e 0) (fun e => at_ix (arg1_at5 m ρ c) (ix2 e (0 : Fin 1))) (fun n d => v16_at5 m ρ c n d) e d))
theorem v9_at6 (e : Fin 3000000) (u : Fin 1) : (W6 m ρ c (Proc.devRef .tc main_v9) : IVec S3000000x1 32) (ix2 e u) = dstI m ρ c e :=
  (at_ix (keep5 m ρ c main_v9 (by decide)) (ix2 e u)).trans (v9_at5 m ρ c e u)
theorem v2_at6 (n : Fin 150528) (d : Fin 64) : (W6 m ρ c (Proc.devRef .tc main_v2) : S150528x64.Idx → EReal) (ix2 n d) = tabI0 m ρ c n d :=
  (at_ix ((keep5 m ρ c main_v2 (by decide)).trans ((keep4 m ρ c main_v2 (by decide)).trans ((keep3 m ρ c main_v2 (by decide)).trans (keep2 m ρ c main_v2 (by decide))))) (ix2 n d)).trans (v2_at2 m ρ c n d)

theorem v18_at7 (n : Fin 150528) (d : Fin 64) :
    (W7 m ρ c (Proc.devRef .tc main_v18) : S150528x64.Idx → EReal) (ix2 n d) = tabI1 m ρ c n d :=
  (at_ix (W7_arr m ρ c 3) (ix2 n d)).trans ((scatter1_value (fun c b => W6 m ρ c b) c n d).trans
    (layer_of_parts _ _ _ _ (fun e => v9_at6 m ρ c e 0) (fun e d => v17_at6 m ρ c e d) (fun n d => v2_at6 m ρ c n d) n d))

theorem v6_at8 (e : Fin 3000000) (u : Fin 1) : (W8 m ρ c (Proc.devRef .tc main_v6) : IVec S3000000x1 32) (ix2 e u) = srcI m ρ c e :=
  (at_ix ((keep7 m ρ c main_v6 (by decide)).trans ((keep6 m ρ c main_v6 (by decide)).trans (keep5 m ρ c main_v6 (by decide)))) (ix2 e u)).trans (v6_at5 m ρ c e u)
theorem v19_at8 (n : Fin 150528) (d : Fin 64) : (W8 m ρ c (Proc.devRef .tc main_v19) : S150528x64.Idx → EReal) (ix2 n d) = tabI1 m ρ c n d :=
  (at_ix (host_v19 (W7 m ρ c)) (ix2 n d)).trans (v18_at7 m ρ c n d)

theorem v20_at9 (e : Fin 3000000) (d : Fin 64) :
    (W9 m ρ c (Proc.devRef .tc main_v20) : S3000000x64.Idx → EReal) (ix2 e d) = Cert.Spec.msg Cert.Spec.nP (srcI m ρ c) (wI m ρ c) (tabI1 m ρ c) e d :=
  (at_ix (W9_arr m ρ c 3) (ix2 e d)).trans ((gather2_value (fun c b => W8 m ρ c b) c e d).trans
    (msg_congr (fun e => v6_at8 m ρ c e 0) (fun e => at_ix (arg1_at8 m ρ c) (ix2 e (0 : Fin 1))) (fun n d => v19_at8 m ρ c n d) e d))
theorem v9_at9 (e : Fin 3000000) (u : Fin 1) : (W9 m ρ c (Proc.devRef .tc main_v9) : IVec S3000000x1 32) (ix2 e u) = dstI m ρ c e :=
  (at_ix ((keep8 m ρ c main_v9 (by decide)).trans ((keep7 m ρ c main_v9 (by decide)).trans ((keep6 m ρ c main_v9 (by decide)).trans (keep5 m ρ c main_v9 (by decide))))) (ix2 e u)).trans (v9_at5 m ρ c e u)
theorem v18_at9 (n : Fin 150528) (d : Fin 64) : (W9 m ρ c (Proc.devRef .tc main_v18) : S150528x64.Idx → EReal) (ix2 n d) = tabI1 m ρ c n d :=
  (at_ix ((keep8 m ρ c main_v18 (by decide)).trans (keep7 m ρ c main_v18 (by decide))) (ix2 n d)).trans (v18_at7 m ρ c n d)

theorem v21_at10 (n : Fin 150528) (d : Fin 64) :
    (W10 m ρ c (Proc.devRef .tc main_v21) : S150528x64.Idx → EReal) (ix2 n d) = tabI2 m ρ c n d :=
  (at_ix (W10_arr m ρ c 3) (ix2 n d)).trans ((scatter3_value (fun c b => W9 m ρ c b) c n d).trans
    (layer_of_parts _ _ _ _ (fun e => v9_at9 m ρ c e 0) (fun e d => v20_at9 m ρ c e d) (fun n d => v18_at9 m ρ c n d) n d))

theorem v6_at11 (e : Fin 3000000) (u : Fin 1) : (W11 m ρ c (Proc.devRef .tc main_v6) : IVec S3000000x1 32) (ix2 e u) = srcI m ρ c e :=
  (at_ix ((keep10 m ρ c main_v6 (by decide)).trans ((keep9 m ρ c main_v6 (by decide)).trans ((keep8 m ρ c main_v6 (by decide)).trans ((keep7 m ρ c main_v6 (by decide)).trans ((keep6 m ρ c main_v6 (by decide)).trans (keep5 m ρ c main_v6 (by decide))))))) (ix2 e u)).trans (v6_at5 m ρ c e u)
theorem v22_at11 (n : Fin 150528) (d : Fin 64) : (W11 m ρ c (Proc.devRef .tc main_v22) : S150528x64.Idx → EReal) (ix2 n d) = tabI2 m ρ c n d :=
  (at_ix (host_v22 (W10 m ρ c)) (ix2 n d)).trans (v21_at10 m ρ c n d)

theorem v23_at12 (e : Fin 3000000) (d : Fin 64) :
    (W12 m ρ c (Proc.devRef .tc main_v23) : S3000000x64.Idx → EReal) (ix2 e d) = Cert.Spec.msg Cert.Spec.nP (srcI m ρ c) (wI m ρ c) (tabI2 m ρ c) e d :=
  (at_ix (W12_arr m ρ c 3) (ix2 e d)).trans ((gather4_value (fun c b => W11 m ρ c b) c e d).trans
    (msg_congr (fun e => v6_at11 m ρ c e 0) (fun e => at_ix (arg1_at11 m ρ c) (ix2 e (0 : Fin 1))) (fun n d => v22_at11 m ρ c n d) e d))
theorem v9_at12 (e : Fin 3000000) (u : Fin 1) : (W12 m ρ c (Proc.devRef .tc main_v9) : IVec S3000000x1 32) (ix2 e u) = dstI m ρ c e :=
  (at_ix ((keep11 m ρ c main_v9 (by decide)).trans ((keep10 m ρ c main_v9 (by decide)).trans ((keep9 m ρ c main_v9 (by decide)).trans ((keep8 m ρ c main_v9 (by decide)).trans ((keep7 m ρ c main_v9 (by decide)).trans ((keep6 m ρ c main_v9 (by decide)).trans (keep5 m ρ c main_v9 (by decide)))))))) (ix2 e u)).trans (v9_at5 m ρ c e u)
theorem v21_at12 (n : Fin 150528) (d : Fin 64) : (W12 m ρ c (Proc.devRef .tc main_v21) : S150528x64.Idx → EReal) (ix2 n d) = tabI2 m ρ c n d :=
  (at_ix ((keep11 m ρ c main_v21 (by decide)).trans (keep10 m ρ c main_v21 (by decide))) (ix2 n d)).trans (v21_at10 m ρ c n d)

theorem v24_at13 (n : Fin 150528) (d : Fin 64) :
    (W13 m ρ c (Proc.devRef .tc main_v24) : S150528x64.Idx → EReal) (ix2 n d) = tabI3 m ρ c n d :=
  (at_ix (W13_arr m ρ c 3) (ix2 n d)).trans ((scatter5_value (fun c b => W12 m ρ c b) c n d).trans
    (layer_of_parts _ _ _ _ (fun e => v9_at12 m ρ c e 0) (fun e d => v23_at12 m ρ c e d) (fun n d => v21_at12 m ρ c n d) n d))

theorem v24_at22 (n : Fin 150528) (d : Fin 64) : (W22 m ρ c (Proc.devRef .tc main_v24) : S150528x64.Idx → EReal) (ix2 n d) = tabI3 m ρ c n d :=
  (at_ix ((keep21 m ρ c main_v24 (by decide)).trans ((keep20 m ρ c main_v24 (by decide)).trans ((keep19 m ρ c main_v24 (by decide)).trans ((keep18 m ρ c main_v24 (by decide)).trans ((keep17 m ρ c main_v24 (by decide)).trans ((keep16 m ρ c main_v24 (by decide)).trans ((keep15 m ρ c main_v24 (by decide)).trans ((keep14 m ρ c main_v24 (by decide)).trans (keep13 m ρ c main_v24 (by decide)))))))))) (ix2 n d)).trans (v24_at13 m ρ c n d)

end Cert.KernelIdeal.Hand
-- ==== Proof.KI.G6.Value.Blocks.lean ====
import proofs.«406629_j10943576670300_1_alg».proof.Proof.KI.G6.Frame
import Idealize.ShloMosaic.Lib.ValueIdx
import Idealize.ShloMosaic.Lib.Pipeline.Value

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem iblk6_0_apply (c : Dev nD) (t : Fin cfg6.N) (e' : Fin 8000) (e : Fin 3000000)
    (he : e.val = t.val / 147 % 375 * 8000 + e'.val) :
    (iblk6 V c 0 t : Vec F S8000x1 .i32) (ix2 e' 0) = (V c (Pipeline.arrRef spec6 0) : S3000000x1.Idx → Elt F .i32) (ix2 e 0) := by
  rw [iblk6_eq, View.read_apply]
  refine congrArg (V c (Pipeline.arrRef spec6 0) : S3000000x1.Idx → Elt F .i32) ?_
  have hi := index6_0 t
  funext a; apply Fin.ext
  match a with
  | ⟨0, _⟩ =>
    show win6_0.index t 0 * 8000 + 1 * e'.val = e.val
    rw [hi, he]; simp only [Matrix.cons_val_zero]; omega
  | ⟨1, _⟩ =>
    show win6_0.index t 1 * 1 + 1 * 0 = 0
    rw [hi]; rfl

theorem iblk6_1_apply (c : Dev nD) (t : Fin cfg6.N) (e' : Fin 8000) (e : Fin 3000000)
    (he : e.val = t.val / 147 % 375 * 8000 + e'.val) :
    (iblk6 V c 1 t : Vec F S8000x1 .f32) (ix2 e' 0) = (V c (Pipeline.arrRef spec6 1) : S3000000x1.Idx → Elt F .f32) (ix2 e 0) := by
  rw [iblk6_eq, View.read_apply]
  refine congrArg (V c (Pipeline.arrRef spec6 1) : S3000000x1.Idx → Elt F .f32) ?_
  have hi := index6_1 t
  funext a; apply Fin.ext
  match a with
  | ⟨0, _⟩ =>
    show win6_1.index t 0 * 8000 + 1 * e'.val = e.val
    rw [hi, he]; simp only [Matrix.cons_val_zero]; omega
  | ⟨1, _⟩ =>
    show win6_1.index t 1 * 1 + 1 * 0 = 0
    rw [hi]; rfl

end Cert.KernelIdeal.Hand
end
-- ==== Proof.KI.G6.Value.Acc.lean ====
import proofs.«406629_j10943576670300_1_alg».proof.Proof.KI.G0.Value.Pay
import proofs.«406629_j10943576670300_1_alg».proof.Proof.KI.G6.Value.Blocks
import proofs.«406629_j10943576670300_1_alg».proof.Proof.Spec

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev srcW6 (c : Dev nD) (e : Fin 3000000) : BitVec 32 := (V c (Pipeline.arrRef spec6 0) : IVec S3000000x1 32) (ix2 e 0)
abbrev wgt6 (c : Dev nD) (e : Fin 3000000) : EReal := (V c (Pipeline.arrRef spec6 1) : S3000000x1.Idx → EReal) (ix2 e 0)
abbrev tab6 (c : Dev nD) (n : Fin 150528) (d : Fin 64) : EReal := (V c (Pipeline.arrRef spec6 2) : S150528x64.Idx → EReal) (ix2 n d)

theorem acc6_step (c : Dev nD) (n : ℕ) (hn : n < cfg6.N) (e' : Fin 8000) (d : Fin 64) (e : Fin 3000000)
    (he : e.val = n / 147 % 375 * 8000 + e'.val) (prev : Vec Ideal S8000x64 .f32)
    (hprev : (prev (ix2 e' d) : EReal) = if h : (srcW6 V c e).toNat < n % 147 * 1024 then tab6 V c ⟨(srcW6 V c e).toNat, by omega⟩ d else 0) :
    (k0_pay2 (grid6.coords ⟨n, hn⟩) (iblk6 V c 0 ⟨n, hn⟩) (xs6 V c ⟨n, hn⟩) prev (ix2 e' d) : EReal)
      = if h : (srcW6 V c e).toNat < (n % 147 + 1) * 1024 then tab6 V c ⟨(srcW6 V c e).toNat, by omega⟩ d else 0 := by
  have hk1 : (grid6.coords ⟨n, hn⟩ 1).val = n % 147 := coords6_1 _
  refine (k0_pay2_apply (grid6.coords ⟨n, hn⟩) (by rw [hk1]; omega) _ _ _ e' d).trans ?_
  rw [iblk6_0_apply V c ⟨n, hn⟩ e' e he, hk1]
  exact gather_step (n % 147) (by omega) (srcW6 V c e).toNat (fun m => tab6 V c m d) (fun j => (xs6 V c ⟨n, hn⟩ (ix2 j d) : EReal))
    (fun j m hm => xs6_apply V c ⟨n, hn⟩ j d m (by rw [hk1]; exact hm)) _ hprev

theorem acc6_value (c : Dev nD) : ∀ (n : ℕ) (hn : n < cfg6.N) (e' : Fin 8000) (d : Fin 64) (e : Fin 3000000)
    (he : e.val = n / 147 % 375 * 8000 + e'.val),
    (((outsAt6 V c n hn).2 : Vec Ideal S8000x64 .f32) (ix2 e' d) : EReal)
      = if h : (srcW6 V c e).toNat < (n % 147 + 1) * 1024 then tab6 V c ⟨(srcW6 V c e).toNat, by omega⟩ d else 0 := by
  intro n
  induction n using Nat.strong_induction_on with
  | _ n ih =>
    intro hn e' d e he
    have hk1 : (grid6.coords ⟨n, hn⟩ 1).val = n % 147 := coords6_1 _
    by_cases hk : n % 147 = 0
    · have h := acc6_first V c ⟨n, hn⟩ (hk1.trans hk)
      refine (congrFun h (ix2 e' d)).trans ?_
      refine acc6_step V c n hn e' d e he _ ?_
      rw [k0_pay1_apply, dif_neg (by omega)]
    · have h := acc6_next V c ⟨n, hn⟩ (by rw [hk1]; exact hk)
      refine (congrFun h (ix2 e' d)).trans ?_
      refine acc6_step V c n hn e' d e he _ ?_
      have hn' : n - 1 < cfg6.N := by omega
      refine (ih (n - 1) (by omega) hn' e' d e (by rw [he]; congr 2; omega)).trans ?_
      by_cases hs : (srcW6 V c e).toNat < n % 147 * 1024
      · rw [dif_pos hs, dif_pos (by omega)]
      · rw [dif_neg hs, dif_neg (by omega)]

theorem out6_value (c : Dev nD) (n : ℕ) (hn : n < cfg6.N) (hk : n % 147 = 146) (e' : Fin 8000) (d : Fin 64) (e : Fin 3000000)
    (he : e.val = n / 147 % 375 * 8000 + e'.val) :
    (((outsAt6 V c n hn).1 : Vec Ideal S8000x64 .bf16) (ix2 e' d) : EReal)
      = Cert.Spec.msg 150528 (srcW6 V c) (wgt6 V c) (tab6 V c) e d := by
  have hk1 : (grid6.coords ⟨n, hn⟩ 1).val = n % 147 := coords6_1 _
  have h := out6_last V c ⟨n, hn⟩ (hk1.trans hk)
  refine (congrFun h (ix2 e' d)).trans ?_
  refine (k0_pay3_apply _ _ e' d).trans ?_
  rw [iblk6_1_apply V c ⟨n, hn⟩ e' e he]
  refine congrArg (fun z : EReal => z * wgt6 V c e) ?_
  refine (acc6_value V c n hn e' d e he).trans ?_
  by_cases hs : (srcW6 V c e).toNat < 150528
  · rw [dif_pos hs, dif_pos (by omega)]
  · rw [dif_neg hs, dif_neg (by omega)]

end Cert.KernelIdeal.Hand
end
-- ==== Proof.KI.G6.Value.lean ====
import proofs.«406629_j10943576670300_1_alg».proof.Proof.KI.G6.Value.Acc

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev msgs6 (c : Dev nD) : S3000000x64.Idx → EReal := fun i =>
  Cert.Spec.msg 150528 (srcW6 V c) (wgt6 V c) (tab6 V c) (i 0) (i 1)

theorem flushed6_3_eq (c : Dev nD) (t : Fin cfg6.N) (hf : (cfg6.win 3).flush t = true) :
    (dat6 V c).flushed 3 t = ((cfg6.win 3).blk t).view.read (Elt Ideal) (msgs6 V c) := by
  have hk : t.val % 147 = 146 := (flush6_3 t).mp hf
  have hN : t.val < 55125 := lt_of_lt_of_eq t.isLt N_6
  show (cfg6.win 3).cut (grid6.coords t) ((dat6 V c).after 3 t) = _
  rw [after6_3]
  funext y
  obtain ⟨e', d, rfl⟩ : ∃ (e' : Fin 8000) (d : Fin 64), y = ix2 e' d := ⟨y 0, y 1, eq_ix2 y⟩
  rw [View.read_apply]
  have hi := index6_3 t
  show (((outsAt6 V c t.val t.isLt).1 : Vec Ideal S8000x64 .bf16) (ix2 e' d) : EReal) = msgs6 V c (((cfg6.win 3).blk t).view.emb (ix2 e' d))
  rw [out6_value V c t.val t.isLt hk e' d ⟨t.val / 147 % 375 * 8000 + e'.val, by omega⟩ rfl]
  have h0 : (⟨t.val / 147 % 375 * 8000 + e'.val, by omega⟩ : Fin 3000000) = (((cfg6.win 3).blk t).view.emb (ix2 e' d) : S3000000x64.Idx) 0 := by
    apply Fin.ext
    show t.val / 147 % 375 * 8000 + e'.val = win6_3.index t 0 * 8000 + 1 * e'.val
    rw [hi]; simp only [Matrix.cons_val_zero]; omega
  have h1 : d = (((cfg6.win 3).blk t).view.emb (ix2 e' d) : S3000000x64.Idx) 1 := by
    apply Fin.ext
    show d.val = win6_3.index t 1 * 64 + 1 * d.val
    rw [hi]; simp only [Matrix.cons_val_one, Matrix.cons_val_zero]; omega
  exact congrArg₂ (Cert.Spec.msg 150528 (srcW6 V c) (wgt6 V c) (tab6 V c)) h0 h1

theorem cover6_3 (i : S3000000x64.Idx) :
    ∃ t : Fin cfg6.N, (cfg6.win 3).flush t = true ∧ i ∈ ((cfg6.win 3).blk t).view.set := by
  have h0 : (i 0).val < 3000000 := (i 0).isLt
  have h1 : (i 1).val < 64 := (i 1).isLt
  let t : Fin cfg6.N := ⟨(i 0).val / 8000 * 147 + 146, by rw [show cfg6.N = 55125 from N_6]; omega⟩
  have ht : t.val = (i 0).val / 8000 * 147 + 146 := rfl
  refine ⟨t, (flush6_3 t).mpr (by rw [ht]; omega), ?_⟩
  have hset : ((cfg6.win 3).blk t).view.set = (win6_3.rect t).set := View.set_slice_whole _ _
  rw [hset, Rect.mem_set_unit]
  have hi := index6_3 t
  intro a
  match a with
  | ⟨0, _⟩ =>
    show win6_3.index t 0 * 8000 ≤ (i 0).val ∧ (i 0).val < win6_3.index t 0 * 8000 + 8000
    rw [hi]; simp only [Matrix.cons_val_zero]; rw [ht]; omega
  | ⟨1, _⟩ =>
    show win6_3.index t 1 * 64 ≤ (i 1).val ∧ (i 1).val < win6_3.index t 1 * 64 + 64
    rw [hi]; simp only [Matrix.cons_val_one, Matrix.cons_val_zero]; omega

theorem final6_3 (c : Dev nD) : (dat6 V c).arrAt 3 cfg6.N = msgs6 V c :=
  (dat6 V c).arrAt_eq_of_cover 3 (msgs6 V c) (flushed6_3_eq V c) (cover6_3)

theorem gather6_value (c : Dev nD) (e : Fin 3000000) (d : Fin 64) :
    ((dat6 (F := Ideal) V c).arrAt 3 cfg6.N : S3000000x64.Idx → EReal) (ix2 e d)
      = Cert.Spec.msg 150528 (fun e => (V c (Pipeline.arrRef spec6 0) : IVec S3000000x1 32) (ix2 e 0)) (fun e => (V c (Pipeline.arrRef spec6 1) : S3000000x1.Idx → EReal) (ix2 e 0))
          (fun n d => (V c (Pipeline.arrRef spec6 2) : S150528x64.Idx → EReal) (ix2 n d)) e d := by
  rw [final6_3]

end Cert.KernelIdeal.Hand
end
-- ==== Proof.KI.S7.Value.lean ====
import proofs.«406629_j10943576670300_1_alg».proof.Proof.KI.S7.Frame
import proofs.«406629_j10943576670300_1_alg».proof.Proof.KI.S1.Value.Fold
import Idealize.ShloMosaic.Lib.Pipeline.Value

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev dstArr7 (c : Dev nD) : Fin 3000000 → BitVec 32 := fun e => (V c (Pipeline.arrRef spec7 0) : IVec S3000000x1 32) (ix2 e 0)
abbrev msgArr7 (c : Dev nD) : Fin 3000000 → Fin 64 → EReal := fun e d => (V c (Pipeline.arrRef spec7 1) : S3000000x64.Idx → EReal) (ix2 e d)
abbrev egoArr7 (c : Dev nD) : Fin 150528 → Fin 64 → EReal := fun n d => (V c (Pipeline.arrRef spec7 2) : S150528x64.Idx → EReal) (ix2 n d)

abbrev dstBlk7 (c : Dev nD) (t : Fin cfg7.N) : Vec Ideal S8000x1 .i32 := iblk7 V c 0 t
abbrev msgBlk7 (c : Dev nD) (t : Fin cfg7.N) : Vec Ideal S8000x64 .bf16 := iblk7 V c 1 t
abbrev egoBlk7 (c : Dev nD) (t : Fin cfg7.N) : Vec Ideal S1024x64 .f32 := iblk7 V c 2 t

theorem dstBlk7_apply (c : Dev nD) (t : Fin cfg7.N) (a : Fin 375) (ha : a.val = t.val % 375) (b : Fin 8000) :
    dstBlk7 V c t (ix2 b 0) = dstArr7 V c (tileEdge a b) := by
  show iblk7 V c 0 t (ix2 b 0) = _
  unfold iblk7
  rw [View.read_apply]
  show (V c (Pipeline.arrRef spec7 0) : IVec S3000000x1 32) (((cfg7.win 0).blk t).view.emb (ix2 b 0))
    = (V c (Pipeline.arrRef spec7 0) : IVec S3000000x1 32) (ix2 (tileEdge a b) 0)
  refine congrArg _ (funext fun x => Fin.ext ?_)
  match x with
  | ⟨0, _⟩ =>
    show win7_0.index t 0 * 8000 + 1 * b.val = a.val * 8000 + b.val
    rw [congrFun (GenP.index7_0 t) 0, ha]
    show t.val % 375 * 8000 + 1 * b.val = _
    omega
  | ⟨1, _⟩ =>
    show win7_0.index t 1 * 1 + 1 * 0 = 0
    rw [congrFun (GenP.index7_0 t) 1]
    rfl

theorem msgBlk7_apply (c : Dev nD) (t : Fin cfg7.N) (a : Fin 375) (ha : a.val = t.val % 375) (b : Fin 8000) (d : Fin 64) :
    msgBlk7 V c t (ix2 b d) = msgArr7 V c (tileEdge a b) d := by
  show iblk7 V c 1 t (ix2 b d) = _
  unfold iblk7
  rw [View.read_apply]
  show (V c (Pipeline.arrRef spec7 1) : S3000000x64.Idx → EReal) (((cfg7.win 1).blk t).view.emb (ix2 b d))
    = (V c (Pipeline.arrRef spec7 1) : S3000000x64.Idx → EReal) (ix2 (tileEdge a b) d)
  refine congrArg _ (funext fun x => Fin.ext ?_)
  match x with
  | ⟨0, _⟩ =>
    show win7_1.index t 0 * 8000 + 1 * b.val = a.val * 8000 + b.val
    rw [congrFun (GenP.index7_1 t) 0, ha]
    show t.val % 375 * 8000 + 1 * b.val = _
    omega
  | ⟨1, _⟩ =>
    show win7_1.index t 1 * 64 + 1 * d.val = d.val
    rw [congrFun (GenP.index7_1 t) 1]
    show 0 * 64 + 1 * d.val = d.val
    omega

theorem egoBlk7_apply (c : Dev nD) (t : Fin cfg7.N) (n : Fin 1024) (d : Fin 64) (N : Fin 150528)
    (hN : N.val = t.val / 375 * 1024 + n.val) :
    egoBlk7 V c t (ix2 n d) = egoArr7 V c N d := by
  have hT : t.val < 55125 := lt_of_lt_of_eq t.isLt (show cfg7.N = 55125 from N_7)
  show iblk7 V c 2 t (ix2 n d) = _
  unfold iblk7
  rw [View.read_apply]
  show (V c (Pipeline.arrRef spec7 2) : S150528x64.Idx → EReal) (((cfg7.win 2).blk t).view.emb (ix2 n d))
    = (V c (Pipeline.arrRef spec7 2) : S150528x64.Idx → EReal) (ix2 N d)
  refine congrArg _ (funext fun x => Fin.ext ?_)
  match x with
  | ⟨0, _⟩ =>
    show win7_2.index t 0 * 1024 + 1 * n.val = N.val
    rw [congrFun (GenP.index7_2 t) 0, hN]
    show t.val / 375 % 147 * 1024 + 1 * n.val = _
    have : t.val / 375 % 147 = t.val / 375 := Nat.mod_eq_of_lt (by omega)
    omega
  | ⟨1, _⟩ =>
    show win7_2.index t 1 * 64 + 1 * d.val = d.val
    rw [congrFun (GenP.index7_2 t) 1]
    show 0 * 64 + 1 * d.val = d.val
    omega

theorem acc7_step (c : Dev nD) (t : Fin cfg7.N) (prev : Vec Ideal S1024x64 .f32) (n : Fin 1024) (d : Fin 64)
    (hprev : prev (ix2 n d) = upto (tileSum (dstArr7 V c) (msgArr7 V c) (t.val / 375 * 1024 + n.val) d) (t.val % 375)) :
    k1_pay2 (grid7.coords t) (iblk7 V c 0 t) (iblk7 V c 1 t) prev (ix2 n d)
      = upto (tileSum (dstArr7 V c) (msgArr7 V c) (t.val / 375 * 1024 + n.val) d) (t.val % 375 + 1) := by
  have hi : (grid7.coords t 0).val = t.val / 375 := coords7_0 t
  have s := pay2_step (dstArr7 V c) (msgArr7 V c) (grid7.coords t) ⟨t.val % 375, Nat.mod_lt _ (by decide)⟩
    (dstBlk7 V c t) (msgBlk7 V c t) prev
    (fun b => dstBlk7_apply V c t ⟨t.val % 375, Nat.mod_lt _ (by decide)⟩ rfl b)
    (fun b d => msgBlk7_apply V c t ⟨t.val % 375, Nat.mod_lt _ (by decide)⟩ rfl b d) n d
    (by rw [hi]; exact hprev)
  rw [hi] at s
  exact s

theorem acc7_eq (c : Dev nD) (m : ℕ) : ∀ (h : m < cfg7.N) (n : Fin 1024) (d : Fin 64),
    (outsAt7 V c m h).2 (ix2 n d)
      = upto (tileSum (dstArr7 V c) (msgArr7 V c) (m / 375 * 1024 + n.val) d) (m % 375 + 1) := by
  induction m using Nat.strong_induction_on with
  | _ m ih =>
    intro h n d
    by_cases h0 : m % 375 = 0
    · have hk : (grid7.coords (⟨m, h⟩ : Fin cfg7.N) 1).val = 0 := (coords7_1 ⟨m, h⟩).trans h0
      refine (congrFun (acc7_first V c ⟨m, h⟩ hk) (ix2 n d)).trans ?_
      refine acc7_step V c ⟨m, h⟩ (k1_pay1 (F := Ideal)) n d ?_
      show (k1_pay1 (F := Ideal)) (ix2 n d) = upto _ (m % 375)
      rw [h0]
      exact pay1_start (dstArr7 V c) (msgArr7 V c) (m / 375 * 1024 + n.val) n d
    · have hk : (grid7.coords (⟨m, h⟩ : Fin cfg7.N) 1).val ≠ 0 := fun e => h0 ((coords7_1 ⟨m, h⟩).symm.trans e)
      refine (congrFun (acc7_next V c ⟨m, h⟩ hk) (ix2 n d)).trans ?_
      refine acc7_step V c ⟨m, h⟩ _ n d ?_
      have e := ih (m - 1) (by omega) (by omega) n d
      have e1 : (m - 1) / 375 = m / 375 := by omega
      have e2 : (m - 1) % 375 + 1 = m % 375 := by omega
      rw [e1, e2] at e
      exact e

theorem out7_eq (c : Dev nD) (t : Fin cfg7.N) (hk : t.val % 375 = 374) (n : Fin 1024) (d : Fin 64) (N : Fin 150528)
    (hN : N.val = t.val / 375 * 1024 + n.val) :
    (outsAt7 V c t.val t.isLt).1 (ix2 n d)
      = Cert.Spec.agg 150528 (dstArr7 V c) (msgArr7 V c) N d + Cert.Spec.half * egoArr7 V c N d := by
  have hk' : (grid7.coords t 1).val = 374 := (coords7_1 t).trans hk
  refine (congrFun (out7_last V c t hk') (ix2 n d)).trans ?_
  refine (pay3_out (outsAt7 V c t.val t.isLt).2 (iblk7 V c 2 t) (ix2 n d)).trans ?_
  have ha : (outsAt7 V c t.val t.isLt).2 (ix2 n d) = Cert.Spec.agg 150528 (dstArr7 V c) (msgArr7 V c) N d := by
    rw [acc7_eq V c t.val t.isLt n d, agg_eq_upto, hk, hN]
  have he : iblk7 V c 2 t (ix2 n d) = egoArr7 V c N d := egoBlk7_apply V c t n d N hN
  rw [ha, he]

abbrev res7 (c : Dev nD) : S150528x64.Idx → EReal := fun j =>
  Cert.Spec.agg 150528 (dstArr7 V c) (msgArr7 V c) (j 0) (j 1) + Cert.Spec.half * egoArr7 V c (j 0) (j 1)

theorem cut7_3_eq (t : Fin cfg7.N) (X : Vec Ideal S1024x64 .f32) (G : S150528x64.Idx → EReal)
    (hX : ∀ (n : Fin 1024) (d : Fin 64) (N : Fin 150528), N.val = t.val / 375 * 1024 + n.val → X (ix2 n d) = G (ix2 N d)) :
    (cfg7.win 3).cut (grid7.coords t) X = ((cfg7.win 3).blk t).view.read (Elt Ideal) G := by
  have hT : t.val < 55125 := lt_of_lt_of_eq t.isLt (show cfg7.N = 55125 from N_7)
  funext j
  obtain ⟨n, d, rfl⟩ : ∃ (n : Fin 1024) (d : Fin 64), j = ix2 n d := ⟨j 0, j 1, eq_ix2 j⟩
  rw [View.read_apply]
  have hemb : ((cfg7.win 3).blk t).view.emb (ix2 n d)
      = ix2 (⟨t.val / 375 * 1024 + n.val, by have := n.isLt; omega⟩ : Fin 150528) d := by
    funext x
    apply Fin.ext
    match x with
    | ⟨0, _⟩ =>
      show win7_3.index t 0 * 1024 + 1 * n.val = t.val / 375 * 1024 + n.val
      rw [congrFun (GenP.index7_3 t) 0]
      show t.val / 375 % 147 * 1024 + 1 * n.val = _
      have : t.val / 375 % 147 = t.val / 375 := Nat.mod_eq_of_lt (by omega)
      omega
    | ⟨1, _⟩ =>
      show win7_3.index t 1 * 64 + 1 * d.val = d.val
      rw [congrFun (GenP.index7_3 t) 1]
      show 0 * 64 + 1 * d.val = d.val
      omega
  show X (ix2 n d) = G (((cfg7.win 3).blk t).view.emb (ix2 n d))
  rw [hemb]
  exact hX n d _ rfl

theorem flushed7_3_eq (c : Dev nD) (t : Fin cfg7.N) (hf : (cfg7.win 3).flush t = true) :
    (dat7 V c).flushed 3 t = ((cfg7.win 3).blk t).view.read (Elt Ideal) (res7 V c) := by
  have hk : t.val % 375 = 374 := (GenP.flush7_3 t).mp hf
  show (cfg7.win 3).cut (grid7.coords t) ((dat7 V c).after 3 t) = _
  rw [after7_3]
  exact cut7_3_eq t (outsAt7 V c t.val t.isLt).1 (res7 V c) (fun n d N hN => out7_eq V c t hk n d N hN)

theorem cover7_3 (i : S150528x64.Idx) :
    ∃ t : Fin cfg7.N, (cfg7.win 3).flush t = true ∧ i ∈ ((cfg7.win 3).blk t).view.set := by
  have h0 : (i 0).val < 150528 := (i 0).isLt
  have h1 : (i 1).val < 64 := (i 1).isLt
  have hN : cfg7.N = 55125 := N_7
  obtain ⟨t, ht⟩ : ∃ t : Fin cfg7.N, t.val = (i 0).val / 1024 * 375 + 374 :=
    ⟨⟨(i 0).val / 1024 * 375 + 374, by rw [hN]; omega⟩, rfl⟩
  refine ⟨t, (GenP.flush7_3 t).mpr (by rw [ht]; omega), ?_⟩
  have hset : ((cfg7.win 3).blk t).view.set = (win7_3.rect t).set := View.set_slice_whole _ _
  rw [hset, Rect.mem_set_unit]
  have hi0 : win7_3.index t 0 = t.val / 375 % 147 := congrFun (GenP.index7_3 t) 0
  have hi1 : win7_3.index t 1 = 0 := congrFun (GenP.index7_3 t) 1
  intro a
  match a with
  | ⟨0, _⟩ =>
    show win7_3.index t 0 * 1024 ≤ (i 0).val ∧ (i 0).val < win7_3.index t 0 * 1024 + 1024
    rw [hi0, ht]
    omega
  | ⟨1, _⟩ =>
    show win7_3.index t 1 * 64 ≤ (i 1).val ∧ (i 1).val < win7_3.index t 1 * 64 + 64
    rw [hi1]
    omega

theorem scatter7_array (c : Dev nD) : (dat7 V c).arrAt 3 cfg7.N = res7 V c :=
  (dat7 V c).arrAt_eq_of_cover 3 (res7 V c) (flushed7_3_eq V c) cover7_3

theorem scatter7_value (c : Dev nD) (n : Fin 150528) (d : Fin 64) :
    ((dat7 (F := Ideal) V c).arrAt 3 cfg7.N : S150528x64.Idx → EReal) (ix2 n d)
      = Cert.Spec.agg 150528 (fun e => (V c (Pipeline.arrRef spec7 0) : IVec S3000000x1 32) (ix2 e 0))
          (fun e d => (V c (Pipeline.arrRef spec7 1) : S3000000x64.Idx → EReal) (ix2 e d)) n d
        + Cert.Spec.half * (V c (Pipeline.arrRef spec7 2) : S150528x64.Idx → EReal) (ix2 n d) :=
  congrFun (scatter7_array V c) (ix2 n d)

end Cert.KernelIdeal.Hand
end
-- ==== Proof.KI.G8.Value.Blocks.lean ====
import proofs.«406629_j10943576670300_1_alg».proof.Proof.KI.G8.Frame
import Idealize.ShloMosaic.Lib.ValueIdx
import Idealize.ShloMosaic.Lib.Pipeline.Value

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem iblk8_0_apply (c : Dev nD) (t : Fin cfg8.N) (e' : Fin 8000) (e : Fin 3000000)
    (he : e.val = t.val / 147 % 375 * 8000 + e'.val) :
    (iblk8 V c 0 t : Vec F S8000x1 .i32) (ix2 e' 0) = (V c (Pipeline.arrRef spec8 0) : S3000000x1.Idx → Elt F .i32) (ix2 e 0) := by
  rw [iblk8_eq, View.read_apply]
  refine congrArg (V c (Pipeline.arrRef spec8 0) : S3000000x1.Idx → Elt F .i32) ?_
  have hi := index8_0 t
  funext a; apply Fin.ext
  match a with
  | ⟨0, _⟩ =>
    show win8_0.index t 0 * 8000 + 1 * e'.val = e.val
    rw [hi, he]; simp only [Matrix.cons_val_zero]; omega
  | ⟨1, _⟩ =>
    show win8_0.index t 1 * 1 + 1 * 0 = 0
    rw [hi]; rfl

theorem iblk8_1_apply (c : Dev nD) (t : Fin cfg8.N) (e' : Fin 8000) (e : Fin 3000000)
    (he : e.val = t.val / 147 % 375 * 8000 + e'.val) :
    (iblk8 V c 1 t : Vec F S8000x1 .f32) (ix2 e' 0) = (V c (Pipeline.arrRef spec8 1) : S3000000x1.Idx → Elt F .f32) (ix2 e 0) := by
  rw [iblk8_eq, View.read_apply]
  refine congrArg (V c (Pipeline.arrRef spec8 1) : S3000000x1.Idx → Elt F .f32) ?_
  have hi := index8_1 t
  funext a; apply Fin.ext
  match a with
  | ⟨0, _⟩ =>
    show win8_1.index t 0 * 8000 + 1 * e'.val = e.val
    rw [hi, he]; simp only [Matrix.cons_val_zero]; omega
  | ⟨1, _⟩ =>
    show win8_1.index t 1 * 1 + 1 * 0 = 0
    rw [hi]; rfl

end Cert.KernelIdeal.Hand
end
-- ==== Proof.KI.G8.Value.Acc.lean ====
import proofs.«406629_j10943576670300_1_alg».proof.Proof.KI.G0.Value.Pay
import proofs.«406629_j10943576670300_1_alg».proof.Proof.KI.G8.Value.Blocks
import proofs.«406629_j10943576670300_1_alg».proof.Proof.Spec

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev srcW8 (c : Dev nD) (e : Fin 3000000) : BitVec 32 := (V c (Pipeline.arrRef spec8 0) : IVec S3000000x1 32) (ix2 e 0)
abbrev wgt8 (c : Dev nD) (e : Fin 3000000) : EReal := (V c (Pipeline.arrRef spec8 1) : S3000000x1.Idx → EReal) (ix2 e 0)
abbrev tab8 (c : Dev nD) (n : Fin 150528) (d : Fin 64) : EReal := (V c (Pipeline.arrRef spec8 2) : S150528x64.Idx → EReal) (ix2 n d)

theorem acc8_step (c : Dev nD) (n : ℕ) (hn : n < cfg8.N) (e' : Fin 8000) (d : Fin 64) (e : Fin 3000000)
    (he : e.val = n / 147 % 375 * 8000 + e'.val) (prev : Vec Ideal S8000x64 .f32)
    (hprev : (prev (ix2 e' d) : EReal) = if h : (srcW8 V c e).toNat < n % 147 * 1024 then tab8 V c ⟨(srcW8 V c e).toNat, by omega⟩ d else 0) :
    (k0_pay2 (grid8.coords ⟨n, hn⟩) (iblk8 V c 0 ⟨n, hn⟩) (xs8 V c ⟨n, hn⟩) prev (ix2 e' d) : EReal)
      = if h : (srcW8 V c e).toNat < (n % 147 + 1) * 1024 then tab8 V c ⟨(srcW8 V c e).toNat, by omega⟩ d else 0 := by
  have hk1 : (grid8.coords ⟨n, hn⟩ 1).val = n % 147 := coords8_1 _
  refine (k0_pay2_apply (grid8.coords ⟨n, hn⟩) (by rw [hk1]; omega) _ _ _ e' d).trans ?_
  rw [iblk8_0_apply V c ⟨n, hn⟩ e' e he, hk1]
  exact gather_step (n % 147) (by omega) (srcW8 V c e).toNat (fun m => tab8 V c m d) (fun j => (xs8 V c ⟨n, hn⟩ (ix2 j d) : EReal))
    (fun j m hm => xs8_apply V c ⟨n, hn⟩ j d m (by rw [hk1]; exact hm)) _ hprev

theorem acc8_value (c : Dev nD) : ∀ (n : ℕ) (hn : n < cfg8.N) (e' : Fin 8000) (d : Fin 64) (e : Fin 3000000)
    (he : e.val = n / 147 % 375 * 8000 + e'.val),
    (((outsAt8 V c n hn).2 : Vec Ideal S8000x64 .f32) (ix2 e' d) : EReal)
      = if h : (srcW8 V c e).toNat < (n % 147 + 1) * 1024 then tab8 V c ⟨(srcW8 V c e).toNat, by omega⟩ d else 0 := by
  intro n
  induction n using Nat.strong_induction_on with
  | _ n ih =>
    intro hn e' d e he
    have hk1 : (grid8.coords ⟨n, hn⟩ 1).val = n % 147 := coords8_1 _
    by_cases hk : n % 147 = 0
    · have h := acc8_first V c ⟨n, hn⟩ (hk1.trans hk)
      refine (congrFun h (ix2 e' d)).trans ?_
      refine acc8_step V c n hn e' d e he _ ?_
      rw [k0_pay1_apply, dif_neg (by omega)]
    · have h := acc8_next V c ⟨n, hn⟩ (by rw [hk1]; exact hk)
      refine (congrFun h (ix2 e' d)).trans ?_
      refine acc8_step V c n hn e' d e he _ ?_
      have hn' : n - 1 < cfg8.N := by omega
      refine (ih (n - 1) (by omega) hn' e' d e (by rw [he]; congr 2; omega)).trans ?_
      by_cases hs : (srcW8 V c e).toNat < n % 147 * 1024
      · rw [dif_pos hs, dif_pos (by omega)]
      · rw [dif_neg hs, dif_neg (by omega)]

theorem out8_value (c : Dev nD) (n : ℕ) (hn : n < cfg8.N) (hk : n % 147 = 146) (e' : Fin 8000) (d : Fin 64) (e : Fin 3000000)
    (he : e.val = n / 147 % 375 * 8000 + e'.val) :
    (((outsAt8 V c n hn).1 : Vec Ideal S8000x64 .bf16) (ix2 e' d) : EReal)
      = Cert.Spec.msg 150528 (srcW8 V c) (wgt8 V c) (tab8 V c) e d := by
  have hk1 : (grid8.coords ⟨n, hn⟩ 1).val = n % 147 := coords8_1 _
  have h := out8_last V c ⟨n, hn⟩ (hk1.trans hk)
  refine (congrFun h (ix2 e' d)).trans ?_
  refine (k0_pay3_apply _ _ e' d).trans ?_
  rw [iblk8_1_apply V c ⟨n, hn⟩ e' e he]
  refine congrArg (fun z : EReal => z * wgt8 V c e) ?_
  refine (acc8_value V c n hn e' d e he).trans ?_
  by_cases hs : (srcW8 V c e).toNat < 150528
  · rw [dif_pos hs, dif_pos (by omega)]
  · rw [dif_neg hs, dif_neg (by omega)]

end Cert.KernelIdeal.Hand
end
-- ==== Proof.KI.G8.Value.lean ====
import proofs.«406629_j10943576670300_1_alg».proof.Proof.KI.G8.Value.Acc

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev msgs8 (c : Dev nD) : S3000000x64.Idx → EReal := fun i =>
  Cert.Spec.msg 150528 (srcW8 V c) (wgt8 V c) (tab8 V c) (i 0) (i 1)

theorem flushed8_3_eq (c : Dev nD) (t : Fin cfg8.N) (hf : (cfg8.win 3).flush t = true) :
    (dat8 V c).flushed 3 t = ((cfg8.win 3).blk t).view.read (Elt Ideal) (msgs8 V c) := by
  have hk : t.val % 147 = 146 := (flush8_3 t).mp hf
  have hN : t.val < 55125 := lt_of_lt_of_eq t.isLt N_8
  show (cfg8.win 3).cut (grid8.coords t) ((dat8 V c).after 3 t) = _
  rw [after8_3]
  funext y
  obtain ⟨e', d, rfl⟩ : ∃ (e' : Fin 8000) (d : Fin 64), y = ix2 e' d := ⟨y 0, y 1, eq_ix2 y⟩
  rw [View.read_apply]
  have hi := index8_3 t
  show (((outsAt8 V c t.val t.isLt).1 : Vec Ideal S8000x64 .bf16) (ix2 e' d) : EReal) = msgs8 V c (((cfg8.win 3).blk t).view.emb (ix2 e' d))
  rw [out8_value V c t.val t.isLt hk e' d ⟨t.val / 147 % 375 * 8000 + e'.val, by omega⟩ rfl]
  have h0 : (⟨t.val / 147 % 375 * 8000 + e'.val, by omega⟩ : Fin 3000000) = (((cfg8.win 3).blk t).view.emb (ix2 e' d) : S3000000x64.Idx) 0 := by
    apply Fin.ext
    show t.val / 147 % 375 * 8000 + e'.val = win8_3.index t 0 * 8000 + 1 * e'.val
    rw [hi]; simp only [Matrix.cons_val_zero]; omega
  have h1 : d = (((cfg8.win 3).blk t).view.emb (ix2 e' d) : S3000000x64.Idx) 1 := by
    apply Fin.ext
    show d.val = win8_3.index t 1 * 64 + 1 * d.val
    rw [hi]; simp only [Matrix.cons_val_one, Matrix.cons_val_zero]; omega
  exact congrArg₂ (Cert.Spec.msg 150528 (srcW8 V c) (wgt8 V c) (tab8 V c)) h0 h1

theorem cover8_3 (i : S3000000x64.Idx) :
    ∃ t : Fin cfg8.N, (cfg8.win 3).flush t = true ∧ i ∈ ((cfg8.win 3).blk t).view.set := by
  have h0 : (i 0).val < 3000000 := (i 0).isLt
  have h1 : (i 1).val < 64 := (i 1).isLt
  let t : Fin cfg8.N := ⟨(i 0).val / 8000 * 147 + 146, by rw [show cfg8.N = 55125 from N_8]; omega⟩
  have ht : t.val = (i 0).val / 8000 * 147 + 146 := rfl
  refine ⟨t, (flush8_3 t).mpr (by rw [ht]; omega), ?_⟩
  have hset : ((cfg8.win 3).blk t).view.set = (win8_3.rect t).set := View.set_slice_whole _ _
  rw [hset, Rect.mem_set_unit]
  have hi := index8_3 t
  intro a
  match a with
  | ⟨0, _⟩ =>
    show win8_3.index t 0 * 8000 ≤ (i 0).val ∧ (i 0).val < win8_3.index t 0 * 8000 + 8000
    rw [hi]; simp only [Matrix.cons_val_zero]; rw [ht]; omega
  | ⟨1, _⟩ =>
    show win8_3.index t 1 * 64 ≤ (i 1).val ∧ (i 1).val < win8_3.index t 1 * 64 + 64
    rw [hi]; simp only [Matrix.cons_val_one, Matrix.cons_val_zero]; omega

theorem final8_3 (c : Dev nD) : (dat8 V c).arrAt 3 cfg8.N = msgs8 V c :=
  (dat8 V c).arrAt_eq_of_cover 3 (msgs8 V c) (flushed8_3_eq V c) (cover8_3)

theorem gather8_value (c : Dev nD) (e : Fin 3000000) (d : Fin 64) :
    ((dat8 (F := Ideal) V c).arrAt 3 cfg8.N : S3000000x64.Idx → EReal) (ix2 e d)
      = Cert.Spec.msg 150528 (fun e => (V c (Pipeline.arrRef spec8 0) : IVec S3000000x1 32) (ix2 e 0)) (fun e => (V c (Pipeline.arrRef spec8 1) : S3000000x1.Idx → EReal) (ix2 e 0))
          (fun n d => (V c (Pipeline.arrRef spec8 2) : S150528x64.Idx → EReal) (ix2 n d)) e d := by
  rw [final8_3]

end Cert.KernelIdeal.Hand
end
-- ==== Proof.KI.S9.Value.lean ====
import proofs.«406629_j10943576670300_1_alg».proof.Proof.KI.S9.Frame
import proofs.«406629_j10943576670300_1_alg».proof.Proof.KI.S1.Value.Fold
import Idealize.ShloMosaic.Lib.Pipeline.Value

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev dstArr9 (c : Dev nD) : Fin 3000000 → BitVec 32 := fun e => (V c (Pipeline.arrRef spec9 0) : IVec S3000000x1 32) (ix2 e 0)
abbrev msgArr9 (c : Dev nD) : Fin 3000000 → Fin 64 → EReal := fun e d => (V c (Pipeline.arrRef spec9 1) : S3000000x64.Idx → EReal) (ix2 e d)
abbrev egoArr9 (c : Dev nD) : Fin 150528 → Fin 64 → EReal := fun n d => (V c (Pipeline.arrRef spec9 2) : S150528x64.Idx → EReal) (ix2 n d)

abbrev dstBlk9 (c : Dev nD) (t : Fin cfg9.N) : Vec Ideal S8000x1 .i32 := iblk9 V c 0 t
abbrev msgBlk9 (c : Dev nD) (t : Fin cfg9.N) : Vec Ideal S8000x64 .bf16 := iblk9 V c 1 t
abbrev egoBlk9 (c : Dev nD) (t : Fin cfg9.N) : Vec Ideal S1024x64 .f32 := iblk9 V c 2 t

theorem dstBlk9_apply (c : Dev nD) (t : Fin cfg9.N) (a : Fin 375) (ha : a.val = t.val % 375) (b : Fin 8000) :
    dstBlk9 V c t (ix2 b 0) = dstArr9 V c (tileEdge a b) := by
  show iblk9 V c 0 t (ix2 b 0) = _
  unfold iblk9
  rw [View.read_apply]
  show (V c (Pipeline.arrRef spec9 0) : IVec S3000000x1 32) (((cfg9.win 0).blk t).view.emb (ix2 b 0))
    = (V c (Pipeline.arrRef spec9 0) : IVec S3000000x1 32) (ix2 (tileEdge a b) 0)
  refine congrArg _ (funext fun x => Fin.ext ?_)
  match x with
  | ⟨0, _⟩ =>
    show win9_0.index t 0 * 8000 + 1 * b.val = a.val * 8000 + b.val
    rw [congrFun (GenP.index9_0 t) 0, ha]
    show t.val % 375 * 8000 + 1 * b.val = _
    omega
  | ⟨1, _⟩ =>
    show win9_0.index t 1 * 1 + 1 * 0 = 0
    rw [congrFun (GenP.index9_0 t) 1]
    rfl

theorem msgBlk9_apply (c : Dev nD) (t : Fin cfg9.N) (a : Fin 375) (ha : a.val = t.val % 375) (b : Fin 8000) (d : Fin 64) :
    msgBlk9 V c t (ix2 b d) = msgArr9 V c (tileEdge a b) d := by
  show iblk9 V c 1 t (ix2 b d) = _
  unfold iblk9
  rw [View.read_apply]
  show (V c (Pipeline.arrRef spec9 1) : S3000000x64.Idx → EReal) (((cfg9.win 1).blk t).view.emb (ix2 b d))
    = (V c (Pipeline.arrRef spec9 1) : S3000000x64.Idx → EReal) (ix2 (tileEdge a b) d)
  refine congrArg _ (funext fun x => Fin.ext ?_)
  match x with
  | ⟨0, _⟩ =>
    show win9_1.index t 0 * 8000 + 1 * b.val = a.val * 8000 + b.val
    rw [congrFun (GenP.index9_1 t) 0, ha]
    show t.val % 375 * 8000 + 1 * b.val = _
    omega
  | ⟨1, _⟩ =>
    show win9_1.index t 1 * 64 + 1 * d.val = d.val
    rw [congrFun (GenP.index9_1 t) 1]
    show 0 * 64 + 1 * d.val = d.val
    omega

theorem egoBlk9_apply (c : Dev nD) (t : Fin cfg9.N) (n : Fin 1024) (d : Fin 64) (N : Fin 150528)
    (hN : N.val = t.val / 375 * 1024 + n.val) :
    egoBlk9 V c t (ix2 n d) = egoArr9 V c N d := by
  have hT : t.val < 55125 := lt_of_lt_of_eq t.isLt (show cfg9.N = 55125 from N_9)
  show iblk9 V c 2 t (ix2 n d) = _
  unfold iblk9
  rw [View.read_apply]
  show (V c (Pipeline.arrRef spec9 2) : S150528x64.Idx → EReal) (((cfg9.win 2).blk t).view.emb (ix2 n d))
    = (V c (Pipeline.arrRef spec9 2) : S150528x64.Idx → EReal) (ix2 N d)
  refine congrArg _ (funext fun x => Fin.ext ?_)
  match x with
  | ⟨0, _⟩ =>
    show win9_2.index t 0 * 1024 + 1 * n.val = N.val
    rw [congrFun (GenP.index9_2 t) 0, hN]
    show t.val / 375 % 147 * 1024 + 1 * n.val = _
    have : t.val / 375 % 147 = t.val / 375 := Nat.mod_eq_of_lt (by omega)
    omega
  | ⟨1, _⟩ =>
    show win9_2.index t 1 * 64 + 1 * d.val = d.val
    rw [congrFun (GenP.index9_2 t) 1]
    show 0 * 64 + 1 * d.val = d.val
    omega

theorem acc9_step (c : Dev nD) (t : Fin cfg9.N) (prev : Vec Ideal S1024x64 .f32) (n : Fin 1024) (d : Fin 64)
    (hprev : prev (ix2 n d) = upto (tileSum (dstArr9 V c) (msgArr9 V c) (t.val / 375 * 1024 + n.val) d) (t.val % 375)) :
    k1_pay2 (grid9.coords t) (iblk9 V c 0 t) (iblk9 V c 1 t) prev (ix2 n d)
      = upto (tileSum (dstArr9 V c) (msgArr9 V c) (t.val / 375 * 1024 + n.val) d) (t.val % 375 + 1) := by
  have hi : (grid9.coords t 0).val = t.val / 375 := coords9_0 t
  have s := pay2_step (dstArr9 V c) (msgArr9 V c) (grid9.coords t) ⟨t.val % 375, Nat.mod_lt _ (by decide)⟩
    (dstBlk9 V c t) (msgBlk9 V c t) prev
    (fun b => dstBlk9_apply V c t ⟨t.val % 375, Nat.mod_lt _ (by decide)⟩ rfl b)
    (fun b d => msgBlk9_apply V c t ⟨t.val % 375, Nat.mod_lt _ (by decide)⟩ rfl b d) n d
    (by rw [hi]; exact hprev)
  rw [hi] at s
  exact s

theorem acc9_eq (c : Dev nD) (m : ℕ) : ∀ (h : m < cfg9.N) (n : Fin 1024) (d : Fin 64),
    (outsAt9 V c m h).2 (ix2 n d)
      = upto (tileSum (dstArr9 V c) (msgArr9 V c) (m / 375 * 1024 + n.val) d) (m % 375 + 1) := by
  induction m using Nat.strong_induction_on with
  | _ m ih =>
    intro h n d
    by_cases h0 : m % 375 = 0
    · have hk : (grid9.coords (⟨m, h⟩ : Fin cfg9.N) 1).val = 0 := (coords9_1 ⟨m, h⟩).trans h0
      refine (congrFun (acc9_first V c ⟨m, h⟩ hk) (ix2 n d)).trans ?_
      refine acc9_step V c ⟨m, h⟩ (k1_pay1 (F := Ideal)) n d ?_
      show (k1_pay1 (F := Ideal)) (ix2 n d) = upto _ (m % 375)
      rw [h0]
      exact pay1_start (dstArr9 V c) (msgArr9 V c) (m / 375 * 1024 + n.val) n d
    · have hk : (grid9.coords (⟨m, h⟩ : Fin cfg9.N) 1).val ≠ 0 := fun e => h0 ((coords9_1 ⟨m, h⟩).symm.trans e)
      refine (congrFun (acc9_next V c ⟨m, h⟩ hk) (ix2 n d)).trans ?_
      refine acc9_step V c ⟨m, h⟩ _ n d ?_
      have e := ih (m - 1) (by omega) (by omega) n d
      have e1 : (m - 1) / 375 = m / 375 := by omega
      have e2 : (m - 1) % 375 + 1 = m % 375 := by omega
      rw [e1, e2] at e
      exact e

theorem out9_eq (c : Dev nD) (t : Fin cfg9.N) (hk : t.val % 375 = 374) (n : Fin 1024) (d : Fin 64) (N : Fin 150528)
    (hN : N.val = t.val / 375 * 1024 + n.val) :
    (outsAt9 V c t.val t.isLt).1 (ix2 n d)
      = Cert.Spec.agg 150528 (dstArr9 V c) (msgArr9 V c) N d + Cert.Spec.half * egoArr9 V c N d := by
  have hk' : (grid9.coords t 1).val = 374 := (coords9_1 t).trans hk
  refine (congrFun (out9_last V c t hk') (ix2 n d)).trans ?_
  refine (pay3_out (outsAt9 V c t.val t.isLt).2 (iblk9 V c 2 t) (ix2 n d)).trans ?_
  have ha : (outsAt9 V c t.val t.isLt).2 (ix2 n d) = Cert.Spec.agg 150528 (dstArr9 V c) (msgArr9 V c) N d := by
    rw [acc9_eq V c t.val t.isLt n d, agg_eq_upto, hk, hN]
  have he : iblk9 V c 2 t (ix2 n d) = egoArr9 V c N d := egoBlk9_apply V c t n d N hN
  rw [ha, he]

abbrev res9 (c : Dev nD) : S150528x64.Idx → EReal := fun j =>
  Cert.Spec.agg 150528 (dstArr9 V c) (msgArr9 V c) (j 0) (j 1) + Cert.Spec.half * egoArr9 V c (j 0) (j 1)

theorem cut9_3_eq (t : Fin cfg9.N) (X : Vec Ideal S1024x64 .f32) (G : S150528x64.Idx → EReal)
    (hX : ∀ (n : Fin 1024) (d : Fin 64) (N : Fin 150528), N.val = t.val / 375 * 1024 + n.val → X (ix2 n d) = G (ix2 N d)) :
    (cfg9.win 3).cut (grid9.coords t) X = ((cfg9.win 3).blk t).view.read (Elt Ideal) G := by
  have hT : t.val < 55125 := lt_of_lt_of_eq t.isLt (show cfg9.N = 55125 from N_9)
  funext j
  obtain ⟨n, d, rfl⟩ : ∃ (n : Fin 1024) (d : Fin 64), j = ix2 n d := ⟨j 0, j 1, eq_ix2 j⟩
  rw [View.read_apply]
  have hemb : ((cfg9.win 3).blk t).view.emb (ix2 n d)
      = ix2 (⟨t.val / 375 * 1024 + n.val, by have := n.isLt; omega⟩ : Fin 150528) d := by
    funext x
    apply Fin.ext
    match x with
    | ⟨0, _⟩ =>
      show win9_3.index t 0 * 1024 + 1 * n.val = t.val / 375 * 1024 + n.val
      rw [congrFun (GenP.index9_3 t) 0]
      show t.val / 375 % 147 * 1024 + 1 * n.val = _
      have : t.val / 375 % 147 = t.val / 375 := Nat.mod_eq_of_lt (by omega)
      omega
    | ⟨1, _⟩ =>
      show win9_3.index t 1 * 64 + 1 * d.val = d.val
      rw [congrFun (GenP.index9_3 t) 1]
      show 0 * 64 + 1 * d.val = d.val
      omega
  show X (ix2 n d) = G (((cfg9.win 3).blk t).view.emb (ix2 n d))
  rw [hemb]
  exact hX n d _ rfl

theorem flushed9_3_eq (c : Dev nD) (t : Fin cfg9.N) (hf : (cfg9.win 3).flush t = true) :
    (dat9 V c).flushed 3 t = ((cfg9.win 3).blk t).view.read (Elt Ideal) (res9 V c) := by
  have hk : t.val % 375 = 374 := (GenP.flush9_3 t).mp hf
  show (cfg9.win 3).cut (grid9.coords t) ((dat9 V c).after 3 t) = _
  rw [after9_3]
  exact cut9_3_eq t (outsAt9 V c t.val t.isLt).1 (res9 V c) (fun n d N hN => out9_eq V c t hk n d N hN)

theorem cover9_3 (i : S150528x64.Idx) :
    ∃ t : Fin cfg9.N, (cfg9.win 3).flush t = true ∧ i ∈ ((cfg9.win 3).blk t).view.set := by
  have h0 : (i 0).val < 150528 := (i 0).isLt
  have h1 : (i 1).val < 64 := (i 1).isLt
  have hN : cfg9.N = 55125 := N_9
  obtain ⟨t, ht⟩ : ∃ t : Fin cfg9.N, t.val = (i 0).val / 1024 * 375 + 374 :=
    ⟨⟨(i 0).val / 1024 * 375 + 374, by rw [hN]; omega⟩, rfl⟩
  refine ⟨t, (GenP.flush9_3 t).mpr (by rw [ht]; omega), ?_⟩
  have hset : ((cfg9.win 3).blk t).view.set = (win9_3.rect t).set := View.set_slice_whole _ _
  rw [hset, Rect.mem_set_unit]
  have hi0 : win9_3.index t 0 = t.val / 375 % 147 := congrFun (GenP.index9_3 t) 0
  have hi1 : win9_3.index t 1 = 0 := congrFun (GenP.index9_3 t) 1
  intro a
  match a with
  | ⟨0, _⟩ =>
    show win9_3.index t 0 * 1024 ≤ (i 0).val ∧ (i 0).val < win9_3.index t 0 * 1024 + 1024
    rw [hi0, ht]
    omega
  | ⟨1, _⟩ =>
    show win9_3.index t 1 * 64 ≤ (i 1).val ∧ (i 1).val < win9_3.index t 1 * 64 + 64
    rw [hi1]
    omega

theorem scatter9_array (c : Dev nD) : (dat9 V c).arrAt 3 cfg9.N = res9 V c :=
  (dat9 V c).arrAt_eq_of_cover 3 (res9 V c) (flushed9_3_eq V c) cover9_3

theorem scatter9_value (c : Dev nD) (n : Fin 150528) (d : Fin 64) :
    ((dat9 (F := Ideal) V c).arrAt 3 cfg9.N : S150528x64.Idx → EReal) (ix2 n d)
      = Cert.Spec.agg 150528 (fun e => (V c (Pipeline.arrRef spec9 0) : IVec S3000000x1 32) (ix2 e 0))
          (fun e d => (V c (Pipeline.arrRef spec9 1) : S3000000x64.Idx → EReal) (ix2 e d)) n d
        + Cert.Spec.half * (V c (Pipeline.arrRef spec9 2) : S150528x64.Idx → EReal) (ix2 n d) :=
  congrFun (scatter9_array V c) (ix2 n d)

end Cert.KernelIdeal.Hand
end
-- ==== Proof.KI.G10.Value.Blocks.lean ====
import proofs.«406629_j10943576670300_1_alg».proof.Proof.KI.G10.Frame
import Idealize.ShloMosaic.Lib.ValueIdx
import Idealize.ShloMosaic.Lib.Pipeline.Value

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable {F : FTy → Type} [FloatOps F]
variable (V : (c : Dev nD) → (b : Ref sig .tc) → Buf (Elt F) ((c : Thread nD τ).loc b))

theorem iblk10_0_apply (c : Dev nD) (t : Fin cfg10.N) (e' : Fin 8000) (e : Fin 3000000)
    (he : e.val = t.val / 147 % 375 * 8000 + e'.val) :
    (iblk10 V c 0 t : Vec F S8000x1 .i32) (ix2 e' 0) = (V c (Pipeline.arrRef spec10 0) : S3000000x1.Idx → Elt F .i32) (ix2 e 0) := by
  rw [iblk10_eq, View.read_apply]
  refine congrArg (V c (Pipeline.arrRef spec10 0) : S3000000x1.Idx → Elt F .i32) ?_
  have hi := index10_0 t
  funext a; apply Fin.ext
  match a with
  | ⟨0, _⟩ =>
    show win10_0.index t 0 * 8000 + 1 * e'.val = e.val
    rw [hi, he]; simp only [Matrix.cons_val_zero]; omega
  | ⟨1, _⟩ =>
    show win10_0.index t 1 * 1 + 1 * 0 = 0
    rw [hi]; rfl

theorem iblk10_1_apply (c : Dev nD) (t : Fin cfg10.N) (e' : Fin 8000) (e : Fin 3000000)
    (he : e.val = t.val / 147 % 375 * 8000 + e'.val) :
    (iblk10 V c 1 t : Vec F S8000x1 .f32) (ix2 e' 0) = (V c (Pipeline.arrRef spec10 1) : S3000000x1.Idx → Elt F .f32) (ix2 e 0) := by
  rw [iblk10_eq, View.read_apply]
  refine congrArg (V c (Pipeline.arrRef spec10 1) : S3000000x1.Idx → Elt F .f32) ?_
  have hi := index10_1 t
  funext a; apply Fin.ext
  match a with
  | ⟨0, _⟩ =>
    show win10_1.index t 0 * 8000 + 1 * e'.val = e.val
    rw [hi, he]; simp only [Matrix.cons_val_zero]; omega
  | ⟨1, _⟩ =>
    show win10_1.index t 1 * 1 + 1 * 0 = 0
    rw [hi]; rfl

end Cert.KernelIdeal.Hand
end
-- ==== Proof.KI.G10.Value.Acc.lean ====
import proofs.«406629_j10943576670300_1_alg».proof.Proof.KI.G0.Value.Pay
import proofs.«406629_j10943576670300_1_alg».proof.Proof.KI.G10.Value.Blocks
import proofs.«406629_j10943576670300_1_alg».proof.Proof.Spec

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev srcW10 (c : Dev nD) (e : Fin 3000000) : BitVec 32 := (V c (Pipeline.arrRef spec10 0) : IVec S3000000x1 32) (ix2 e 0)
abbrev wgt10 (c : Dev nD) (e : Fin 3000000) : EReal := (V c (Pipeline.arrRef spec10 1) : S3000000x1.Idx → EReal) (ix2 e 0)
abbrev tab10 (c : Dev nD) (n : Fin 150528) (d : Fin 64) : EReal := (V c (Pipeline.arrRef spec10 2) : S150528x64.Idx → EReal) (ix2 n d)

theorem acc10_step (c : Dev nD) (n : ℕ) (hn : n < cfg10.N) (e' : Fin 8000) (d : Fin 64) (e : Fin 3000000)
    (he : e.val = n / 147 % 375 * 8000 + e'.val) (prev : Vec Ideal S8000x64 .f32)
    (hprev : (prev (ix2 e' d) : EReal) = if h : (srcW10 V c e).toNat < n % 147 * 1024 then tab10 V c ⟨(srcW10 V c e).toNat, by omega⟩ d else 0) :
    (k0_pay2 (grid10.coords ⟨n, hn⟩) (iblk10 V c 0 ⟨n, hn⟩) (xs10 V c ⟨n, hn⟩) prev (ix2 e' d) : EReal)
      = if h : (srcW10 V c e).toNat < (n % 147 + 1) * 1024 then tab10 V c ⟨(srcW10 V c e).toNat, by omega⟩ d else 0 := by
  have hk1 : (grid10.coords ⟨n, hn⟩ 1).val = n % 147 := coords10_1 _
  refine (k0_pay2_apply (grid10.coords ⟨n, hn⟩) (by rw [hk1]; omega) _ _ _ e' d).trans ?_
  rw [iblk10_0_apply V c ⟨n, hn⟩ e' e he, hk1]
  exact gather_step (n % 147) (by omega) (srcW10 V c e).toNat (fun m => tab10 V c m d) (fun j => (xs10 V c ⟨n, hn⟩ (ix2 j d) : EReal))
    (fun j m hm => xs10_apply V c ⟨n, hn⟩ j d m (by rw [hk1]; exact hm)) _ hprev

theorem acc10_value (c : Dev nD) : ∀ (n : ℕ) (hn : n < cfg10.N) (e' : Fin 8000) (d : Fin 64) (e : Fin 3000000)
    (he : e.val = n / 147 % 375 * 8000 + e'.val),
    (((outsAt10 V c n hn).2 : Vec Ideal S8000x64 .f32) (ix2 e' d) : EReal)
      = if h : (srcW10 V c e).toNat < (n % 147 + 1) * 1024 then tab10 V c ⟨(srcW10 V c e).toNat, by omega⟩ d else 0 := by
  intro n
  induction n using Nat.strong_induction_on with
  | _ n ih =>
    intro hn e' d e he
    have hk1 : (grid10.coords ⟨n, hn⟩ 1).val = n % 147 := coords10_1 _
    by_cases hk : n % 147 = 0
    · have h := acc10_first V c ⟨n, hn⟩ (hk1.trans hk)
      refine (congrFun h (ix2 e' d)).trans ?_
      refine acc10_step V c n hn e' d e he _ ?_
      rw [k0_pay1_apply, dif_neg (by omega)]
    · have h := acc10_next V c ⟨n, hn⟩ (by rw [hk1]; exact hk)
      refine (congrFun h (ix2 e' d)).trans ?_
      refine acc10_step V c n hn e' d e he _ ?_
      have hn' : n - 1 < cfg10.N := by omega
      refine (ih (n - 1) (by omega) hn' e' d e (by rw [he]; congr 2; omega)).trans ?_
      by_cases hs : (srcW10 V c e).toNat < n % 147 * 1024
      · rw [dif_pos hs, dif_pos (by omega)]
      · rw [dif_neg hs, dif_neg (by omega)]

theorem out10_value (c : Dev nD) (n : ℕ) (hn : n < cfg10.N) (hk : n % 147 = 146) (e' : Fin 8000) (d : Fin 64) (e : Fin 3000000)
    (he : e.val = n / 147 % 375 * 8000 + e'.val) :
    (((outsAt10 V c n hn).1 : Vec Ideal S8000x64 .bf16) (ix2 e' d) : EReal)
      = Cert.Spec.msg 150528 (srcW10 V c) (wgt10 V c) (tab10 V c) e d := by
  have hk1 : (grid10.coords ⟨n, hn⟩ 1).val = n % 147 := coords10_1 _
  have h := out10_last V c ⟨n, hn⟩ (hk1.trans hk)
  refine (congrFun h (ix2 e' d)).trans ?_
  refine (k0_pay3_apply _ _ e' d).trans ?_
  rw [iblk10_1_apply V c ⟨n, hn⟩ e' e he]
  refine congrArg (fun z : EReal => z * wgt10 V c e) ?_
  refine (acc10_value V c n hn e' d e he).trans ?_
  by_cases hs : (srcW10 V c e).toNat < 150528
  · rw [dif_pos hs, dif_pos (by omega)]
  · rw [dif_neg hs, dif_neg (by omega)]

end Cert.KernelIdeal.Hand
end
-- ==== Proof.KI.G10.Value.lean ====
import proofs.«406629_j10943576670300_1_alg».proof.Proof.KI.G10.Value.Acc

noncomputable section
namespace Cert.KernelIdeal.Hand
open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window BodyObligation cellOf)

variable (V : (c : Dev nD) → (b : Ref sig .tc) → Buf (Elt Ideal) ((c : Thread nD τ).loc b))

abbrev msgs10 (c : Dev nD) : S3000000x64.Idx → EReal := fun i =>
  Cert.Spec.msg 150528 (srcW10 V c) (wgt10 V c) (tab10 V c) (i 0) (i 1)

theorem flushed10_3_eq (c : Dev nD) (t : Fin cfg10.N) (hf : (cfg10.win 3).flush t = true) :
    (dat10 V c).flushed 3 t = ((cfg10.win 3).blk t).view.read (Elt Ideal) (msgs10 V c) := by
  have hk : t.val % 147 = 146 := (flush10_3 t).mp hf
  have hN : t.val < 55125 := lt_of_lt_of_eq t.isLt N_10
  show (cfg10.win 3).cut (grid10.coords t) ((dat10 V c).after 3 t) = _
  rw [after10_3]
  funext y
  obtain ⟨e', d, rfl⟩ : ∃ (e' : Fin 8000) (d : Fin 64), y = ix2 e' d := ⟨y 0, y 1, eq_ix2 y⟩
  rw [View.read_apply]
  have hi := index10_3 t
  show (((outsAt10 V c t.val t.isLt).1 : Vec Ideal S8000x64 .bf16) (ix2 e' d) : EReal) = msgs10 V c (((cfg10.win 3).blk t).view.emb (ix2 e' d))
  rw [out10_value V c t.val t.isLt hk e' d ⟨t.val / 147 % 375 * 8000 + e'.val, by omega⟩ rfl]
  have h0 : (⟨t.val / 147 % 375 * 8000 + e'.val, by omega⟩ : Fin 3000000) = (((cfg10.win 3).blk t).view.emb (ix2 e' d) : S3000000x64.Idx) 0 := by
    apply Fin.ext
    show t.val / 147 % 375 * 8000 + e'.val = win10_3.index t 0 * 8000 + 1 * e'.val
    rw [hi]; simp only [Matrix.cons_val_zero]; omega
  have h1 : d = (((cfg10.win 3).blk t).view.emb (ix2 e' d) : S3000000x64.Idx) 1 := by
    apply Fin.ext
    show d.val = win10_3.index t 1 * 64 + 1 * d.val
    rw [hi]; simp only [Matrix.cons_val_one, Matrix.cons_val_zero]; omega
  exact congrArg₂ (Cert.Spec.msg 150528 (srcW10 V c) (wgt10 V c) (tab10 V c)) h0 h1

theorem cover10_3 (i : S3000000x64.Idx) :
    ∃ t : Fin cfg10.N, (cfg10.win 3).flush t = true ∧ i ∈ ((cfg10.win 3).blk t).view.set := by
  have h0 : (i 0).val < 3000000 := (i 0).isLt
  have h1 : (i 1).val < 64 := (i 1).isLt
  let t : Fin cfg10.N := ⟨(i 0).val / 8000 * 147 + 146, by rw [show cfg10.N = 55125 from N_10]; omega⟩
  have ht : t.val = (i 0).val / 8000 * 147 + 146 := rfl
  refine ⟨t, (flush10_3 t).mpr (by rw [ht]; omega), ?_⟩
  have hset : ((cfg10.win 3).blk t).view.set = (win10_3.rect t).set := View.set_slice_whole _ _
  rw [hset, Rect.mem_set_unit]
  have hi := index10_3 t
  intro a
  match a with
  | ⟨0, _⟩ =>
    show win10_3.index t 0 * 8000 ≤ (i 0).val ∧ (i 0).val < win10_3.index t 0 * 8000 + 8000
    rw [hi]; simp only [Matrix.cons_val_zero]; rw [ht]; omega
  | ⟨1, _⟩ =>
    show win10_3.index t 1 * 64 ≤ (i 1).val ∧ (i 1).val < win10_3.index t 1 * 64 + 64
    rw [hi]; simp only [Matrix.cons_val_one, Matrix.cons_val_zero]; omega

theorem final10_3 (c : Dev nD) : (dat10 V c).arrAt 3 cfg10.N = msgs10 V c :=
  (dat10 V c).arrAt_eq_of_cover 3 (msgs10 V c) (flushed10_3_eq V c) (cover10_3)

theorem gather10_value (c : Dev nD) (e : Fin 3000000) (d : Fin 64) :
    ((dat10 (F := Ideal) V c).arrAt 3 cfg10.N : S3000000x64.Idx → EReal) (ix2 e d)
      = Cert.Spec.msg 150528 (fun e => (V c (Pipeline.arrRef spec10 0) : IVec S3000000x1 32) (ix2 e 0)) (fun e => (V c (Pipeline.arrRef spec10 1) : S3000000x1.Idx → EReal) (ix2 e 0))
          (fun n d => (V c (Pipeline.arrRef spec10 2) : S150528x64.Idx → EReal) (ix2 n d)) e d := by
  rw [final10_3]

end Cert.KernelIdeal.Hand
end
-- ==== Proof.KI.S11.Value.lean ====
import proofs.«406629_j10943576670300_1_alg».proof.Proof.KI.S11.Frame
import proofs.«406629_j10943576670300_1_alg».proof.Proof.KI.S1.Value.Fold
import Idealize.ShloMosaic.Lib.Pipeline.Value

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev dstArr11 (c : Dev nD) : Fin 3000000 → BitVec 32 := fun e => (V c (Pipeline.arrRef spec11 0) : IVec S3000000x1 32) (ix2 e 0)
abbrev msgArr11 (c : Dev nD) : Fin 3000000 → Fin 64 → EReal := fun e d => (V c (Pipeline.arrRef spec11 1) : S3000000x64.Idx → EReal) (ix2 e d)
abbrev egoArr11 (c : Dev nD) : Fin 150528 → Fin 64 → EReal := fun n d => (V c (Pipeline.arrRef spec11 2) : S150528x64.Idx → EReal) (ix2 n d)

abbrev dstBlk11 (c : Dev nD) (t : Fin cfg11.N) : Vec Ideal S8000x1 .i32 := iblk11 V c 0 t
abbrev msgBlk11 (c : Dev nD) (t : Fin cfg11.N) : Vec Ideal S8000x64 .bf16 := iblk11 V c 1 t
abbrev egoBlk11 (c : Dev nD) (t : Fin cfg11.N) : Vec Ideal S1024x64 .f32 := iblk11 V c 2 t

theorem dstBlk11_apply (c : Dev nD) (t : Fin cfg11.N) (a : Fin 375) (ha : a.val = t.val % 375) (b : Fin 8000) :
    dstBlk11 V c t (ix2 b 0) = dstArr11 V c (tileEdge a b) := by
  show iblk11 V c 0 t (ix2 b 0) = _
  unfold iblk11
  rw [View.read_apply]
  show (V c (Pipeline.arrRef spec11 0) : IVec S3000000x1 32) (((cfg11.win 0).blk t).view.emb (ix2 b 0))
    = (V c (Pipeline.arrRef spec11 0) : IVec S3000000x1 32) (ix2 (tileEdge a b) 0)
  refine congrArg _ (funext fun x => Fin.ext ?_)
  match x with
  | ⟨0, _⟩ =>
    show win11_0.index t 0 * 8000 + 1 * b.val = a.val * 8000 + b.val
    rw [congrFun (GenP.index11_0 t) 0, ha]
    show t.val % 375 * 8000 + 1 * b.val = _
    omega
  | ⟨1, _⟩ =>
    show win11_0.index t 1 * 1 + 1 * 0 = 0
    rw [congrFun (GenP.index11_0 t) 1]
    rfl

theorem msgBlk11_apply (c : Dev nD) (t : Fin cfg11.N) (a : Fin 375) (ha : a.val = t.val % 375) (b : Fin 8000) (d : Fin 64) :
    msgBlk11 V c t (ix2 b d) = msgArr11 V c (tileEdge a b) d := by
  show iblk11 V c 1 t (ix2 b d) = _
  unfold iblk11
  rw [View.read_apply]
  show (V c (Pipeline.arrRef spec11 1) : S3000000x64.Idx → EReal) (((cfg11.win 1).blk t).view.emb (ix2 b d))
    = (V c (Pipeline.arrRef spec11 1) : S3000000x64.Idx → EReal) (ix2 (tileEdge a b) d)
  refine congrArg _ (funext fun x => Fin.ext ?_)
  match x with
  | ⟨0, _⟩ =>
    show win11_1.index t 0 * 8000 + 1 * b.val = a.val * 8000 + b.val
    rw [congrFun (GenP.index11_1 t) 0, ha]
    show t.val % 375 * 8000 + 1 * b.val = _
    omega
  | ⟨1, _⟩ =>
    show win11_1.index t 1 * 64 + 1 * d.val = d.val
    rw [congrFun (GenP.index11_1 t) 1]
    show 0 * 64 + 1 * d.val = d.val
    omega

theorem egoBlk11_apply (c : Dev nD) (t : Fin cfg11.N) (n : Fin 1024) (d : Fin 64) (N : Fin 150528)
    (hN : N.val = t.val / 375 * 1024 + n.val) :
    egoBlk11 V c t (ix2 n d) = egoArr11 V c N d := by
  have hT : t.val < 55125 := lt_of_lt_of_eq t.isLt (show cfg11.N = 55125 from N_11)
  show iblk11 V c 2 t (ix2 n d) = _
  unfold iblk11
  rw [View.read_apply]
  show (V c (Pipeline.arrRef spec11 2) : S150528x64.Idx → EReal) (((cfg11.win 2).blk t).view.emb (ix2 n d))
    = (V c (Pipeline.arrRef spec11 2) : S150528x64.Idx → EReal) (ix2 N d)
  refine congrArg _ (funext fun x => Fin.ext ?_)
  match x with
  | ⟨0, _⟩ =>
    show win11_2.index t 0 * 1024 + 1 * n.val = N.val
    rw [congrFun (GenP.index11_2 t) 0, hN]
    show t.val / 375 % 147 * 1024 + 1 * n.val = _
    have : t.val / 375 % 147 = t.val / 375 := Nat.mod_eq_of_lt (by omega)
    omega
  | ⟨1, _⟩ =>
    show win11_2.index t 1 * 64 + 1 * d.val = d.val
    rw [congrFun (GenP.index11_2 t) 1]
    show 0 * 64 + 1 * d.val = d.val
    omega

theorem acc11_step (c : Dev nD) (t : Fin cfg11.N) (prev : Vec Ideal S1024x64 .f32) (n : Fin 1024) (d : Fin 64)
    (hprev : prev (ix2 n d) = upto (tileSum (dstArr11 V c) (msgArr11 V c) (t.val / 375 * 1024 + n.val) d) (t.val % 375)) :
    k1_pay2 (grid11.coords t) (iblk11 V c 0 t) (iblk11 V c 1 t) prev (ix2 n d)
      = upto (tileSum (dstArr11 V c) (msgArr11 V c) (t.val / 375 * 1024 + n.val) d) (t.val % 375 + 1) := by
  have hi : (grid11.coords t 0).val = t.val / 375 := coords11_0 t
  have s := pay2_step (dstArr11 V c) (msgArr11 V c) (grid11.coords t) ⟨t.val % 375, Nat.mod_lt _ (by decide)⟩
    (dstBlk11 V c t) (msgBlk11 V c t) prev
    (fun b => dstBlk11_apply V c t ⟨t.val % 375, Nat.mod_lt _ (by decide)⟩ rfl b)
    (fun b d => msgBlk11_apply V c t ⟨t.val % 375, Nat.mod_lt _ (by decide)⟩ rfl b d) n d
    (by rw [hi]; exact hprev)
  rw [hi] at s
  exact s

theorem acc11_eq (c : Dev nD) (m : ℕ) : ∀ (h : m < cfg11.N) (n : Fin 1024) (d : Fin 64),
    (outsAt11 V c m h).2 (ix2 n d)
      = upto (tileSum (dstArr11 V c) (msgArr11 V c) (m / 375 * 1024 + n.val) d) (m % 375 + 1) := by
  induction m using Nat.strong_induction_on with
  | _ m ih =>
    intro h n d
    by_cases h0 : m % 375 = 0
    · have hk : (grid11.coords (⟨m, h⟩ : Fin cfg11.N) 1).val = 0 := (coords11_1 ⟨m, h⟩).trans h0
      refine (congrFun (acc11_first V c ⟨m, h⟩ hk) (ix2 n d)).trans ?_
      refine acc11_step V c ⟨m, h⟩ (k1_pay1 (F := Ideal)) n d ?_
      show (k1_pay1 (F := Ideal)) (ix2 n d) = upto _ (m % 375)
      rw [h0]
      exact pay1_start (dstArr11 V c) (msgArr11 V c) (m / 375 * 1024 + n.val) n d
    · have hk : (grid11.coords (⟨m, h⟩ : Fin cfg11.N) 1).val ≠ 0 := fun e => h0 ((coords11_1 ⟨m, h⟩).symm.trans e)
      refine (congrFun (acc11_next V c ⟨m, h⟩ hk) (ix2 n d)).trans ?_
      refine acc11_step V c ⟨m, h⟩ _ n d ?_
      have e := ih (m - 1) (by omega) (by omega) n d
      have e1 : (m - 1) / 375 = m / 375 := by omega
      have e2 : (m - 1) % 375 + 1 = m % 375 := by omega
      rw [e1, e2] at e
      exact e

theorem out11_eq (c : Dev nD) (t : Fin cfg11.N) (hk : t.val % 375 = 374) (n : Fin 1024) (d : Fin 64) (N : Fin 150528)
    (hN : N.val = t.val / 375 * 1024 + n.val) :
    (outsAt11 V c t.val t.isLt).1 (ix2 n d)
      = Cert.Spec.agg 150528 (dstArr11 V c) (msgArr11 V c) N d + Cert.Spec.half * egoArr11 V c N d := by
  have hk' : (grid11.coords t 1).val = 374 := (coords11_1 t).trans hk
  refine (congrFun (out11_last V c t hk') (ix2 n d)).trans ?_
  refine (pay3_out (outsAt11 V c t.val t.isLt).2 (iblk11 V c 2 t) (ix2 n d)).trans ?_
  have ha : (outsAt11 V c t.val t.isLt).2 (ix2 n d) = Cert.Spec.agg 150528 (dstArr11 V c) (msgArr11 V c) N d := by
    rw [acc11_eq V c t.val t.isLt n d, agg_eq_upto, hk, hN]
  have he : iblk11 V c 2 t (ix2 n d) = egoArr11 V c N d := egoBlk11_apply V c t n d N hN
  rw [ha, he]

abbrev res11 (c : Dev nD) : S150528x64.Idx → EReal := fun j =>
  Cert.Spec.agg 150528 (dstArr11 V c) (msgArr11 V c) (j 0) (j 1) + Cert.Spec.half * egoArr11 V c (j 0) (j 1)

theorem cut11_3_eq (t : Fin cfg11.N) (X : Vec Ideal S1024x64 .f32) (G : S150528x64.Idx → EReal)
    (hX : ∀ (n : Fin 1024) (d : Fin 64) (N : Fin 150528), N.val = t.val / 375 * 1024 + n.val → X (ix2 n d) = G (ix2 N d)) :
    (cfg11.win 3).cut (grid11.coords t) X = ((cfg11.win 3).blk t).view.read (Elt Ideal) G := by
  have hT : t.val < 55125 := lt_of_lt_of_eq t.isLt (show cfg11.N = 55125 from N_11)
  funext j
  obtain ⟨n, d, rfl⟩ : ∃ (n : Fin 1024) (d : Fin 64), j = ix2 n d := ⟨j 0, j 1, eq_ix2 j⟩
  rw [View.read_apply]
  have hemb : ((cfg11.win 3).blk t).view.emb (ix2 n d)
      = ix2 (⟨t.val / 375 * 1024 + n.val, by have := n.isLt; omega⟩ : Fin 150528) d := by
    funext x
    apply Fin.ext
    match x with
    | ⟨0, _⟩ =>
      show win11_3.index t 0 * 1024 + 1 * n.val = t.val / 375 * 1024 + n.val
      rw [congrFun (GenP.index11_3 t) 0]
      show t.val / 375 % 147 * 1024 + 1 * n.val = _
      have : t.val / 375 % 147 = t.val / 375 := Nat.mod_eq_of_lt (by omega)
      omega
    | ⟨1, _⟩ =>
      show win11_3.index t 1 * 64 + 1 * d.val = d.val
      rw [congrFun (GenP.index11_3 t) 1]
      show 0 * 64 + 1 * d.val = d.val
      omega
  show X (ix2 n d) = G (((cfg11.win 3).blk t).view.emb (ix2 n d))
  rw [hemb]
  exact hX n d _ rfl

theorem flushed11_3_eq (c : Dev nD) (t : Fin cfg11.N) (hf : (cfg11.win 3).flush t = true) :
    (dat11 V c).flushed 3 t = ((cfg11.win 3).blk t).view.read (Elt Ideal) (res11 V c) := by
  have hk : t.val % 375 = 374 := (GenP.flush11_3 t).mp hf
  show (cfg11.win 3).cut (grid11.coords t) ((dat11 V c).after 3 t) = _
  rw [after11_3]
  exact cut11_3_eq t (outsAt11 V c t.val t.isLt).1 (res11 V c) (fun n d N hN => out11_eq V c t hk n d N hN)

theorem cover11_3 (i : S150528x64.Idx) :
    ∃ t : Fin cfg11.N, (cfg11.win 3).flush t = true ∧ i ∈ ((cfg11.win 3).blk t).view.set := by
  have h0 : (i 0).val < 150528 := (i 0).isLt
  have h1 : (i 1).val < 64 := (i 1).isLt
  have hN : cfg11.N = 55125 := N_11
  obtain ⟨t, ht⟩ : ∃ t : Fin cfg11.N, t.val = (i 0).val / 1024 * 375 + 374 :=
    ⟨⟨(i 0).val / 1024 * 375 + 374, by rw [hN]; omega⟩, rfl⟩
  refine ⟨t, (GenP.flush11_3 t).mpr (by rw [ht]; omega), ?_⟩
  have hset : ((cfg11.win 3).blk t).view.set = (win11_3.rect t).set := View.set_slice_whole _ _
  rw [hset, Rect.mem_set_unit]
  have hi0 : win11_3.index t 0 = t.val / 375 % 147 := congrFun (GenP.index11_3 t) 0
  have hi1 : win11_3.index t 1 = 0 := congrFun (GenP.index11_3 t) 1
  intro a
  match a with
  | ⟨0, _⟩ =>
    show win11_3.index t 0 * 1024 ≤ (i 0).val ∧ (i 0).val < win11_3.index t 0 * 1024 + 1024
    rw [hi0, ht]
    omega
  | ⟨1, _⟩ =>
    show win11_3.index t 1 * 64 ≤ (i 1).val ∧ (i 1).val < win11_3.index t 1 * 64 + 64
    rw [hi1]
    omega

theorem scatter11_array (c : Dev nD) : (dat11 V c).arrAt 3 cfg11.N = res11 V c :=
  (dat11 V c).arrAt_eq_of_cover 3 (res11 V c) (flushed11_3_eq V c) cover11_3

theorem scatter11_value (c : Dev nD) (n : Fin 150528) (d : Fin 64) :
    ((dat11 (F := Ideal) V c).arrAt 3 cfg11.N : S150528x64.Idx → EReal) (ix2 n d)
      = Cert.Spec.agg 150528 (fun e => (V c (Pipeline.arrRef spec11 0) : IVec S3000000x1 32) (ix2 e 0))
          (fun e d => (V c (Pipeline.arrRef spec11 1) : S3000000x64.Idx → EReal) (ix2 e d)) n d
        + Cert.Spec.half * (V c (Pipeline.arrRef spec11 2) : S150528x64.Idx → EReal) (ix2 n d) :=
  congrFun (scatter11_array V c) (ix2 n d)

end Cert.KernelIdeal.Hand
end
-- ==== Proof.KI.Bridge.Txt.lean ====
import proofs.«406629_j10943576670300_1_alg».proof.Proof.KI.Bridge.Base
import proofs.«406629_j10943576670300_1_alg».proof.Proof.KI.G6.Value
import proofs.«406629_j10943576670300_1_alg».proof.Proof.KI.S7.Value
import proofs.«406629_j10943576670300_1_alg».proof.Proof.KI.G8.Value
import proofs.«406629_j10943576670300_1_alg».proof.Proof.KI.S9.Value
import proofs.«406629_j10943576670300_1_alg».proof.Proof.KI.G10.Value
import proofs.«406629_j10943576670300_1_alg».proof.Proof.KI.S11.Value

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

theorem v12_at14 (e : Fin 3000000) (u : Fin 1) : (W14 m ρ c (Proc.devRef .tc main_v12) : IVec S3000000x1 32) (ix2 e u) = srcT m ρ c e :=
  (at_ix ((keep13 m ρ c main_v12 (by decide)).trans ((keep12 m ρ c main_v12 (by decide)).trans ((keep11 m ρ c main_v12 (by decide)).trans ((keep10 m ρ c main_v12 (by decide)).trans ((keep9 m ρ c main_v12 (by decide)).trans ((keep8 m ρ c main_v12 (by decide)).trans ((keep7 m ρ c main_v12 (by decide)).trans ((keep6 m ρ c main_v12 (by decide)).trans (keep5 m ρ c main_v12 (by decide)))))))))) (ix2 e u)).trans (v12_at5 m ρ c e u)
theorem v25_at14 (n : Fin 150528) (d : Fin 64) : (W14 m ρ c (Proc.devRef .tc main_v25) : S150528x64.Idx → EReal) (ix2 n d) = tabT0 m ρ c n d :=
  (at_ix (host_v25 (W13 m ρ c)) (ix2 n d)).trans ((at_ix ((keep12 m ρ c main_v3 (by decide)).trans ((keep11 m ρ c main_v3 (by decide)).trans ((keep10 m ρ c main_v3 (by decide)).trans ((keep9 m ρ c main_v3 (by decide)).trans ((keep8 m ρ c main_v3 (by decide)).trans ((keep7 m ρ c main_v3 (by decide)).trans ((keep6 m ρ c main_v3 (by decide)).trans ((keep5 m ρ c main_v3 (by decide)).trans (keep4 m ρ c main_v3 (by decide)))))))))) (ix2 n d)).trans (v3_at4 m ρ c n d))

theorem v26_at15 (e : Fin 3000000) (d : Fin 64) :
    (W15 m ρ c (Proc.devRef .tc main_v26) : S3000000x64.Idx → EReal) (ix2 e d) = Cert.Spec.msg Cert.Spec.nP (srcT m ρ c) (wT m ρ c) (tabT0 m ρ c) e d :=
  (at_ix (W15_arr m ρ c 3) (ix2 e d)).trans ((gather6_value (fun c b => W14 m ρ c b) c e d).trans
    (msg_congr (fun e => v12_at14 m ρ c e 0) (fun e => at_ix (arg3_at14 m ρ c) (ix2 e (0 : Fin 1))) (fun n d => v25_at14 m ρ c n d) e d))
theorem v15_at15 (e : Fin 3000000) (u : Fin 1) : (W15 m ρ c (Proc.devRef .tc main_v15) : IVec S3000000x1 32) (ix2 e u) = dstT m ρ c e :=
  (at_ix ((keep14 m ρ c main_v15 (by decide)).trans ((keep13 m ρ c main_v15 (by decide)).trans ((keep12 m ρ c main_v15 (by decide)).trans ((keep11 m ρ c main_v15 (by decide)).trans ((keep10 m ρ c main_v15 (by decide)).trans ((keep9 m ρ c main_v15 (by decide)).trans ((keep8 m ρ c main_v15 (by decide)).trans ((keep7 m ρ c main_v15 (by decide)).trans ((keep6 m ρ c main_v15 (by decide)).trans (keep5 m ρ c main_v15 (by decide))))))))))) (ix2 e u)).trans (v15_at5 m ρ c e u)
theorem v3_at15 (n : Fin 150528) (d : Fin 64) : (W15 m ρ c (Proc.devRef .tc main_v3) : S150528x64.Idx → EReal) (ix2 n d) = tabT0 m ρ c n d :=
  (at_ix ((keep14 m ρ c main_v3 (by decide)).trans ((keep13 m ρ c main_v3 (by decide)).trans ((keep12 m ρ c main_v3 (by decide)).trans ((keep11 m ρ c main_v3 (by decide)).trans ((keep10 m ρ c main_v3 (by decide)).trans ((keep9 m ρ c main_v3 (by decide)).trans ((keep8 m ρ c main_v3 (by decide)).trans ((keep7 m ρ c main_v3 (by decide)).trans ((keep6 m ρ c main_v3 (by decide)).trans ((keep5 m ρ c main_v3 (by decide)).trans (keep4 m ρ c main_v3 (by decide)))))))))))) (ix2 n d)).trans (v3_at4 m ρ c n d)

theorem v27_at16 (n : Fin 150528) (d : Fin 64) :
    (W16 m ρ c (Proc.devRef .tc main_v27) : S150528x64.Idx → EReal) (ix2 n d) = tabT1 m ρ c n d :=
  (at_ix (W16_arr m ρ c 3) (ix2 n d)).trans ((scatter7_value (fun c b => W15 m ρ c b) c n d).trans
    (layer_of_parts _ _ _ _ (fun e => v15_at15 m ρ c e 0) (fun e d => v26_at15 m ρ c e d) (fun n d => v3_at15 m ρ c n d) n d))

theorem v12_at17 (e : Fin 3000000) (u : Fin 1) : (W17 m ρ c (Proc.devRef .tc main_v12) : IVec S3000000x1 32) (ix2 e u) = srcT m ρ c e :=
  (at_ix ((keep16 m ρ c main_v12 (by decide)).trans ((keep15 m ρ c main_v12 (by decide)).trans ((keep14 m ρ c main_v12 (by decide)).trans ((keep13 m ρ c main_v12 (by decide)).trans ((keep12 m ρ c main_v12 (by decide)).trans ((keep11 m ρ c main_v12 (by decide)).trans ((keep10 m ρ c main_v12 (by decide)).trans ((keep9 m ρ c main_v12 (by decide)).trans ((keep8 m ρ c main_v12 (by decide)).trans ((keep7 m ρ c main_v12 (by decide)).trans ((keep6 m ρ c main_v12 (by decide)).trans (keep5 m ρ c main_v12 (by decide))))))))))))) (ix2 e u)).trans (v12_at5 m ρ c e u)
theorem v28_at17 (n : Fin 150528) (d : Fin 64) : (W17 m ρ c (Proc.devRef .tc main_v28) : S150528x64.Idx → EReal) (ix2 n d) = tabT1 m ρ c n d :=
  (at_ix (host_v28 (W16 m ρ c)) (ix2 n d)).trans (v27_at16 m ρ c n d)

theorem v29_at18 (e : Fin 3000000) (d : Fin 64) :
    (W18 m ρ c (Proc.devRef .tc main_v29) : S3000000x64.Idx → EReal) (ix2 e d) = Cert.Spec.msg Cert.Spec.nP (srcT m ρ c) (wT m ρ c) (tabT1 m ρ c) e d :=
  (at_ix (W18_arr m ρ c 3) (ix2 e d)).trans ((gather8_value (fun c b => W17 m ρ c b) c e d).trans
    (msg_congr (fun e => v12_at17 m ρ c e 0) (fun e => at_ix (arg3_at17 m ρ c) (ix2 e (0 : Fin 1))) (fun n d => v28_at17 m ρ c n d) e d))
theorem v15_at18 (e : Fin 3000000) (u : Fin 1) : (W18 m ρ c (Proc.devRef .tc main_v15) : IVec S3000000x1 32) (ix2 e u) = dstT m ρ c e :=
  (at_ix ((keep17 m ρ c main_v15 (by decide)).trans ((keep16 m ρ c main_v15 (by decide)).trans ((keep15 m ρ c main_v15 (by decide)).trans ((keep14 m ρ c main_v15 (by decide)).trans ((keep13 m ρ c main_v15 (by decide)).trans ((keep12 m ρ c main_v15 (by decide)).trans ((keep11 m ρ c main_v15 (by decide)).trans ((keep10 m ρ c main_v15 (by decide)).trans ((keep9 m ρ c main_v15 (by decide)).trans ((keep8 m ρ c main_v15 (by decide)).trans ((keep7 m ρ c main_v15 (by decide)).trans ((keep6 m ρ c main_v15 (by decide)).trans (keep5 m ρ c main_v15 (by decide)))))))))))))) (ix2 e u)).trans (v15_at5 m ρ c e u)
theorem v27_at18 (n : Fin 150528) (d : Fin 64) : (W18 m ρ c (Proc.devRef .tc main_v27) : S150528x64.Idx → EReal) (ix2 n d) = tabT1 m ρ c n d :=
  (at_ix ((keep17 m ρ c main_v27 (by decide)).trans (keep16 m ρ c main_v27 (by decide))) (ix2 n d)).trans (v27_at16 m ρ c n d)

theorem v30_at19 (n : Fin 150528) (d : Fin 64) :
    (W19 m ρ c (Proc.devRef .tc main_v30) : S150528x64.Idx → EReal) (ix2 n d) = tabT2 m ρ c n d :=
  (at_ix (W19_arr m ρ c 3) (ix2 n d)).trans ((scatter9_value (fun c b => W18 m ρ c b) c n d).trans
    (layer_of_parts _ _ _ _ (fun e => v15_at18 m ρ c e 0) (fun e d => v29_at18 m ρ c e d) (fun n d => v27_at18 m ρ c n d) n d))

theorem v12_at20 (e : Fin 3000000) (u : Fin 1) : (W20 m ρ c (Proc.devRef .tc main_v12) : IVec S3000000x1 32) (ix2 e u) = srcT m ρ c e :=
  (at_ix ((keep19 m ρ c main_v12 (by decide)).trans ((keep18 m ρ c main_v12 (by decide)).trans ((keep17 m ρ c main_v12 (by decide)).trans ((keep16 m ρ c main_v12 (by decide)).trans ((keep15 m ρ c main_v12 (by decide)).trans ((keep14 m ρ c main_v12 (by decide)).trans ((keep13 m ρ c main_v12 (by decide)).trans ((keep12 m ρ c main_v12 (by decide)).trans ((keep11 m ρ c main_v12 (by decide)).trans ((keep10 m ρ c main_v12 (by decide)).trans ((keep9 m ρ c main_v12 (by decide)).trans ((keep8 m ρ c main_v12 (by decide)).trans ((keep7 m ρ c main_v12 (by decide)).trans ((keep6 m ρ c main_v12 (by decide)).trans (keep5 m ρ c main_v12 (by decide)))))))))))))))) (ix2 e u)).trans (v12_at5 m ρ c e u)
theorem v31_at20 (n : Fin 150528) (d : Fin 64) : (W20 m ρ c (Proc.devRef .tc main_v31) : S150528x64.Idx → EReal) (ix2 n d) = tabT2 m ρ c n d :=
  (at_ix (host_v31 (W19 m ρ c)) (ix2 n d)).trans (v30_at19 m ρ c n d)

theorem v32_at21 (e : Fin 3000000) (d : Fin 64) :
    (W21 m ρ c (Proc.devRef .tc main_v32) : S3000000x64.Idx → EReal) (ix2 e d) = Cert.Spec.msg Cert.Spec.nP (srcT m ρ c) (wT m ρ c) (tabT2 m ρ c) e d :=
  (at_ix (W21_arr m ρ c 3) (ix2 e d)).trans ((gather10_value (fun c b => W20 m ρ c b) c e d).trans
    (msg_congr (fun e => v12_at20 m ρ c e 0) (fun e => at_ix (arg3_at20 m ρ c) (ix2 e (0 : Fin 1))) (fun n d => v31_at20 m ρ c n d) e d))
theorem v15_at21 (e : Fin 3000000) (u : Fin 1) : (W21 m ρ c (Proc.devRef .tc main_v15) : IVec S3000000x1 32) (ix2 e u) = dstT m ρ c e :=
  (at_ix ((keep20 m ρ c main_v15 (by decide)).trans ((keep19 m ρ c main_v15 (by decide)).trans ((keep18 m ρ c main_v15 (by decide)).trans ((keep17 m ρ c main_v15 (by decide)).trans ((keep16 m ρ c main_v15 (by decide)).trans ((keep15 m ρ c main_v15 (by decide)).trans ((keep14 m ρ c main_v15 (by decide)).trans ((keep13 m ρ c main_v15 (by decide)).trans ((keep12 m ρ c main_v15 (by decide)).trans ((keep11 m ρ c main_v15 (by decide)).trans ((keep10 m ρ c main_v15 (by decide)).trans ((keep9 m ρ c main_v15 (by decide)).trans ((keep8 m ρ c main_v15 (by decide)).trans ((keep7 m ρ c main_v15 (by decide)).trans ((keep6 m ρ c main_v15 (by decide)).trans (keep5 m ρ c main_v15 (by decide))))))))))))))))) (ix2 e u)).trans (v15_at5 m ρ c e u)
theorem v30_at21 (n : Fin 150528) (d : Fin 64) : (W21 m ρ c (Proc.devRef .tc main_v30) : S150528x64.Idx → EReal) (ix2 n d) = tabT2 m ρ c n d :=
  (at_ix ((keep20 m ρ c main_v30 (by decide)).trans (keep19 m ρ c main_v30 (by decide))) (ix2 n d)).trans (v30_at19 m ρ c n d)

theorem v33_at22 (n : Fin 150528) (d : Fin 64) :
    (W22 m ρ c (Proc.devRef .tc main_v33) : S150528x64.Idx → EReal) (ix2 n d) = tabT3 m ρ c n d :=
  (at_ix (W22_arr m ρ c 3) (ix2 n d)).trans ((scatter11_value (fun c b => W21 m ρ c b) c n d).trans
    (layer_of_parts _ _ _ _ (fun e => v15_at21 m ρ c e 0) (fun e d => v32_at21 m ρ c e d) (fun n d => v30_at21 m ρ c n d) n d))

end Cert.KernelIdeal.Hand
-- ==== Proof.KI.Bridge.lean ====
import proofs.«406629_j10943576670300_1_alg».proof.Proof.KI.Bridge.Img
import proofs.«406629_j10943576670300_1_alg».proof.Proof.KI.Bridge.Txt

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg) (c : Dev nD)

theorem top_img (hsI : ∀ e, (srcI m ρ c e).toNat < 150000) :
    top (W22 m ρ c (Proc.devRef .tc main_v24) : S150528x64.Idx → EReal)
      = Cert.Spec.layers3 Cert.Spec.nN (srcI m ρ c) (dstI m ρ c) (wI m ρ c) (Cert.Spec.ego0 (usrI m ρ c) (itmI m ρ c)) := by
  funext n d
  unfold top
  refine (v24_at22 m ρ c _ d).trans ?_
  rw [tabI3_eq]
  exact Cert.Spec.layers3_agree (show Cert.Spec.nN ≤ Cert.Spec.nP by decide) _ _ _ hsI _ _ (Cert.Spec.ego0P_agree _ _) n d

theorem top_txt (hsT : ∀ e, (srcT m ρ c e).toNat < 150000) :
    top (W22 m ρ c (Proc.devRef .tc main_v33) : S150528x64.Idx → EReal)
      = Cert.Spec.layers3 Cert.Spec.nN (srcT m ρ c) (dstT m ρ c) (wT m ρ c) (Cert.Spec.ego0 (usrT m ρ c) (itmT m ρ c)) := by
  funext n d
  unfold top
  refine (v33_at22 m ρ c _ d).trans ?_
  rw [tabT3_eq]
  exact Cert.Spec.layers3_agree (show Cert.Spec.nN ≤ Cert.Spec.nP by decide) _ _ _ hsT _ _ (Cert.Spec.ego0P_agree _ _) n d

theorem bridge_users (hsI : ∀ e, (srcI m ρ c e).toNat < 150000) (hsT : ∀ e, (srcT m ρ c e).toNat < 150000)
    (u : Fin 100000) (d : Fin 128) :
    (W23 m ρ c (Proc.devRef .tc main_v41) : S100000x128.Idx → EReal) (ix2 u d)
      = Cert.Spec.userRows
          (Cert.Spec.layers3 Cert.Spec.nN (srcI m ρ c) (dstI m ρ c) (wI m ρ c) (Cert.Spec.ego0 (usrI m ρ c) (itmI m ρ c)))
          (Cert.Spec.layers3 Cert.Spec.nN (srcT m ρ c) (dstT m ρ c) (wT m ρ c) (Cert.Spec.ego0 (usrT m ρ c) (itmT m ρ c))) u d := by
  refine (host12_v41 (W22 m ρ c) u d).trans ?_
  rw [top_img m ρ c hsI, top_txt m ρ c hsT]

theorem bridge_items (hsI : ∀ e, (srcI m ρ c e).toNat < 150000) (hsT : ∀ e, (srcT m ρ c e).toNat < 150000)
    (i : Fin 50000) (d : Fin 128) :
    (W23 m ρ c (Proc.devRef .tc main_v40) : S50000x128.Idx → EReal) (ix2 i d)
      = Cert.Spec.itemRows
          (Cert.Spec.layers3 Cert.Spec.nN (srcI m ρ c) (dstI m ρ c) (wI m ρ c) (Cert.Spec.ego0 (usrI m ρ c) (itmI m ρ c)))
          (Cert.Spec.layers3 Cert.Spec.nN (srcT m ρ c) (dstT m ρ c) (wT m ρ c) (Cert.Spec.ego0 (usrT m ρ c) (itmT m ρ c))) i d := by
  refine (host12_v40 (W22 m ρ c) i d).trans ?_
  rw [top_img m ρ c hsI, top_txt m ρ c hsT]

theorem bridge_users_m (hsI : ∀ e : Fin 3000000, ((m ((c : Thread nD τ).loc main_arg0) : IVec S2x3000000 32) (ix2 (0 : Fin 2) e)).toNat < 150000)
    (hsT : ∀ e : Fin 3000000, ((m ((c : Thread nD τ).loc main_arg2) : IVec S2x3000000 32) (ix2 (0 : Fin 2) e)).toNat < 150000)
    (u : Fin 100000) (d : Fin 128) :
    (W23 m ρ c (Proc.devRef .tc main_v41) : S100000x128.Idx → EReal) (ix2 u d)
      = Cert.Spec.userRows
          (Cert.Spec.layers3 150000 (fun e => (m ((c : Thread nD τ).loc main_arg0) : IVec S2x3000000 32) (ix2 (0 : Fin 2) e)) (fun e => (m ((c : Thread nD τ).loc main_arg0) : IVec S2x3000000 32) (ix2 (1 : Fin 2) e))
            (fun e => (m ((c : Thread nD τ).loc main_arg1) : S3000000x1.Idx → EReal) (ix2 e (0 : Fin 1)))
            (Cert.Spec.ego0 (fun u d => (m ((c : Thread nD τ).loc main_arg4) : S100000x64.Idx → EReal) (ix2 u d)) (fun i d => (m ((c : Thread nD τ).loc main_arg6) : S50000x64.Idx → EReal) (ix2 i d))))
          (Cert.Spec.layers3 150000 (fun e => (m ((c : Thread nD τ).loc main_arg2) : IVec S2x3000000 32) (ix2 (0 : Fin 2) e)) (fun e => (m ((c : Thread nD τ).loc main_arg2) : IVec S2x3000000 32) (ix2 (1 : Fin 2) e))
            (fun e => (m ((c : Thread nD τ).loc main_arg3) : S3000000x1.Idx → EReal) (ix2 e (0 : Fin 1)))
            (Cert.Spec.ego0 (fun u d => (m ((c : Thread nD τ).loc main_arg5) : S100000x64.Idx → EReal) (ix2 u d)) (fun i d => (m ((c : Thread nD τ).loc main_arg7) : S50000x64.Idx → EReal) (ix2 i d)))) u d :=
  bridge_users m ρ c hsI hsT u d

theorem bridge_items_m (hsI : ∀ e : Fin 3000000, ((m ((c : Thread nD τ).loc main_arg0) : IVec S2x3000000 32) (ix2 (0 : Fin 2) e)).toNat < 150000)
    (hsT : ∀ e : Fin 3000000, ((m ((c : Thread nD τ).loc main_arg2) : IVec S2x3000000 32) (ix2 (0 : Fin 2) e)).toNat < 150000)
    (i : Fin 50000) (d : Fin 128) :
    (W23 m ρ c (Proc.devRef .tc main_v40) : S50000x128.Idx → EReal) (ix2 i d)
      = Cert.Spec.itemRows
          (Cert.Spec.layers3 150000 (fun e => (m ((c : Thread nD τ).loc main_arg0) : IVec S2x3000000 32) (ix2 (0 : Fin 2) e)) (fun e => (m ((c : Thread nD τ).loc main_arg0) : IVec S2x3000000 32) (ix2 (1 : Fin 2) e))
            (fun e => (m ((c : Thread nD τ).loc main_arg1) : S3000000x1.Idx → EReal) (ix2 e (0 : Fin 1)))
            (Cert.Spec.ego0 (fun u d => (m ((c : Thread nD τ).loc main_arg4) : S100000x64.Idx → EReal) (ix2 u d)) (fun i d => (m ((c : Thread nD τ).loc main_arg6) : S50000x64.Idx → EReal) (ix2 i d))))
          (Cert.Spec.layers3 150000 (fun e => (m ((c : Thread nD τ).loc main_arg2) : IVec S2x3000000 32) (ix2 (0 : Fin 2) e)) (fun e => (m ((c : Thread nD τ).loc main_arg2) : IVec S2x3000000 32) (ix2 (1 : Fin 2) e))
            (fun e => (m ((c : Thread nD τ).loc main_arg3) : S3000000x1.Idx → EReal) (ix2 e (0 : Fin 1)))
            (Cert.Spec.ego0 (fun u d => (m ((c : Thread nD τ).loc main_arg5) : S100000x64.Idx → EReal) (ix2 u d)) (fun i d => (m ((c : Thread nD τ).loc main_arg7) : S50000x64.Idx → EReal) (ix2 i d)))) i d :=
  bridge_items m ρ c hsI hsT i d

end Cert.KernelIdeal.Hand
-- ==== Proof.RefRunP.Stages.lean ====
import proofs.«406629_j10943576670300_1_alg».proof.Proof.RefRunP.Ops
import proofs.«406629_j10943576670300_1_alg».proof.Proof.RefRunP.Read

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

def val1 (V0 : Valuation τ sig (Elt F)) : Valuation τ sig (Elt F) := after ops_part0 V0

def val2 (V0 : Valuation τ sig (Elt F)) : Valuation τ sig (Elt F) := after ops_part1 (val1 V0)

def val3 (V0 : Valuation τ sig (Elt F)) : Valuation τ sig (Elt F) := after ops_part2 (val2 V0)

theorem after_ops (V0 : Valuation τ sig (Elt F)) : after ops V0 = val3 V0 := by
  simp only [ops, StableHlo.after_append]
  rfl

abbrev ops_part0_W : List (Ref sig .tc) := [main_v0, main_v1, main_v2, main_v3, main_v4, main_v5, main_v6, main_v7, main_v8, main_v9, main_c, main_v10, main_v11, main_c_0, main_v12, main_v13, main_v14, main_v15, main_v16, main_v17, main_v18, main_cst, main_v19, main_v20, main_v21, main_cst_1, main_v22, main_v23, main_v24, main_c_2, main_v25, main_v26, main_c_3, main_v27, main_v28, main_v29, main_v30, main_v31, main_v32, main_v33, main_cst_4, main_v34, main_v35, main_v36, main_cst_5, main_v37, main_v38, main_v39, main_c_6, main_v40, main_v41, main_c_7, main_v42, main_v43, main_v44, main_v45, main_v46, main_v47, main_v48, main_cst_8]
set_option maxRecDepth 8192 in
theorem ops_part0_writes : (ops_part0 : List (HloOp τ sig (Elt F))).Forall fun op => op.writes ⊆ (ops_part0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val1_keep (V0 : Valuation τ sig (Elt F)) (r : Ref sig .tc) (h : r ∉ ops_part0_W) :
    val1 V0 (Proc.devRef .tc r) = V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
theorem val1_main_arg5 (V0 : Valuation τ sig (Elt F)) : val1 V0 (no_index (Proc.devRef .tc main_arg5)) = V0 (Proc.devRef .tc main_arg5) :=
  val1_keep V0 main_arg5 (by decide)
theorem val1_main_arg6 (V0 : Valuation τ sig (Elt F)) : val1 V0 (no_index (Proc.devRef .tc main_arg6)) = V0 (Proc.devRef .tc main_arg6) :=
  val1_keep V0 main_arg6 (by decide)
theorem val1_main_arg7 (V0 : Valuation τ sig (Elt F)) : val1 V0 (no_index (Proc.devRef .tc main_arg7)) = V0 (Proc.devRef .tc main_arg7) :=
  val1_keep V0 main_arg7 (by decide)

abbrev ops_part1_W : List (Ref sig .tc) := [main_v49, main_v50, main_v51, main_cst_9, main_v52, main_v53, main_v54, main_c_10, main_v55, main_v56, main_c_11, main_v57, main_v58, main_v59, main_v60, main_v61, main_v62, main_v63, main_cst_12, main_v64, main_v65, main_v66, main_cst_13, main_v67, main_v68, main_v69, main_c_14, main_v70, main_v71, main_c_15, main_v72, main_v73, main_v74, main_v75, main_v76, main_v77, main_v78, main_cst_16, main_v79, main_v80, main_v81, main_cst_17, main_v82, main_v83, main_v84, main_c_18, main_v85, main_v86, main_c_19, main_v87, main_v88, main_v89, main_v90, main_v91, main_v92, main_v93, main_cst_20, main_v94, main_v95, main_v96]
set_option maxRecDepth 8192 in
theorem ops_part1_writes : (ops_part1 : List (HloOp τ sig (Elt F))).Forall fun op => op.writes ⊆ (ops_part1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)

abbrev ops_part2_W : List (Ref sig .tc) := [main_cst_21, main_v97, main_v98, main_v99, main_v100, main_v101, main_v102, main_v103, main_v104, main_v105]
set_option maxRecDepth 8192 in
theorem ops_part2_writes : (ops_part2 : List (HloOp τ sig (Elt F))).Forall fun op => op.writes ⊆ (ops_part2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)

set_option maxRecDepth 8192 in
theorem val1_main_v39 (V0 : Valuation τ sig (Elt F)) :
    val1 V0 (no_index (Proc.devRef .tc main_v39)) = val_main_v39 (F := F) (V0 (Proc.devRef .tc main_arg0)) (V0 (Proc.devRef .tc main_arg1)) (V0 (Proc.devRef .tc main_arg4)) (V0 (Proc.devRef .tc main_arg6)) := by
  unfold val1
  simp only [ops_part0]
  after_results_simp
  rfl

set_option maxRecDepth 8192 in
theorem val1_main_v48 (V0 : Valuation τ sig (Elt F)) :
    val1 V0 (no_index (Proc.devRef .tc main_v48)) = val_main_v48 (F := F) (V0 (Proc.devRef .tc main_arg0)) (V0 (Proc.devRef .tc main_arg1)) (V0 (Proc.devRef .tc main_arg4)) (V0 (Proc.devRef .tc main_arg6)) := by
  unfold val1
  simp only [ops_part0]
  after_results_simp
  rfl

set_option maxRecDepth 8192 in
theorem val1_main_v5 (V0 : Valuation τ sig (Elt F)) :
    val1 V0 (no_index (Proc.devRef .tc main_v5)) = val_main_v5 (F := F) (V0 (Proc.devRef .tc main_arg0)) := by
  unfold val1
  simp only [ops_part0]
  after_results_simp
  rfl

set_option maxRecDepth 8192 in
theorem val1_main_cst_8 (V0 : Valuation τ sig (Elt F)) :
    val1 V0 (no_index (Proc.devRef .tc main_cst_8)) = val_main_cst_8 (F := F) := by
  unfold val1
  simp only [ops_part0]
  after_results_simp
  rfl

set_option maxRecDepth 8192 in
theorem val1_main_v7 (V0 : Valuation τ sig (Elt F)) :
    val1 V0 (no_index (Proc.devRef .tc main_v7)) = val_main_v7 (F := F) (V0 (Proc.devRef .tc main_arg2)) := by
  unfold val1
  simp only [ops_part0]
  after_results_simp
  rfl

set_option maxRecDepth 8192 in
theorem val1_main_v9 (V0 : Valuation τ sig (Elt F)) :
    val1 V0 (no_index (Proc.devRef .tc main_v9)) = val_main_v9 (F := F) (V0 (Proc.devRef .tc main_arg2)) := by
  unfold val1
  simp only [ops_part0]
  after_results_simp
  rfl

set_option maxRecDepth 8192 in
theorem val1_main_v1 (V0 : Valuation τ sig (Elt F)) :
    val1 V0 (no_index (Proc.devRef .tc main_v1)) = val_main_v1 (F := F) (V0 (Proc.devRef .tc main_arg5)) (V0 (Proc.devRef .tc main_arg7)) := by
  unfold val1
  simp only [ops_part0]
  after_results_simp
  rfl

set_option maxRecDepth 8192 in
theorem val2_main_v54 (V0 : Valuation τ sig (Elt F)) :
    val2 V0 (no_index (Proc.devRef .tc main_v54)) = val_main_v54 (F := F) (V0 (Proc.devRef .tc main_arg0)) (V0 (Proc.devRef .tc main_arg1)) (V0 (Proc.devRef .tc main_arg4)) (V0 (Proc.devRef .tc main_arg6)) := by
  unfold val2
  simp only [ops_part1]
  after_results_simp
  simp only [val1_main_v39, val1_main_v48, val1_main_v5, val1_main_cst_8, val1_main_v7, val1_main_v9, val1_main_v1, val1_main_arg0, val1_main_arg1, val1_main_arg2, val1_main_arg3, val1_main_arg4, val1_main_arg5, val1_main_arg6, val1_main_arg7]
  rfl

set_option maxRecDepth 8192 in
theorem val2_main_v84 (V0 : Valuation τ sig (Elt F)) :
    val2 V0 (no_index (Proc.devRef .tc main_v84)) = val_main_v84 (F := F) (V0 (Proc.devRef .tc main_arg2)) (V0 (Proc.devRef .tc main_arg3)) (V0 (Proc.devRef .tc main_arg5)) (V0 (Proc.devRef .tc main_arg7)) := by
  unfold val2
  simp only [ops_part1]
  after_results_simp
  simp only [val1_main_v39, val1_main_v48, val1_main_v5, val1_main_cst_8, val1_main_v7, val1_main_v9, val1_main_v1, val1_main_arg0, val1_main_arg1, val1_main_arg2, val1_main_arg3, val1_main_arg4, val1_main_arg5, val1_main_arg6, val1_main_arg7]
  rfl

set_option maxRecDepth 8192 in
theorem val2_main_v96 (V0 : Valuation τ sig (Elt F)) :
    val2 V0 (no_index (Proc.devRef .tc main_v96)) = val_main_v96 (F := F) (V0 (Proc.devRef .tc main_arg2)) (V0 (Proc.devRef .tc main_arg3)) (V0 (Proc.devRef .tc main_arg5)) (V0 (Proc.devRef .tc main_arg7)) := by
  unfold val2
  simp only [ops_part1]
  after_results_simp
  simp only [val1_main_v39, val1_main_v48, val1_main_v5, val1_main_cst_8, val1_main_v7, val1_main_v9, val1_main_v1, val1_main_arg0, val1_main_arg1, val1_main_arg2, val1_main_arg3, val1_main_arg4, val1_main_arg5, val1_main_arg6, val1_main_arg7]
  rfl

set_option maxRecDepth 8192 in
theorem val3_main_v105 (V0 : Valuation τ sig (Elt F)) :
    val3 V0 (no_index (Proc.devRef .tc main_v105)) = val_main_v105 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val3
  simp only [ops_part2]
  after_results
  rw [val2_main_v54, val2_main_v84, val2_main_v96]
  rfl

set_option maxRecDepth 8192 in
theorem val3_main_v104 (V0 : Valuation τ sig (Elt F)) :
    val3 V0 (no_index (Proc.devRef .tc main_v104)) = val_main_v104 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val3
  simp only [ops_part2]
  after_results
  rw [val2_main_v54, val2_main_v84, val2_main_v96]
  rfl

end Cert.ReferenceIdeal.ValueP

end
-- ==== Proof.RefRunP.Run.lean ====
import proofs.«406629_j10943576670300_1_alg».proof.Proof.RefRunP.Stages

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v104) = val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v105).trans (by simp only [after_ops]; exact val3_main_v105 (launchContents m c)),
      (h c main_v104).trans (by simp only [after_ops]; exact val3_main_v104 (launchContents m c)),
      (h c main_arg0).trans (by simp only [after_ops]; exact val3_main_arg0 (launchContents m c)),
      (h c main_arg1).trans (by simp only [after_ops]; exact val3_main_arg1 (launchContents m c)),
      (h c main_arg2).trans (by simp only [after_ops]; exact val3_main_arg2 (launchContents m c)),
      (h c main_arg3).trans (by simp only [after_ops]; exact val3_main_arg3 (launchContents m c)),
      (h c main_arg4).trans (by simp only [after_ops]; exact val3_main_arg4 (launchContents m c)),
      (h c main_arg5).trans (by simp only [after_ops]; exact val3_main_arg5 (launchContents m c)),
      (h c main_arg6).trans (by simp only [after_ops]; exact val3_main_arg6 (launchContents m c)),
      (h c main_arg7).trans (by simp only [after_ops]; exact val3_main_arg7 (launchContents m c))⟩)
    (run_seq scopedRefs_eq scopedSems_eq defs main (fun _ => ops) main_eq (fun _ => ops_sub) m ρ (fun _ => ops_fresh))

end Cert.ReferenceIdeal.ValueP

end
-- ==== Proof.RefValue.Gather.lean ====
import proofs.«406629_j10943576670300_1_alg».proof.ReferenceIdeal
import Idealize.ShloMosaic.Lib.ValueIdx

noncomputable section

namespace Cert.ReferenceIdeal.RefValue

open Cert.ReferenceIdeal Idealize.ShloMosaic Idealize.ShloMosaic.ValueIdx

variable [Facts₀]

local notation "gd" => gather_S150000x64_S3000000x1_S3000000x64_1_0_n_n_0_1_164

theorem gather_row_apply {α : Type} {w : Nat} (x : S150000x64.Idx → α) (idx : IVec S3000000x1 w)
    (e : Fin 3000000) (c : Fin 64) :
    Host.gather gd x idx (ix2 e c)
      = x (ix2 (⟨min (idx (ix2 e 0)).toInt.toNat 149999, by omega⟩ : Fin 150000) c) := by
  unfold Host.gather
  congr 1
  funext a
  refine Fin.ext ?_
  show (gd).start (ix2 e c) idx a + (gd).batchCoord (ix2 e c) a + (gd).offCoord (ix2 e c) a = _
  rw [GatherDims.batchCoord_eq_zero _ _ _ List.not_mem_nil, Nat.add_zero]
  revert a
  refine Fin.forall_fin_two.2 ⟨?_, ?_⟩
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (gd).startIndexMap from List.mem_singleton.mpr rfl)]
    have hsi : (gd).siIdx (ix2 e c) ⟨List.idxOf (0 : Fin 2) (gd).startIndexMap,
        List.idxOf_lt_length_iff.2 (List.mem_singleton.mpr rfl)⟩ = ix2 e 0 := by
      funext b; refine Fin.ext ?_
      revert b
      exact Fin.forall_fin_two.2 ⟨rfl, rfl⟩
    rw [hsi]
    rfl
  · have hc : (1 : Fin 2) ∉ (gd).collapsedSliceDims := show (1 : Fin 2) ∉ ([0] : List (Fin 2)) by decide
    have hm : (1 : Fin 2) ∉ (gd).startIndexMap := show (1 : Fin 2) ∉ ([0] : List (Fin 2)) by decide
    have h1 : (1 : Fin 2) ∈ (gd).sKept := (GatherDims.mem_sKept _ _).mpr ⟨hc, List.not_mem_nil⟩
    have hs : (gd).start (ix2 e c) idx (1 : Fin 2) = 0 := by
      unfold GatherDims.start
      rw [dif_neg hm]
    have ho : (gd).offCoord (ix2 e c) (1 : Fin 2) = c.val := by
      unfold GatherDims.offCoord
      rw [dif_pos h1]
      rfl
    rw [hs, ho, Nat.zero_add]

end Cert.ReferenceIdeal.RefValue

end
-- ==== Proof.RefValue.Scatter.lean ====
import proofs.«406629_j10943576670300_1_alg».proof.ReferenceIdeal
import Idealize.ShloMosaic.Lib.ValueIdx

noncomputable section

namespace Cert.ReferenceIdeal.RefValue

open Cert.ReferenceIdeal Idealize.ShloMosaic Idealize.ShloMosaic.ValueIdx

variable [Facts₀]

local notation "sd" => scatter_S150000x64_S3000000x1_S3000000x64_1_0_0_1

theorem sd_start0 {w : Nat} (j : S3000000x64.Idx) (idx : IVec S3000000x1 w) :
    (sd).start j idx (0 : Fin 2) = (idx (ix2 (j 0) 0)).toInt := by
  unfold ScatterDims.start
  rw [dif_pos (show (0 : Fin 2) ∈ (sd).scatterDimsToOperandDims from List.mem_singleton.mpr rfl)]
  have hsi : (sd).siIdx j ⟨List.idxOf (0 : Fin 2) (sd).scatterDimsToOperandDims,
      List.idxOf_lt_length_iff.2 (List.mem_singleton.mpr rfl)⟩ = ix2 (j 0) 0 := by
    funext b; refine Fin.ext ?_
    revert b
    exact Fin.forall_fin_two.2 ⟨rfl, rfl⟩
  rw [hsi]
  rfl

theorem sd_start1 {w : Nat} (j : S3000000x64.Idx) (idx : IVec S3000000x1 w) :
    (sd).start j idx (1 : Fin 2) = 0 := by
  unfold ScatterDims.start
  rw [dif_neg (show (1 : Fin 2) ∉ (sd).scatterDimsToOperandDims from (show (1 : Fin 2) ∉ ([0] : List (Fin 2)) by decide))]

theorem sd_window0 (j : S3000000x64.Idx) : (sd).window j (0 : Fin 2) = 0 := by
  unfold ScatterDims.window
  rw [dif_neg (show (0 : Fin 2) ∉ (sd).sKept from (show (0 : Fin 2) ∉ S150000x64.kept [0] by decide))]

theorem sd_window1 (j : S3000000x64.Idx) : (sd).window j (1 : Fin 2) = (j 1).val := by
  unfold ScatterDims.window
  rw [dif_pos (show (1 : Fin 2) ∈ (sd).sKept from (show (1 : Fin 2) ∈ S150000x64.kept [0] by decide))]
  rfl

theorem sd_resultIdx?_eq_some_iff {w : Nat} (j : S3000000x64.Idx) (idx : IVec S3000000x1 w) (i : S150000x64.Idx) :
    (sd).resultIdx? j idx = some i ↔ (idx (ix2 (j 0) 0)).toInt = ((i 0).val : Int) ∧ j 1 = i 1 := by
  have hi0 : (i 0).val < 150000 := (i 0).isLt
  have hi1 : (i 1).val < 64 := (i 1).isLt
  have hj1 : (j 1).val < 64 := (j 1).isLt
  have hz0 : ((S150000x64.size (0 : Fin 2) : Nat) : Int) = 150000 := rfl
  have hz1 : ((S150000x64.size (1 : Fin 2) : Nat) : Int) = 64 := rfl
  unfold ScatterDims.resultIdx?
  by_cases h : ∀ a, 0 ≤ (sd).start j idx a + (sd).window j a ∧ (sd).start j idx a + (sd).window j a < S150000x64.size a
  · rw [dif_pos h]
    constructor
    · intro hh
      have hf := Option.some.inj hh
      have h0 : ((sd).start j idx (0 : Fin 2) + (sd).window j (0 : Fin 2)).toNat = (i 0).val :=
        congrArg (fun f : S150000x64.Idx => (f 0).val) hf
      have h1 : ((sd).start j idx (1 : Fin 2) + (sd).window j (1 : Fin 2)).toNat = (i 1).val :=
        congrArg (fun f : S150000x64.Idx => (f 1).val) hf
      have a0 := (h 0).1
      rw [sd_start0, sd_window0] at h0 a0
      rw [sd_start1, sd_window1] at h1
      exact ⟨by omega, Fin.ext (by omega)⟩
    · rintro ⟨h0, h1⟩
      congr 1
      funext a; refine Fin.ext ?_
      revert a
      refine Fin.forall_fin_two.2 ⟨?_, ?_⟩
      · show ((sd).start j idx (0 : Fin 2) + (sd).window j (0 : Fin 2)).toNat = (i 0).val
        rw [sd_start0, sd_window0]; omega
      · show ((sd).start j idx (1 : Fin 2) + (sd).window j (1 : Fin 2)).toNat = (i 1).val
        rw [sd_start1, sd_window1, ← h1]; omega
  · rw [dif_neg h]
    constructor
    · intro hh; exact absurd hh (by simp)
    · rintro ⟨h0, h1⟩
      exfalso; apply h
      refine Fin.forall_fin_two.2 ⟨?_, ?_⟩
      · rw [sd_start0, sd_window0, hz0]; constructor <;> omega
      · rw [sd_start1, sd_window1, hz1]; constructor <;> omega

theorem scatter_row_apply {w : Nat} (x : S150000x64.Idx → EReal) (idx : IVec S3000000x1 w)
    (upd : S3000000x64.Idx → EReal) (n : Fin 150000) (c : Fin 64) :
    Ideal.hostScatterAdd sd x idx upd (ix2 n c)
      = x (ix2 n c) + ∑ e : Fin 3000000, if (idx (ix2 e 0)).toInt = (n.val : Int) then upd (ix2 e c) else 0 := by
  unfold Ideal.hostScatterAdd
  show x (ix2 n c) + Finset.sum (Finset.filter _ Finset.univ) upd = _
  refine congrArg (fun t => x (ix2 n c) + t) ?_
  rw [Finset.sum_filter, sum_idx2]
  refine Finset.sum_congr rfl fun e _ => ?_
  have key : ∀ b : Fin 64, (if (sd).resultIdx? (ix2 e b) idx = some (ix2 n c) then upd (ix2 e b) else 0)
      = if b = c then (if (idx (ix2 e 0)).toInt = (n.val : Int) then upd (ix2 e c) else 0) else 0 := by
    intro b
    have hiff := sd_resultIdx?_eq_some_iff (ix2 e b) idx (ix2 n c)
    by_cases hb : b = c
    · subst hb
      rw [if_pos rfl]
      exact if_congr (hiff.trans ⟨fun h => h.1, fun h => ⟨h, rfl⟩⟩) rfl rfl
    · rw [if_neg hb, if_neg (fun h => hb (hiff.mp h).2)]
  rw [Finset.sum_congr rfl (fun b _ => key b), Finset.sum_ite_eq', if_pos (Finset.mem_univ _)]

end Cert.ReferenceIdeal.RefValue

end
-- ==== Proof.RefValue.Layer.lean ====
import proofs.«406629_j10943576670300_1_alg».proof.Proof.RefValue.Gather
import proofs.«406629_j10943576670300_1_alg».proof.Proof.RefValue.Scatter
import proofs.«406629_j10943576670300_1_alg».proof.Proof.Spec
import Idealize.ShloMosaic.Lib.Pipeline.Value
import Idealize.ShloMosaic.Lib.IdealHost

noncomputable section

namespace Cert.ReferenceIdeal.RefValue

open Cert.ReferenceIdeal Idealize.ShloMosaic Idealize.ShloMosaic.ValueIdx

theorem toInt_of_lt (v : BitVec 32) (h : v.toNat < 150000) : v.toInt = (v.toNat : Int) :=
  BitVec.toInt_eq_toNat_of_lt (by omega)

theorem wrap_id (v : BitVec 32) (h : v.toNat < 150000) :
    Scalar.select (IntOp.cmpi .slt v 0#32) (IntOp.addi v 150000#32) v = v := by
  have hlt : v.slt 0#32 = false := by
    unfold BitVec.slt
    rw [toInt_of_lt v h]
    simp
  unfold IntOp.cmpi
  show Scalar.select (BitVec.ofBool (v.slt 0#32)) _ _ = v
  rw [hlt]
  exact select_zero _ _

theorem clamp_id (v : BitVec 32) (h : v.toNat < 150000) : min v.toInt.toNat 149999 = v.toNat := by
  rw [toInt_of_lt v h, Int.toNat_natCast]
  omega

theorem toInt_eq_iff (v : BitVec 32) (n : Nat) (hn : n < 150000) : v.toInt = (n : Int) ↔ v.toNat = n := by
  have := v.isLt
  rw [BitVec.toInt_eq_toNat_cond]
  split <;> omega

theorem bcast_edges {α : Type} (h : S_.BroadcastsInDim S3000000 (![] : Fin 0 → Fin S3000000.rank)) (y : S_.Idx → α)
    (i : S3000000.Idx) : broadcastInDim S3000000 ![] h y i = y ix0 :=
  broadcastInDim_apply _ h y i ix0 (fun a => a.elim0)

theorem bcast_table {α : Type} (h : S_.BroadcastsInDim S150000x64 (![] : Fin 0 → Fin S150000x64.rank)) (y : S_.Idx → α)
    (i : S150000x64.Idx) : broadcastInDim S150000x64 ![] h y i = y ix0 :=
  broadcastInDim_apply _ h y i ix0 (fun a => a.elim0)

theorem bcast_col {α : Type} (h : S3000000.BroadcastsInDim S3000000x1 (![0] : Fin 1 → Fin S3000000x1.rank))
    (y : S3000000.Idx → α) (e : Fin 3000000) (k : Fin 1) :
    broadcastInDim S3000000x1 ![0] h y (ix2 e k) = y (ix1 e) :=
  broadcastInDim_apply _ h y (ix2 e k) (ix1 e) (fun a => match a with
    | ⟨0, _⟩ => by show e.val = if (3000000 : Nat) = 1 then 0 else e.val; rw [if_neg (by decide)])

theorem bcast_weight {α : Type} (h : S3000000x1.BroadcastsInDim S3000000x64 (![0, 1] : Fin 2 → Fin S3000000x64.rank))
    (y : S3000000x1.Idx → α) (e : Fin 3000000) (c : Fin 64) :
    broadcastInDim S3000000x64 ![0, 1] h y (ix2 e c) = y (ix2 e 0) :=
  broadcastInDim_apply _ h y (ix2 e c) (ix2 e 0) (fun a => match a with
    | ⟨0, _⟩ => by show e.val = if (3000000 : Nat) = 1 then 0 else e.val; rw [if_neg (by decide)]
    | ⟨1, _⟩ => by show 0 = if (1 : Nat) = 1 then 0 else c.val; rw [if_pos rfl])

variable [Facts₀]
open Facts₀

def wrapped (src : IVec S3000000 32) : IVec S3000000x1 32 :=
  broadcastInDim S3000000x1 ![0] bcast_S3000000_S3000000x1_0
    (select (cmpi .slt src (broadcastInDim S3000000 ![] bcast_S_S3000000 (constantI S_ 32 0#32)))
      (addi src (broadcastInDim S3000000 ![] bcast_S_S3000000 (constantI S_ 32 150000#32))) src)

def refLayer (src dst : IVec S3000000 32) (w : FVec Ideal S3000000x1 .f32) (x : FVec Ideal S150000x64 .f32) :
    FVec Ideal S150000x64 .f32 :=
  addf
    (Host.scatterAdd scatter_S150000x64_S3000000x1_S3000000x64_1_0_0_1
      (broadcastInDim S150000x64 ![] bcast_S_S150000x64 (constant S_ .f32 0x00000000#32))
      (broadcastInDim S3000000x1 ![0] bcast_S3000000_S3000000x1_0 dst)
      (mulf (Host.gather gather_S150000x64_S3000000x1_S3000000x64_1_0_n_n_0_1_164 x (wrapped src))
        (broadcastInDim S3000000x64 ![0, 1] bcast_S3000000x1_S3000000x64_0_1 w)))
    (mulf (broadcastInDim S150000x64 ![] bcast_S_S150000x64 (constant S_ .f32 0x3F000000#32)) x)

theorem wrapped_apply (src : IVec S3000000 32) (e : Fin 3000000) (h : (src (ix1 e)).toNat < 150000) (k : Fin 1) :
    wrapped src (ix2 e k) = src (ix1 e) := by
  unfold wrapped
  rw [bcast_col]
  show Scalar.select (IntOp.cmpi .slt (src (ix1 e)) (broadcastInDim S3000000 ![] bcast_S_S3000000 (constantI S_ 32 0#32) (ix1 e)))
      (IntOp.addi (src (ix1 e)) (broadcastInDim S3000000 ![] bcast_S_S3000000 (constantI S_ 32 150000#32) (ix1 e)))
      (src (ix1 e)) = src (ix1 e)
  rw [bcast_edges, bcast_edges]
  exact wrap_id _ h

theorem refMsg_apply (src : IVec S3000000 32) (w : FVec Ideal S3000000x1 .f32) (x : FVec Ideal S150000x64 .f32)
    (hs : ∀ e : Fin 3000000, (src (ix1 e)).toNat < 150000) (e : Fin 3000000) (d : Fin 64) :
    mulf (Host.gather gather_S150000x64_S3000000x1_S3000000x64_1_0_n_n_0_1_164 x (wrapped src))
        (broadcastInDim S3000000x64 ![0, 1] bcast_S3000000x1_S3000000x64_0_1 w) (ix2 e d)
      = Cert.Spec.msg 150000 (fun e => src (ix1 e)) (fun e => w (ix2 e 0)) (fun n d => x (ix2 n d)) e d := by
  rw [mulf_apply, gather_row_apply, bcast_weight]
  unfold Cert.Spec.msg
  rw [dif_pos (hs e)]
  refine congrArg (fun t : EReal => t * w (ix2 e 0)) ?_
  refine congrArg (fun r : Fin 150000 => x (ix2 r d)) (Fin.ext ?_)
  show min (wrapped src (ix2 e 0)).toInt.toNat 149999 = (src (ix1 e)).toNat
  rw [wrapped_apply src e (hs e)]
  exact clamp_id _ (hs e)

theorem layer_shape {w : Nat} (Z : FVec Ideal S150000x64 .f32) (I : IVec S3000000x1 w) (U : FVec Ideal S3000000x64 .f32)
    (H x : FVec Ideal S150000x64 .f32) (i : S150000x64.Idx) :
    addf (Host.scatterAdd scatter_S150000x64_S3000000x1_S3000000x64_1_0_0_1 Z I U) (mulf H x) i
      = Ideal.hostScatterAdd scatter_S150000x64_S3000000x1_S3000000x64_1_0_0_1 Z I U i + H i * x i := rfl

theorem assemble {z S h y : EReal} (hz : z = 0) (hh : h = Cert.Spec.half) :
    (z + S) + h * y = S + Cert.Spec.half * y := by
  subst hz hh
  rw [zero_add]

theorem layer_of_parts {w : Nat} (Z : FVec Ideal S150000x64 .f32) (I : IVec S3000000x1 w)
    (U : FVec Ideal S3000000x64 .f32) (H x : FVec Ideal S150000x64 .f32) (n : Fin 150000) (d : Fin 64)
    (T : Fin 3000000 → EReal)
    (hz : Z (ix2 n d) = 0) (hh : H (ix2 n d) = Cert.Spec.half)
    (hT : ∀ e : Fin 3000000, (if (I (ix2 e 0)).toInt = (n.val : Int) then U (ix2 e d) else 0) = T e) :
    addf (Host.scatterAdd scatter_S150000x64_S3000000x1_S3000000x64_1_0_0_1 Z I U) (mulf H x) (ix2 n d)
      = (∑ e : Fin 3000000, T e) + Cert.Spec.half * x (ix2 n d) := by
  rw [layer_shape, scatter_row_apply, Finset.sum_congr rfl (fun e _ => hT e)]
  exact assemble hz hh

theorem layer_def (N : Nat) (s t : Fin Cert.Spec.nE → BitVec 32) (w : Fin Cert.Spec.nE → EReal)
    (X : Fin N → Fin 64 → EReal) (n : Fin N) (d : Fin 64) :
    Cert.Spec.layer N s t w X n d
      = (∑ e : Fin Cert.Spec.nE, if (t e).toNat = n.val then Cert.Spec.msg N s w X e d else 0)
        + Cert.Spec.half * X n d := rfl

theorem refLayer_apply (src dst : IVec S3000000 32) (w : FVec Ideal S3000000x1 .f32) (x : FVec Ideal S150000x64 .f32)
    (hs : ∀ e : Fin 3000000, (src (ix1 e)).toNat < 150000) (n : Fin 150000) (d : Fin 64) :
    refLayer src dst w x (ix2 n d)
      = Cert.Spec.layer 150000 (fun e => src (ix1 e)) (fun e => dst (ix1 e)) (fun e => w (ix2 e 0))
          (fun n d => x (ix2 n d)) n d := by
  have hZ : (broadcastInDim S150000x64 ![] bcast_S_S150000x64 (constant (F := Ideal) S_ .f32 0x00000000#32)) (ix2 n d)
      = 0 := by
    rw [bcast_table, constant_apply]
    exact Ideal.ofBits_zero_f32
  have hH : (broadcastInDim S150000x64 ![] bcast_S_S150000x64 (constant (F := Ideal) S_ .f32 0x3F000000#32)) (ix2 n d)
      = Cert.Spec.half := by
    rw [bcast_table, constant_apply]
  have hterm : ∀ e : Fin 3000000,
      (if ((broadcastInDim S3000000x1 ![0] bcast_S3000000_S3000000x1_0 dst) (ix2 e 0)).toInt = (n.val : Int) then
          (mulf (Host.gather gather_S150000x64_S3000000x1_S3000000x64_1_0_n_n_0_1_164 x (wrapped src))
            (broadcastInDim S3000000x64 ![0, 1] bcast_S3000000x1_S3000000x64_0_1 w)) (ix2 e d)
        else 0)
      = (fun e : Fin 3000000 => if (dst (ix1 e)).toNat = n.val then
          Cert.Spec.msg 150000 (fun e => src (ix1 e)) (fun e => w (ix2 e 0)) (fun n d => x (ix2 n d)) e d
        else 0) e := by
    intro e
    rw [bcast_col, refMsg_apply src w x hs e d]
    exact if_congr (toInt_eq_iff _ _ n.isLt) rfl rfl
  unfold refLayer
  exact (layer_of_parts _ _ _ _ x n d _ hZ hH hterm).trans
    (layer_def 150000 (fun e => src (ix1 e)) (fun e => dst (ix1 e)) (fun e => w (ix2 e 0)) (fun n d => x (ix2 n d)) n d).symm

theorem refLayer_fun (src dst : IVec S3000000 32) (w : FVec Ideal S3000000x1 .f32) (x : FVec Ideal S150000x64 .f32)
    (hs : ∀ e : Fin 3000000, (src (ix1 e)).toNat < 150000) :
    (fun (n : Fin 150000) (d : Fin 64) => refLayer src dst w x (ix2 n d))
      = Cert.Spec.layer 150000 (fun e => src (ix1 e)) (fun e => dst (ix1 e)) (fun e => w (ix2 e 0))
          (fun n d => x (ix2 n d)) :=
  funext fun n => funext fun d => refLayer_apply src dst w x hs n d

theorem refLayers3_apply (src dst : IVec S3000000 32) (w : FVec Ideal S3000000x1 .f32) (x : FVec Ideal S150000x64 .f32)
    (hs : ∀ e : Fin 3000000, (src (ix1 e)).toNat < 150000) (n : Fin 150000) (d : Fin 64) :
    refLayer src dst w (refLayer src dst w (refLayer src dst w x)) (ix2 n d)
      = Cert.Spec.layers3 150000 (fun e => src (ix1 e)) (fun e => dst (ix1 e)) (fun e => w (ix2 e 0))
          (fun n d => x (ix2 n d)) n d := by
  unfold Cert.Spec.layers3
  rw [refLayer_apply src dst w _ hs, refLayer_fun src dst w _ hs, refLayer_fun src dst w _ hs]

end Cert.ReferenceIdeal.RefValue

end
-- ==== Proof.RefValue.Cat.lean ====
import proofs.«406629_j10943576670300_1_alg».proof.ReferenceIdeal
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx

theorem cat_rows {α : Type} (h : Shape.Concatenates [S100000x64, S50000x64] S150000x64 0)
    (x4 : S100000x64.Idx → α) (x6 : S50000x64.Idx → α) (n : Fin 150000) (d : Fin 64) :
    concatenate S150000x64 0 [⟨S100000x64, x4⟩, ⟨S50000x64, x6⟩] h (ix2 n d)
      = if hn : n.val < 100000 then x4 (ix2 ⟨n.val, hn⟩ d)
        else x6 (ix2 ⟨n.val - 100000, by have := n.isLt; omega⟩ d) := by
  by_cases hn : n.val < 100000
  · rw [dif_pos hn]
    exact concatenate_pair_apply_left 0 x4 x6 h (ix2 n d) rfl (ix2 ⟨n.val, hn⟩ d) (Fin.forall_fin_two.2 ⟨rfl, rfl⟩)
  · rw [dif_neg hn]
    exact concatenate_pair_apply_right 0 x4 x6 h (ix2 n d) rfl rfl
      (ix2 ⟨n.val - 100000, by have := n.isLt; omega⟩ d)
      (Fin.forall_fin_two.2 ⟨fun hb => absurd rfl hb, fun _ => rfl⟩)
      (by show n.val - 100000 + 100000 = n.val; omega)

theorem cat_cols {α : Type} {R : Nat}
    (h : Shape.Concatenates [(⟨2, ![R, 64]⟩ : Shape), ⟨2, ![R, 64]⟩] ⟨2, ![R, 128]⟩ 1)
    (p q : (⟨2, ![R, 64]⟩ : Shape).Idx → α) (r : Fin R) (d : Fin 128) :
    concatenate (⟨2, ![R, 128]⟩ : Shape) 1 [⟨⟨2, ![R, 64]⟩, p⟩, ⟨⟨2, ![R, 64]⟩, q⟩] h (ix2 r d)
      = if hd : d.val < 64 then p (ix2 r ⟨d.val, hd⟩)
        else q (ix2 r ⟨d.val - 64, by have := d.isLt; omega⟩) := by
  by_cases hd : d.val < 64
  · rw [dif_pos hd]
    exact concatenate_pair_apply_left 1 p q h (ix2 r d) rfl (ix2 r ⟨d.val, hd⟩) (Fin.forall_fin_two.2 ⟨rfl, rfl⟩)
  · rw [dif_neg hd]
    exact concatenate_pair_apply_right 1 p q h (ix2 r d) rfl rfl
      (ix2 r ⟨d.val - 64, by have := d.isLt; omega⟩)
      (Fin.forall_fin_two.2 ⟨fun _ => rfl, fun hb => absurd rfl hb⟩)
      (by show d.val - 64 + 64 = d.val; omega)

end Cert.ReferenceIdeal.RefValue

end
-- ==== Proof.RefValue.lean ====
import proofs.«406629_j10943576670300_1_alg».proof.Proof.RefRunP.Read
import proofs.«406629_j10943576670300_1_alg».proof.Proof.Spec
import proofs.«406629_j10943576670300_1_alg».proof.Proof.RefValue.Layer
import proofs.«406629_j10943576670300_1_alg».proof.Proof.RefValue.Cat

noncomputable section

namespace Cert.ReferenceIdeal.RefValue

open Cert.ReferenceIdeal Cert.ReferenceIdeal.Gen Cert.ReferenceIdeal.ReadP Idealize.ShloMosaic Idealize.ShloMosaic.ValueIdx

variable (a0 a2 : IVec S2x3000000 32) (a1 a3 : FVec Ideal S3000000x1 .f32) (a4 a5 : FVec Ideal S100000x64 .f32)
  (a6 a7 : FVec Ideal S50000x64 .f32)

theorem v3_apply (e : Fin 3000000) : val_main_v3 (F := Ideal) a0 (ix1 e) = a0 (ix2 0 e) := by
  rw [val_main_v3_apply, val_main_v2_apply]
  refine congrArg a0 (funext fun a => Fin.ext ?_)
  revert a
  refine Fin.forall_fin_two.2 ⟨rfl, ?_⟩
  show e.val % 3000000 = e.val
  exact Nat.mod_eq_of_lt e.isLt

theorem v5_apply (e : Fin 3000000) : val_main_v5 (F := Ideal) a0 (ix1 e) = a0 (ix2 1 e) := by
  rw [val_main_v5_apply, val_main_v4_apply]
  refine congrArg a0 (funext fun a => Fin.ext ?_)
  revert a
  refine Fin.forall_fin_two.2 ⟨rfl, ?_⟩
  show e.val % 3000000 = e.val
  exact Nat.mod_eq_of_lt e.isLt

theorem v7_apply (e : Fin 3000000) : val_main_v7 (F := Ideal) a2 (ix1 e) = a2 (ix2 0 e) := by
  rw [val_main_v7_apply, val_main_v6_apply]
  refine congrArg a2 (funext fun a => Fin.ext ?_)
  revert a
  refine Fin.forall_fin_two.2 ⟨rfl, ?_⟩
  show e.val % 3000000 = e.val
  exact Nat.mod_eq_of_lt e.isLt

theorem v9_apply (e : Fin 3000000) : val_main_v9 (F := Ideal) a2 (ix1 e) = a2 (ix2 1 e) := by
  rw [val_main_v9_apply, val_main_v8_apply]
  refine congrArg a2 (funext fun a => Fin.ext ?_)
  revert a
  refine Fin.forall_fin_two.2 ⟨rfl, ?_⟩
  show e.val % 3000000 = e.val
  exact Nat.mod_eq_of_lt e.isLt

theorem v0_apply (n : Fin 150000) (d : Fin 64) :
    val_main_v0 (F := Ideal) a4 a6 (ix2 n d)
      = Cert.Spec.ego0 (fun u d => a4 (ix2 u d)) (fun i d => a6 (ix2 i d)) n d := by
  unfold val_main_v0 Cert.Spec.ego0
  exact cat_rows _ a4 a6 n d

theorem v1_apply (n : Fin 150000) (d : Fin 64) :
    val_main_v1 (F := Ideal) a5 a7 (ix2 n d)
      = Cert.Spec.ego0 (fun u d => a5 (ix2 u d)) (fun i d => a7 (ix2 i d)) n d := by
  unfold val_main_v1 Cert.Spec.ego0
  exact cat_rows _ a5 a7 n d

theorem v24_eq : val_main_v24 (F := Ideal) a0 a1 a4 a6
    = refLayer (val_main_v3 (F := Ideal) a0) (val_main_v5 (F := Ideal) a0) a1 (val_main_v0 (F := Ideal) a4 a6) := rfl
theorem v39_eq : val_main_v39 (F := Ideal) a0 a1 a4 a6
    = refLayer (val_main_v3 (F := Ideal) a0) (val_main_v5 (F := Ideal) a0) a1 (val_main_v24 (F := Ideal) a0 a1 a4 a6) := rfl
theorem v54_eq : val_main_v54 (F := Ideal) a0 a1 a4 a6
    = refLayer (val_main_v3 (F := Ideal) a0) (val_main_v5 (F := Ideal) a0) a1 (val_main_v39 (F := Ideal) a0 a1 a4 a6) := rfl
theorem v69_eq : val_main_v69 (F := Ideal) a2 a3 a5 a7
    = refLayer (val_main_v7 (F := Ideal) a2) (val_main_v9 (F := Ideal) a2) a3 (val_main_v1 (F := Ideal) a5 a7) := rfl
theorem v84_eq : val_main_v84 (F := Ideal) a2 a3 a5 a7
    = refLayer (val_main_v7 (F := Ideal) a2) (val_main_v9 (F := Ideal) a2) a3 (val_main_v69 (F := Ideal) a2 a3 a5 a7) := rfl
theorem v99_eq : val_main_v99 (F := Ideal) a2 a3 a5 a7
    = refLayer (val_main_v7 (F := Ideal) a2) (val_main_v9 (F := Ideal) a2) a3 (val_main_v84 (F := Ideal) a2 a3 a5 a7) := rfl

theorem img_apply (hsI : ∀ e : Fin 3000000, (a0 (ix2 0 e)).toNat < 150000) (n : Fin 150000) (d : Fin 64) :
    val_main_v54 (F := Ideal) a0 a1 a4 a6 (ix2 n d)
      = Cert.Spec.layers3 150000 (fun e => a0 (ix2 0 e)) (fun e => a0 (ix2 1 e)) (fun e => a1 (ix2 e 0))
          (Cert.Spec.ego0 (fun u d => a4 (ix2 u d)) (fun i d => a6 (ix2 i d))) n d := by
  rw [v54_eq, v39_eq, v24_eq,
    refLayers3_apply _ _ _ _ (fun e => by rw [v3_apply]; exact hsI e)]
  simp only [v3_apply, v5_apply, v0_apply]

theorem txt_apply (hsT : ∀ e : Fin 3000000, (a2 (ix2 0 e)).toNat < 150000) (n : Fin 150000) (d : Fin 64) :
    val_main_v99 (F := Ideal) a2 a3 a5 a7 (ix2 n d)
      = Cert.Spec.layers3 150000 (fun e => a2 (ix2 0 e)) (fun e => a2 (ix2 1 e)) (fun e => a3 (ix2 e 0))
          (Cert.Spec.ego0 (fun u d => a5 (ix2 u d)) (fun i d => a7 (ix2 i d))) n d := by
  rw [v99_eq, v84_eq, v69_eq,
    refLayers3_apply _ _ _ _ (fun e => by rw [v7_apply]; exact hsT e)]
  simp only [v7_apply, v9_apply, v1_apply]

theorem users_eq (hsI : ∀ e : Fin 3000000, (a0 (ix2 0 e)).toNat < 150000)
    (hsT : ∀ e : Fin 3000000, (a2 (ix2 0 e)).toNat < 150000) (u : Fin 100000) (d : Fin 128) :
    val_main_v105 (F := Ideal) a0 a1 a2 a3 a4 a5 a6 a7 (ix2 u d)
      = Cert.Spec.userRows
          (Cert.Spec.layers3 150000 (fun e => a0 (ix2 0 e)) (fun e => a0 (ix2 1 e)) (fun e => a1 (ix2 e 0))
            (Cert.Spec.ego0 (fun u d => a4 (ix2 u d)) (fun i d => a6 (ix2 i d))))
          (Cert.Spec.layers3 150000 (fun e => a2 (ix2 0 e)) (fun e => a2 (ix2 1 e)) (fun e => a3 (ix2 e 0))
            (Cert.Spec.ego0 (fun u d => a5 (ix2 u d)) (fun i d => a7 (ix2 i d)))) u d := by
  unfold val_main_v105 Cert.Spec.userRows
  refine (cat_cols _ _ _ u d).trans ?_
  by_cases hd : d.val < 64
  · rw [dif_pos hd, dif_pos hd, val_main_v100_apply, ← img_apply a0 a1 a4 a6 hsI]
    exact congrArg (val_main_v54 (F := Ideal) a0 a1 a4 a6)
      (funext fun a => Fin.ext (by revert a; exact Fin.forall_fin_two.2 ⟨rfl, rfl⟩))
  · rw [dif_neg hd, dif_neg hd, val_main_v102_apply, ← txt_apply a2 a3 a5 a7 hsT]
    exact congrArg (val_main_v99 (F := Ideal) a2 a3 a5 a7)
      (funext fun a => Fin.ext (by revert a; exact Fin.forall_fin_two.2 ⟨rfl, rfl⟩))

theorem items_eq (hsI : ∀ e : Fin 3000000, (a0 (ix2 0 e)).toNat < 150000)
    (hsT : ∀ e : Fin 3000000, (a2 (ix2 0 e)).toNat < 150000) (i : Fin 50000) (d : Fin 128) :
    val_main_v104 (F := Ideal) a0 a1 a2 a3 a4 a5 a6 a7 (ix2 i d)
      = Cert.Spec.itemRows
          (Cert.Spec.layers3 150000 (fun e => a0 (ix2 0 e)) (fun e => a0 (ix2 1 e)) (fun e => a1 (ix2 e 0))
            (Cert.Spec.ego0 (fun u d => a4 (ix2 u d)) (fun i d => a6 (ix2 i d))))
          (Cert.Spec.layers3 150000 (fun e => a2 (ix2 0 e)) (fun e => a2 (ix2 1 e)) (fun e => a3 (ix2 e 0))
            (Cert.Spec.ego0 (fun u d => a5 (ix2 u d)) (fun i d => a7 (ix2 i d)))) i d := by
  unfold val_main_v104 Cert.Spec.itemRows
  refine (cat_cols _ _ _ i d).trans ?_
  by_cases hd : d.val < 64
  · rw [dif_pos hd, dif_pos hd, val_main_v101_apply, ← img_apply a0 a1 a4 a6 hsI]
    exact congrArg (val_main_v54 (F := Ideal) a0 a1 a4 a6)
      (funext fun a => Fin.ext (by revert a; exact Fin.forall_fin_two.2 ⟨rfl, rfl⟩))
  · rw [dif_neg hd, dif_neg hd, val_main_v103_apply, ← txt_apply a2 a3 a5 a7 hsT]
    exact congrArg (val_main_v99 (F := Ideal) a2 a3 a5 a7)
      (funext fun a => Fin.ext (by revert a; exact Fin.forall_fin_two.2 ⟨rfl, rfl⟩))

end Cert.ReferenceIdeal.RefValue

end
-- ==== Proof.PreDecode.lean ====
import proofs.«406629_j10943576670300_1_alg».proof.Defs
import proofs.«406629_j10943576670300_1_alg».proof.Pre_finite_inputs
import proofs.«406629_j10943576670300_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.ValueLayout
import Idealize.ShloMosaic.Lib.WordArith

noncomputable section

namespace Cert.PreDecode

open Idealize.ShloMosaic Idealize.ShloMosaic.ValueIdx Idealize.SL.Sem
open Cert.Pre_finite_inputs

instance : Subsingleton S_.Idx := ⟨fun a b => funext fun d => d.elim0⟩

variable [hP : Cert.Pre_finite_inputs.Facts]

theorem row0_apply (a : IVec S2x3000000 32) (e : Fin 3000000) :
    shapeCast S3000000 (extractStridedSlice S1x3000000 ![0, 0] a Facts.slices_S2x3000000_S1x3000000_0_0)
      Facts.shapeCasts_S1x3000000_S3000000 (ix1 e) = a (ix2 0 e) := by
  rw [shapeCast_1a_a_apply]
  refine extractStridedSlice_apply _ _ _ _ _ fun d => ?_
  match d with
  | ⟨0, _⟩ => rfl
  | ⟨1, _⟩ => exact (Nat.zero_add _).symm

theorem toNat_lt (x : BitVec 32) (h0 : (0#32 : BitVec 32).toInt ≤ x.toInt)
    (h1 : x.toInt < (150000#32 : BitVec 32).toInt) : x.toNat < 150000 :=
  WordArith.toNat_lt_of_zero_sle_of_slt_ofNat x 150000 (by norm_num)
    (BitVec.sle_iff_toInt_le.2 h0) (BitVec.slt_iff_toInt_lt.2 h1)

theorem range_elem (v : IVec S3000000 32)
    (hge : Host.reduce IntOp.andi
        (cmpi .sge v (broadcastInDim S3000000 ![] Facts.bcast_S_S3000000 (constantI S_ 32 0#32)))
        (constantI S_ 1 1#1) Facts.reducesTo_S3000000_S_d0 Facts.h_S_ ix0 = 1#1)
    (hlt : Host.reduce IntOp.andi
        (cmpi .slt v (broadcastInDim S3000000 ![] Facts.bcast_S_S3000000 (constantI S_ 32 150000#32)))
        (constantI S_ 1 1#1) Facts.reducesTo_S3000000_S_d0 Facts.h_S_ ix0 = 1#1)
    (e : Fin 3000000) : (v (ix1 e)).toNat < 150000 := by
  have g := Host.reduce_andi_all _ _ _ _ _ hge (ix1 e)
  have l := Host.reduce_andi_all _ _ _ _ _ hlt (ix1 e)
  dsimp only [cmpi] at g l
  rw [IntOp.cmpi_sge, StableHlo.Predicate.bcast_scalar _ Facts.h_S_] at g
  rw [IntOp.cmpi_slt, StableHlo.Predicate.bcast_scalar _ Facts.h_S_] at l
  exact toNat_lt _ g l

theorem src_in_range {F : FTy → Type} [FloatOps F]
    (a0 : IVec S2x3000000 32) (a1 : FVec F S3000000x1 .f32) (a2 : IVec S2x3000000 32) (a3 : FVec F S3000000x1 .f32)
    (a4 a5 : FVec F S100000x64 .f32) (a6 a7 : FVec F S50000x64 .f32)
    (h : Cert.Pre_finite_inputs.fn (F := F) a0 a1 a2 a3 a4 a5 a6 a7 = (fun _ => 1#1)) :
    (∀ e : Fin 3000000, (a0 (ix2 0 e)).toNat < 150000) ∧ (∀ e : Fin 3000000, (a2 (ix2 0 e)).toNat < 150000) := by
  have h0 := congrFun h ix0
  dsimp only [fn, fn_part1, fn_part2, Idealize.ShloMosaic.andi] at h0
  obtain ⟨h38, h47⟩ := IntOp.andi_eq_one.1 h0
  obtain ⟨h43, h46⟩ := IntOp.andi_eq_one.1 h47
  obtain ⟨-, h37⟩ := IntOp.andi_eq_one.1 h38
  obtain ⟨h33, h36⟩ := IntOp.andi_eq_one.1 h37
  exact ⟨fun e => by rw [← row0_apply a0 e]; exact range_elem _ h33 h36 e,
    fun e => by rw [← row0_apply a2 e]; exact range_elem _ h43 h46 e⟩

theorem src_in_range_KernelIdeal
    (m : (ℓ : Loc Cert.KernelIdeal.nD Cert.KernelIdeal.τ Cert.KernelIdeal.sig) → Buf (Elt Ideal) ℓ)
    (hm : Cert.Pre_KernelIdeal m) (c : Dev Cert.KernelIdeal.nD) :
    (∀ e : Fin 3000000,
        ((m ((c.tc : Thread Cert.KernelIdeal.nD Cert.KernelIdeal.τ).loc Cert.KernelIdeal.main_arg0) : IVec S2x3000000 32) (ix2 0 e)).toNat < 150000)
    ∧ (∀ e : Fin 3000000,
        ((m ((c.tc : Thread Cert.KernelIdeal.nD Cert.KernelIdeal.τ).loc Cert.KernelIdeal.main_arg2) : IVec S2x3000000 32) (ix2 0 e)).toNat < 150000) :=
  src_in_range (F := Ideal) _ _ _ _ _ _ _ _ (hm c)

theorem src_in_range_ReferenceIdeal
    (m : (ℓ : Loc Cert.ReferenceIdeal.nD Cert.ReferenceIdeal.τ Cert.ReferenceIdeal.sig) → Buf (Elt Ideal) ℓ)
    (hm : Cert.Pre_ReferenceIdeal m) (c : Dev Cert.ReferenceIdeal.nD) :
    (∀ e : Fin 3000000,
        ((m ((c.tc : Thread Cert.ReferenceIdeal.nD Cert.ReferenceIdeal.τ).loc Cert.ReferenceIdeal.main_arg0) : IVec S2x3000000 32) (ix2 0 e)).toNat < 150000)
    ∧ (∀ e : Fin 3000000,
        ((m ((c.tc : Thread Cert.ReferenceIdeal.nD Cert.ReferenceIdeal.τ).loc Cert.ReferenceIdeal.main_arg2) : IVec S2x3000000 32) (ix2 0 e)).toNat < 150000) :=
  src_in_range (F := Ideal) _ _ _ _ _ _ _ _ (hm c)

theorem src_in_range_Kernel
    (m : (ℓ : Loc Cert.Kernel.nD Cert.Kernel.τ Cert.Kernel.sig) → Buf (Elt Bits) ℓ)
    (hm : Cert.Pre_Kernel m) (c : Dev Cert.Kernel.nD) :
    (∀ e : Fin 3000000,
        ((m ((c.tc : Thread Cert.Kernel.nD Cert.Kernel.τ).loc Cert.Kernel.main_arg0) : IVec S2x3000000 32) (ix2 0 e)).toNat < 150000)
    ∧ (∀ e : Fin 3000000,
        ((m ((c.tc : Thread Cert.Kernel.nD Cert.Kernel.τ).loc Cert.Kernel.main_arg2) : IVec S2x3000000 32) (ix2 0 e)).toNat < 150000) :=
  src_in_range (F := Bits) _ _ _ _ _ _ _ _ (hm c)

end Cert.PreDecode

end
-- ==== Proof.lean ====
import proofs.«406629_j10943576670300_1_alg».proof.Defs
import proofs.«406629_j10943576670300_1_alg».proof.Proof.Gen.Kernel
import proofs.«406629_j10943576670300_1_alg».proof.Proof.Gen.KernelIdeal
import proofs.«406629_j10943576670300_1_alg».proof.Proof.Gen.ReferenceIdeal
import proofs.«406629_j10943576670300_1_alg».proof.Proof.Gen.Pre_finite_inputs
import proofs.«406629_j10943576670300_1_alg».proof.Proof.KI.Run
import proofs.«406629_j10943576670300_1_alg».proof.Proof.KI.Bridge
import proofs.«406629_j10943576670300_1_alg».proof.Proof.RefRunP.Run
import proofs.«406629_j10943576670300_1_alg».proof.Proof.RefValue
import proofs.«406629_j10943576670300_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

open Lean Elab Tactic in
-- closes the goal with a term whose type matches it only after both printed programs are unfolded; the type checker verifies that match when the theorem is added
elab "exact_unfolding_programs " t:term : tactic => do
  (← getMainGoal).assign (← Term.elabTermAndSynthesize t none)

-- the word-level program is the idealized program's text, and that program's frame holds at every float instance
theorem frame_p : Cert.frame_Kernel := by
  exact_unfolding_programs (fun (m : (ℓ : Loc Cert.Kernel.nD Cert.Kernel.τ Cert.Kernel.sig) → Buf (Elt Bits) ℓ)
    (ρ : Dev Cert.Kernel.nD → PrngReg) (_ : Cert.Pre_Kernel m) => Cert.KernelIdeal.Hand.frame (F := Bits) m ρ)

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.ValueP.run (F := Ideal) m ρ)

theorem algebraic : Cert.algebraic_KernelIdeal_ReferenceIdeal := by
  intro m ρ m' ρ' hpre hagree
  refine ⟨fun c => Cert.KernelIdeal.Hand.W23 m ρ c (Proc.devRef .tc Cert.KernelIdeal.main_v41),
    fun c => Cert.KernelIdeal.Hand.W23 m ρ c (Proc.devRef .tc Cert.KernelIdeal.main_v40), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v41 (by decide)),
      h c _ (Cert.KernelIdeal.Hand.mem_uc Cert.KernelIdeal.main_v40 (by decide)),
      (h c _ (Cert.KernelIdeal.Hand.mem_uc Cert.KernelIdeal.main_arg0 (by decide))).trans (Cert.KernelIdeal.Hand.W23_main_arg0 m ρ c),
      (h c _ (Cert.KernelIdeal.Hand.mem_uc Cert.KernelIdeal.main_arg1 (by decide))).trans (Cert.KernelIdeal.Hand.W23_main_arg1 m ρ c),
      (h c _ (Cert.KernelIdeal.Hand.mem_uc Cert.KernelIdeal.main_arg2 (by decide))).trans (Cert.KernelIdeal.Hand.W23_main_arg2 m ρ c),
      (h c _ (Cert.KernelIdeal.Hand.mem_uc Cert.KernelIdeal.main_arg3 (by decide))).trans (Cert.KernelIdeal.Hand.W23_main_arg3 m ρ c),
      (h c _ (Cert.KernelIdeal.Hand.mem_uc Cert.KernelIdeal.main_arg4 (by decide))).trans (Cert.KernelIdeal.Hand.W23_main_arg4 m ρ c),
      (h c _ (Cert.KernelIdeal.Hand.mem_uc Cert.KernelIdeal.main_arg5 (by decide))).trans (Cert.KernelIdeal.Hand.W23_main_arg5 m ρ c),
      (h c _ (Cert.KernelIdeal.Hand.mem_uc Cert.KernelIdeal.main_arg6 (by decide))).trans (Cert.KernelIdeal.Hand.W23_main_arg6 m ρ c),
      (h c _ (Cert.KernelIdeal.Hand.mem_uc Cert.KernelIdeal.main_arg7 (by decide))).trans (Cert.KernelIdeal.Hand.W23_main_arg7 m ρ c)⟩
  · refine (θ_run Cert.ReferenceIdeal.defs _ _).mono (fun r h c => ?_) (Cert.ReferenceIdeal.ValueP.run (F := Ideal) m' ρ')
    obtain ⟨hsI, hsT⟩ := Cert.PreDecode.src_in_range_KernelIdeal m hpre c
    obtain ⟨e0, e1, e2, e3, e4, e5, e6, e7⟩ := hagree c
    refine ⟨(h c).1.trans ?_, (h c).2.1.trans ?_, (h c).2.2⟩
    · rw [e0, e1, e2, e3, e4, e5, e6, e7]
      funext j
      obtain ⟨u, d, rfl⟩ : ∃ (u : Fin 100000) (d : Fin 128), j = ix2 u d := ⟨j 0, j 1, eq_ix2 j⟩
      exact (Cert.ReferenceIdeal.RefValue.users_eq _ _ _ _ _ _ _ _ hsI hsT u d).trans
        (Cert.KernelIdeal.Hand.bridge_users_m m ρ c hsI hsT u d).symm
    · rw [e0, e1, e2, e3, e4, e5, e6, e7]
      funext j
      obtain ⟨i, d, rfl⟩ : ∃ (i : Fin 50000) (d : Fin 128), j = ix2 i d := ⟨j 0, j 1, eq_ix2 j⟩
      exact (Cert.ReferenceIdeal.RefValue.items_eq _ _ _ _ _ _ _ _ hsI hsT i d).trans
        (Cert.KernelIdeal.Hand.bridge_items_m m ρ c hsI hsT i d).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
